-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v419) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x3x16x32 : Shape := ⟨4, ![3, 3, 16, 32]⟩
abbrev S3x32 : Shape := ⟨2, ![3, 32]⟩
abbrev S32x16 : Shape := ⟨2, ![32, 16]⟩
abbrev S128x1 : Shape := ⟨2, ![128, 1]⟩
abbrev S256x128x16x16 : Shape := ⟨4, ![256, 128, 16, 16]⟩
abbrev S128x128 : Shape := ⟨2, ![128, 128]⟩
abbrev S_ : Shape := ⟨0, ![]⟩

class Facts : Prop where
  bcast_S_S3x3x16x32 : S_.BroadcastsInDim S3x3x16x32 (![] : Fin 0 → Fin S3x3x16x32.rank)
  reducesTo_S3x3x16x32_S_d0_1_2_3 : S3x3x16x32.ReducesTo [0, 1, 2, 3] S_
  h_S_ : 0 < S_.numel
  bcast_S_S3x32 : S_.BroadcastsInDim S3x32 (![] : Fin 0 → Fin S3x32.rank)
  reducesTo_S3x32_S_d0_1 : S3x32.ReducesTo [0, 1] S_
  bcast_S_S32x16 : S_.BroadcastsInDim S32x16 (![] : Fin 0 → Fin S32x16.rank)
  reducesTo_S32x16_S_d0_1 : S32x16.ReducesTo [0, 1] S_
  bcast_S_S128x1 : S_.BroadcastsInDim S128x1 (![] : Fin 0 → Fin S128x1.rank)
  reducesTo_S128x1_S_d0_1 : S128x1.ReducesTo [0, 1] S_
  bcast_S_S256x128x16x16 : S_.BroadcastsInDim S256x128x16x16 (![] : Fin 0 → Fin S256x128x16x16.rank)
  reducesTo_S256x128x16x16_S_d0_1_2_3 : S256x128x16x16.ReducesTo [0, 1, 2, 3] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg7 : FVec F S256x128x16x16 .f32) (main_arg8 : FVec F S128x128 .f32) (main_v33 : IVec S_ 1) : IVec S_ 1 :=
  let main_v34 : FVec F S256x128x16x16 .f32 := Host.absf main_arg7
  let main_cst_12 : FVec F S_ .f32 := constant S_ .f32 0x7F800000#32
  let main_v35 : FVec F S256x128x16x16 .f32 := broadcastInDim S256x128x16x16 ![] bcast_S_S256x128x16x16 main_cst_12
  let main_v36 : IVec S256x128x16x16 1 := cmpf .olt main_v34 main_v35
  let main_c_13 : IVec S_ 1 := constantI S_ 1 1#1
  let main_v37 : IVec S_ 1 := (fun x v => Host.reduce IntOp.andi x v reducesTo_S256x128x16x16_S_d0_1_2_3 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  main_v43

def fn_part1 {F : FTy → Type} [FloatOps F] (main_arg4 : FVec F S3x32 .f32) (main_arg5 : FVec F S128x1 .f32) (main_arg6 : FVec F S128x1 .f32) (main_arg7 : FVec F S256x128x16x16 .f32) (main_arg8 : FVec F S128x128 .f32) (main_v13 : IVec S_ 1) (main_v16 : IVec S3x3x16x32 1) : IVec S_ 1 :=
  let main_c_5 : IVec S_ 1 := constantI S_ 1 1#1
  let main_v17 : IVec S_ 1 := (fun x v => Host.reduce IntOp.andi x v reducesTo_S3x3x16x32_S_d0_1_2_3 h_S_) main_v16 main_c_5
  let main_v18 : IVec S_ 1 := andi main_v13 main_v17
  let main_v19 : FVec F S3x32 .f32 := Host.absf main_arg4
  let main_cst_6 : FVec F S_ .f32 := constant S_ .f32 0x7F800000#32
  let main_v20 : FVec F S3x32 .f32 := broadcastInDim S3x32 ![] bcast_S_S3x32 main_cst_6
  let main_v21 : IVec S3x32 1 := cmpf .olt main_v19 main_v20
  let main_c_7 : IVec S_ 1 := constantI S_ 1 1#1
  let main_v22 : IVec S_ 1 := (fun x v => Host.reduce IntOp.andi x v reducesTo_S3x32_S_d0_1 h_S_) main_v21 main_c_7
  let main_v23 : IVec S_ 1 := andi main_v18 main_v22
  let main_v24 : FVec F S128x1 .f32 := Host.absf main_arg5
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S128x1 .f32 := Host.absf main_arg6
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg7 main_arg8 main_v33

def fn {F : FTy → Type} [FloatOps F] (main_arg0 : FVec F S3x3x16x32 .f32) (main_arg1 : FVec F S3x32 .f32) (main_arg2 : FVec F S32x16 .f32) (main_arg3 : FVec F S3x3x16x32 .f32) (main_arg4 : FVec F S3x32 .f32) (main_arg5 : FVec F S128x1 .f32) (main_arg6 : FVec F S128x1 .f32) (main_arg7 : FVec F S256x128x16x16 .f32) (main_arg8 : FVec F S128x128 .f32) : IVec S_ 1 :=
  let main_v0 : FVec F S3x3x16x32 .f32 := Host.absf main_arg0
  let main_cst : FVec F S_ .f32 := constant S_ .f32 0x7F800000#32
  let main_v1 : FVec F S3x3x16x32 .f32 := broadcastInDim S3x3x16x32 ![] bcast_S_S3x3x16x32 main_cst
  let main_v2 : IVec S3x3x16x32 1 := cmpf .olt main_v0 main_v1
  let main_c : IVec S_ 1 := constantI S_ 1 1#1
  let main_v3 : IVec S_ 1 := (fun x v => Host.reduce IntOp.andi x v reducesTo_S3x3x16x32_S_d0_1_2_3 h_S_) main_v2 main_c
  let main_v4 : FVec F S3x32 .f32 := Host.absf main_arg1
  let main_cst_0 : FVec F S_ .f32 := constant S_ .f32 0x7F800000#32
  let main_v5 : FVec F S3x32 .f32 := broadcastInDim S3x32 ![] bcast_S_S3x32 main_cst_0
  let main_v6 : IVec S3x32 1 := cmpf .olt main_v4 main_v5
  let main_c_1 : IVec S_ 1 := constantI S_ 1 1#1
  let main_v7 : IVec S_ 1 := (fun x v => Host.reduce IntOp.andi x v reducesTo_S3x32_S_d0_1 h_S_) main_v6 main_c_1
  let main_v8 : IVec S_ 1 := andi main_v3 main_v7
  let main_v9 : FVec F S32x16 .f32 := Host.absf main_arg2
  let main_cst_2 : FVec F S_ .f32 := constant S_ .f32 0x7F800000#32
  let main_v10 : FVec F S32x16 .f32 := broadcastInDim S32x16 ![] bcast_S_S32x16 main_cst_2
  let main_v11 : IVec S32x16 1 := cmpf .olt main_v9 main_v10
  let main_c_3 : IVec S_ 1 := constantI S_ 1 1#1
  let main_v12 : IVec S_ 1 := (fun x v => Host.reduce IntOp.andi x v reducesTo_S32x16_S_d0_1 h_S_) main_v11 main_c_3
  let main_v13 : IVec S_ 1 := andi main_v8 main_v12
  let main_v14 : FVec F S3x3x16x32 .f32 := Host.absf main_arg3
  let main_cst_4 : FVec F S_ .f32 := constant S_ .f32 0x7F800000#32
  let main_v15 : FVec F S3x3x16x32 .f32 := broadcastInDim S3x3x16x32 ![] bcast_S_S3x3x16x32 main_cst_4
  let main_v16 : IVec S3x3x16x32 1 := cmpf .olt main_v14 main_v15
  fn_part1 (F := F) main_arg4 main_arg5 main_arg6 main_arg7 main_arg8 main_v13 main_v16
-- ==== Kernel.lean ====
abbrev S3x3x16x32 : Shape := ⟨4, ![3, 3, 16, 32]⟩
abbrev S3x32 : Shape := ⟨2, ![3, 32]⟩
abbrev S32x16 : Shape := ⟨2, ![32, 16]⟩
abbrev S128x1 : Shape := ⟨2, ![128, 1]⟩
abbrev S256x128x16x16 : Shape := ⟨4, ![256, 128, 16, 16]⟩
abbrev S128x128 : Shape := ⟨2, ![128, 128]⟩
abbrev S_ : Shape := ⟨0, ![]⟩
abbrev S3x14x16x32 : Shape := ⟨4, ![3, 14, 16, 32]⟩
abbrev S3x17x16x32 : Shape := ⟨4, ![3, 17, 16, 32]⟩
abbrev S3x1x17x16x32 : Shape := ⟨5, ![3, 1, 17, 16, 32]⟩
abbrev S3x14x17x16x32 : Shape := ⟨5, ![3, 14, 17, 16, 32]⟩
abbrev S3x238x16x32 : Shape := ⟨4, ![3, 238, 16, 32]⟩
abbrev S3x224x16x32 : Shape := ⟨4, ![3, 224, 16, 32]⟩
abbrev S3x14x16x16x32 : Shape := ⟨5, ![3, 14, 16, 16, 32]⟩
abbrev S16x16x3x14x32 : Shape := ⟨5, ![16, 16, 3, 14, 32]⟩
abbrev S256x3x448 : Shape := ⟨3, ![256, 3, 448]⟩
abbrev S256x3x512 : Shape := ⟨3, ![256, 3, 512]⟩
abbrev S3x1x32 : Shape := ⟨3, ![3, 1, 32]⟩
abbrev S3x14x32 : Shape := ⟨3, ![3, 14, 32]⟩
abbrev S3x448 : Shape := ⟨2, ![3, 448]⟩
abbrev S3x512 : Shape := ⟨2, ![3, 512]⟩
abbrev S256x1536 : Shape := ⟨2, ![256, 1536]⟩
abbrev S1536x1 : Shape := ⟨2, ![1536, 1]⟩
abbrev S3x12x16x32 : Shape := ⟨4, ![3, 12, 16, 32]⟩
abbrev S3x15x16x32 : Shape := ⟨4, ![3, 15, 16, 32]⟩
abbrev S3x1x15x16x32 : Shape := ⟨5, ![3, 1, 15, 16, 32]⟩
abbrev S3x12x15x16x32 : Shape := ⟨5, ![3, 12, 15, 16, 32]⟩
abbrev S3x180x16x32 : Shape := ⟨4, ![3, 180, 16, 32]⟩
abbrev S3x168x16x32 : Shape := ⟨4, ![3, 168, 16, 32]⟩
abbrev S3x12x14x16x32 : Shape := ⟨5, ![3, 12, 14, 16, 32]⟩
abbrev S14x16x3x12x32 : Shape := ⟨5, ![14, 16, 3, 12, 32]⟩
abbrev S224x3x384 : Shape := ⟨3, ![224, 3, 384]⟩
abbrev S3x12x32 : Shape := ⟨3, ![3, 12, 32]⟩
abbrev S3x384 : Shape := ⟨2, ![3, 384]⟩
abbrev S224x1152 : Shape := ⟨2, ![224, 1152]⟩
abbrev S1152x1 : Shape := ⟨2, ![1152, 1]⟩
abbrev S1536x256 : Shape := ⟨2, ![1536, 256]⟩
abbrev S1x1152 : Shape := ⟨2, ![1, 1152]⟩
abbrev S7x1152 : Shape := ⟨2, ![7, 1152]⟩
abbrev S232x1152 : Shape := ⟨2, ![232, 1152]⟩
abbrev S1152x232 : Shape := ⟨2, ![1152, 232]⟩
abbrev S14x14 : Shape := ⟨2, ![14, 14]⟩
abbrev S14x1x14x1 : Shape := ⟨4, ![14, 1, 14, 1]⟩
abbrev S16x32 : Shape := ⟨2, ![16, 32]⟩
abbrev S1x16x1x32 : Shape := ⟨4, ![1, 16, 1, 32]⟩
abbrev S14x16x14x32 : Shape := ⟨4, ![14, 16, 14, 32]⟩
abbrev S224x448 : Shape := ⟨2, ![224, 448]⟩
abbrev S224x512 : Shape := ⟨2, ![224, 512]⟩
abbrev S2x2 : Shape := ⟨2, ![2, 2]⟩
abbrev S2x1x2x1 : Shape := ⟨4, ![2, 1, 2, 1]⟩
abbrev S1x128x1x128 : Shape := ⟨4, ![1, 128, 1, 128]⟩
abbrev S2x128x2x128 : Shape := ⟨4, ![2, 128, 2, 128]⟩
abbrev S256x256 : Shape := ⟨2, ![256, 256]⟩
abbrev S8x1 : Shape := ⟨2, ![8, 1]⟩
abbrev S8x256 : Shape := ⟨2, ![8, 256]⟩
abbrev S256x16x16x128 : Shape := ⟨4, ![256, 16, 16, 128]⟩
abbrev S256x256x128 : Shape := ⟨3, ![256, 256, 128]⟩
abbrev S256x384x128 : Shape := ⟨3, ![256, 384, 128]⟩
abbrev S8x1x128 : Shape := ⟨3, ![8, 1, 128]⟩
abbrev S32x256x128 : Shape := ⟨3, ![32, 256, 128]⟩
abbrev S32x384x128 : Shape := ⟨3, ![32, 384, 128]⟩
abbrev S1x1x128 : Shape := ⟨3, ![1, 1, 128]⟩
abbrev S1x256 : Shape := ⟨2, ![1, 256]⟩
abbrev S1x256x128 : Shape := ⟨3, ![1, 256, 128]⟩
abbrev S256x128 : Shape := ⟨2, ![256, 128]⟩
abbrev S512x256 : Shape := ⟨2, ![512, 256]⟩
abbrev S224x256 : Shape := ⟨2, ![224, 256]⟩
abbrev S232x256 : Shape := ⟨2, ![232, 256]⟩
abbrev S1152x256 : Shape := ⟨2, ![1152, 256]⟩
abbrev S384x256 : Shape := ⟨2, ![384, 256]⟩
abbrev S384x128 : Shape := ⟨2, ![384, 128]⟩
abbrev S1x384x128 : Shape := ⟨3, ![1, 384, 128]⟩
abbrev S256 : Shape := ⟨1, ![256]⟩
abbrev S1x128 : Shape := ⟨2, ![1, 128]⟩
abbrev S8x128 : Shape := ⟨2, ![8, 128]⟩
abbrev S128 : Shape := ⟨1, ![128]⟩
abbrev S256x12x32x128 : Shape := ⟨4, ![256, 12, 32, 128]⟩
abbrev S256x128x12x32 : Shape := ⟨4, ![256, 128, 12, 32]⟩

abbrev nBuf : Space → Nat
  | .hbm => 139
  | .vmem => 20
  | .smem => 0
  | _ => 0

abbrev hbmTy0_0 (i : Nat) : BufTy := match i % 128 with
  | 0 => ⟨S3x3x16x32, .f32⟩
  | 1 => ⟨S3x32, .f32⟩
  | 2 => ⟨S32x16, .f32⟩
  | 3 => ⟨S3x3x16x32, .f32⟩
  | 4 => ⟨S3x32, .f32⟩
  | 5 => ⟨S128x1, .f32⟩
  | 6 => ⟨S128x1, .f32⟩
  | 7 => ⟨S256x128x16x16, .f32⟩
  | 8 => ⟨S128x128, .f32⟩
  | 9 => ⟨S_, .f32⟩
  | 10 => ⟨S3x14x16x32, .f32⟩
  | 11 => ⟨S3x17x16x32, .f32⟩
  | 12 => ⟨S3x1x17x16x32, .f32⟩
  | 13 => ⟨S3x14x17x16x32, .f32⟩
  | 14 => ⟨S3x238x16x32, .f32⟩
  | 15 => ⟨S3x224x16x32, .f32⟩
  | 16 => ⟨S3x14x16x16x32, .f32⟩
  | 17 => ⟨S16x16x3x14x32, .f32⟩
  | 18 => ⟨S256x3x448, .f32⟩
  | 19 => ⟨S_, .i32⟩
  | 20 => ⟨S_, .f32⟩
  | 21 => ⟨S256x3x512, .f32⟩
  | 22 => ⟨S3x1x32, .f32⟩
  | 23 => ⟨S3x14x32, .f32⟩
  | 24 => ⟨S3x448, .f32⟩
  | 25 => ⟨S_, .i32⟩
  | 26 => ⟨S_, .f32⟩
  | 27 => ⟨S3x512, .f32⟩
  | 28 => ⟨S256x1536, .f32⟩
  | 29 => ⟨S1536x1, .f32⟩
  | 30 => ⟨S_, .f32⟩
  | 31 => ⟨S3x12x16x32, .f32⟩
  | 32 => ⟨S3x15x16x32, .f32⟩
  | 33 => ⟨S3x1x15x16x32, .f32⟩
  | 34 => ⟨S3x12x15x16x32, .f32⟩
  | 35 => ⟨S3x180x16x32, .f32⟩
  | 36 => ⟨S3x168x16x32, .f32⟩
  | 37 => ⟨S3x12x14x16x32, .f32⟩
  | 38 => ⟨S14x16x3x12x32, .f32⟩
  | 39 => ⟨S224x3x384, .f32⟩
  | 40 => ⟨S_, .i32⟩
  | 41 => ⟨S_, .f32⟩
  | 42 => ⟨S224x3x384, .f32⟩
  | 43 => ⟨S3x1x32, .f32⟩
  | 44 => ⟨S3x12x32, .f32⟩
  | 45 => ⟨S3x384, .f32⟩
  | 46 => ⟨S_, .i32⟩
  | 47 => ⟨S_, .f32⟩
  | 48 => ⟨S3x384, .f32⟩
  | 49 => ⟨S224x1152, .f32⟩
  | 50 => ⟨S1152x1, .f32⟩
  | 51 => ⟨S1536x256, .f32⟩
  | 52 => ⟨S1536x256, .bf16⟩
  | 53 => ⟨S1x1152, .f32⟩
  | 54 => ⟨S_, .f32⟩
  | 55 => ⟨S7x1152, .f32⟩
  | 56 => ⟨S232x1152, .f32⟩
  | 57 => ⟨S1152x232, .f32⟩
  | 58 => ⟨S1152x232, .bf16⟩
  | 59 => ⟨S14x14, .i32⟩
  | 60 => ⟨S14x14, .i32⟩
  | 61 => ⟨S_, .i32⟩
  | 62 => ⟨S14x14, .i32⟩
  | 63 => ⟨S14x14, .i32⟩
  | 64 => ⟨S14x14, .i1⟩
  | 65 => ⟨S14x14, .f32⟩
  | 66 => ⟨S14x1x14x1, .f32⟩
  | 67 => ⟨S16x32, .f32⟩
  | 68 => ⟨S1x16x1x32, .f32⟩
  | 69 => ⟨S14x16x14x32, .f32⟩
  | 70 => ⟨S14x16x14x32, .f32⟩
  | 71 => ⟨S14x16x14x32, .f32⟩
  | 72 => ⟨S224x448, .f32⟩
  | 73 => ⟨S_, .i32⟩
  | 74 => ⟨S_, .f32⟩
  | 75 => ⟨S224x512, .f32⟩
  | 76 => ⟨S224x512, .bf16⟩
  | 77 => ⟨S2x2, .i32⟩
  | 78 => ⟨S2x2, .i32⟩
  | 79 => ⟨S_, .i32⟩
  | 80 => ⟨S2x2, .i32⟩
  | 81 => ⟨S2x2, .i32⟩
  | 82 => ⟨S2x2, .i1⟩
  | 83 => ⟨S2x2, .f32⟩
  | 84 => ⟨S128x128, .f32⟩
  | 85 => ⟨S2x1x2x1, .f32⟩
  | 86 => ⟨S1x128x1x128, .f32⟩
  | 87 => ⟨S2x128x2x128, .f32⟩
  | 88 => ⟨S2x128x2x128, .f32⟩
  | 89 => ⟨S2x128x2x128, .f32⟩
  | 90 => ⟨S256x256, .f32⟩
  | 91 => ⟨S256x256, .bf16⟩
  | 92 => ⟨S8x1, .i32⟩
  | 93 => ⟨S_, .i32⟩
  | 94 => ⟨S8x1, .i32⟩
  | 95 => ⟨S8x1, .i1⟩
  | 96 => ⟨S_, .bf16⟩
  | 97 => ⟨S_, .bf16⟩
  | 98 => ⟨S8x1, .bf16⟩
  | 99 => ⟨S8x1, .bf16⟩
  | 100 => ⟨S8x1, .bf16⟩
  | 101 => ⟨S8x256, .bf16⟩
  | 102 => ⟨S256x16x16x128, .f32⟩
  | 103 => ⟨S256x256x128, .f32⟩
  | 104 => ⟨S256x384x128, .bf16⟩
  | 105 => ⟨S8x1x128, .f32⟩
  | 106 => ⟨S8x1x128, .f32⟩
  | 107 => ⟨S8x128, .f32⟩
  | 108 => ⟨S_, .f32⟩
  | 109 => ⟨S128, .f32⟩
  | 110 => ⟨S_, .f32⟩
  | 111 => ⟨S128, .f32⟩
  | 112 => ⟨S128, .f32⟩
  | 113 => ⟨S8x128, .f32⟩
  | 114 => ⟨S_, .f32⟩
  | 115 => ⟨S128, .f32⟩
  | 116 => ⟨S_, .f32⟩
  | 117 => ⟨S128, .f32⟩
  | 118 => ⟨S128, .f32⟩
  | 119 => ⟨S128, .f32⟩
  | 120 => ⟨S128, .f32⟩
  | 121 => ⟨S_, .f32⟩
  | 122 => ⟨S128, .f32⟩
  | 123 => ⟨S128, .f32⟩
  | 124 => ⟨S_, .f32⟩
  | 125 => ⟨S128, .f32⟩
  | 126 => ⟨S128, .f32⟩
  | 127 => ⟨S128, .f32⟩
  | _ => ⟨S3x3x16x32, .f32⟩

abbrev hbmTy0_1 (i : Nat) : BufTy := match i % 128 with
  | 0 => ⟨S128, .f32⟩
  | 1 => ⟨S128, .f32⟩
  | 2 => ⟨S1x128, .f32⟩
  | 3 => ⟨S128, .f32⟩
  | 4 => ⟨S128, .f32⟩
  | 5 => ⟨S128, .f32⟩
  | 6 => ⟨S128, .f32⟩
  | 7 => ⟨S1x128, .f32⟩
  | 8 => ⟨S256x384x128, .f32⟩
  | 9 => ⟨S256x12x32x128, .f32⟩
  | 10 => ⟨S256x128x12x32, .f32⟩
  | _ => ⟨S3x3x16x32, .f32⟩

abbrev hbmTy (i : Nat) : BufTy := match i / 128 with
  | 0 => hbmTy0_0 i
  | 1 => hbmTy0_1 i
  | _ => ⟨S3x3x16x32, .f32⟩

abbrev bufTy : (tb : Table) → Fin (tcTables nBuf tb) → BufTy
  | .hbm, ⟨i, _⟩ => hbmTy i
  | .local _ .vmem, ⟨0, _⟩ => ⟨S32x256x128, .f32⟩
  | .local _ .vmem, ⟨1, _⟩ => ⟨S32x256x128, .f32⟩
  | .local _ .vmem, ⟨2, _⟩ => ⟨S256x256, .bf16⟩
  | .local _ .vmem, ⟨3, _⟩ => ⟨S1536x256, .bf16⟩
  | .local _ .vmem, ⟨4, _⟩ => ⟨S1536x1, .f32⟩
  | .local _ .vmem, ⟨5, _⟩ => ⟨S224x512, .bf16⟩
  | .local _ .vmem, ⟨6, _⟩ => ⟨S1152x232, .bf16⟩
  | .local _ .vmem, ⟨7, _⟩ => ⟨S8x256, .bf16⟩
  | .local _ .vmem, ⟨8, _⟩ => ⟨S32x384x128, .bf16⟩
  | .local _ .vmem, ⟨9, _⟩ => ⟨S32x384x128, .bf16⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .vmem, ⟨14, _⟩ => ⟨S32x384x128, .bf16⟩
  | .local _ .vmem, ⟨15, _⟩ => ⟨S32x384x128, .bf16⟩
  | .local _ .vmem, ⟨16, _⟩ => ⟨S1x128, .f32⟩
  | .local _ .vmem, ⟨17, _⟩ => ⟨S1x128, .f32⟩
  | .local _ .vmem, ⟨18, _⟩ => ⟨S32x384x128, .f32⟩
  | .local _ .vmem, ⟨19, _⟩ => ⟨S32x384x128, .f32⟩
  | _, _ => ⟨S3x3x16x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_call0_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_0 : Ref sig .tc := ⟨.hbm, 25, rfl⟩
abbrev main_call1_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_2 : Ref sig .tc := ⟨.hbm, 40, rfl⟩
abbrev main_call2_v0 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_3 : Ref sig .tc := ⟨.hbm, 46, rfl⟩
abbrev main_call3_v0 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_5 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_6 : Ref sig .tc := ⟨.hbm, 73, rfl⟩
abbrev main_call4_v0 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_7 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_call5_v0 : Ref sig .tc := ⟨.hbm, 85, rfl⟩
abbrev main_call5_v1 : Ref sig .tc := ⟨.hbm, 86, rfl⟩
abbrev main_call5_v2 : Ref sig .tc := ⟨.hbm, 87, rfl⟩
abbrev main_call5_v3 : Ref sig .tc := ⟨.hbm, 88, rfl⟩
abbrev main_call5_v4 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_8 : Ref sig .tc := ⟨.hbm, 93, rfl⟩
abbrev main_v64 : Ref sig .tc := ⟨.hbm, 94, rfl⟩
abbrev main_v65 : Ref sig .tc := ⟨.hbm, 95, rfl⟩
abbrev main_cst_9 : Ref sig .tc := ⟨.hbm, 96, rfl⟩
abbrev main_cst_10 : Ref sig .tc := ⟨.hbm, 97, rfl⟩
abbrev main_call6_v0 : Ref sig .tc := ⟨.hbm, 98, rfl⟩
abbrev main_call6_v1 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70_0 : Ref sig .tc := ⟨.hbm, 104, rfl⟩
abbrev main_v70_1 : Ref sig .tc := ⟨.hbm, 105, rfl⟩
abbrev main_v70_2 : Ref sig .tc := ⟨.hbm, 106, rfl⟩
abbrev main_v71 : Ref sig .tc := ⟨.hbm, 107, rfl⟩
abbrev main_cst_11 : Ref sig .tc := ⟨.hbm, 108, rfl⟩
abbrev main_v72 : Ref sig .tc := ⟨.hbm, 109, rfl⟩
abbrev main_cst_12 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_13 : Ref sig .tc := ⟨.hbm, 114, rfl⟩
abbrev main_v76 : Ref sig .tc := ⟨.hbm, 115, rfl⟩
abbrev main_cst_14 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_15 : Ref sig .tc := ⟨.hbm, 121, rfl⟩
abbrev main_v81 : Ref sig .tc := ⟨.hbm, 122, rfl⟩
abbrev main_v82 : Ref sig .tc := ⟨.hbm, 123, rfl⟩
abbrev main_cst_16 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S224x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1152x232 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x384x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S32x384x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S32x384x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S3x14x16x32 : S_.BroadcastsInDim S3x14x16x32 (![] : Fin 0 → Fin S3x14x16x32.rank)
  concatenates_S3x3x16x32_S3x14x16x32_S3x17x16x32_d1 : Shape.Concatenates [S3x3x16x32, S3x14x16x32] S3x17x16x32 1
  bcast_S3x17x16x32_S3x1x17x16x32_0_2_3_4 : S3x17x16x32.BroadcastsInDim S3x1x17x16x32 (![0, 2, 3, 4] : Fin 4 → Fin S3x1x17x16x32.rank)
  bcast_S3x1x17x16x32_S3x14x17x16x32_0_1_2_3_4 : S3x1x17x16x32.BroadcastsInDim S3x14x17x16x32 (![0, 1, 2, 3, 4] : Fin 5 → Fin S3x14x17x16x32.rank)
  shapeCasts_S3x14x17x16x32_S3x238x16x32 : S3x14x17x16x32.ShapeCasts S3x238x16x32
  slices_S3x238x16x32_S3x224x16x32_0_0_0_0 : S3x238x16x32.Slices ![0, 0, 0, 0] S3x224x16x32
  shapeCasts_S3x224x16x32_S3x14x16x16x32 : S3x224x16x32.ShapeCasts S3x14x16x16x32
  transposes_S3x14x16x16x32_S16x16x3x14x32_2_3_0_1_4 : S3x14x16x16x32.Transposes [2, 3, 0, 1, 4] S16x16x3x14x32
  shapeCasts_S16x16x3x14x32_S256x3x448 : S16x16x3x14x32.ShapeCasts S256x3x448
  pads_S256x3x448_S256x3x512_000_000_0640 : S256x3x448.Pads (![0, 0, 0] : Fin 3 → Nat) ![0, 0, 64] ![0, 0, 0] S256x3x512
  h_S_ : 0 < S_.numel
  bcast_S3x32_S3x1x32_0_2 : S3x32.BroadcastsInDim S3x1x32 (![0, 2] : Fin 2 → Fin S3x1x32.rank)
  bcast_S3x1x32_S3x14x32_0_1_2 : S3x1x32.BroadcastsInDim S3x14x32 (![0, 1, 2] : Fin 3 → Fin S3x14x32.rank)
  shapeCasts_S3x14x32_S3x448 : S3x14x32.ShapeCasts S3x448
  pads_S3x448_S3x512_000_0640 : S3x448.Pads (![0, 0] : Fin 2 → Nat) ![0, 64] ![0, 0] S3x512
  shapeCasts_S256x3x512_S256x1536 : S256x3x512.ShapeCasts S256x1536
  shapeCasts_S3x512_S1536x1 : S3x512.ShapeCasts S1536x1
  bcast_S_S3x12x16x32 : S_.BroadcastsInDim S3x12x16x32 (![] : Fin 0 → Fin S3x12x16x32.rank)
  concatenates_S3x3x16x32_S3x12x16x32_S3x15x16x32_d1 : Shape.Concatenates [S3x3x16x32, S3x12x16x32] S3x15x16x32 1
  bcast_S3x15x16x32_S3x1x15x16x32_0_2_3_4 : S3x15x16x32.BroadcastsInDim S3x1x15x16x32 (![0, 2, 3, 4] : Fin 4 → Fin S3x1x15x16x32.rank)
  bcast_S3x1x15x16x32_S3x12x15x16x32_0_1_2_3_4 : S3x1x15x16x32.BroadcastsInDim S3x12x15x16x32 (![0, 1, 2, 3, 4] : Fin 5 → Fin S3x12x15x16x32.rank)
  shapeCasts_S3x12x15x16x32_S3x180x16x32 : S3x12x15x16x32.ShapeCasts S3x180x16x32
  slices_S3x180x16x32_S3x168x16x32_0_0_0_0 : S3x180x16x32.Slices ![0, 0, 0, 0] S3x168x16x32
  shapeCasts_S3x168x16x32_S3x12x14x16x32 : S3x168x16x32.ShapeCasts S3x12x14x16x32
  transposes_S3x12x14x16x32_S14x16x3x12x32_2_3_0_1_4 : S3x12x14x16x32.Transposes [2, 3, 0, 1, 4] S14x16x3x12x32
  shapeCasts_S14x16x3x12x32_S224x3x384 : S14x16x3x12x32.ShapeCasts S224x3x384
  pads_S224x3x384_S224x3x384_000_000_000 : S224x3x384.Pads (![0, 0, 0] : Fin 3 → Nat) ![0, 0, 0] ![0, 0, 0] S224x3x384
  bcast_S3x1x32_S3x12x32_0_1_2 : S3x1x32.BroadcastsInDim S3x12x32 (![0, 1, 2] : Fin 3 → Fin S3x12x32.rank)
  shapeCasts_S3x12x32_S3x384 : S3x12x32.ShapeCasts S3x384
  pads_S3x384_S3x384_000_000 : S3x384.Pads (![0, 0] : Fin 2 → Nat) ![0, 0] ![0, 0] S3x384
  shapeCasts_S224x3x384_S224x1152 : S224x3x384.ShapeCasts S224x1152
  shapeCasts_S3x384_S1152x1 : S3x384.ShapeCasts S1152x1
  transposes_S256x1536_S1536x256_1_0 : S256x1536.Transposes [1, 0] S1536x256
  bitsLt_bf16_f32 : FTy.bits .bf16 < FTy.bits .f32
  shapeCasts_S1152x1_S1x1152 : S1152x1.ShapeCasts S1x1152
  bcast_S_S7x1152 : S_.BroadcastsInDim S7x1152 (![] : Fin 0 → Fin S7x1152.rank)
  concatenates_S224x1152_S1x1152_S7x1152_S232x1152_d0 : Shape.Concatenates [S224x1152, S1x1152, S7x1152] S232x1152 0
  transposes_S232x1152_S1152x232_1_0 : S232x1152.Transposes [1, 0] S1152x232
  bcast_S_S14x14 : S_.BroadcastsInDim S14x14 (![] : Fin 0 → Fin S14x14.rank)
  bcast_S14x14_S14x1x14x1_0_2 : S14x14.BroadcastsInDim S14x1x14x1 (![0, 2] : Fin 2 → Fin S14x1x14x1.rank)
  transposes_S32x16_S16x32_1_0 : S32x16.Transposes [1, 0] S16x32
  bcast_S16x32_S1x16x1x32_1_3 : S16x32.BroadcastsInDim S1x16x1x32 (![1, 3] : Fin 2 → Fin S1x16x1x32.rank)
  bcast_S14x1x14x1_S14x16x14x32_0_1_2_3 : S14x1x14x1.BroadcastsInDim S14x16x14x32 (![0, 1, 2, 3] : Fin 4 → Fin S14x16x14x32.rank)
  bcast_S1x16x1x32_S14x16x14x32_0_1_2_3 : S1x16x1x32.BroadcastsInDim S14x16x14x32 (![0, 1, 2, 3] : Fin 4 → Fin S14x16x14x32.rank)
  shapeCasts_S14x16x14x32_S224x448 : S14x16x14x32.ShapeCasts S224x448
  pads_S224x448_S224x512_000_0640 : S224x448.Pads (![0, 0] : Fin 2 → Nat) ![0, 64] ![0, 0] S224x512
  bcast_S_S2x2 : S_.BroadcastsInDim S2x2 (![] : Fin 0 → Fin S2x2.rank)
  transposes_S128x128_S128x128_1_0 : S128x128.Transposes [1, 0] S128x128
  bcast_S2x2_S2x1x2x1_0_2 : S2x2.BroadcastsInDim S2x1x2x1 (![0, 2] : Fin 2 → Fin S2x1x2x1.rank)
  bcast_S128x128_S1x128x1x128_1_3 : S128x128.BroadcastsInDim S1x128x1x128 (![1, 3] : Fin 2 → Fin S1x128x1x128.rank)
  bcast_S2x1x2x1_S2x128x2x128_0_1_2_3 : S2x1x2x1.BroadcastsInDim S2x128x2x128 (![0, 1, 2, 3] : Fin 4 → Fin S2x128x2x128.rank)
  bcast_S1x128x1x128_S2x128x2x128_0_1_2_3 : S1x128x1x128.BroadcastsInDim S2x128x2x128 (![0, 1, 2, 3] : Fin 4 → Fin S2x128x2x128.rank)
  shapeCasts_S2x128x2x128_S256x256 : S2x128x2x128.ShapeCasts S256x256
  bcast_S_S8x1 : S_.BroadcastsInDim S8x1 (![] : Fin 0 → Fin S8x1.rank)
  bcast_S8x1_S8x256_0_1 : S8x1.BroadcastsInDim S8x256 (![0, 1] : Fin 2 → Fin S8x256.rank)
  transposes_S256x128x16x16_S256x16x16x128_0_2_3_1 : S256x128x16x16.Transposes [0, 2, 3, 1] S256x16x16x128
  shapeCasts_S256x16x16x128_S256x256x128 : S256x16x16x128.ShapeCasts S256x256x128
  inb_S1536x256_S1536x256_0_0 : ∀ a, (![0, 0] : Fin 2 → Nat) a + S1536x256.size a ≤ S1536x256.size a
  h_S1536x256 : 0 < S1536x256.numel
  shapeCasts_S1536x256_S1536x256 : S1536x256.ShapeCasts S1536x256
  inb_S1536x1_S1536x1_0_0 : ∀ a, (![0, 0] : Fin 2 → Nat) a + S1536x1.size a ≤ S1536x1.size a
  h_S1536x1 : 0 < S1536x1.numel
  shapeCasts_S1536x1_S1536x1 : S1536x1.ShapeCasts S1536x1
  inb_S224x512_S224x512_0_0 : ∀ a, (![0, 0] : Fin 2 → Nat) a + S224x512.size a ≤ S224x512.size a
  h_S224x512 : 0 < S224x512.numel
  shapeCasts_S224x512_S224x512 : S224x512.ShapeCasts S224x512
  inb_S1152x232_S1152x232_0_0 : ∀ a, (![0, 0] : Fin 2 → Nat) a + S1152x232.size a ≤ S1152x232.size a
  h_S1152x232 : 0 < S1152x232.numel
  shapeCasts_S1152x232_S1152x232 : S1152x232.ShapeCasts S1152x232
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S32x256x128_S1x256x128_0_0_0 : ∀ a, (![0, 0, 0] : Fin 3 → Nat) a + S1x256x128.size a ≤ S32x256x128.size a
  h_S1x256x128 : 0 < S1x256x128.numel
  shapeCasts_S1x256x128_S256x128 : S1x256x128.ShapeCasts S256x128
  inb_S32x256x128_S1x256x128_1_0_0 : ∀ a, (![1, 0, 0] : Fin 3 → Nat) a + S1x256x128.size a ≤ S32x256x128.size a
  concatenates_S256x128_S256x128_S256x256_d1 : Shape.Concatenates [S256x128, S256x128] S256x256 1
  broadcasts_S1536x1_S1536x256 : S1536x1.Broadcasts S1536x256
  slices_S1536x256_o0_0_S512x256 : S1536x256.Slices ![0, 0] S512x256
  slices_S1536x256_o512_0_S512x256 : S1536x256.Slices ![512, 0] S512x256
  slices_S1536x256_o1024_0_S512x256 : S1536x256.Slices ![1024, 0] S512x256
  concatenates_S224x256_S8x256_S232x256_d0 : Shape.Concatenates [S224x256, S8x256] S232x256 0
  slices_S1152x256_o0_0_S384x256 : S1152x256.Slices ![0, 0] S384x256
  slices_S1152x256_o384_0_S384x256 : S1152x256.Slices ![384, 0] S384x256
  slices_S1152x256_o768_0_S384x256 : S1152x256.Slices ![768, 0] S384x256
  slices_S384x256_o0_0_S384x128 : S384x256.Slices ![0, 0] S384x128
  inb_S32x384x128_S1x384x128_0_0_0 : ∀ a, (![0, 0, 0] : Fin 3 → Nat) a + S1x384x128.size a ≤ S32x384x128.size a
  h_S1x384x128 : 0 < S1x384x128.numel
  shapeCasts_S1x384x128_S384x128 : S1x384x128.ShapeCasts S384x128
  shapeCasts_S384x128_S1x384x128 : S384x128.ShapeCasts S1x384x128
  packedbf16_S32x384x128_S1x384x128_0_0_0 : (Rect.unit (s := S32x384x128) ![0, 0, 0] S1x384x128.size inb_S32x384x128_S1x384x128_0_0_0).PackedRows (EltTy.packing .bf16)
  slices_S384x256_o0_128_S384x128 : S384x256.Slices ![0, 128] S384x128
  inb_S32x384x128_S1x384x128_1_0_0 : ∀ a, (![1, 0, 0] : Fin 3 → Nat) a + S1x384x128.size a ≤ S32x384x128.size a
  packedbf16_S32x384x128_S1x384x128_1_0_0 : (Rect.unit (s := S32x384x128) ![1, 0, 0] S1x384x128.size inb_S32x384x128_S1x384x128_1_0_0).PackedRows (EltTy.packing .bf16)
  reduces_S384x256_S256 : S384x256.Reduces [0] S256
  shapeCasts_S256_S1x256 : S256.ShapeCasts S1x256
  inb_S32x256x128_S1x256x128_2_0_0 : ∀ a, (![2, 0, 0] : Fin 3 → Nat) a + S1x256x128.size a ≤ S32x256x128.size a
  inb_S32x256x128_S1x256x128_3_0_0 : ∀ a, (![3, 0, 0] : Fin 3 → Nat) a + S1x256x128.size a ≤ S32x256x128.size a
  inb_S32x384x128_S1x384x128_2_0_0 : ∀ a, (![2, 0, 0] : Fin 3 → Nat) a + S1x384x128.size a ≤ S32x384x128.size a
  packedbf16_S32x384x128_S1x384x128_2_0_0 : (Rect.unit (s := S32x384x128) ![2, 0, 0] S1x384x128.size inb_S32x384x128_S1x384x128_2_0_0).PackedRows (EltTy.packing .bf16)
  inb_S32x384x128_S1x384x128_3_0_0 : ∀ a, (![3, 0, 0] : Fin 3 → Nat) a + S1x384x128.size a ≤ S32x384x128.size a
  packedbf16_S32x384x128_S1x384x128_3_0_0 : (Rect.unit (s := S32x384x128) ![3, 0, 0] S1x384x128.size inb_S32x384x128_S1x384x128_3_0_0).PackedRows (EltTy.packing .bf16)
  inb_S32x256x128_S1x256x128_4_0_0 : ∀ a, (![4, 0, 0] : Fin 3 → Nat) a + S1x256x128.size a ≤ S32x256x128.size a
  inb_S32x256x128_S1x256x128_5_0_0 : ∀ a, (![5, 0, 0] : Fin 3 → Nat) a + S1x256x128.size a ≤ S32x256x128.size a
  inb_S32x384x128_S1x384x128_4_0_0 : ∀ a, (![4, 0, 0] : Fin 3 → Nat) a + S1x384x128.size a ≤ S32x384x128.size a
  packedbf16_S32x384x128_S1x384x128_4_0_0 : (Rect.unit (s := S32x384x128) ![4, 0, 0] S1x384x128.size inb_S32x384x128_S1x384x128_4_0_0).PackedRows (EltTy.packing .bf16)
  inb_S32x384x128_S1x384x128_5_0_0 : ∀ a, (![5, 0, 0] : Fin 3 → Nat) a + S1x384x128.size a ≤ S32x384x128.size a
  packedbf16_S32x384x128_S1x384x128_5_0_0 : (Rect.unit (s := S32x384x128) ![5, 0, 0] S1x384x128.size inb_S32x384x128_S1x384x128_5_0_0).PackedRows (EltTy.packing .bf16)
  inb_S32x256x128_S1x256x128_6_0_0 : ∀ a, (![6, 0, 0] : Fin 3 → Nat) a + S1x256x128.size a ≤ S32x256x128.size a
  inb_S32x256x128_S1x256x128_7_0_0 : ∀ a, (![7, 0, 0] : Fin 3 → Nat) a + S1x256x128.size a ≤ S32x256x128.size a
  inb_S32x384x128_S1x384x128_6_0_0 : ∀ a, (![6, 0, 0] : Fin 3 → Nat) a + S1x384x128.size a ≤ S32x384x128.size a
  packedbf16_S32x384x128_S1x384x128_6_0_0 : (Rect.unit (s := S32x384x128) ![6, 0, 0] S1x384x128.size inb_S32x384x128_S1x384x128_6_0_0).PackedRows (EltTy.packing .bf16)
  inb_S32x384x128_S1x384x128_7_0_0 : ∀ a, (![7, 0, 0] : Fin 3 → Nat) a + S1x384x128.size a ≤ S32x384x128.size a
  packedbf16_S32x384x128_S1x384x128_7_0_0 : (Rect.unit (s := S32x384x128) ![7, 0, 0] S1x384x128.size inb_S32x384x128_S1x384x128_7_0_0).PackedRows (EltTy.packing .bf16)
  inb_S32x256x128_S1x256x128_8_0_0 : ∀ a, (![8, 0, 0] : Fin 3 → Nat) a + S1x256x128.size a ≤ S32x256x128.size a
  inb_S32x256x128_S1x256x128_9_0_0 : ∀ a, (![9, 0, 0] : Fin 3 → Nat) a + S1x256x128.size a ≤ S32x256x128.size a
  inb_S32x384x128_S1x384x128_8_0_0 : ∀ a, (![8, 0, 0] : Fin 3 → Nat) a + S1x384x128.size a ≤ S32x384x128.size a
  packedbf16_S32x384x128_S1x384x128_8_0_0 : (Rect.unit (s := S32x384x128) ![8, 0, 0] S1x384x128.size inb_S32x384x128_S1x384x128_8_0_0).PackedRows (EltTy.packing .bf16)
  inb_S32x384x128_S1x384x128_9_0_0 : ∀ a, (![9, 0, 0] : Fin 3 → Nat) a + S1x384x128.size a ≤ S32x384x128.size a
  packedbf16_S32x384x128_S1x384x128_9_0_0 : (Rect.unit (s := S32x384x128) ![9, 0, 0] S1x384x128.size inb_S32x384x128_S1x384x128_9_0_0).PackedRows (EltTy.packing .bf16)
  inb_S32x256x128_S1x256x128_10_0_0 : ∀ a, (![10, 0, 0] : Fin 3 → Nat) a + S1x256x128.size a ≤ S32x256x128.size a
  inb_S32x256x128_S1x256x128_11_0_0 : ∀ a, (![11, 0, 0] : Fin 3 → Nat) a + S1x256x128.size a ≤ S32x256x128.size a
  inb_S32x384x128_S1x384x128_10_0_0 : ∀ a, (![10, 0, 0] : Fin 3 → Nat) a + S1x384x128.size a ≤ S32x384x128.size a
  packedbf16_S32x384x128_S1x384x128_10_0_0 : (Rect.unit (s := S32x384x128) ![10, 0, 0] S1x384x128.size inb_S32x384x128_S1x384x128_10_0_0).PackedRows (EltTy.packing .bf16)
  inb_S32x384x128_S1x384x128_11_0_0 : ∀ a, (![11, 0, 0] : Fin 3 → Nat) a + S1x384x128.size a ≤ S32x384x128.size a
  packedbf16_S32x384x128_S1x384x128_11_0_0 : (Rect.unit (s := S32x384x128) ![11, 0, 0] S1x384x128.size inb_S32x384x128_S1x384x128_11_0_0).PackedRows (EltTy.packing .bf16)
  inb_S32x256x128_S1x256x128_12_0_0 : ∀ a, (![12, 0, 0] : Fin 3 → Nat) a + S1x256x128.size a ≤ S32x256x128.size a
  inb_S32x256x128_S1x256x128_13_0_0 : ∀ a, (![13, 0, 0] : Fin 3 → Nat) a + S1x256x128.size a ≤ S32x256x128.size a
  inb_S32x384x128_S1x384x128_12_0_0 : ∀ a, (![12, 0, 0] : Fin 3 → Nat) a + S1x384x128.size a ≤ S32x384x128.size a
  packedbf16_S32x384x128_S1x384x128_12_0_0 : (Rect.unit (s := S32x384x128) ![12, 0, 0] S1x384x128.size inb_S32x384x128_S1x384x128_12_0_0).PackedRows (EltTy.packing .bf16)
  inb_S32x384x128_S1x384x128_13_0_0 : ∀ a, (![13, 0, 0] : Fin 3 → Nat) a + S1x384x128.size a ≤ S32x384x128.size a
  packedbf16_S32x384x128_S1x384x128_13_0_0 : (Rect.unit (s := S32x384x128) ![13, 0, 0] S1x384x128.size inb_S32x384x128_S1x384x128_13_0_0).PackedRows (EltTy.packing .bf16)
  inb_S32x256x128_S1x256x128_14_0_0 : ∀ a, (![14, 0, 0] : Fin 3 → Nat) a + S1x256x128.size a ≤ S32x256x128.size a
  inb_S32x256x128_S1x256x128_15_0_0 : ∀ a, (![15, 0, 0] : Fin 3 → Nat) a + S1x256x128.size a ≤ S32x256x128.size a
  inb_S32x384x128_S1x384x128_14_0_0 : ∀ a, (![14, 0, 0] : Fin 3 → Nat) a + S1x384x128.size a ≤ S32x384x128.size a
  packedbf16_S32x384x128_S1x384x128_14_0_0 : (Rect.unit (s := S32x384x128) ![14, 0, 0] S1x384x128.size inb_S32x384x128_S1x384x128_14_0_0).PackedRows (EltTy.packing .bf16)
  inb_S32x384x128_S1x384x128_15_0_0 : ∀ a, (![15, 0, 0] : Fin 3 → Nat) a + S1x384x128.size a ≤ S32x384x128.size a
  packedbf16_S32x384x128_S1x384x128_15_0_0 : (Rect.unit (s := S32x384x128) ![15, 0, 0] S1x384x128.size inb_S32x384x128_S1x384x128_15_0_0).PackedRows (EltTy.packing .bf16)
  inb_S32x256x128_S1x256x128_16_0_0 : ∀ a, (![16, 0, 0] : Fin 3 → Nat) a + S1x256x128.size a ≤ S32x256x128.size a
  inb_S32x256x128_S1x256x128_17_0_0 : ∀ a, (![17, 0, 0] : Fin 3 → Nat) a + S1x256x128.size a ≤ S32x256x128.size a
  inb_S32x384x128_S1x384x128_16_0_0 : ∀ a, (![16, 0, 0] : Fin 3 → Nat) a + S1x384x128.size a ≤ S32x384x128.size a
  packedbf16_S32x384x128_S1x384x128_16_0_0 : (Rect.unit (s := S32x384x128) ![16, 0, 0] S1x384x128.size inb_S32x384x128_S1x384x128_16_0_0).PackedRows (EltTy.packing .bf16)
  inb_S32x384x128_S1x384x128_17_0_0 : ∀ a, (![17, 0, 0] : Fin 3 → Nat) a + S1x384x128.size a ≤ S32x384x128.size a
  packedbf16_S32x384x128_S1x384x128_17_0_0 : (Rect.unit (s := S32x384x128) ![17, 0, 0] S1x384x128.size inb_S32x384x128_S1x384x128_17_0_0).PackedRows (EltTy.packing .bf16)
  inb_S32x256x128_S1x256x128_18_0_0 : ∀ a, (![18, 0, 0] : Fin 3 → Nat) a + S1x256x128.size a ≤ S32x256x128.size a
  inb_S32x256x128_S1x256x128_19_0_0 : ∀ a, (![19, 0, 0] : Fin 3 → Nat) a + S1x256x128.size a ≤ S32x256x128.size a
  inb_S32x384x128_S1x384x128_18_0_0 : ∀ a, (![18, 0, 0] : Fin 3 → Nat) a + S1x384x128.size a ≤ S32x384x128.size a
  packedbf16_S32x384x128_S1x384x128_18_0_0 : (Rect.unit (s := S32x384x128) ![18, 0, 0] S1x384x128.size inb_S32x384x128_S1x384x128_18_0_0).PackedRows (EltTy.packing .bf16)
  inb_S32x384x128_S1x384x128_19_0_0 : ∀ a, (![19, 0, 0] : Fin 3 → Nat) a + S1x384x128.size a ≤ S32x384x128.size a
  packedbf16_S32x384x128_S1x384x128_19_0_0 : (Rect.unit (s := S32x384x128) ![19, 0, 0] S1x384x128.size inb_S32x384x128_S1x384x128_19_0_0).PackedRows (EltTy.packing .bf16)
  inb_S32x256x128_S1x256x128_20_0_0 : ∀ a, (![20, 0, 0] : Fin 3 → Nat) a + S1x256x128.size a ≤ S32x256x128.size a
  inb_S32x256x128_S1x256x128_21_0_0 : ∀ a, (![21, 0, 0] : Fin 3 → Nat) a + S1x256x128.size a ≤ S32x256x128.size a
  inb_S32x384x128_S1x384x128_20_0_0 : ∀ a, (![20, 0, 0] : Fin 3 → Nat) a + S1x384x128.size a ≤ S32x384x128.size a
  packedbf16_S32x384x128_S1x384x128_20_0_0 : (Rect.unit (s := S32x384x128) ![20, 0, 0] S1x384x128.size inb_S32x384x128_S1x384x128_20_0_0).PackedRows (EltTy.packing .bf16)
  inb_S32x384x128_S1x384x128_21_0_0 : ∀ a, (![21, 0, 0] : Fin 3 → Nat) a + S1x384x128.size a ≤ S32x384x128.size a
  packedbf16_S32x384x128_S1x384x128_21_0_0 : (Rect.unit (s := S32x384x128) ![21, 0, 0] S1x384x128.size inb_S32x384x128_S1x384x128_21_0_0).PackedRows (EltTy.packing .bf16)
  inb_S32x256x128_S1x256x128_22_0_0 : ∀ a, (![22, 0, 0] : Fin 3 → Nat) a + S1x256x128.size a ≤ S32x256x128.size a
  inb_S32x256x128_S1x256x128_23_0_0 : ∀ a, (![23, 0, 0] : Fin 3 → Nat) a + S1x256x128.size a ≤ S32x256x128.size a
  inb_S32x384x128_S1x384x128_22_0_0 : ∀ a, (![22, 0, 0] : Fin 3 → Nat) a + S1x384x128.size a ≤ S32x384x128.size a
  packedbf16_S32x384x128_S1x384x128_22_0_0 : (Rect.unit (s := S32x384x128) ![22, 0, 0] S1x384x128.size inb_S32x384x128_S1x384x128_22_0_0).PackedRows (EltTy.packing .bf16)
  inb_S32x384x128_S1x384x128_23_0_0 : ∀ a, (![23, 0, 0] : Fin 3 → Nat) a + S1x384x128.size a ≤ S32x384x128.size a
  packedbf16_S32x384x128_S1x384x128_23_0_0 : (Rect.unit (s := S32x384x128) ![23, 0, 0] S1x384x128.size inb_S32x384x128_S1x384x128_23_0_0).PackedRows (EltTy.packing .bf16)
  inb_S32x256x128_S1x256x128_24_0_0 : ∀ a, (![24, 0, 0] : Fin 3 → Nat) a + S1x256x128.size a ≤ S32x256x128.size a
  inb_S32x256x128_S1x256x128_25_0_0 : ∀ a, (![25, 0, 0] : Fin 3 → Nat) a + S1x256x128.size a ≤ S32x256x128.size a
  inb_S32x384x128_S1x384x128_24_0_0 : ∀ a, (![24, 0, 0] : Fin 3 → Nat) a + S1x384x128.size a ≤ S32x384x128.size a
  packedbf16_S32x384x128_S1x384x128_24_0_0 : (Rect.unit (s := S32x384x128) ![24, 0, 0] S1x384x128.size inb_S32x384x128_S1x384x128_24_0_0).PackedRows (EltTy.packing .bf16)
  inb_S32x384x128_S1x384x128_25_0_0 : ∀ a, (![25, 0, 0] : Fin 3 → Nat) a + S1x384x128.size a ≤ S32x384x128.size a
  packedbf16_S32x384x128_S1x384x128_25_0_0 : (Rect.unit (s := S32x384x128) ![25, 0, 0] S1x384x128.size inb_S32x384x128_S1x384x128_25_0_0).PackedRows (EltTy.packing .bf16)
  inb_S32x256x128_S1x256x128_26_0_0 : ∀ a, (![26, 0, 0] : Fin 3 → Nat) a + S1x256x128.size a ≤ S32x256x128.size a
  inb_S32x256x128_S1x256x128_27_0_0 : ∀ a, (![27, 0, 0] : Fin 3 → Nat) a + S1x256x128.size a ≤ S32x256x128.size a
  inb_S32x384x128_S1x384x128_26_0_0 : ∀ a, (![26, 0, 0] : Fin 3 → Nat) a + S1x384x128.size a ≤ S32x384x128.size a
  packedbf16_S32x384x128_S1x384x128_26_0_0 : (Rect.unit (s := S32x384x128) ![26, 0, 0] S1x384x128.size inb_S32x384x128_S1x384x128_26_0_0).PackedRows (EltTy.packing .bf16)
  inb_S32x384x128_S1x384x128_27_0_0 : ∀ a, (![27, 0, 0] : Fin 3 → Nat) a + S1x384x128.size a ≤ S32x384x128.size a
  packedbf16_S32x384x128_S1x384x128_27_0_0 : (Rect.unit (s := S32x384x128) ![27, 0, 0] S1x384x128.size inb_S32x384x128_S1x384x128_27_0_0).PackedRows (EltTy.packing .bf16)
  inb_S32x256x128_S1x256x128_28_0_0 : ∀ a, (![28, 0, 0] : Fin 3 → Nat) a + S1x256x128.size a ≤ S32x256x128.size a
  inb_S32x256x128_S1x256x128_29_0_0 : ∀ a, (![29, 0, 0] : Fin 3 → Nat) a + S1x256x128.size a ≤ S32x256x128.size a
  inb_S32x384x128_S1x384x128_28_0_0 : ∀ a, (![28, 0, 0] : Fin 3 → Nat) a + S1x384x128.size a ≤ S32x384x128.size a
  packedbf16_S32x384x128_S1x384x128_28_0_0 : (Rect.unit (s := S32x384x128) ![28, 0, 0] S1x384x128.size inb_S32x384x128_S1x384x128_28_0_0).PackedRows (EltTy.packing .bf16)
  inb_S32x384x128_S1x384x128_29_0_0 : ∀ a, (![29, 0, 0] : Fin 3 → Nat) a + S1x384x128.size a ≤ S32x384x128.size a
  packedbf16_S32x384x128_S1x384x128_29_0_0 : (Rect.unit (s := S32x384x128) ![29, 0, 0] S1x384x128.size inb_S32x384x128_S1x384x128_29_0_0).PackedRows (EltTy.packing .bf16)
  inb_S32x256x128_S1x256x128_30_0_0 : ∀ a, (![30, 0, 0] : Fin 3 → Nat) a + S1x256x128.size a ≤ S32x256x128.size a
  inb_S32x256x128_S1x256x128_31_0_0 : ∀ a, (![31, 0, 0] : Fin 3 → Nat) a + S1x256x128.size a ≤ S32x256x128.size a
  inb_S32x384x128_S1x384x128_30_0_0 : ∀ a, (![30, 0, 0] : Fin 3 → Nat) a + S1x384x128.size a ≤ S32x384x128.size a
  packedbf16_S32x384x128_S1x384x128_30_0_0 : (Rect.unit (s := S32x384x128) ![30, 0, 0] S1x384x128.size inb_S32x384x128_S1x384x128_30_0_0).PackedRows (EltTy.packing .bf16)
  inb_S32x384x128_S1x384x128_31_0_0 : ∀ a, (![31, 0, 0] : Fin 3 → Nat) a + S1x384x128.size a ≤ S32x384x128.size a
  packedbf16_S32x384x128_S1x384x128_31_0_0 : (Rect.unit (s := S32x384x128) ![31, 0, 0] S1x384x128.size inb_S32x384x128_S1x384x128_31_0_0).PackedRows (EltTy.packing .bf16)
  slices_S1x256_o0_0_S1x128 : S1x256.Slices ![0, 0] S1x128
  slices_S1x256_o0_128_S1x128 : S1x256.Slices ![0, 128] S1x128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  shapeCasts_S8x1x128_S8x128 : S8x1x128.ShapeCasts S8x128
  reducesTo_S8x128_S128_d0 : S8x128.ReducesTo [0] S128
  bcast_S_S128 : S_.BroadcastsInDim S128 (![] : Fin 0 → Fin S128.rank)
  shapeCasts_S128x1_S128 : S128x1.ShapeCasts S128
  bcast_S128_S1x128_1 : S128.BroadcastsInDim S1x128 (![1] : Fin 1 → Fin S1x128.rank)
  inb_S32x384x128_S32x384x128_0_0_0 : ∀ a, (![0, 0, 0] : Fin 3 → Nat) a + S32x384x128.size a ≤ S32x384x128.size a
  h_S32x384x128 : 0 < S32x384x128.numel
  shapeCasts_S32x384x128_S32x384x128 : S32x384x128.ShapeCasts S32x384x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x1x128_S32x384x128 : S1x1x128.Broadcasts S32x384x128
  shapeCasts_S256x384x128_S256x12x32x128 : S256x384x128.ShapeCasts S256x12x32x128
  transposes_S256x12x32x128_S256x128x12x32_0_3_1_2 : S256x12x32x128.Transposes [0, 3, 1, 2] S256x128x12x32
  dot_S1536x256_S256x256_S1536x256_1_0_0_1_n_n_wf : DotDims.WF S1536x256 S256x256 S1536x256 [1] [0] [0] [1] [] []
  dot_S224x512_S512x256_S224x256_1_0_0_1_n_n_wf : DotDims.WF S224x512 S512x256 S224x256 [1] [0] [0] [1] [] []
  dot_S224x256_S256x256_S224x256_1_0_0_1_n_n_wf : DotDims.WF S224x256 S256x256 S224x256 [1] [0] [0] [1] [] []
  dot_S1152x232_S232x256_S1152x256_1_0_0_1_n_n_wf : DotDims.WF S1152x232 S232x256 S1152x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256x128.size a ≤ S256x256x128.size a
  hwx0_0 : ∀ i : grid0.Coords, EltTy.bits .f32 = 32 ∨ (Rect.block (s := S256x256x128) S32x256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1536x256.size a ≤ S1536x256.size a
  hwx0_2 : ∀ i : grid0.Coords, EltTy.bits .bf16 = 32 ∨ (Rect.block (s := S1536x256) S1536x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1536x1.size a ≤ S1536x1.size a
  hwx0_3 : ∀ i : grid0.Coords, EltTy.bits .f32 = 32 ∨ (Rect.block (s := S1536x1) S1536x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S224x512.size a ≤ S224x512.size a
  hwx0_4 : ∀ i : grid0.Coords, EltTy.bits .bf16 = 32 ∨ (Rect.block (s := S224x512) S224x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1152x232.size a ≤ S1152x232.size a
  hwx0_5 : ∀ i : grid0.Coords, EltTy.bits .bf16 = 32 ∨ (Rect.block (s := S1152x232) S1152x232.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x256.size a ≤ S8x256.size a
  hwx0_6 : ∀ i : grid0.Coords, EltTy.bits .bf16 = 32 ∨ (Rect.block (s := S8x256) S8x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x384x128.size a ≤ S256x384x128.size a
  hwx0_7 : ∀ i : grid0.Coords, EltTy.bits .bf16 = 32 ∨ (Rect.block (s := S256x384x128) S32x384x128.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x128.size a ≤ S8x1x128.size a
  hwx0_8 : ∀ i : grid0.Coords, EltTy.bits .f32 = 32 ∨ (Rect.block (s := S8x1x128) S1x1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x128.size a ≤ S8x1x128.size a
  hwx0_9 : ∀ i : grid0.Coords, EltTy.bits .f32 = 32 ∨ (Rect.block (s := S8x1x128) S1x1x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x384x128.size a ≤ S256x384x128.size a
  hwx1_0 : ∀ i : grid1.Coords, EltTy.bits .bf16 = 32 ∨ (Rect.block (s := S256x384x128) S32x384x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32x384x128.size a ≤ S256x384x128.size a
  hwx1_3 : ∀ i : grid1.Coords, EltTy.bits .f32 = 32 ∨ (Rect.block (s := S256x384x128) S32x384x128.size (cc1_transform_3 i) (hinb1_3 i)).WholeWords (EltTy.packing .f32)

variable [Facts₀]

def dot_S1536x256_S256x256_S1536x256_1_0_0_1_n_n : DotDims S1536x256 S256x256 S1536x256 where
  lhsContracting := [1]
  rhsContracting := [0]
  lhsNonContracting := [0]
  rhsNonContracting := [1]
  lhsBatch := []
  rhsBatch := []
  wf := dot_S1536x256_S256x256_S1536x256_1_0_0_1_n_n_wf
def dot_S224x512_S512x256_S224x256_1_0_0_1_n_n : DotDims S224x512 S512x256 S224x256 where
  lhsContracting := [1]
  rhsContracting := [0]
  lhsNonContracting := [0]
  rhsNonContracting := [1]
  lhsBatch := []
  rhsBatch := []
  wf := dot_S224x512_S512x256_S224x256_1_0_0_1_n_n_wf
def dot_S224x256_S256x256_S224x256_1_0_0_1_n_n : DotDims S224x256 S256x256 S224x256 where
  lhsContracting := [1]
  rhsContracting := [0]
  lhsNonContracting := [0]
  rhsNonContracting := [1]
  lhsBatch := []
  rhsBatch := []
  wf := dot_S224x256_S256x256_S224x256_1_0_0_1_n_n_wf
def dot_S1152x232_S232x256_S1152x256_1_0_0_1_n_n : DotDims S1152x232 S232x256 S1152x256 where
  lhsContracting := [1]
  rhsContracting := [0]
  lhsNonContracting := [0]
  rhsNonContracting := [1]
  lhsBatch := []
  rhsBatch := []
  wf := dot_S1152x232_S232x256_S1152x256_1_0_0_1_n_n_wf

abbrev win0_0 : Pipeline.Window sig grid0 :=
  Pipeline.Window.ofSpec (Memref.whole main_v69) S32x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v62) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1536x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1536x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v53) S224x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S1152x232.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v67) S8x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v70_0) S32x384x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v70_1) S1x1x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v70_2) S1x1x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v70_0) S32x384x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v88) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v93) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v94) S32x384x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S3x3x16x32 : Shape := ⟨4, ![3, 3, 16, 32]⟩
abbrev S3x32 : Shape := ⟨2, ![3, 32]⟩
abbrev S32x16 : Shape := ⟨2, ![32, 16]⟩
abbrev S128x1 : Shape := ⟨2, ![128, 1]⟩
abbrev S256x128x16x16 : Shape := ⟨4, ![256, 128, 16, 16]⟩
abbrev S128x128 : Shape := ⟨2, ![128, 128]⟩
abbrev S1x3x16x32 : Shape := ⟨4, ![1, 3, 16, 32]⟩
abbrev S3x16x32 : Shape := ⟨3, ![3, 16, 32]⟩
abbrev S1x32 : Shape := ⟨2, ![1, 32]⟩
abbrev S32 : Shape := ⟨1, ![32]⟩
abbrev S_ : Shape := ⟨0, ![]⟩
abbrev S16x16x32 : Shape := ⟨3, ![16, 16, 32]⟩
abbrev S1 : Shape := ⟨1, ![1]⟩
abbrev S256x32 : Shape := ⟨2, ![256, 32]⟩
abbrev S256x448 : Shape := ⟨2, ![256, 448]⟩
abbrev S14x32 : Shape := ⟨2, ![14, 32]⟩
abbrev S448 : Shape := ⟨1, ![448]⟩
abbrev S256x512 : Shape := ⟨2, ![256, 512]⟩
abbrev S512 : Shape := ⟨1, ![512]⟩
abbrev S256x1536 : Shape := ⟨2, ![256, 1536]⟩
abbrev S1536 : Shape := ⟨1, ![1536]⟩
abbrev S1x1536 : Shape := ⟨2, ![1, 1536]⟩
abbrev S14x16x32 : Shape := ⟨3, ![14, 16, 32]⟩
abbrev S224x32 : Shape := ⟨2, ![224, 32]⟩
abbrev S224x384 : Shape := ⟨2, ![224, 384]⟩
abbrev S12x32 : Shape := ⟨2, ![12, 32]⟩
abbrev S384 : Shape := ⟨1, ![384]⟩
abbrev S224x1152 : Shape := ⟨2, ![224, 1152]⟩
abbrev S1152 : Shape := ⟨1, ![1152]⟩
abbrev S1x1152 : Shape := ⟨2, ![1, 1152]⟩
abbrev S14x14 : Shape := ⟨2, ![14, 14]⟩
abbrev S14x1x14x1 : Shape := ⟨4, ![14, 1, 14, 1]⟩
abbrev S1x32x1x16 : Shape := ⟨4, ![1, 32, 1, 16]⟩
abbrev S14x32x14x16 : Shape := ⟨4, ![14, 32, 14, 16]⟩
abbrev S448x224 : Shape := ⟨2, ![448, 224]⟩
abbrev S512x224 : Shape := ⟨2, ![512, 224]⟩
abbrev S8x8 : Shape := ⟨2, ![8, 8]⟩
abbrev S8x1x8x1 : Shape := ⟨4, ![8, 1, 8, 1]⟩
abbrev S1x128x1x128 : Shape := ⟨4, ![1, 128, 1, 128]⟩
abbrev S8x128x8x128 : Shape := ⟨4, ![8, 128, 8, 128]⟩
abbrev S1024x1024 : Shape := ⟨2, ![1024, 1024]⟩
abbrev S256x128x256 : Shape := ⟨3, ![256, 128, 256]⟩
abbrev S256x128x384 : Shape := ⟨3, ![256, 128, 384]⟩
abbrev S256x128x1 : Shape := ⟨3, ![256, 128, 1]⟩
abbrev S8x128x256 : Shape := ⟨3, ![8, 128, 256]⟩
abbrev S8x128x384 : Shape := ⟨3, ![8, 128, 384]⟩
abbrev S8x128x1 : Shape := ⟨3, ![8, 128, 1]⟩
abbrev S1024x256 : Shape := ⟨2, ![1024, 256]⟩
abbrev S1024x1536 : Shape := ⟨2, ![1024, 1536]⟩
abbrev S1024x512 : Shape := ⟨2, ![1024, 512]⟩
abbrev S1024x224 : Shape := ⟨2, ![1024, 224]⟩
abbrev S1024x1152 : Shape := ⟨2, ![1024, 1152]⟩
abbrev S1024x384 : Shape := ⟨2, ![1024, 384]⟩
abbrev S1024 : Shape := ⟨1, ![1024]⟩
abbrev S1024x1 : Shape := ⟨2, ![1024, 1]⟩
abbrev S256x128 : Shape := ⟨2, ![256, 128]⟩
abbrev S128 : Shape := ⟨1, ![128]⟩
abbrev S1x128x1 : Shape := ⟨3, ![1, 128, 1]⟩
abbrev S256x128x12x32 : Shape := ⟨4, ![256, 128, 12, 32]⟩

abbrev nBuf : Space → Nat
  | .hbm => 631
  | .vmem => 20
  | .smem => 0
  | _ => 0

abbrev hbmTy0_0 (i : Nat) : BufTy := match i % 128 with
  | 0 => ⟨S3x3x16x32, .f32⟩
  | 1 => ⟨S3x32, .f32⟩
  | 2 => ⟨S32x16, .f32⟩
  | 3 => ⟨S3x3x16x32, .f32⟩
  | 4 => ⟨S3x32, .f32⟩
  | 5 => ⟨S128x1, .f32⟩
  | 6 => ⟨S128x1, .f32⟩
  | 7 => ⟨S256x128x16x16, .f32⟩
  | 8 => ⟨S128x128, .f32⟩
  | 9 => ⟨S1x3x16x32, .f32⟩
  | 10 => ⟨S3x16x32, .f32⟩
  | 11 => ⟨S1x32, .f32⟩
  | 12 => ⟨S32, .f32⟩
  | 13 => ⟨S_, .f32⟩
  | 14 => ⟨S16x16x32, .f32⟩
  | 15 => ⟨S_, .i32⟩
  | 16 => ⟨S1, .i32⟩
  | 17 => ⟨S16x16x32, .f32⟩
  | 18 => ⟨S256x32, .f32⟩
  | 19 => ⟨S_, .f32⟩
  | 20 => ⟨S16x16x32, .f32⟩
  | 21 => ⟨S_, .i32⟩
  | 22 => ⟨S1, .i32⟩
  | 23 => ⟨S16x16x32, .f32⟩
  | 24 => ⟨S256x32, .f32⟩
  | 25 => ⟨S_, .f32⟩
  | 26 => ⟨S16x16x32, .f32⟩
  | 27 => ⟨S_, .i32⟩
  | 28 => ⟨S1, .i32⟩
  | 29 => ⟨S16x16x32, .f32⟩
  | 30 => ⟨S256x32, .f32⟩
  | 31 => ⟨S_, .f32⟩
  | 32 => ⟨S16x16x32, .f32⟩
  | 33 => ⟨S_, .i32⟩
  | 34 => ⟨S1, .i32⟩
  | 35 => ⟨S16x16x32, .f32⟩
  | 36 => ⟨S256x32, .f32⟩
  | 37 => ⟨S_, .f32⟩
  | 38 => ⟨S16x16x32, .f32⟩
  | 39 => ⟨S_, .i32⟩
  | 40 => ⟨S1, .i32⟩
  | 41 => ⟨S16x16x32, .f32⟩
  | 42 => ⟨S256x32, .f32⟩
  | 43 => ⟨S_, .f32⟩
  | 44 => ⟨S16x16x32, .f32⟩
  | 45 => ⟨S_, .i32⟩
  | 46 => ⟨S1, .i32⟩
  | 47 => ⟨S16x16x32, .f32⟩
  | 48 => ⟨S256x32, .f32⟩
  | 49 => ⟨S_, .f32⟩
  | 50 => ⟨S16x16x32, .f32⟩
  | 51 => ⟨S_, .i32⟩
  | 52 => ⟨S1, .i32⟩
  | 53 => ⟨S16x16x32, .f32⟩
  | 54 => ⟨S256x32, .f32⟩
  | 55 => ⟨S_, .f32⟩
  | 56 => ⟨S16x16x32, .f32⟩
  | 57 => ⟨S_, .i32⟩
  | 58 => ⟨S1, .i32⟩
  | 59 => ⟨S16x16x32, .f32⟩
  | 60 => ⟨S256x32, .f32⟩
  | 61 => ⟨S_, .f32⟩
  | 62 => ⟨S16x16x32, .f32⟩
  | 63 => ⟨S_, .i32⟩
  | 64 => ⟨S1, .i32⟩
  | 65 => ⟨S16x16x32, .f32⟩
  | 66 => ⟨S256x32, .f32⟩
  | 67 => ⟨S_, .f32⟩
  | 68 => ⟨S16x16x32, .f32⟩
  | 69 => ⟨S_, .i32⟩
  | 70 => ⟨S1, .i32⟩
  | 71 => ⟨S16x16x32, .f32⟩
  | 72 => ⟨S256x32, .f32⟩
  | 73 => ⟨S_, .f32⟩
  | 74 => ⟨S16x16x32, .f32⟩
  | 75 => ⟨S_, .i32⟩
  | 76 => ⟨S1, .i32⟩
  | 77 => ⟨S16x16x32, .f32⟩
  | 78 => ⟨S256x32, .f32⟩
  | 79 => ⟨S_, .f32⟩
  | 80 => ⟨S16x16x32, .f32⟩
  | 81 => ⟨S_, .i32⟩
  | 82 => ⟨S1, .i32⟩
  | 83 => ⟨S16x16x32, .f32⟩
  | 84 => ⟨S256x32, .f32⟩
  | 85 => ⟨S_, .f32⟩
  | 86 => ⟨S16x16x32, .f32⟩
  | 87 => ⟨S_, .i32⟩
  | 88 => ⟨S1, .i32⟩
  | 89 => ⟨S16x16x32, .f32⟩
  | 90 => ⟨S256x32, .f32⟩
  | 91 => ⟨S_, .f32⟩
  | 92 => ⟨S16x16x32, .f32⟩
  | 93 => ⟨S_, .i32⟩
  | 94 => ⟨S1, .i32⟩
  | 95 => ⟨S16x16x32, .f32⟩
  | 96 => ⟨S256x32, .f32⟩
  | 97 => ⟨S256x448, .f32⟩
  | 98 => ⟨S1x32, .f32⟩
  | 99 => ⟨S14x32, .f32⟩
  | 100 => ⟨S448, .f32⟩
  | 101 => ⟨S_, .i32⟩
  | 102 => ⟨S_, .f32⟩
  | 103 => ⟨S256x512, .f32⟩
  | 104 => ⟨S_, .i32⟩
  | 105 => ⟨S_, .f32⟩
  | 106 => ⟨S512, .f32⟩
  | 107 => ⟨S1x3x16x32, .f32⟩
  | 108 => ⟨S3x16x32, .f32⟩
  | 109 => ⟨S1x32, .f32⟩
  | 110 => ⟨S32, .f32⟩
  | 111 => ⟨S_, .f32⟩
  | 112 => ⟨S16x16x32, .f32⟩
  | 113 => ⟨S_, .i32⟩
  | 114 => ⟨S1, .i32⟩
  | 115 => ⟨S16x16x32, .f32⟩
  | 116 => ⟨S256x32, .f32⟩
  | 117 => ⟨S_, .f32⟩
  | 118 => ⟨S16x16x32, .f32⟩
  | 119 => ⟨S_, .i32⟩
  | 120 => ⟨S1, .i32⟩
  | 121 => ⟨S16x16x32, .f32⟩
  | 122 => ⟨S256x32, .f32⟩
  | 123 => ⟨S_, .f32⟩
  | 124 => ⟨S16x16x32, .f32⟩
  | 125 => ⟨S_, .i32⟩
  | 126 => ⟨S1, .i32⟩
  | 127 => ⟨S16x16x32, .f32⟩
  | _ => ⟨S3x3x16x32, .f32⟩

abbrev hbmTy0_1 (i : Nat) : BufTy := match i % 128 with
  | 0 => ⟨S256x32, .f32⟩
  | 1 => ⟨S_, .f32⟩
  | 2 => ⟨S16x16x32, .f32⟩
  | 3 => ⟨S_, .i32⟩
  | 4 => ⟨S1, .i32⟩
  | 5 => ⟨S16x16x32, .f32⟩
  | 6 => ⟨S256x32, .f32⟩
  | 7 => ⟨S_, .f32⟩
  | 8 => ⟨S16x16x32, .f32⟩
  | 9 => ⟨S_, .i32⟩
  | 10 => ⟨S1, .i32⟩
  | 11 => ⟨S16x16x32, .f32⟩
  | 12 => ⟨S256x32, .f32⟩
  | 13 => ⟨S_, .f32⟩
  | 14 => ⟨S16x16x32, .f32⟩
  | 15 => ⟨S_, .i32⟩
  | 16 => ⟨S1, .i32⟩
  | 17 => ⟨S16x16x32, .f32⟩
  | 18 => ⟨S256x32, .f32⟩
  | 19 => ⟨S_, .f32⟩
  | 20 => ⟨S16x16x32, .f32⟩
  | 21 => ⟨S_, .i32⟩
  | 22 => ⟨S1, .i32⟩
  | 23 => ⟨S16x16x32, .f32⟩
  | 24 => ⟨S256x32, .f32⟩
  | 25 => ⟨S_, .f32⟩
  | 26 => ⟨S16x16x32, .f32⟩
  | 27 => ⟨S_, .i32⟩
  | 28 => ⟨S1, .i32⟩
  | 29 => ⟨S16x16x32, .f32⟩
  | 30 => ⟨S256x32, .f32⟩
  | 31 => ⟨S_, .f32⟩
  | 32 => ⟨S16x16x32, .f32⟩
  | 33 => ⟨S_, .i32⟩
  | 34 => ⟨S1, .i32⟩
  | 35 => ⟨S16x16x32, .f32⟩
  | 36 => ⟨S256x32, .f32⟩
  | 37 => ⟨S_, .f32⟩
  | 38 => ⟨S16x16x32, .f32⟩
  | 39 => ⟨S_, .i32⟩
  | 40 => ⟨S1, .i32⟩
  | 41 => ⟨S16x16x32, .f32⟩
  | 42 => ⟨S256x32, .f32⟩
  | 43 => ⟨S_, .f32⟩
  | 44 => ⟨S16x16x32, .f32⟩
  | 45 => ⟨S_, .i32⟩
  | 46 => ⟨S1, .i32⟩
  | 47 => ⟨S16x16x32, .f32⟩
  | 48 => ⟨S256x32, .f32⟩
  | 49 => ⟨S_, .f32⟩
  | 50 => ⟨S16x16x32, .f32⟩
  | 51 => ⟨S_, .i32⟩
  | 52 => ⟨S1, .i32⟩
  | 53 => ⟨S16x16x32, .f32⟩
  | 54 => ⟨S256x32, .f32⟩
  | 55 => ⟨S_, .f32⟩
  | 56 => ⟨S16x16x32, .f32⟩
  | 57 => ⟨S_, .i32⟩
  | 58 => ⟨S1, .i32⟩
  | 59 => ⟨S16x16x32, .f32⟩
  | 60 => ⟨S256x32, .f32⟩
  | 61 => ⟨S_, .f32⟩
  | 62 => ⟨S16x16x32, .f32⟩
  | 63 => ⟨S_, .i32⟩
  | 64 => ⟨S1, .i32⟩
  | 65 => ⟨S16x16x32, .f32⟩
  | 66 => ⟨S256x32, .f32⟩
  | 67 => ⟨S256x448, .f32⟩
  | 68 => ⟨S1x32, .f32⟩
  | 69 => ⟨S14x32, .f32⟩
  | 70 => ⟨S448, .f32⟩
  | 71 => ⟨S_, .i32⟩
  | 72 => ⟨S_, .f32⟩
  | 73 => ⟨S256x512, .f32⟩
  | 74 => ⟨S_, .i32⟩
  | 75 => ⟨S_, .f32⟩
  | 76 => ⟨S512, .f32⟩
  | 77 => ⟨S1x3x16x32, .f32⟩
  | 78 => ⟨S3x16x32, .f32⟩
  | 79 => ⟨S1x32, .f32⟩
  | 80 => ⟨S32, .f32⟩
  | 81 => ⟨S_, .f32⟩
  | 82 => ⟨S16x16x32, .f32⟩
  | 83 => ⟨S_, .i32⟩
  | 84 => ⟨S1, .i32⟩
  | 85 => ⟨S16x16x32, .f32⟩
  | 86 => ⟨S256x32, .f32⟩
  | 87 => ⟨S_, .f32⟩
  | 88 => ⟨S16x16x32, .f32⟩
  | 89 => ⟨S_, .i32⟩
  | 90 => ⟨S1, .i32⟩
  | 91 => ⟨S16x16x32, .f32⟩
  | 92 => ⟨S256x32, .f32⟩
  | 93 => ⟨S_, .f32⟩
  | 94 => ⟨S16x16x32, .f32⟩
  | 95 => ⟨S_, .i32⟩
  | 96 => ⟨S1, .i32⟩
  | 97 => ⟨S16x16x32, .f32⟩
  | 98 => ⟨S256x32, .f32⟩
  | 99 => ⟨S_, .f32⟩
  | 100 => ⟨S16x16x32, .f32⟩
  | 101 => ⟨S_, .i32⟩
  | 102 => ⟨S1, .i32⟩
  | 103 => ⟨S16x16x32, .f32⟩
  | 104 => ⟨S256x32, .f32⟩
  | 105 => ⟨S_, .f32⟩
  | 106 => ⟨S16x16x32, .f32⟩
  | 107 => ⟨S_, .i32⟩
  | 108 => ⟨S1, .i32⟩
  | 109 => ⟨S16x16x32, .f32⟩
  | 110 => ⟨S256x32, .f32⟩
  | 111 => ⟨S_, .f32⟩
  | 112 => ⟨S16x16x32, .f32⟩
  | 113 => ⟨S_, .i32⟩
  | 114 => ⟨S1, .i32⟩
  | 115 => ⟨S16x16x32, .f32⟩
  | 116 => ⟨S256x32, .f32⟩
  | 117 => ⟨S_, .f32⟩
  | 118 => ⟨S16x16x32, .f32⟩
  | 119 => ⟨S_, .i32⟩
  | 120 => ⟨S1, .i32⟩
  | 121 => ⟨S16x16x32, .f32⟩
  | 122 => ⟨S256x32, .f32⟩
  | 123 => ⟨S_, .f32⟩
  | 124 => ⟨S16x16x32, .f32⟩
  | 125 => ⟨S_, .i32⟩
  | 126 => ⟨S1, .i32⟩
  | 127 => ⟨S16x16x32, .f32⟩
  | _ => ⟨S3x3x16x32, .f32⟩

abbrev hbmTy0_2 (i : Nat) : BufTy := match i % 128 with
  | 0 => ⟨S256x32, .f32⟩
  | 1 => ⟨S_, .f32⟩
  | 2 => ⟨S16x16x32, .f32⟩
  | 3 => ⟨S_, .i32⟩
  | 4 => ⟨S1, .i32⟩
  | 5 => ⟨S16x16x32, .f32⟩
  | 6 => ⟨S256x32, .f32⟩
  | 7 => ⟨S_, .f32⟩
  | 8 => ⟨S16x16x32, .f32⟩
  | 9 => ⟨S_, .i32⟩
  | 10 => ⟨S1, .i32⟩
  | 11 => ⟨S16x16x32, .f32⟩
  | 12 => ⟨S256x32, .f32⟩
  | 13 => ⟨S_, .f32⟩
  | 14 => ⟨S16x16x32, .f32⟩
  | 15 => ⟨S_, .i32⟩
  | 16 => ⟨S1, .i32⟩
  | 17 => ⟨S16x16x32, .f32⟩
  | 18 => ⟨S256x32, .f32⟩
  | 19 => ⟨S_, .f32⟩
  | 20 => ⟨S16x16x32, .f32⟩
  | 21 => ⟨S_, .i32⟩
  | 22 => ⟨S1, .i32⟩
  | 23 => ⟨S16x16x32, .f32⟩
  | 24 => ⟨S256x32, .f32⟩
  | 25 => ⟨S_, .f32⟩
  | 26 => ⟨S16x16x32, .f32⟩
  | 27 => ⟨S_, .i32⟩
  | 28 => ⟨S1, .i32⟩
  | 29 => ⟨S16x16x32, .f32⟩
  | 30 => ⟨S256x32, .f32⟩
  | 31 => ⟨S_, .f32⟩
  | 32 => ⟨S16x16x32, .f32⟩
  | 33 => ⟨S_, .i32⟩
  | 34 => ⟨S1, .i32⟩
  | 35 => ⟨S16x16x32, .f32⟩
  | 36 => ⟨S256x32, .f32⟩
  | 37 => ⟨S256x448, .f32⟩
  | 38 => ⟨S1x32, .f32⟩
  | 39 => ⟨S14x32, .f32⟩
  | 40 => ⟨S448, .f32⟩
  | 41 => ⟨S_, .i32⟩
  | 42 => ⟨S_, .f32⟩
  | 43 => ⟨S256x512, .f32⟩
  | 44 => ⟨S_, .i32⟩
  | 45 => ⟨S_, .f32⟩
  | 46 => ⟨S512, .f32⟩
  | 47 => ⟨S256x1536, .f32⟩
  | 48 => ⟨S1536, .f32⟩
  | 49 => ⟨S1x1536, .f32⟩
  | 50 => ⟨S1x3x16x32, .f32⟩
  | 51 => ⟨S3x16x32, .f32⟩
  | 52 => ⟨S1x32, .f32⟩
  | 53 => ⟨S32, .f32⟩
  | 54 => ⟨S_, .f32⟩
  | 55 => ⟨S14x16x32, .f32⟩
  | 56 => ⟨S_, .i32⟩
  | 57 => ⟨S1, .i32⟩
  | 58 => ⟨S14x16x32, .f32⟩
  | 59 => ⟨S224x32, .f32⟩
  | 60 => ⟨S_, .f32⟩
  | 61 => ⟨S14x16x32, .f32⟩
  | 62 => ⟨S_, .i32⟩
  | 63 => ⟨S1, .i32⟩
  | 64 => ⟨S14x16x32, .f32⟩
  | 65 => ⟨S224x32, .f32⟩
  | 66 => ⟨S_, .f32⟩
  | 67 => ⟨S14x16x32, .f32⟩
  | 68 => ⟨S_, .i32⟩
  | 69 => ⟨S1, .i32⟩
  | 70 => ⟨S14x16x32, .f32⟩
  | 71 => ⟨S224x32, .f32⟩
  | 72 => ⟨S_, .f32⟩
  | 73 => ⟨S14x16x32, .f32⟩
  | 74 => ⟨S_, .i32⟩
  | 75 => ⟨S1, .i32⟩
  | 76 => ⟨S14x16x32, .f32⟩
  | 77 => ⟨S224x32, .f32⟩
  | 78 => ⟨S_, .f32⟩
  | 79 => ⟨S14x16x32, .f32⟩
  | 80 => ⟨S_, .i32⟩
  | 81 => ⟨S1, .i32⟩
  | 82 => ⟨S14x16x32, .f32⟩
  | 83 => ⟨S224x32, .f32⟩
  | 84 => ⟨S_, .f32⟩
  | 85 => ⟨S14x16x32, .f32⟩
  | 86 => ⟨S_, .i32⟩
  | 87 => ⟨S1, .i32⟩
  | 88 => ⟨S14x16x32, .f32⟩
  | 89 => ⟨S224x32, .f32⟩
  | 90 => ⟨S_, .f32⟩
  | 91 => ⟨S14x16x32, .f32⟩
  | 92 => ⟨S_, .i32⟩
  | 93 => ⟨S1, .i32⟩
  | 94 => ⟨S14x16x32, .f32⟩
  | 95 => ⟨S224x32, .f32⟩
  | 96 => ⟨S_, .f32⟩
  | 97 => ⟨S14x16x32, .f32⟩
  | 98 => ⟨S_, .i32⟩
  | 99 => ⟨S1, .i32⟩
  | 100 => ⟨S14x16x32, .f32⟩
  | 101 => ⟨S224x32, .f32⟩
  | 102 => ⟨S_, .f32⟩
  | 103 => ⟨S14x16x32, .f32⟩
  | 104 => ⟨S_, .i32⟩
  | 105 => ⟨S1, .i32⟩
  | 106 => ⟨S14x16x32, .f32⟩
  | 107 => ⟨S224x32, .f32⟩
  | 108 => ⟨S_, .f32⟩
  | 109 => ⟨S14x16x32, .f32⟩
  | 110 => ⟨S_, .i32⟩
  | 111 => ⟨S1, .i32⟩
  | 112 => ⟨S14x16x32, .f32⟩
  | 113 => ⟨S224x32, .f32⟩
  | 114 => ⟨S_, .f32⟩
  | 115 => ⟨S14x16x32, .f32⟩
  | 116 => ⟨S_, .i32⟩
  | 117 => ⟨S1, .i32⟩
  | 118 => ⟨S14x16x32, .f32⟩
  | 119 => ⟨S224x32, .f32⟩
  | 120 => ⟨S_, .f32⟩
  | 121 => ⟨S14x16x32, .f32⟩
  | 122 => ⟨S_, .i32⟩
  | 123 => ⟨S1, .i32⟩
  | 124 => ⟨S14x16x32, .f32⟩
  | 125 => ⟨S224x32, .f32⟩
  | 126 => ⟨S224x384, .f32⟩
  | 127 => ⟨S1x32, .f32⟩
  | _ => ⟨S3x3x16x32, .f32⟩

abbrev hbmTy0_3 (i : Nat) : BufTy := match i % 128 with
  | 0 => ⟨S12x32, .f32⟩
  | 1 => ⟨S384, .f32⟩
  | 2 => ⟨S_, .i32⟩
  | 3 => ⟨S_, .f32⟩
  | 4 => ⟨S224x384, .f32⟩
  | 5 => ⟨S_, .i32⟩
  | 6 => ⟨S_, .f32⟩
  | 7 => ⟨S384, .f32⟩
  | 8 => ⟨S1x3x16x32, .f32⟩
  | 9 => ⟨S3x16x32, .f32⟩
  | 10 => ⟨S1x32, .f32⟩
  | 11 => ⟨S32, .f32⟩
  | 12 => ⟨S_, .f32⟩
  | 13 => ⟨S14x16x32, .f32⟩
  | 14 => ⟨S_, .i32⟩
  | 15 => ⟨S1, .i32⟩
  | 16 => ⟨S14x16x32, .f32⟩
  | 17 => ⟨S224x32, .f32⟩
  | 18 => ⟨S_, .f32⟩
  | 19 => ⟨S14x16x32, .f32⟩
  | 20 => ⟨S_, .i32⟩
  | 21 => ⟨S1, .i32⟩
  | 22 => ⟨S14x16x32, .f32⟩
  | 23 => ⟨S224x32, .f32⟩
  | 24 => ⟨S_, .f32⟩
  | 25 => ⟨S14x16x32, .f32⟩
  | 26 => ⟨S_, .i32⟩
  | 27 => ⟨S1, .i32⟩
  | 28 => ⟨S14x16x32, .f32⟩
  | 29 => ⟨S224x32, .f32⟩
  | 30 => ⟨S_, .f32⟩
  | 31 => ⟨S14x16x32, .f32⟩
  | 32 => ⟨S_, .i32⟩
  | 33 => ⟨S1, .i32⟩
  | 34 => ⟨S14x16x32, .f32⟩
  | 35 => ⟨S224x32, .f32⟩
  | 36 => ⟨S_, .f32⟩
  | 37 => ⟨S14x16x32, .f32⟩
  | 38 => ⟨S_, .i32⟩
  | 39 => ⟨S1, .i32⟩
  | 40 => ⟨S14x16x32, .f32⟩
  | 41 => ⟨S224x32, .f32⟩
  | 42 => ⟨S_, .f32⟩
  | 43 => ⟨S14x16x32, .f32⟩
  | 44 => ⟨S_, .i32⟩
  | 45 => ⟨S1, .i32⟩
  | 46 => ⟨S14x16x32, .f32⟩
  | 47 => ⟨S224x32, .f32⟩
  | 48 => ⟨S_, .f32⟩
  | 49 => ⟨S14x16x32, .f32⟩
  | 50 => ⟨S_, .i32⟩
  | 51 => ⟨S1, .i32⟩
  | 52 => ⟨S14x16x32, .f32⟩
  | 53 => ⟨S224x32, .f32⟩
  | 54 => ⟨S_, .f32⟩
  | 55 => ⟨S14x16x32, .f32⟩
  | 56 => ⟨S_, .i32⟩
  | 57 => ⟨S1, .i32⟩
  | 58 => ⟨S14x16x32, .f32⟩
  | 59 => ⟨S224x32, .f32⟩
  | 60 => ⟨S_, .f32⟩
  | 61 => ⟨S14x16x32, .f32⟩
  | 62 => ⟨S_, .i32⟩
  | 63 => ⟨S1, .i32⟩
  | 64 => ⟨S14x16x32, .f32⟩
  | 65 => ⟨S224x32, .f32⟩
  | 66 => ⟨S_, .f32⟩
  | 67 => ⟨S14x16x32, .f32⟩
  | 68 => ⟨S_, .i32⟩
  | 69 => ⟨S1, .i32⟩
  | 70 => ⟨S14x16x32, .f32⟩
  | 71 => ⟨S224x32, .f32⟩
  | 72 => ⟨S_, .f32⟩
  | 73 => ⟨S14x16x32, .f32⟩
  | 74 => ⟨S_, .i32⟩
  | 75 => ⟨S1, .i32⟩
  | 76 => ⟨S14x16x32, .f32⟩
  | 77 => ⟨S224x32, .f32⟩
  | 78 => ⟨S_, .f32⟩
  | 79 => ⟨S14x16x32, .f32⟩
  | 80 => ⟨S_, .i32⟩
  | 81 => ⟨S1, .i32⟩
  | 82 => ⟨S14x16x32, .f32⟩
  | 83 => ⟨S224x32, .f32⟩
  | 84 => ⟨S224x384, .f32⟩
  | 85 => ⟨S1x32, .f32⟩
  | 86 => ⟨S12x32, .f32⟩
  | 87 => ⟨S384, .f32⟩
  | 88 => ⟨S_, .i32⟩
  | 89 => ⟨S_, .f32⟩
  | 90 => ⟨S224x384, .f32⟩
  | 91 => ⟨S_, .i32⟩
  | 92 => ⟨S_, .f32⟩
  | 93 => ⟨S384, .f32⟩
  | 94 => ⟨S1x3x16x32, .f32⟩
  | 95 => ⟨S3x16x32, .f32⟩
  | 96 => ⟨S1x32, .f32⟩
  | 97 => ⟨S32, .f32⟩
  | 98 => ⟨S_, .f32⟩
  | 99 => ⟨S14x16x32, .f32⟩
  | 100 => ⟨S_, .i32⟩
  | 101 => ⟨S1, .i32⟩
  | 102 => ⟨S14x16x32, .f32⟩
  | 103 => ⟨S224x32, .f32⟩
  | 104 => ⟨S_, .f32⟩
  | 105 => ⟨S14x16x32, .f32⟩
  | 106 => ⟨S_, .i32⟩
  | 107 => ⟨S1, .i32⟩
  | 108 => ⟨S14x16x32, .f32⟩
  | 109 => ⟨S224x32, .f32⟩
  | 110 => ⟨S_, .f32⟩
  | 111 => ⟨S14x16x32, .f32⟩
  | 112 => ⟨S_, .i32⟩
  | 113 => ⟨S1, .i32⟩
  | 114 => ⟨S14x16x32, .f32⟩
  | 115 => ⟨S224x32, .f32⟩
  | 116 => ⟨S_, .f32⟩
  | 117 => ⟨S14x16x32, .f32⟩
  | 118 => ⟨S_, .i32⟩
  | 119 => ⟨S1, .i32⟩
  | 120 => ⟨S14x16x32, .f32⟩
  | 121 => ⟨S224x32, .f32⟩
  | 122 => ⟨S_, .f32⟩
  | 123 => ⟨S14x16x32, .f32⟩
  | 124 => ⟨S_, .i32⟩
  | 125 => ⟨S1, .i32⟩
  | 126 => ⟨S14x16x32, .f32⟩
  | 127 => ⟨S224x32, .f32⟩
  | _ => ⟨S3x3x16x32, .f32⟩

abbrev hbmTy0_4 (i : Nat) : BufTy := match i % 128 with
  | 0 => ⟨S_, .f32⟩
  | 1 => ⟨S14x16x32, .f32⟩
  | 2 => ⟨S_, .i32⟩
  | 3 => ⟨S1, .i32⟩
  | 4 => ⟨S14x16x32, .f32⟩
  | 5 => ⟨S224x32, .f32⟩
  | 6 => ⟨S_, .f32⟩
  | 7 => ⟨S14x16x32, .f32⟩
  | 8 => ⟨S_, .i32⟩
  | 9 => ⟨S1, .i32⟩
  | 10 => ⟨S14x16x32, .f32⟩
  | 11 => ⟨S224x32, .f32⟩
  | 12 => ⟨S_, .f32⟩
  | 13 => ⟨S14x16x32, .f32⟩
  | 14 => ⟨S_, .i32⟩
  | 15 => ⟨S1, .i32⟩
  | 16 => ⟨S14x16x32, .f32⟩
  | 17 => ⟨S224x32, .f32⟩
  | 18 => ⟨S_, .f32⟩
  | 19 => ⟨S14x16x32, .f32⟩
  | 20 => ⟨S_, .i32⟩
  | 21 => ⟨S1, .i32⟩
  | 22 => ⟨S14x16x32, .f32⟩
  | 23 => ⟨S224x32, .f32⟩
  | 24 => ⟨S_, .f32⟩
  | 25 => ⟨S14x16x32, .f32⟩
  | 26 => ⟨S_, .i32⟩
  | 27 => ⟨S1, .i32⟩
  | 28 => ⟨S14x16x32, .f32⟩
  | 29 => ⟨S224x32, .f32⟩
  | 30 => ⟨S_, .f32⟩
  | 31 => ⟨S14x16x32, .f32⟩
  | 32 => ⟨S_, .i32⟩
  | 33 => ⟨S1, .i32⟩
  | 34 => ⟨S14x16x32, .f32⟩
  | 35 => ⟨S224x32, .f32⟩
  | 36 => ⟨S_, .f32⟩
  | 37 => ⟨S14x16x32, .f32⟩
  | 38 => ⟨S_, .i32⟩
  | 39 => ⟨S1, .i32⟩
  | 40 => ⟨S14x16x32, .f32⟩
  | 41 => ⟨S224x32, .f32⟩
  | 42 => ⟨S224x384, .f32⟩
  | 43 => ⟨S1x32, .f32⟩
  | 44 => ⟨S12x32, .f32⟩
  | 45 => ⟨S384, .f32⟩
  | 46 => ⟨S_, .i32⟩
  | 47 => ⟨S_, .f32⟩
  | 48 => ⟨S224x384, .f32⟩
  | 49 => ⟨S_, .i32⟩
  | 50 => ⟨S_, .f32⟩
  | 51 => ⟨S384, .f32⟩
  | 52 => ⟨S224x1152, .f32⟩
  | 53 => ⟨S1152, .f32⟩
  | 54 => ⟨S1x1152, .f32⟩
  | 55 => ⟨S14x14, .i32⟩
  | 56 => ⟨S14x14, .i32⟩
  | 57 => ⟨S_, .i32⟩
  | 58 => ⟨S14x14, .i32⟩
  | 59 => ⟨S14x14, .i32⟩
  | 60 => ⟨S14x14, .i1⟩
  | 61 => ⟨S14x14, .f32⟩
  | 62 => ⟨S14x1x14x1, .f32⟩
  | 63 => ⟨S1x32x1x16, .f32⟩
  | 64 => ⟨S14x32x14x16, .f32⟩
  | 65 => ⟨S14x32x14x16, .f32⟩
  | 66 => ⟨S14x32x14x16, .f32⟩
  | 67 => ⟨S448x224, .f32⟩
  | 68 => ⟨S_, .i32⟩
  | 69 => ⟨S_, .f32⟩
  | 70 => ⟨S512x224, .f32⟩
  | 71 => ⟨S8x8, .i32⟩
  | 72 => ⟨S8x8, .i32⟩
  | 73 => ⟨S_, .i32⟩
  | 74 => ⟨S8x8, .i32⟩
  | 75 => ⟨S8x8, .i32⟩
  | 76 => ⟨S8x8, .i1⟩
  | 77 => ⟨S8x8, .f32⟩
  | 78 => ⟨S8x1x8x1, .f32⟩
  | 79 => ⟨S1x128x1x128, .f32⟩
  | 80 => ⟨S8x128x8x128, .f32⟩
  | 81 => ⟨S8x128x8x128, .f32⟩
  | 82 => ⟨S8x128x8x128, .f32⟩
  | 83 => ⟨S1024x1024, .f32⟩
  | 84 => ⟨S256x128x256, .f32⟩
  | 85 => ⟨S256x128x384, .f32⟩
  | 86 => ⟨S256x128x1, .f32⟩
  | 87 => ⟨S256x128x1, .f32⟩
  | 88 => ⟨S256x128, .f32⟩
  | 89 => ⟨S_, .f32⟩
  | 90 => ⟨S128, .f32⟩
  | 91 => ⟨S_, .f32⟩
  | 92 => ⟨S128, .f32⟩
  | 93 => ⟨S128, .f32⟩
  | 94 => ⟨S256x128, .f32⟩
  | 95 => ⟨S_, .f32⟩
  | 96 => ⟨S128, .f32⟩
  | 97 => ⟨S_, .f32⟩
  | 98 => ⟨S128, .f32⟩
  | 99 => ⟨S128, .f32⟩
  | 100 => ⟨S128, .f32⟩
  | 101 => ⟨S128, .f32⟩
  | 102 => ⟨S_, .f32⟩
  | 103 => ⟨S128, .f32⟩
  | 104 => ⟨S128, .f32⟩
  | 105 => ⟨S_, .f32⟩
  | 106 => ⟨S128, .f32⟩
  | 107 => ⟨S128, .f32⟩
  | 108 => ⟨S128, .f32⟩
  | 109 => ⟨S128, .f32⟩
  | 110 => ⟨S128, .f32⟩
  | 111 => ⟨S128x1, .f32⟩
  | 112 => ⟨S128, .f32⟩
  | 113 => ⟨S128, .f32⟩
  | 114 => ⟨S128, .f32⟩
  | 115 => ⟨S128, .f32⟩
  | 116 => ⟨S128x1, .f32⟩
  | 117 => ⟨S256x128x384, .f32⟩
  | 118 => ⟨S256x128x12x32, .f32⟩
  | _ => ⟨S3x3x16x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S3x3x16x32, .f32⟩

abbrev bufTy : (tb : Table) → Fin (tcTables nBuf tb) → BufTy
  | .hbm, ⟨i, _⟩ => hbmTy i
  | .local _ .vmem, ⟨0, _⟩ => ⟨S8x128x256, .f32⟩
  | .local _ .vmem, ⟨1, _⟩ => ⟨S8x128x256, .f32⟩
  | .local _ .vmem, ⟨2, _⟩ => ⟨S1024x1024, .f32⟩
  | .local _ .vmem, ⟨3, _⟩ => ⟨S256x1536, .f32⟩
  | .local _ .vmem, ⟨4, _⟩ => ⟨S1x1536, .f32⟩
  | .local _ .vmem, ⟨5, _⟩ => ⟨S512x224, .f32⟩
  | .local _ .vmem, ⟨6, _⟩ => ⟨S224x1152, .f32⟩
  | .local _ .vmem, ⟨7, _⟩ => ⟨S1x1152, .f32⟩
  | .local _ .vmem, ⟨8, _⟩ => ⟨S8x128x384, .f32⟩
  | .local _ .vmem, ⟨9, _⟩ => ⟨S8x128x384, .f32⟩
  | .local _ .vmem, ⟨10, _⟩ => ⟨S8x128x1, .f32⟩
  | .local _ .vmem, ⟨11, _⟩ => ⟨S8x128x1, .f32⟩
  | .local _ .vmem, ⟨12, _⟩ => ⟨S8x128x1, .f32⟩
  | .local _ .vmem, ⟨13, _⟩ => ⟨S8x128x1, .f32⟩
  | .local _ .vmem, ⟨14, _⟩ => ⟨S8x128x384, .f32⟩
  | .local _ .vmem, ⟨15, _⟩ => ⟨S8x128x384, .f32⟩
  | .local _ .vmem, ⟨16, _⟩ => ⟨S128x1, .f32⟩
  | .local _ .vmem, ⟨17, _⟩ => ⟨S128x1, .f32⟩
  | .local _ .vmem, ⟨18, _⟩ => ⟨S8x128x384, .f32⟩
  | .local _ .vmem, ⟨19, _⟩ => ⟨S8x128x384, .f32⟩
  | _, _ => ⟨S3x3x16x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_c_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_c_5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_6 : Ref sig .tc := ⟨.hbm, 37, rfl⟩
abbrev main_v20 : Ref sig .tc := ⟨.hbm, 38, rfl⟩
abbrev main_c_7 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_8 : Ref sig .tc := ⟨.hbm, 43, rfl⟩
abbrev main_v24 : Ref sig .tc := ⟨.hbm, 44, rfl⟩
abbrev main_c_9 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_10 : Ref sig .tc := ⟨.hbm, 49, rfl⟩
abbrev main_v28 : Ref sig .tc := ⟨.hbm, 50, rfl⟩
abbrev main_c_11 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_12 : Ref sig .tc := ⟨.hbm, 55, rfl⟩
abbrev main_v32 : Ref sig .tc := ⟨.hbm, 56, rfl⟩
abbrev main_c_13 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_14 : Ref sig .tc := ⟨.hbm, 61, rfl⟩
abbrev main_v36 : Ref sig .tc := ⟨.hbm, 62, rfl⟩
abbrev main_c_15 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_16 : Ref sig .tc := ⟨.hbm, 67, rfl⟩
abbrev main_v40 : Ref sig .tc := ⟨.hbm, 68, rfl⟩
abbrev main_c_17 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_18 : Ref sig .tc := ⟨.hbm, 73, rfl⟩
abbrev main_v44 : Ref sig .tc := ⟨.hbm, 74, rfl⟩
abbrev main_c_19 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_20 : Ref sig .tc := ⟨.hbm, 79, rfl⟩
abbrev main_v48 : Ref sig .tc := ⟨.hbm, 80, rfl⟩
abbrev main_c_21 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_22 : Ref sig .tc := ⟨.hbm, 85, rfl⟩
abbrev main_v52 : Ref sig .tc := ⟨.hbm, 86, rfl⟩
abbrev main_c_23 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_24 : Ref sig .tc := ⟨.hbm, 91, rfl⟩
abbrev main_v56 : Ref sig .tc := ⟨.hbm, 92, rfl⟩
abbrev main_c_25 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_c_26 : Ref sig .tc := ⟨.hbm, 101, rfl⟩
abbrev main_call0_v0 : Ref sig .tc := ⟨.hbm, 102, rfl⟩
abbrev main_v64 : Ref sig .tc := ⟨.hbm, 103, rfl⟩
abbrev main_c_27 : Ref sig .tc := ⟨.hbm, 104, rfl⟩
abbrev main_call1_v0 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_28 : Ref sig .tc := ⟨.hbm, 111, rfl⟩
abbrev main_v70 : Ref sig .tc := ⟨.hbm, 112, rfl⟩
abbrev main_c_29 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_cst_30 : Ref sig .tc := ⟨.hbm, 117, rfl⟩
abbrev main_v74 : Ref sig .tc := ⟨.hbm, 118, rfl⟩
abbrev main_c_31 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_cst_32 : Ref sig .tc := ⟨.hbm, 123, rfl⟩
abbrev main_v78 : Ref sig .tc := ⟨.hbm, 124, rfl⟩
abbrev main_c_33 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_cst_34 : Ref sig .tc := ⟨.hbm, 129, rfl⟩
abbrev main_v82 : Ref sig .tc := ⟨.hbm, 130, rfl⟩
abbrev main_c_35 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_cst_36 : Ref sig .tc := ⟨.hbm, 135, rfl⟩
abbrev main_v86 : Ref sig .tc := ⟨.hbm, 136, rfl⟩
abbrev main_c_37 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_cst_38 : Ref sig .tc := ⟨.hbm, 141, rfl⟩
abbrev main_v90 : Ref sig .tc := ⟨.hbm, 142, rfl⟩
abbrev main_c_39 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_cst_40 : Ref sig .tc := ⟨.hbm, 147, rfl⟩
abbrev main_v94 : Ref sig .tc := ⟨.hbm, 148, rfl⟩
abbrev main_c_41 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_cst_42 : Ref sig .tc := ⟨.hbm, 153, rfl⟩
abbrev main_v98 : Ref sig .tc := ⟨.hbm, 154, rfl⟩
abbrev main_c_43 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_cst_44 : Ref sig .tc := ⟨.hbm, 159, rfl⟩
abbrev main_v102 : Ref sig .tc := ⟨.hbm, 160, rfl⟩
abbrev main_c_45 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_cst_46 : Ref sig .tc := ⟨.hbm, 165, rfl⟩
abbrev main_v106 : Ref sig .tc := ⟨.hbm, 166, rfl⟩
abbrev main_c_47 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_cst_48 : Ref sig .tc := ⟨.hbm, 171, rfl⟩
abbrev main_v110 : Ref sig .tc := ⟨.hbm, 172, rfl⟩
abbrev main_c_49 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_cst_50 : Ref sig .tc := ⟨.hbm, 177, rfl⟩
abbrev main_v114 : Ref sig .tc := ⟨.hbm, 178, rfl⟩
abbrev main_c_51 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_cst_52 : Ref sig .tc := ⟨.hbm, 183, rfl⟩
abbrev main_v118 : Ref sig .tc := ⟨.hbm, 184, rfl⟩
abbrev main_c_53 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_cst_54 : Ref sig .tc := ⟨.hbm, 189, rfl⟩
abbrev main_v122 : Ref sig .tc := ⟨.hbm, 190, rfl⟩
abbrev main_c_55 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_c_56 : Ref sig .tc := ⟨.hbm, 199, rfl⟩
abbrev main_call2_v0 : Ref sig .tc := ⟨.hbm, 200, rfl⟩
abbrev main_v130 : Ref sig .tc := ⟨.hbm, 201, rfl⟩
abbrev main_c_57 : Ref sig .tc := ⟨.hbm, 202, rfl⟩
abbrev main_call3_v0 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_cst_58 : Ref sig .tc := ⟨.hbm, 209, rfl⟩
abbrev main_v136 : Ref sig .tc := ⟨.hbm, 210, rfl⟩
abbrev main_c_59 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_cst_60 : Ref sig .tc := ⟨.hbm, 215, rfl⟩
abbrev main_v140 : Ref sig .tc := ⟨.hbm, 216, rfl⟩
abbrev main_c_61 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_cst_62 : Ref sig .tc := ⟨.hbm, 221, rfl⟩
abbrev main_v144 : Ref sig .tc := ⟨.hbm, 222, rfl⟩
abbrev main_c_63 : Ref sig .tc := ⟨.hbm, 223, rfl⟩
abbrev main_v145 : Ref sig .tc := ⟨.hbm, 224, rfl⟩
abbrev main_v146 : Ref sig .tc := ⟨.hbm, 225, rfl⟩
abbrev main_v147 : Ref sig .tc := ⟨.hbm, 226, rfl⟩
abbrev main_cst_64 : Ref sig .tc := ⟨.hbm, 227, rfl⟩
abbrev main_v148 : Ref sig .tc := ⟨.hbm, 228, rfl⟩
abbrev main_c_65 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_cst_66 : Ref sig .tc := ⟨.hbm, 233, rfl⟩
abbrev main_v152 : Ref sig .tc := ⟨.hbm, 234, rfl⟩
abbrev main_c_67 : Ref sig .tc := ⟨.hbm, 235, rfl⟩
abbrev main_v153 : Ref sig .tc := ⟨.hbm, 236, rfl⟩
abbrev main_v154 : Ref sig .tc := ⟨.hbm, 237, rfl⟩
abbrev main_v155 : Ref sig .tc := ⟨.hbm, 238, rfl⟩
abbrev main_cst_68 : Ref sig .tc := ⟨.hbm, 239, rfl⟩
abbrev main_v156 : Ref sig .tc := ⟨.hbm, 240, rfl⟩
abbrev main_c_69 : Ref sig .tc := ⟨.hbm, 241, rfl⟩
abbrev main_v157 : Ref sig .tc := ⟨.hbm, 242, rfl⟩
abbrev main_v158 : Ref sig .tc := ⟨.hbm, 243, rfl⟩
abbrev main_v159 : Ref sig .tc := ⟨.hbm, 244, rfl⟩
abbrev main_cst_70 : Ref sig .tc := ⟨.hbm, 245, rfl⟩
abbrev main_v160 : Ref sig .tc := ⟨.hbm, 246, rfl⟩
abbrev main_c_71 : Ref sig .tc := ⟨.hbm, 247, rfl⟩
abbrev main_v161 : Ref sig .tc := ⟨.hbm, 248, rfl⟩
abbrev main_v162 : Ref sig .tc := ⟨.hbm, 249, rfl⟩
abbrev main_v163 : Ref sig .tc := ⟨.hbm, 250, rfl⟩
abbrev main_cst_72 : Ref sig .tc := ⟨.hbm, 251, rfl⟩
abbrev main_v164 : Ref sig .tc := ⟨.hbm, 252, rfl⟩
abbrev main_c_73 : Ref sig .tc := ⟨.hbm, 253, rfl⟩
abbrev main_v165 : Ref sig .tc := ⟨.hbm, 254, rfl⟩
abbrev main_v166 : Ref sig .tc := ⟨.hbm, 255, rfl⟩
abbrev main_v167 : Ref sig .tc := ⟨.hbm, 256, rfl⟩
abbrev main_cst_74 : Ref sig .tc := ⟨.hbm, 257, rfl⟩
abbrev main_v168 : Ref sig .tc := ⟨.hbm, 258, rfl⟩
abbrev main_c_75 : Ref sig .tc := ⟨.hbm, 259, rfl⟩
abbrev main_v169 : Ref sig .tc := ⟨.hbm, 260, rfl⟩
abbrev main_v170 : Ref sig .tc := ⟨.hbm, 261, rfl⟩
abbrev main_v171 : Ref sig .tc := ⟨.hbm, 262, rfl⟩
abbrev main_cst_76 : Ref sig .tc := ⟨.hbm, 263, rfl⟩
abbrev main_v172 : Ref sig .tc := ⟨.hbm, 264, rfl⟩
abbrev main_c_77 : Ref sig .tc := ⟨.hbm, 265, rfl⟩
abbrev main_v173 : Ref sig .tc := ⟨.hbm, 266, rfl⟩
abbrev main_v174 : Ref sig .tc := ⟨.hbm, 267, rfl⟩
abbrev main_v175 : Ref sig .tc := ⟨.hbm, 268, rfl⟩
abbrev main_cst_78 : Ref sig .tc := ⟨.hbm, 269, rfl⟩
abbrev main_v176 : Ref sig .tc := ⟨.hbm, 270, rfl⟩
abbrev main_c_79 : Ref sig .tc := ⟨.hbm, 271, rfl⟩
abbrev main_v177 : Ref sig .tc := ⟨.hbm, 272, rfl⟩
abbrev main_v178 : Ref sig .tc := ⟨.hbm, 273, rfl⟩
abbrev main_v179 : Ref sig .tc := ⟨.hbm, 274, rfl⟩
abbrev main_cst_80 : Ref sig .tc := ⟨.hbm, 275, rfl⟩
abbrev main_v180 : Ref sig .tc := ⟨.hbm, 276, rfl⟩
abbrev main_c_81 : Ref sig .tc := ⟨.hbm, 277, rfl⟩
abbrev main_v181 : Ref sig .tc := ⟨.hbm, 278, rfl⟩
abbrev main_v182 : Ref sig .tc := ⟨.hbm, 279, rfl⟩
abbrev main_v183 : Ref sig .tc := ⟨.hbm, 280, rfl⟩
abbrev main_cst_82 : Ref sig .tc := ⟨.hbm, 281, rfl⟩
abbrev main_v184 : Ref sig .tc := ⟨.hbm, 282, rfl⟩
abbrev main_c_83 : Ref sig .tc := ⟨.hbm, 283, rfl⟩
abbrev main_v185 : Ref sig .tc := ⟨.hbm, 284, rfl⟩
abbrev main_v186 : Ref sig .tc := ⟨.hbm, 285, rfl⟩
abbrev main_v187 : Ref sig .tc := ⟨.hbm, 286, rfl⟩
abbrev main_cst_84 : Ref sig .tc := ⟨.hbm, 287, rfl⟩
abbrev main_v188 : Ref sig .tc := ⟨.hbm, 288, rfl⟩
abbrev main_c_85 : Ref sig .tc := ⟨.hbm, 289, rfl⟩
abbrev main_v189 : Ref sig .tc := ⟨.hbm, 290, rfl⟩
abbrev main_v190 : Ref sig .tc := ⟨.hbm, 291, rfl⟩
abbrev main_v191 : Ref sig .tc := ⟨.hbm, 292, rfl⟩
abbrev main_v192 : Ref sig .tc := ⟨.hbm, 293, rfl⟩
abbrev main_v193 : Ref sig .tc := ⟨.hbm, 294, rfl⟩
abbrev main_v194 : Ref sig .tc := ⟨.hbm, 295, rfl⟩
abbrev main_v195 : Ref sig .tc := ⟨.hbm, 296, rfl⟩
abbrev main_c_86 : Ref sig .tc := ⟨.hbm, 297, rfl⟩
abbrev main_call4_v0 : Ref sig .tc := ⟨.hbm, 298, rfl⟩
abbrev main_v196 : Ref sig .tc := ⟨.hbm, 299, rfl⟩
abbrev main_c_87 : Ref sig .tc := ⟨.hbm, 300, rfl⟩
abbrev main_call5_v0 : Ref sig .tc := ⟨.hbm, 301, rfl⟩
abbrev main_v197 : Ref sig .tc := ⟨.hbm, 302, rfl⟩
abbrev main_v198 : Ref sig .tc := ⟨.hbm, 303, rfl⟩
abbrev main_v199 : Ref sig .tc := ⟨.hbm, 304, rfl⟩
abbrev main_v200 : Ref sig .tc := ⟨.hbm, 305, rfl⟩
abbrev main_v201 : Ref sig .tc := ⟨.hbm, 306, rfl⟩
abbrev main_v202 : Ref sig .tc := ⟨.hbm, 307, rfl⟩
abbrev main_v203 : Ref sig .tc := ⟨.hbm, 308, rfl⟩
abbrev main_v204 : Ref sig .tc := ⟨.hbm, 309, rfl⟩
abbrev main_cst_88 : Ref sig .tc := ⟨.hbm, 310, rfl⟩
abbrev main_v205 : Ref sig .tc := ⟨.hbm, 311, rfl⟩
abbrev main_c_89 : Ref sig .tc := ⟨.hbm, 312, rfl⟩
abbrev main_v206 : Ref sig .tc := ⟨.hbm, 313, rfl⟩
abbrev main_v207 : Ref sig .tc := ⟨.hbm, 314, rfl⟩
abbrev main_v208 : Ref sig .tc := ⟨.hbm, 315, rfl⟩
abbrev main_cst_90 : Ref sig .tc := ⟨.hbm, 316, rfl⟩
abbrev main_v209 : Ref sig .tc := ⟨.hbm, 317, rfl⟩
abbrev main_c_91 : Ref sig .tc := ⟨.hbm, 318, rfl⟩
abbrev main_v210 : Ref sig .tc := ⟨.hbm, 319, rfl⟩
abbrev main_v211 : Ref sig .tc := ⟨.hbm, 320, rfl⟩
abbrev main_v212 : Ref sig .tc := ⟨.hbm, 321, rfl⟩
abbrev main_cst_92 : Ref sig .tc := ⟨.hbm, 322, rfl⟩
abbrev main_v213 : Ref sig .tc := ⟨.hbm, 323, rfl⟩
abbrev main_c_93 : Ref sig .tc := ⟨.hbm, 324, rfl⟩
abbrev main_v214 : Ref sig .tc := ⟨.hbm, 325, rfl⟩
abbrev main_v215 : Ref sig .tc := ⟨.hbm, 326, rfl⟩
abbrev main_v216 : Ref sig .tc := ⟨.hbm, 327, rfl⟩
abbrev main_cst_94 : Ref sig .tc := ⟨.hbm, 328, rfl⟩
abbrev main_v217 : Ref sig .tc := ⟨.hbm, 329, rfl⟩
abbrev main_c_95 : Ref sig .tc := ⟨.hbm, 330, rfl⟩
abbrev main_v218 : Ref sig .tc := ⟨.hbm, 331, rfl⟩
abbrev main_v219 : Ref sig .tc := ⟨.hbm, 332, rfl⟩
abbrev main_v220 : Ref sig .tc := ⟨.hbm, 333, rfl⟩
abbrev main_cst_96 : Ref sig .tc := ⟨.hbm, 334, rfl⟩
abbrev main_v221 : Ref sig .tc := ⟨.hbm, 335, rfl⟩
abbrev main_c_97 : Ref sig .tc := ⟨.hbm, 336, rfl⟩
abbrev main_v222 : Ref sig .tc := ⟨.hbm, 337, rfl⟩
abbrev main_v223 : Ref sig .tc := ⟨.hbm, 338, rfl⟩
abbrev main_v224 : Ref sig .tc := ⟨.hbm, 339, rfl⟩
abbrev main_cst_98 : Ref sig .tc := ⟨.hbm, 340, rfl⟩
abbrev main_v225 : Ref sig .tc := ⟨.hbm, 341, rfl⟩
abbrev main_c_99 : Ref sig .tc := ⟨.hbm, 342, rfl⟩
abbrev main_v226 : Ref sig .tc := ⟨.hbm, 343, rfl⟩
abbrev main_v227 : Ref sig .tc := ⟨.hbm, 344, rfl⟩
abbrev main_v228 : Ref sig .tc := ⟨.hbm, 345, rfl⟩
abbrev main_cst_100 : Ref sig .tc := ⟨.hbm, 346, rfl⟩
abbrev main_v229 : Ref sig .tc := ⟨.hbm, 347, rfl⟩
abbrev main_c_101 : Ref sig .tc := ⟨.hbm, 348, rfl⟩
abbrev main_v230 : Ref sig .tc := ⟨.hbm, 349, rfl⟩
abbrev main_v231 : Ref sig .tc := ⟨.hbm, 350, rfl⟩
abbrev main_v232 : Ref sig .tc := ⟨.hbm, 351, rfl⟩
abbrev main_cst_102 : Ref sig .tc := ⟨.hbm, 352, rfl⟩
abbrev main_v233 : Ref sig .tc := ⟨.hbm, 353, rfl⟩
abbrev main_c_103 : Ref sig .tc := ⟨.hbm, 354, rfl⟩
abbrev main_v234 : Ref sig .tc := ⟨.hbm, 355, rfl⟩
abbrev main_v235 : Ref sig .tc := ⟨.hbm, 356, rfl⟩
abbrev main_v236 : Ref sig .tc := ⟨.hbm, 357, rfl⟩
abbrev main_cst_104 : Ref sig .tc := ⟨.hbm, 358, rfl⟩
abbrev main_v237 : Ref sig .tc := ⟨.hbm, 359, rfl⟩
abbrev main_c_105 : Ref sig .tc := ⟨.hbm, 360, rfl⟩
abbrev main_v238 : Ref sig .tc := ⟨.hbm, 361, rfl⟩
abbrev main_v239 : Ref sig .tc := ⟨.hbm, 362, rfl⟩
abbrev main_v240 : Ref sig .tc := ⟨.hbm, 363, rfl⟩
abbrev main_cst_106 : Ref sig .tc := ⟨.hbm, 364, rfl⟩
abbrev main_v241 : Ref sig .tc := ⟨.hbm, 365, rfl⟩
abbrev main_c_107 : Ref sig .tc := ⟨.hbm, 366, rfl⟩
abbrev main_v242 : Ref sig .tc := ⟨.hbm, 367, rfl⟩
abbrev main_v243 : Ref sig .tc := ⟨.hbm, 368, rfl⟩
abbrev main_v244 : Ref sig .tc := ⟨.hbm, 369, rfl⟩
abbrev main_cst_108 : Ref sig .tc := ⟨.hbm, 370, rfl⟩
abbrev main_v245 : Ref sig .tc := ⟨.hbm, 371, rfl⟩
abbrev main_c_109 : Ref sig .tc := ⟨.hbm, 372, rfl⟩
abbrev main_v246 : Ref sig .tc := ⟨.hbm, 373, rfl⟩
abbrev main_v247 : Ref sig .tc := ⟨.hbm, 374, rfl⟩
abbrev main_v248 : Ref sig .tc := ⟨.hbm, 375, rfl⟩
abbrev main_cst_110 : Ref sig .tc := ⟨.hbm, 376, rfl⟩
abbrev main_v249 : Ref sig .tc := ⟨.hbm, 377, rfl⟩
abbrev main_c_111 : Ref sig .tc := ⟨.hbm, 378, rfl⟩
abbrev main_v250 : Ref sig .tc := ⟨.hbm, 379, rfl⟩
abbrev main_v251 : Ref sig .tc := ⟨.hbm, 380, rfl⟩
abbrev main_v252 : Ref sig .tc := ⟨.hbm, 381, rfl⟩
abbrev main_v253 : Ref sig .tc := ⟨.hbm, 382, rfl⟩
abbrev main_v254 : Ref sig .tc := ⟨.hbm, 383, rfl⟩
abbrev main_v255 : Ref sig .tc := ⟨.hbm, 384, rfl⟩
abbrev main_v256 : Ref sig .tc := ⟨.hbm, 385, rfl⟩
abbrev main_c_112 : Ref sig .tc := ⟨.hbm, 386, rfl⟩
abbrev main_call6_v0 : Ref sig .tc := ⟨.hbm, 387, rfl⟩
abbrev main_v257 : Ref sig .tc := ⟨.hbm, 388, rfl⟩
abbrev main_c_113 : Ref sig .tc := ⟨.hbm, 389, rfl⟩
abbrev main_call7_v0 : Ref sig .tc := ⟨.hbm, 390, rfl⟩
abbrev main_v258 : Ref sig .tc := ⟨.hbm, 391, rfl⟩
abbrev main_v259 : Ref sig .tc := ⟨.hbm, 392, rfl⟩
abbrev main_v260 : Ref sig .tc := ⟨.hbm, 393, rfl⟩
abbrev main_v261 : Ref sig .tc := ⟨.hbm, 394, rfl⟩
abbrev main_v262 : Ref sig .tc := ⟨.hbm, 395, rfl⟩
abbrev main_cst_114 : Ref sig .tc := ⟨.hbm, 396, rfl⟩
abbrev main_v263 : Ref sig .tc := ⟨.hbm, 397, rfl⟩
abbrev main_c_115 : Ref sig .tc := ⟨.hbm, 398, rfl⟩
abbrev main_v264 : Ref sig .tc := ⟨.hbm, 399, rfl⟩
abbrev main_v265 : Ref sig .tc := ⟨.hbm, 400, rfl⟩
abbrev main_v266 : Ref sig .tc := ⟨.hbm, 401, rfl⟩
abbrev main_cst_116 : Ref sig .tc := ⟨.hbm, 402, rfl⟩
abbrev main_v267 : Ref sig .tc := ⟨.hbm, 403, rfl⟩
abbrev main_c_117 : Ref sig .tc := ⟨.hbm, 404, rfl⟩
abbrev main_v268 : Ref sig .tc := ⟨.hbm, 405, rfl⟩
abbrev main_v269 : Ref sig .tc := ⟨.hbm, 406, rfl⟩
abbrev main_v270 : Ref sig .tc := ⟨.hbm, 407, rfl⟩
abbrev main_cst_118 : Ref sig .tc := ⟨.hbm, 408, rfl⟩
abbrev main_v271 : Ref sig .tc := ⟨.hbm, 409, rfl⟩
abbrev main_c_119 : Ref sig .tc := ⟨.hbm, 410, rfl⟩
abbrev main_v272 : Ref sig .tc := ⟨.hbm, 411, rfl⟩
abbrev main_v273 : Ref sig .tc := ⟨.hbm, 412, rfl⟩
abbrev main_v274 : Ref sig .tc := ⟨.hbm, 413, rfl⟩
abbrev main_cst_120 : Ref sig .tc := ⟨.hbm, 414, rfl⟩
abbrev main_v275 : Ref sig .tc := ⟨.hbm, 415, rfl⟩
abbrev main_c_121 : Ref sig .tc := ⟨.hbm, 416, rfl⟩
abbrev main_v276 : Ref sig .tc := ⟨.hbm, 417, rfl⟩
abbrev main_v277 : Ref sig .tc := ⟨.hbm, 418, rfl⟩
abbrev main_v278 : Ref sig .tc := ⟨.hbm, 419, rfl⟩
abbrev main_cst_122 : Ref sig .tc := ⟨.hbm, 420, rfl⟩
abbrev main_v279 : Ref sig .tc := ⟨.hbm, 421, rfl⟩
abbrev main_c_123 : Ref sig .tc := ⟨.hbm, 422, rfl⟩
abbrev main_v280 : Ref sig .tc := ⟨.hbm, 423, rfl⟩
abbrev main_v281 : Ref sig .tc := ⟨.hbm, 424, rfl⟩
abbrev main_v282 : Ref sig .tc := ⟨.hbm, 425, rfl⟩
abbrev main_cst_124 : Ref sig .tc := ⟨.hbm, 426, rfl⟩
abbrev main_v283 : Ref sig .tc := ⟨.hbm, 427, rfl⟩
abbrev main_c_125 : Ref sig .tc := ⟨.hbm, 428, rfl⟩
abbrev main_v284 : Ref sig .tc := ⟨.hbm, 429, rfl⟩
abbrev main_v285 : Ref sig .tc := ⟨.hbm, 430, rfl⟩
abbrev main_v286 : Ref sig .tc := ⟨.hbm, 431, rfl⟩
abbrev main_cst_126 : Ref sig .tc := ⟨.hbm, 432, rfl⟩
abbrev main_v287 : Ref sig .tc := ⟨.hbm, 433, rfl⟩
abbrev main_c_127 : Ref sig .tc := ⟨.hbm, 434, rfl⟩
abbrev main_v288 : Ref sig .tc := ⟨.hbm, 435, rfl⟩
abbrev main_v289 : Ref sig .tc := ⟨.hbm, 436, rfl⟩
abbrev main_v290 : Ref sig .tc := ⟨.hbm, 437, rfl⟩
abbrev main_cst_128 : Ref sig .tc := ⟨.hbm, 438, rfl⟩
abbrev main_v291 : Ref sig .tc := ⟨.hbm, 439, rfl⟩
abbrev main_c_129 : Ref sig .tc := ⟨.hbm, 440, rfl⟩
abbrev main_v292 : Ref sig .tc := ⟨.hbm, 441, rfl⟩
abbrev main_v293 : Ref sig .tc := ⟨.hbm, 442, rfl⟩
abbrev main_v294 : Ref sig .tc := ⟨.hbm, 443, rfl⟩
abbrev main_cst_130 : Ref sig .tc := ⟨.hbm, 444, rfl⟩
abbrev main_v295 : Ref sig .tc := ⟨.hbm, 445, rfl⟩
abbrev main_c_131 : Ref sig .tc := ⟨.hbm, 446, rfl⟩
abbrev main_v296 : Ref sig .tc := ⟨.hbm, 447, rfl⟩
abbrev main_v297 : Ref sig .tc := ⟨.hbm, 448, rfl⟩
abbrev main_v298 : Ref sig .tc := ⟨.hbm, 449, rfl⟩
abbrev main_cst_132 : Ref sig .tc := ⟨.hbm, 450, rfl⟩
abbrev main_v299 : Ref sig .tc := ⟨.hbm, 451, rfl⟩
abbrev main_c_133 : Ref sig .tc := ⟨.hbm, 452, rfl⟩
abbrev main_v300 : Ref sig .tc := ⟨.hbm, 453, rfl⟩
abbrev main_v301 : Ref sig .tc := ⟨.hbm, 454, rfl⟩
abbrev main_v302 : Ref sig .tc := ⟨.hbm, 455, rfl⟩
abbrev main_cst_134 : Ref sig .tc := ⟨.hbm, 456, rfl⟩
abbrev main_v303 : Ref sig .tc := ⟨.hbm, 457, rfl⟩
abbrev main_c_135 : Ref sig .tc := ⟨.hbm, 458, rfl⟩
abbrev main_v304 : Ref sig .tc := ⟨.hbm, 459, rfl⟩
abbrev main_v305 : Ref sig .tc := ⟨.hbm, 460, rfl⟩
abbrev main_v306 : Ref sig .tc := ⟨.hbm, 461, rfl⟩
abbrev main_cst_136 : Ref sig .tc := ⟨.hbm, 462, rfl⟩
abbrev main_v307 : Ref sig .tc := ⟨.hbm, 463, rfl⟩
abbrev main_c_137 : Ref sig .tc := ⟨.hbm, 464, rfl⟩
abbrev main_v308 : Ref sig .tc := ⟨.hbm, 465, rfl⟩
abbrev main_v309 : Ref sig .tc := ⟨.hbm, 466, rfl⟩
abbrev main_v310 : Ref sig .tc := ⟨.hbm, 467, rfl⟩
abbrev main_v311 : Ref sig .tc := ⟨.hbm, 468, rfl⟩
abbrev main_v312 : Ref sig .tc := ⟨.hbm, 469, rfl⟩
abbrev main_v313 : Ref sig .tc := ⟨.hbm, 470, rfl⟩
abbrev main_v314 : Ref sig .tc := ⟨.hbm, 471, rfl⟩
abbrev main_c_138 : Ref sig .tc := ⟨.hbm, 472, rfl⟩
abbrev main_call8_v0 : Ref sig .tc := ⟨.hbm, 473, rfl⟩
abbrev main_v315 : Ref sig .tc := ⟨.hbm, 474, rfl⟩
abbrev main_c_139 : Ref sig .tc := ⟨.hbm, 475, rfl⟩
abbrev main_call9_v0 : Ref sig .tc := ⟨.hbm, 476, rfl⟩
abbrev main_v316 : Ref sig .tc := ⟨.hbm, 477, rfl⟩
abbrev main_v317 : Ref sig .tc := ⟨.hbm, 478, rfl⟩
abbrev main_v318 : Ref sig .tc := ⟨.hbm, 479, rfl⟩
abbrev main_v319 : Ref sig .tc := ⟨.hbm, 480, rfl⟩
abbrev main_v320 : Ref sig .tc := ⟨.hbm, 481, rfl⟩
abbrev main_cst_140 : Ref sig .tc := ⟨.hbm, 482, rfl⟩
abbrev main_v321 : Ref sig .tc := ⟨.hbm, 483, rfl⟩
abbrev main_c_141 : Ref sig .tc := ⟨.hbm, 484, rfl⟩
abbrev main_v322 : Ref sig .tc := ⟨.hbm, 485, rfl⟩
abbrev main_v323 : Ref sig .tc := ⟨.hbm, 486, rfl⟩
abbrev main_v324 : Ref sig .tc := ⟨.hbm, 487, rfl⟩
abbrev main_cst_142 : Ref sig .tc := ⟨.hbm, 488, rfl⟩
abbrev main_v325 : Ref sig .tc := ⟨.hbm, 489, rfl⟩
abbrev main_c_143 : Ref sig .tc := ⟨.hbm, 490, rfl⟩
abbrev main_v326 : Ref sig .tc := ⟨.hbm, 491, rfl⟩
abbrev main_v327 : Ref sig .tc := ⟨.hbm, 492, rfl⟩
abbrev main_v328 : Ref sig .tc := ⟨.hbm, 493, rfl⟩
abbrev main_cst_144 : Ref sig .tc := ⟨.hbm, 494, rfl⟩
abbrev main_v329 : Ref sig .tc := ⟨.hbm, 495, rfl⟩
abbrev main_c_145 : Ref sig .tc := ⟨.hbm, 496, rfl⟩
abbrev main_v330 : Ref sig .tc := ⟨.hbm, 497, rfl⟩
abbrev main_v331 : Ref sig .tc := ⟨.hbm, 498, rfl⟩
abbrev main_v332 : Ref sig .tc := ⟨.hbm, 499, rfl⟩
abbrev main_cst_146 : Ref sig .tc := ⟨.hbm, 500, rfl⟩
abbrev main_v333 : Ref sig .tc := ⟨.hbm, 501, rfl⟩
abbrev main_c_147 : Ref sig .tc := ⟨.hbm, 502, rfl⟩
abbrev main_v334 : Ref sig .tc := ⟨.hbm, 503, rfl⟩
abbrev main_v335 : Ref sig .tc := ⟨.hbm, 504, rfl⟩
abbrev main_v336 : Ref sig .tc := ⟨.hbm, 505, rfl⟩
abbrev main_cst_148 : Ref sig .tc := ⟨.hbm, 506, rfl⟩
abbrev main_v337 : Ref sig .tc := ⟨.hbm, 507, rfl⟩
abbrev main_c_149 : Ref sig .tc := ⟨.hbm, 508, rfl⟩
abbrev main_v338 : Ref sig .tc := ⟨.hbm, 509, rfl⟩
abbrev main_v339 : Ref sig .tc := ⟨.hbm, 510, rfl⟩
abbrev main_v340 : Ref sig .tc := ⟨.hbm, 511, rfl⟩
abbrev main_cst_150 : Ref sig .tc := ⟨.hbm, 512, rfl⟩
abbrev main_v341 : Ref sig .tc := ⟨.hbm, 513, rfl⟩
abbrev main_c_151 : Ref sig .tc := ⟨.hbm, 514, rfl⟩
abbrev main_v342 : Ref sig .tc := ⟨.hbm, 515, rfl⟩
abbrev main_v343 : Ref sig .tc := ⟨.hbm, 516, rfl⟩
abbrev main_v344 : Ref sig .tc := ⟨.hbm, 517, rfl⟩
abbrev main_cst_152 : Ref sig .tc := ⟨.hbm, 518, rfl⟩
abbrev main_v345 : Ref sig .tc := ⟨.hbm, 519, rfl⟩
abbrev main_c_153 : Ref sig .tc := ⟨.hbm, 520, rfl⟩
abbrev main_v346 : Ref sig .tc := ⟨.hbm, 521, rfl⟩
abbrev main_v347 : Ref sig .tc := ⟨.hbm, 522, rfl⟩
abbrev main_v348 : Ref sig .tc := ⟨.hbm, 523, rfl⟩
abbrev main_cst_154 : Ref sig .tc := ⟨.hbm, 524, rfl⟩
abbrev main_v349 : Ref sig .tc := ⟨.hbm, 525, rfl⟩
abbrev main_c_155 : Ref sig .tc := ⟨.hbm, 526, rfl⟩
abbrev main_v350 : Ref sig .tc := ⟨.hbm, 527, rfl⟩
abbrev main_v351 : Ref sig .tc := ⟨.hbm, 528, rfl⟩
abbrev main_v352 : Ref sig .tc := ⟨.hbm, 529, rfl⟩
abbrev main_cst_156 : Ref sig .tc := ⟨.hbm, 530, rfl⟩
abbrev main_v353 : Ref sig .tc := ⟨.hbm, 531, rfl⟩
abbrev main_c_157 : Ref sig .tc := ⟨.hbm, 532, rfl⟩
abbrev main_v354 : Ref sig .tc := ⟨.hbm, 533, rfl⟩
abbrev main_v355 : Ref sig .tc := ⟨.hbm, 534, rfl⟩
abbrev main_v356 : Ref sig .tc := ⟨.hbm, 535, rfl⟩
abbrev main_cst_158 : Ref sig .tc := ⟨.hbm, 536, rfl⟩
abbrev main_v357 : Ref sig .tc := ⟨.hbm, 537, rfl⟩
abbrev main_c_159 : Ref sig .tc := ⟨.hbm, 538, rfl⟩
abbrev main_v358 : Ref sig .tc := ⟨.hbm, 539, rfl⟩
abbrev main_v359 : Ref sig .tc := ⟨.hbm, 540, rfl⟩
abbrev main_v360 : Ref sig .tc := ⟨.hbm, 541, rfl⟩
abbrev main_cst_160 : Ref sig .tc := ⟨.hbm, 542, rfl⟩
abbrev main_v361 : Ref sig .tc := ⟨.hbm, 543, rfl⟩
abbrev main_c_161 : Ref sig .tc := ⟨.hbm, 544, rfl⟩
abbrev main_v362 : Ref sig .tc := ⟨.hbm, 545, rfl⟩
abbrev main_v363 : Ref sig .tc := ⟨.hbm, 546, rfl⟩
abbrev main_v364 : Ref sig .tc := ⟨.hbm, 547, rfl⟩
abbrev main_cst_162 : Ref sig .tc := ⟨.hbm, 548, rfl⟩
abbrev main_v365 : Ref sig .tc := ⟨.hbm, 549, rfl⟩
abbrev main_c_163 : Ref sig .tc := ⟨.hbm, 550, rfl⟩
abbrev main_v366 : Ref sig .tc := ⟨.hbm, 551, rfl⟩
abbrev main_v367 : Ref sig .tc := ⟨.hbm, 552, rfl⟩
abbrev main_v368 : Ref sig .tc := ⟨.hbm, 553, rfl⟩
abbrev main_v369 : Ref sig .tc := ⟨.hbm, 554, rfl⟩
abbrev main_v370 : Ref sig .tc := ⟨.hbm, 555, rfl⟩
abbrev main_v371 : Ref sig .tc := ⟨.hbm, 556, rfl⟩
abbrev main_v372 : Ref sig .tc := ⟨.hbm, 557, rfl⟩
abbrev main_c_164 : Ref sig .tc := ⟨.hbm, 558, rfl⟩
abbrev main_call10_v0 : Ref sig .tc := ⟨.hbm, 559, rfl⟩
abbrev main_v373 : Ref sig .tc := ⟨.hbm, 560, rfl⟩
abbrev main_c_165 : Ref sig .tc := ⟨.hbm, 561, rfl⟩
abbrev main_call11_v0 : Ref sig .tc := ⟨.hbm, 562, rfl⟩
abbrev main_v374 : Ref sig .tc := ⟨.hbm, 563, rfl⟩
abbrev main_v375 : Ref sig .tc := ⟨.hbm, 564, rfl⟩
abbrev main_v376 : Ref sig .tc := ⟨.hbm, 565, rfl⟩
abbrev main_v377 : Ref sig .tc := ⟨.hbm, 566, rfl⟩
abbrev main_v378 : Ref sig .tc := ⟨.hbm, 567, rfl⟩
abbrev main_v379 : Ref sig .tc := ⟨.hbm, 568, rfl⟩
abbrev main_c_166 : Ref sig .tc := ⟨.hbm, 569, rfl⟩
abbrev main_v380 : Ref sig .tc := ⟨.hbm, 570, rfl⟩
abbrev main_v381 : Ref sig .tc := ⟨.hbm, 571, rfl⟩
abbrev main_v382 : Ref sig .tc := ⟨.hbm, 572, rfl⟩
abbrev main_v383 : Ref sig .tc := ⟨.hbm, 573, rfl⟩
abbrev main_call12_v0 : Ref sig .tc := ⟨.hbm, 574, rfl⟩
abbrev main_call12_v1 : Ref sig .tc := ⟨.hbm, 575, rfl⟩
abbrev main_call12_v2 : Ref sig .tc := ⟨.hbm, 576, rfl⟩
abbrev main_call12_v3 : Ref sig .tc := ⟨.hbm, 577, rfl⟩
abbrev main_call12_v4 : Ref sig .tc := ⟨.hbm, 578, rfl⟩
abbrev main_v384 : Ref sig .tc := ⟨.hbm, 579, rfl⟩
abbrev main_c_167 : Ref sig .tc := ⟨.hbm, 580, rfl⟩
abbrev main_call13_v0 : Ref sig .tc := ⟨.hbm, 581, rfl⟩
abbrev main_v385 : Ref sig .tc := ⟨.hbm, 582, rfl⟩
abbrev main_v386 : Ref sig .tc := ⟨.hbm, 583, rfl⟩
abbrev main_v387 : Ref sig .tc := ⟨.hbm, 584, rfl⟩
abbrev main_c_168 : Ref sig .tc := ⟨.hbm, 585, rfl⟩
abbrev main_v388 : Ref sig .tc := ⟨.hbm, 586, rfl⟩
abbrev main_v389 : Ref sig .tc := ⟨.hbm, 587, rfl⟩
abbrev main_v390 : Ref sig .tc := ⟨.hbm, 588, rfl⟩
abbrev main_v391 : Ref sig .tc := ⟨.hbm, 589, rfl⟩
abbrev main_call14_v0 : Ref sig .tc := ⟨.hbm, 590, rfl⟩
abbrev main_call14_v1 : Ref sig .tc := ⟨.hbm, 591, rfl⟩
abbrev main_call14_v2 : Ref sig .tc := ⟨.hbm, 592, rfl⟩
abbrev main_call14_v3 : Ref sig .tc := ⟨.hbm, 593, rfl⟩
abbrev main_call14_v4 : Ref sig .tc := ⟨.hbm, 594, rfl⟩
abbrev main_v392 : Ref sig .tc := ⟨.hbm, 595, rfl⟩
abbrev main_v393 : Ref sig .tc := ⟨.hbm, 596, rfl⟩
abbrev main_v394_0 : Ref sig .tc := ⟨.hbm, 597, rfl⟩
abbrev main_v394_1 : Ref sig .tc := ⟨.hbm, 598, rfl⟩
abbrev main_v394_2 : Ref sig .tc := ⟨.hbm, 599, rfl⟩
abbrev main_v395 : Ref sig .tc := ⟨.hbm, 600, rfl⟩
abbrev main_cst_169 : Ref sig .tc := ⟨.hbm, 601, rfl⟩
abbrev main_v396 : Ref sig .tc := ⟨.hbm, 602, rfl⟩
abbrev main_cst_170 : Ref sig .tc := ⟨.hbm, 603, rfl⟩
abbrev main_v397 : Ref sig .tc := ⟨.hbm, 604, rfl⟩
abbrev main_v398 : Ref sig .tc := ⟨.hbm, 605, rfl⟩
abbrev main_v399 : Ref sig .tc := ⟨.hbm, 606, rfl⟩
abbrev main_cst_171 : Ref sig .tc := ⟨.hbm, 607, rfl⟩
abbrev main_v400 : Ref sig .tc := ⟨.hbm, 608, rfl⟩
abbrev main_cst_172 : Ref sig .tc := ⟨.hbm, 609, rfl⟩
abbrev main_v401 : Ref sig .tc := ⟨.hbm, 610, rfl⟩
abbrev main_v402 : Ref sig .tc := ⟨.hbm, 611, rfl⟩
abbrev main_v403 : Ref sig .tc := ⟨.hbm, 612, rfl⟩
abbrev main_v404 : Ref sig .tc := ⟨.hbm, 613, rfl⟩
abbrev main_cst_173 : Ref sig .tc := ⟨.hbm, 614, rfl⟩
abbrev main_v405 : Ref sig .tc := ⟨.hbm, 615, rfl⟩
abbrev main_v406 : Ref sig .tc := ⟨.hbm, 616, rfl⟩
abbrev main_cst_174 : Ref sig .tc := ⟨.hbm, 617, rfl⟩
abbrev main_v407 : Ref sig .tc := ⟨.hbm, 618, rfl⟩
abbrev main_v408 : Ref sig .tc := ⟨.hbm, 619, rfl⟩
abbrev main_v409 : Ref sig .tc := ⟨.hbm, 620, rfl⟩
abbrev main_v410 : Ref sig .tc := ⟨.hbm, 621, rfl⟩
abbrev main_v411 : Ref sig .tc := ⟨.hbm, 622, rfl⟩
abbrev main_v412 : Ref sig .tc := ⟨.hbm, 623, rfl⟩
abbrev main_v413 : Ref sig .tc := ⟨.hbm, 624, rfl⟩
abbrev main_v414 : Ref sig .tc := ⟨.hbm, 625, rfl⟩
abbrev main_v415 : Ref sig .tc := ⟨.hbm, 626, rfl⟩
abbrev main_v416 : Ref sig .tc := ⟨.hbm, 627, rfl⟩
abbrev main_v417 : Ref sig .tc := ⟨.hbm, 628, rfl⟩
abbrev main_v418 : Ref sig .tc := ⟨.hbm, 629, rfl⟩
abbrev main_v419 : Ref sig .tc := ⟨.hbm, 630, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x224 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S224x1152 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1152 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x128x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x128x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![32, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S8x128x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S128x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 1 → Memref sig .tc .vmem S128x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, true]

abbrev stage1_3 : Fin 2 → Memref sig .tc .vmem S8x128x384 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  slices_S3x3x16x32_S1x3x16x32_0_0_0_0 : S3x3x16x32.Slices ![0, 0, 0, 0] S1x3x16x32
  shapeCasts_S1x3x16x32_S3x16x32 : S1x3x16x32.ShapeCasts S3x16x32
  slices_S3x32_S1x32_0_0 : S3x32.Slices ![0, 0] S1x32
  shapeCasts_S1x32_S32 : S1x32.ShapeCasts S32
  bcast_S_S16x16x32 : S_.BroadcastsInDim S16x16x32 (![] : Fin 0 → Fin S16x16x32.rank)
  bcast_S_S1 : S_.BroadcastsInDim S1 (![] : Fin 0 → Fin S1.rank)
  shapeCasts_S16x16x32_S256x32 : S16x16x32.ShapeCasts S256x32
  concatenates_S256x32_S256x32_S256x32_S256x32_S256x32_S256x32_S256x32_S256x32_S256x32_S256x32_S256x32_S256x32_S256x32_S256x32_S256x448_d1 : Shape.Concatenates [S256x32, S256x32, S256x32, S256x32, S256x32, S256x32, S256x32, S256x32, S256x32, S256x32, S256x32, S256x32, S256x32, S256x32] S256x448 1
  shapeCasts_S32_S1x32 : S32.ShapeCasts S1x32
  bcast_S1x32_S14x32_0_1 : S1x32.BroadcastsInDim S14x32 (![0, 1] : Fin 2 → Fin S14x32.rank)
  shapeCasts_S14x32_S448 : S14x32.ShapeCasts S448
  pads_S256x448_S256x512_000_0640 : S256x448.Pads (![0, 0] : Fin 2 → Nat) ![0, 64] ![0, 0] S256x512
  h_S_ : 0 < S_.numel
  pads_S448_S512_0640 : S448.Pads (![0] : Fin 1 → Nat) ![64] ![0] S512
  slices_S3x3x16x32_S1x3x16x32_1_0_0_0 : S3x3x16x32.Slices ![1, 0, 0, 0] S1x3x16x32
  slices_S3x32_S1x32_1_0 : S3x32.Slices ![1, 0] S1x32
  slices_S3x3x16x32_S1x3x16x32_2_0_0_0 : S3x3x16x32.Slices ![2, 0, 0, 0] S1x3x16x32
  slices_S3x32_S1x32_2_0 : S3x32.Slices ![2, 0] S1x32
  concatenates_S256x512_S256x512_S256x512_S256x1536_d1 : Shape.Concatenates [S256x512, S256x512, S256x512] S256x1536 1
  concatenates_S512_S512_S512_S1536_d0 : Shape.Concatenates [S512, S512, S512] S1536 0
  bcast_S1536_S1x1536_1 : S1536.BroadcastsInDim S1x1536 (![1] : Fin 1 → Fin S1x1536.rank)
  bcast_S_S14x16x32 : S_.BroadcastsInDim S14x16x32 (![] : Fin 0 → Fin S14x16x32.rank)
  shapeCasts_S14x16x32_S224x32 : S14x16x32.ShapeCasts S224x32
  concatenates_S224x32_S224x32_S224x32_S224x32_S224x32_S224x32_S224x32_S224x32_S224x32_S224x32_S224x32_S224x32_S224x384_d1 : Shape.Concatenates [S224x32, S224x32, S224x32, S224x32, S224x32, S224x32, S224x32, S224x32, S224x32, S224x32, S224x32, S224x32] S224x384 1
  bcast_S1x32_S12x32_0_1 : S1x32.BroadcastsInDim S12x32 (![0, 1] : Fin 2 → Fin S12x32.rank)
  shapeCasts_S12x32_S384 : S12x32.ShapeCasts S384
  pads_S224x384_S224x384_000_000 : S224x384.Pads (![0, 0] : Fin 2 → Nat) ![0, 0] ![0, 0] S224x384
  pads_S384_S384_000 : S384.Pads (![0] : Fin 1 → Nat) ![0] ![0] S384
  concatenates_S224x384_S224x384_S224x384_S224x1152_d1 : Shape.Concatenates [S224x384, S224x384, S224x384] S224x1152 1
  concatenates_S384_S384_S384_S1152_d0 : Shape.Concatenates [S384, S384, S384] S1152 0
  bcast_S1152_S1x1152_1 : S1152.BroadcastsInDim S1x1152 (![1] : Fin 1 → Fin S1x1152.rank)
  bcast_S_S14x14 : S_.BroadcastsInDim S14x14 (![] : Fin 0 → Fin S14x14.rank)
  bcast_S14x14_S14x1x14x1_0_2 : S14x14.BroadcastsInDim S14x1x14x1 (![0, 2] : Fin 2 → Fin S14x1x14x1.rank)
  bcast_S32x16_S1x32x1x16_1_3 : S32x16.BroadcastsInDim S1x32x1x16 (![1, 3] : Fin 2 → Fin S1x32x1x16.rank)
  bcast_S14x1x14x1_S14x32x14x16_0_1_2_3 : S14x1x14x1.BroadcastsInDim S14x32x14x16 (![0, 1, 2, 3] : Fin 4 → Fin S14x32x14x16.rank)
  bcast_S1x32x1x16_S14x32x14x16_0_1_2_3 : S1x32x1x16.BroadcastsInDim S14x32x14x16 (![0, 1, 2, 3] : Fin 4 → Fin S14x32x14x16.rank)
  shapeCasts_S14x32x14x16_S448x224 : S14x32x14x16.ShapeCasts S448x224
  pads_S448x224_S512x224_0640_000 : S448x224.Pads (![0, 0] : Fin 2 → Nat) ![64, 0] ![0, 0] S512x224
  bcast_S_S8x8 : S_.BroadcastsInDim S8x8 (![] : Fin 0 → Fin S8x8.rank)
  bcast_S8x8_S8x1x8x1_0_2 : S8x8.BroadcastsInDim S8x1x8x1 (![0, 2] : Fin 2 → Fin S8x1x8x1.rank)
  bcast_S128x128_S1x128x1x128_1_3 : S128x128.BroadcastsInDim S1x128x1x128 (![1, 3] : Fin 2 → Fin S1x128x1x128.rank)
  bcast_S8x1x8x1_S8x128x8x128_0_1_2_3 : S8x1x8x1.BroadcastsInDim S8x128x8x128 (![0, 1, 2, 3] : Fin 4 → Fin S8x128x8x128.rank)
  bcast_S1x128x1x128_S8x128x8x128_0_1_2_3 : S1x128x1x128.BroadcastsInDim S8x128x8x128 (![0, 1, 2, 3] : Fin 4 → Fin S8x128x8x128.rank)
  shapeCasts_S8x128x8x128_S1024x1024 : S8x128x8x128.ShapeCasts S1024x1024
  shapeCasts_S256x128x16x16_S256x128x256 : S256x128x16x16.ShapeCasts S256x128x256
  inb_S8x128x256_S8x128x256_0_0_0 : ∀ a, (![0, 0, 0] : Fin 3 → Nat) a + S8x128x256.size a ≤ S8x128x256.size a
  h_S8x128x256 : 0 < S8x128x256.numel
  shapeCasts_S8x128x256_S8x128x256 : S8x128x256.ShapeCasts S8x128x256
  shapeCasts_S8x128x256_S1024x256 : S8x128x256.ShapeCasts S1024x256
  inb_S256x1536_S256x1536_0_0 : ∀ a, (![0, 0] : Fin 2 → Nat) a + S256x1536.size a ≤ S256x1536.size a
  h_S256x1536 : 0 < S256x1536.numel
  shapeCasts_S256x1536_S256x1536 : S256x1536.ShapeCasts S256x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S1024x1536 : S1x1536.Broadcasts S1024x1536
  slices_S1024x1536_o0_0_S1024x512 : S1024x1536.Slices ![0, 0] S1024x512
  slices_S1024x1536_o0_512_S1024x512 : S1024x1536.Slices ![0, 512] S1024x512
  slices_S1024x1536_o0_1024_S1024x512 : S1024x1536.Slices ![0, 1024] S1024x512
  inb_S512x224_S512x224_0_0 : ∀ a, (![0, 0] : Fin 2 → Nat) a + S512x224.size a ≤ S512x224.size a
  h_S512x224 : 0 < S512x224.numel
  shapeCasts_S512x224_S512x224 : S512x224.ShapeCasts S512x224
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S224x1152_S224x1152_0_0 : ∀ a, (![0, 0] : Fin 2 → Nat) a + S224x1152.size a ≤ S224x1152.size a
  h_S224x1152 : 0 < S224x1152.numel
  shapeCasts_S224x1152_S224x1152 : S224x1152.ShapeCasts S224x1152
  inb_S1x1152_S1x1152_0_0 : ∀ a, (![0, 0] : Fin 2 → Nat) a + S1x1152.size a ≤ S1x1152.size a
  h_S1x1152 : 0 < S1x1152.numel
  shapeCasts_S1x1152_S1x1152 : S1x1152.ShapeCasts S1x1152
  broadcasts_S1x1152_S1024x1152 : S1x1152.Broadcasts S1024x1152
  slices_S1024x1152_o0_0_S1024x384 : S1024x1152.Slices ![0, 0] S1024x384
  slices_S1024x1152_o0_384_S1024x384 : S1024x1152.Slices ![0, 384] S1024x384
  slices_S1024x1152_o0_768_S1024x384 : S1024x1152.Slices ![0, 768] S1024x384
  shapeCasts_S1024x384_S8x128x384 : S1024x384.ShapeCasts S8x128x384
  inb_S8x128x384_S8x128x384_0_0_0 : ∀ a, (![0, 0, 0] : Fin 3 → Nat) a + S8x128x384.size a ≤ S8x128x384.size a
  h_S8x128x384 : 0 < S8x128x384.numel
  reduces_S1024x384_S1024 : S1024x384.Reduces [1] S1024
  shapeCasts_S1024_S1024x1 : S1024.ShapeCasts S1024x1
  shapeCasts_S1024x1_S8x128x1 : S1024x1.ShapeCasts S8x128x1
  inb_S8x128x1_S8x128x1_0_0_0 : ∀ a, (![0, 0, 0] : Fin 3 → Nat) a + S8x128x1.size a ≤ S8x128x1.size a
  h_S8x128x1 : 0 < S8x128x1.numel
  shapeCasts_S256x128x1_S256x128 : S256x128x1.ShapeCasts S256x128
  reducesTo_S256x128_S128_d0 : S256x128.ReducesTo [0] S128
  bcast_S_S128 : S_.BroadcastsInDim S128 (![] : Fin 0 → Fin S128.rank)
  shapeCasts_S128x1_S128 : S128x1.ShapeCasts S128
  bcast_S128_S128x1_0 : S128.BroadcastsInDim S128x1 (![0] : Fin 1 → Fin S128x1.rank)
  inb_S128x1_S128x1_0_0 : ∀ a, (![0, 0] : Fin 2 → Nat) a + S128x1.size a ≤ S128x1.size a
  h_S128x1 : 0 < S128x1.numel
  shapeCasts_S128x1_S128x1 : S128x1.ShapeCasts S128x1
  shapeCasts_S128x1_S1x128x1 : S128x1.ShapeCasts S1x128x1
  shapeCasts_S8x128x384_S8x128x384 : S8x128x384.ShapeCasts S8x128x384
  broadcasts_S1x128x1_S8x128x384 : S1x128x1.Broadcasts S8x128x384
  shapeCasts_S256x128x384_S256x128x12x32 : S256x128x384.ShapeCasts S256x128x12x32
  scatter_S16x16x32_S1_S3x16x32_012_n_0_0_wf : ScatterDims.WF S16x16x32 S1 S3x16x32 [0, 1, 2] [] [0] 0
  scatter_S14x16x32_S1_S3x16x32_012_n_0_0_wf : ScatterDims.WF S14x16x32 S1 S3x16x32 [0, 1, 2] [] [0] 0
  dot_S1024x256_S256x1536_S1024x1536_1_0_0_1_n_n_wf : DotDims.WF S1024x256 S256x1536 S1024x1536 [1] [0] [0] [1] [] []
  dot_S1024x512_S512x224_S1024x224_1_0_0_1_n_n_wf : DotDims.WF S1024x512 S512x224 S1024x224 [1] [0] [0] [1] [] []
  dot_S1024x1024_S1024x224_S1024x224_1_0_0_1_n_n_wf : DotDims.WF S1024x1024 S1024x224 S1024x224 [1] [0] [0] [1] [] []
  dot_S1024x224_S224x1152_S1024x1152_1_0_0_1_n_n_wf : DotDims.WF S1024x224 S224x1152 S1024x1152 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x256.size a ≤ S256x128x256.size a
  hwx0_0 : ∀ i : grid0.Coords, EltTy.bits .f32 = 32 ∨ (Rect.block (s := S256x128x256) S8x128x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1536.size a ≤ S256x1536.size a
  hwx0_2 : ∀ i : grid0.Coords, EltTy.bits .f32 = 32 ∨ (Rect.block (s := S256x1536) S256x1536.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1536.size a ≤ S1x1536.size a
  hwx0_3 : ∀ i : grid0.Coords, EltTy.bits .f32 = 32 ∨ (Rect.block (s := S1x1536) S1x1536.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x224.size a ≤ S512x224.size a
  hwx0_4 : ∀ i : grid0.Coords, EltTy.bits .f32 = 32 ∨ (Rect.block (s := S512x224) S512x224.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S224x1152.size a ≤ S224x1152.size a
  hwx0_5 : ∀ i : grid0.Coords, EltTy.bits .f32 = 32 ∨ (Rect.block (s := S224x1152) S224x1152.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1152.size a ≤ S1x1152.size a
  hwx0_6 : ∀ i : grid0.Coords, EltTy.bits .f32 = 32 ∨ (Rect.block (s := S1x1152) S1x1152.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128x384.size a ≤ S256x128x384.size a
  hwx0_7 : ∀ i : grid0.Coords, EltTy.bits .f32 = 32 ∨ (Rect.block (s := S256x128x384) S8x128x384.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x128x1.size a ≤ S256x128x1.size a
  hwx0_8 : ∀ i : grid0.Coords, EltTy.bits .f32 = 32 ∨ (Rect.block (s := S256x128x1) S8x128x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x128x1.size a ≤ S256x128x1.size a
  hwx0_9 : ∀ i : grid0.Coords, EltTy.bits .f32 = 32 ∨ (Rect.block (s := S256x128x1) S8x128x1.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x128x384.size a ≤ S256x128x384.size a
  hwx1_0 : ∀ i : grid1.Coords, EltTy.bits .f32 = 32 ∨ (Rect.block (s := S256x128x384) S8x128x384.size (cc1_transform_0 i) (hinb1_0 i)).WholeWords (EltTy.packing .f32)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S128x1.size a ≤ S128x1.size a
  hwx1_1 : ∀ i : grid1.Coords, EltTy.bits .f32 = 32 ∨ (Rect.block (s := S128x1) S128x1.size (cc1_transform_1 i) (hinb1_1 i)).WholeWords (EltTy.packing .f32)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S128x1.size a
  hwx1_2 : ∀ i : grid1.Coords, EltTy.bits .f32 = 32 ∨ (Rect.block (s := S128x1) S128x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x128x384.size a ≤ S256x128x384.size a
  hwx1_3 : ∀ i : grid1.Coords, EltTy.bits .f32 = 32 ∨ (Rect.block (s := S256x128x384) S8x128x384.size (cc1_transform_3 i) (hinb1_3 i)).WholeWords (EltTy.packing .f32)

variable [Facts₀]

def scatter_S16x16x32_S1_S3x16x32_012_n_0_0 : ScatterDims S16x16x32 S1 S3x16x32 where
  updateWindowDims := [0, 1, 2]
  insertedWindowDims := []
  scatterDimsToOperandDims := [0]
  indexVectorDim := 0
  wf := scatter_S16x16x32_S1_S3x16x32_012_n_0_0_wf
def scatter_S14x16x32_S1_S3x16x32_012_n_0_0 : ScatterDims S14x16x32 S1 S3x16x32 where
  updateWindowDims := [0, 1, 2]
  insertedWindowDims := []
  scatterDimsToOperandDims := [0]
  indexVectorDim := 0
  wf := scatter_S14x16x32_S1_S3x16x32_012_n_0_0_wf
def dot_S1024x256_S256x1536_S1024x1536_1_0_0_1_n_n : DotDims S1024x256 S256x1536 S1024x1536 where
  lhsContracting := [1]
  rhsContracting := [0]
  lhsNonContracting := [0]
  rhsNonContracting := [1]
  lhsBatch := []
  rhsBatch := []
  wf := dot_S1024x256_S256x1536_S1024x1536_1_0_0_1_n_n_wf
def dot_S1024x512_S512x224_S1024x224_1_0_0_1_n_n : DotDims S1024x512 S512x224 S1024x224 where
  lhsContracting := [1]
  rhsContracting := [0]
  lhsNonContracting := [0]
  rhsNonContracting := [1]
  lhsBatch := []
  rhsBatch := []
  wf := dot_S1024x512_S512x224_S1024x224_1_0_0_1_n_n_wf
def dot_S1024x1024_S1024x224_S1024x224_1_0_0_1_n_n : DotDims S1024x1024 S1024x224 S1024x224 where
  lhsContracting := [1]
  rhsContracting := [0]
  lhsNonContracting := [0]
  rhsNonContracting := [1]
  lhsBatch := []
  rhsBatch := []
  wf := dot_S1024x1024_S1024x224_S1024x224_1_0_0_1_n_n_wf
def dot_S1024x224_S224x1152_S1024x1152_1_0_0_1_n_n : DotDims S1024x224 S224x1152 S1024x1152 where
  lhsContracting := [1]
  rhsContracting := [0]
  lhsNonContracting := [0]
  rhsNonContracting := [1]
  lhsBatch := []
  rhsBatch := []
  wf := dot_S1024x224_S224x1152_S1024x1152_1_0_0_1_n_n_wf

abbrev win0_0 : Pipeline.Window sig grid0 :=
  Pipeline.Window.ofSpec (Memref.whole main_v393) S8x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v392) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v198) S256x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v200) S1x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v385) S512x224.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v375) S224x1152.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v377) S1x1152.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v394_0) S8x128x384.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v394_1) S8x128x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v394_2) S8x128x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v394_0) S8x128x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v412) S128x1.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_v417) S128x1.size cc1_transform_2 reads1_2 false false 1 stage1_2 sem1_2
    hrank1 hreads1_2 hinb1_2 nbuf1_2 (Memref.isWhole_whole _) hwx1_2 hstage1_2

abbrev win1_3 : Pipeline.Window sig grid1 :=
  Pipeline.Window.ofSpec (Memref.whole main_v418) S8x128x384.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== Proof.Spec.lean ====
import Idealize.ShloMosaic.PureOps.Ideal
import Idealize.ShloMosaic.Lib.ValueIdx

noncomputable section

namespace Cert.Spec

open Idealize.ShloMosaic Idealize.ShloMosaic.ValueIdx

abbrev Arr (s : Shape) : Type := s.Idx → EReal

structure Args where
  t1w : Arr ⟨4, ![3, 3, 16, 32]⟩
  t1b : Arr ⟨2, ![3, 32]⟩
  th : Arr ⟨2, ![32, 16]⟩
  t2w : Arr ⟨4, ![3, 3, 16, 32]⟩
  t2b : Arr ⟨2, ![3, 32]⟩
  g : Arr ⟨2, ![128, 1]⟩
  be : Arr ⟨2, ![128, 1]⟩
  X : Arr ⟨4, ![256, 128, 16, 16]⟩
  A : Arr ⟨2, ![128, 128]⟩

variable (a : Args)

-- Entry (i, r) of the banded matrix of a three-tap convolution over time: row i is (input time, channel), column r is (role, output time, channel).
def band (w : Arr ⟨4, ![3, 3, 16, 32]⟩) (tout seg : Nat) (i r : Nat) : EReal :=
  if h : r / seg < 3 ∧ (r % seg) / 32 < tout ∧ (r % seg) / 32 ≤ i / 16 ∧ i / 16 < (r % seg) / 32 + 3 then
    w (ix4 ⟨r / seg, h.1⟩ ⟨i / 16 - (r % seg) / 32, by omega⟩ ⟨i % 16, Nat.mod_lt _ (by decide)⟩
      ⟨(r % seg) % 32, Nat.mod_lt _ (by decide)⟩)
  else 0

def bandBias (b : Arr ⟨2, ![3, 32]⟩) (tout seg : Nat) (r : Nat) : EReal :=
  if h : r / seg < 3 ∧ (r % seg) / 32 < tout then
    b (ix2 ⟨r / seg, h.1⟩ ⟨(r % seg) % 32, Nat.mod_lt _ (by decide)⟩)
  else 0

def W1 (i r : Nat) : EReal := band a.t1w 14 512 i r
def B1 (r : Nat) : EReal := bandBias a.t1b 14 512 r

def W2 (q r : Nat) : EReal := band a.t2w 12 384 q r
def B2 (r : Nat) : EReal := bandBias a.t2b 12 384 r

def ThetaBD (j q : Nat) : EReal :=
  if h : j < 448 ∧ j / 32 = q / 16 then
    a.th (ix2 ⟨j % 32, Nat.mod_lt _ (by decide)⟩ ⟨q % 16, Nat.mod_lt _ (by decide)⟩)
  else 0

-- The gated unit: c1 · σ(c2) + c3, clipped below at zero.
def gate (c1 c2 c3 : EReal) : EReal := max (c1 * Ideal.logistic c2 + c3) 0

def xrow (b : Fin 256) (n : Fin 128) (i : Fin 256) : EReal :=
  a.X (ix4 b n ⟨i.val / 16, by omega⟩ ⟨i.val % 16, Nat.mod_lt _ (by decide)⟩)

def pre1 (b : Fin 256) (n : Fin 128) (r : Nat) : EReal := (∑ i : Fin 256, xrow a b n i * W1 a i.val r) + B1 a r
def h1 (b : Fin 256) (n : Fin 128) (j : Nat) : EReal := gate (pre1 a b n j) (pre1 a b n (512 + j)) (pre1 a b n (1024 + j))
def proj (b : Fin 256) (n : Fin 128) (q : Nat) : EReal := ∑ j : Fin 512, h1 a b n j.val * ThetaBD a j.val q
def mix (b : Fin 256) (n : Fin 128) (q : Nat) : EReal := max (∑ n' : Fin 128, a.A (ix2 n n') * proj a b n' q) 0
def pre2 (b : Fin 256) (n : Fin 128) (r : Nat) : EReal := (∑ q : Fin 224, mix a b n q.val * W2 a q.val r) + B2 a r

def t3 (b : Fin 256) (n : Fin 128) (u : Nat) : EReal := gate (pre2 a b n u) (pre2 a b n (384 + u)) (pre2 a b n (768 + u))

def cnt : EReal := Ideal.ofBits .f32 0x47C00000#32

def eps : EReal := Ideal.ofBits .f32 0x3727C5AC#32

def sum1 (n : Fin 128) : EReal := ∑ b : Fin 256, ∑ u : Fin 384, t3 a b n u.val
def sum2 (n : Fin 128) : EReal := ∑ b : Fin 256, ∑ u : Fin 384, t3 a b n u.val * t3 a b n u.val
def mean (n : Fin 128) : EReal := Ideal.div (sum1 a n) cnt
def var (n : Fin 128) : EReal := max (Ideal.div (sum2 a n) cnt - mean a n * mean a n) 0
def inv (n : Fin 128) : EReal := Ideal.rsqrt (var a n + eps)
def scale (n : Fin 128) : EReal := a.g (ix2 n 0) * inv a n
def shift (n : Fin 128) : EReal := a.be (ix2 n 0) - mean a n * a.g (ix2 n 0) * inv a n

-- The block's result: the second gated convolution, normalised per node by the mean and variance over batches and features.
def out : Arr ⟨4, ![256, 128, 12, 32]⟩ := fun j =>
  t3 a (j 0) (j 1) (32 * (j 2).val + (j 3).val) * scale a (j 1) + shift a (j 1)

end Cert.Spec

end
-- ==== Proof.BWire.lean ====
import proofs.«181364_g2000406351686535_pallasbulk_564_19_alg».proof.Proof.Gen.Kernel.Skeleton
import Idealize.ShloMosaic.Lib.Pipeline.FrameBody

set_option maxRecDepth 16384

noncomputable section

namespace Cert.Kernel.Run

open Idealize.ShloMosaic
open Cert.Kernel Cert.Kernel.Gen

variable {F : FTy → Type} [FloatOps F]
variable (x0 : Vec F S32x256x128 .f32) (x1 : Vec F S256x256 .bf16) (x2 : Vec F S1536x256 .bf16) (x3 : Vec F S1536x1 .f32) (x4 : Vec F S224x512 .bf16) (x5 : Vec F S1152x232 .bf16) (x6 : Vec F S8x256 .bf16)

abbrev r0_o0 : Rect S32x384x128 := Rect.unit ![0, 0, 0] S1x384x128.size inb_S32x384x128_S1x384x128_0_0_0
abbrev r0_o1 : Rect S32x384x128 := Rect.unit ![1, 0, 0] S1x384x128.size inb_S32x384x128_S1x384x128_1_0_0
abbrev r0_o2 : Rect S32x384x128 := Rect.unit ![2, 0, 0] S1x384x128.size inb_S32x384x128_S1x384x128_2_0_0
abbrev r0_o3 : Rect S32x384x128 := Rect.unit ![3, 0, 0] S1x384x128.size inb_S32x384x128_S1x384x128_3_0_0
abbrev r0_o4 : Rect S32x384x128 := Rect.unit ![4, 0, 0] S1x384x128.size inb_S32x384x128_S1x384x128_4_0_0
abbrev r0_o5 : Rect S32x384x128 := Rect.unit ![5, 0, 0] S1x384x128.size inb_S32x384x128_S1x384x128_5_0_0
abbrev r0_o6 : Rect S32x384x128 := Rect.unit ![6, 0, 0] S1x384x128.size inb_S32x384x128_S1x384x128_6_0_0
abbrev r0_o7 : Rect S32x384x128 := Rect.unit ![7, 0, 0] S1x384x128.size inb_S32x384x128_S1x384x128_7_0_0
abbrev r0_o8 : Rect S32x384x128 := Rect.unit ![8, 0, 0] S1x384x128.size inb_S32x384x128_S1x384x128_8_0_0
abbrev r0_o9 : Rect S32x384x128 := Rect.unit ![9, 0, 0] S1x384x128.size inb_S32x384x128_S1x384x128_9_0_0
abbrev r0_o10 : Rect S32x384x128 := Rect.unit ![10, 0, 0] S1x384x128.size inb_S32x384x128_S1x384x128_10_0_0
abbrev r0_o11 : Rect S32x384x128 := Rect.unit ![11, 0, 0] S1x384x128.size inb_S32x384x128_S1x384x128_11_0_0
abbrev r0_o12 : Rect S32x384x128 := Rect.unit ![12, 0, 0] S1x384x128.size inb_S32x384x128_S1x384x128_12_0_0
abbrev r0_o13 : Rect S32x384x128 := Rect.unit ![13, 0, 0] S1x384x128.size inb_S32x384x128_S1x384x128_13_0_0
abbrev r0_o14 : Rect S32x384x128 := Rect.unit ![14, 0, 0] S1x384x128.size inb_S32x384x128_S1x384x128_14_0_0
abbrev r0_o15 : Rect S32x384x128 := Rect.unit ![15, 0, 0] S1x384x128.size inb_S32x384x128_S1x384x128_15_0_0
abbrev r0_o16 : Rect S32x384x128 := Rect.unit ![16, 0, 0] S1x384x128.size inb_S32x384x128_S1x384x128_16_0_0
abbrev r0_o17 : Rect S32x384x128 := Rect.unit ![17, 0, 0] S1x384x128.size inb_S32x384x128_S1x384x128_17_0_0
abbrev r0_o18 : Rect S32x384x128 := Rect.unit ![18, 0, 0] S1x384x128.size inb_S32x384x128_S1x384x128_18_0_0
abbrev r0_o19 : Rect S32x384x128 := Rect.unit ![19, 0, 0] S1x384x128.size inb_S32x384x128_S1x384x128_19_0_0
abbrev r0_o20 : Rect S32x384x128 := Rect.unit ![20, 0, 0] S1x384x128.size inb_S32x384x128_S1x384x128_20_0_0
abbrev r0_o21 : Rect S32x384x128 := Rect.unit ![21, 0, 0] S1x384x128.size inb_S32x384x128_S1x384x128_21_0_0
abbrev r0_o22 : Rect S32x384x128 := Rect.unit ![22, 0, 0] S1x384x128.size inb_S32x384x128_S1x384x128_22_0_0
abbrev r0_o23 : Rect S32x384x128 := Rect.unit ![23, 0, 0] S1x384x128.size inb_S32x384x128_S1x384x128_23_0_0
abbrev r0_o24 : Rect S32x384x128 := Rect.unit ![24, 0, 0] S1x384x128.size inb_S32x384x128_S1x384x128_24_0_0
abbrev r0_o25 : Rect S32x384x128 := Rect.unit ![25, 0, 0] S1x384x128.size inb_S32x384x128_S1x384x128_25_0_0
abbrev r0_o26 : Rect S32x384x128 := Rect.unit ![26, 0, 0] S1x384x128.size inb_S32x384x128_S1x384x128_26_0_0
abbrev r0_o27 : Rect S32x384x128 := Rect.unit ![27, 0, 0] S1x384x128.size inb_S32x384x128_S1x384x128_27_0_0
abbrev r0_o28 : Rect S32x384x128 := Rect.unit ![28, 0, 0] S1x384x128.size inb_S32x384x128_S1x384x128_28_0_0
abbrev r0_o29 : Rect S32x384x128 := Rect.unit ![29, 0, 0] S1x384x128.size inb_S32x384x128_S1x384x128_29_0_0
abbrev r0_o30 : Rect S32x384x128 := Rect.unit ![30, 0, 0] S1x384x128.size inb_S32x384x128_S1x384x128_30_0_0
abbrev r0_o31 : Rect S32x384x128 := Rect.unit ![31, 0, 0] S1x384x128.size inb_S32x384x128_S1x384x128_31_0_0
abbrev r0_s : Rect S1x1x128 := Rect.unit ![0, 0, 0] S1x1x128.size inb_S1x1x128_S1x1x128_0_0_0
abbrev r0_w1 : Rect S256x256 := Rect.unit ![0, 0] S256x256.size inb_S256x256_S256x256_0_0
abbrev r0_w2 : Rect S1536x256 := Rect.unit ![0, 0] S1536x256.size inb_S1536x256_S1536x256_0_0
abbrev r0_w3 : Rect S1536x1 := Rect.unit ![0, 0] S1536x1.size inb_S1536x1_S1536x1_0_0
abbrev r0_w4 : Rect S224x512 := Rect.unit ![0, 0] S224x512.size inb_S224x512_S224x512_0_0
abbrev r0_w5 : Rect S1152x232 := Rect.unit ![0, 0] S1152x232.size inb_S1152x232_S1152x232_0_0
abbrev r0_w6 : Rect S8x256 := Rect.unit ![0, 0] S8x256.size inb_S8x256_S8x256_0_0
abbrev r0_x0 : Rect S32x256x128 := Rect.unit ![0, 0, 0] S1x256x128.size inb_S32x256x128_S1x256x128_0_0_0
abbrev r0_x1 : Rect S32x256x128 := Rect.unit ![1, 0, 0] S1x256x128.size inb_S32x256x128_S1x256x128_1_0_0
abbrev r0_x2 : Rect S32x256x128 := Rect.unit ![2, 0, 0] S1x256x128.size inb_S32x256x128_S1x256x128_2_0_0
abbrev r0_x3 : Rect S32x256x128 := Rect.unit ![3, 0, 0] S1x256x128.size inb_S32x256x128_S1x256x128_3_0_0
abbrev r0_x4 : Rect S32x256x128 := Rect.unit ![4, 0, 0] S1x256x128.size inb_S32x256x128_S1x256x128_4_0_0
abbrev r0_x5 : Rect S32x256x128 := Rect.unit ![5, 0, 0] S1x256x128.size inb_S32x256x128_S1x256x128_5_0_0
abbrev r0_x6 : Rect S32x256x128 := Rect.unit ![6, 0, 0] S1x256x128.size inb_S32x256x128_S1x256x128_6_0_0
abbrev r0_x7 : Rect S32x256x128 := Rect.unit ![7, 0, 0] S1x256x128.size inb_S32x256x128_S1x256x128_7_0_0
abbrev r0_x8 : Rect S32x256x128 := Rect.unit ![8, 0, 0] S1x256x128.size inb_S32x256x128_S1x256x128_8_0_0
abbrev r0_x9 : Rect S32x256x128 := Rect.unit ![9, 0, 0] S1x256x128.size inb_S32x256x128_S1x256x128_9_0_0
abbrev r0_x10 : Rect S32x256x128 := Rect.unit ![10, 0, 0] S1x256x128.size inb_S32x256x128_S1x256x128_10_0_0
abbrev r0_x11 : Rect S32x256x128 := Rect.unit ![11, 0, 0] S1x256x128.size inb_S32x256x128_S1x256x128_11_0_0
abbrev r0_x12 : Rect S32x256x128 := Rect.unit ![12, 0, 0] S1x256x128.size inb_S32x256x128_S1x256x128_12_0_0
abbrev r0_x13 : Rect S32x256x128 := Rect.unit ![13, 0, 0] S1x256x128.size inb_S32x256x128_S1x256x128_13_0_0
abbrev r0_x14 : Rect S32x256x128 := Rect.unit ![14, 0, 0] S1x256x128.size inb_S32x256x128_S1x256x128_14_0_0
abbrev r0_x15 : Rect S32x256x128 := Rect.unit ![15, 0, 0] S1x256x128.size inb_S32x256x128_S1x256x128_15_0_0
abbrev r0_x16 : Rect S32x256x128 := Rect.unit ![16, 0, 0] S1x256x128.size inb_S32x256x128_S1x256x128_16_0_0
abbrev r0_x17 : Rect S32x256x128 := Rect.unit ![17, 0, 0] S1x256x128.size inb_S32x256x128_S1x256x128_17_0_0
abbrev r0_x18 : Rect S32x256x128 := Rect.unit ![18, 0, 0] S1x256x128.size inb_S32x256x128_S1x256x128_18_0_0
abbrev r0_x19 : Rect S32x256x128 := Rect.unit ![19, 0, 0] S1x256x128.size inb_S32x256x128_S1x256x128_19_0_0
abbrev r0_x20 : Rect S32x256x128 := Rect.unit ![20, 0, 0] S1x256x128.size inb_S32x256x128_S1x256x128_20_0_0
abbrev r0_x21 : Rect S32x256x128 := Rect.unit ![21, 0, 0] S1x256x128.size inb_S32x256x128_S1x256x128_21_0_0
abbrev r0_x22 : Rect S32x256x128 := Rect.unit ![22, 0, 0] S1x256x128.size inb_S32x256x128_S1x256x128_22_0_0
abbrev r0_x23 : Rect S32x256x128 := Rect.unit ![23, 0, 0] S1x256x128.size inb_S32x256x128_S1x256x128_23_0_0
abbrev r0_x24 : Rect S32x256x128 := Rect.unit ![24, 0, 0] S1x256x128.size inb_S32x256x128_S1x256x128_24_0_0
abbrev r0_x25 : Rect S32x256x128 := Rect.unit ![25, 0, 0] S1x256x128.size inb_S32x256x128_S1x256x128_25_0_0
abbrev r0_x26 : Rect S32x256x128 := Rect.unit ![26, 0, 0] S1x256x128.size inb_S32x256x128_S1x256x128_26_0_0
abbrev r0_x27 : Rect S32x256x128 := Rect.unit ![27, 0, 0] S1x256x128.size inb_S32x256x128_S1x256x128_27_0_0
abbrev r0_x28 : Rect S32x256x128 := Rect.unit ![28, 0, 0] S1x256x128.size inb_S32x256x128_S1x256x128_28_0_0
abbrev r0_x29 : Rect S32x256x128 := Rect.unit ![29, 0, 0] S1x256x128.size inb_S32x256x128_S1x256x128_29_0_0
abbrev r0_x30 : Rect S32x256x128 := Rect.unit ![30, 0, 0] S1x256x128.size inb_S32x256x128_S1x256x128_30_0_0
abbrev r0_x31 : Rect S32x256x128 := Rect.unit ![31, 0, 0] S1x256x128.size inb_S32x256x128_S1x256x128_31_0_0

def c0_v1 := k0_pay4 (View.ld x2 r0_w2)
def c0_v3 := k0_pay5 (View.ld x3 r0_w3)
def c0_v5 := k0_pay6 (View.ld x4 r0_w4)
def c0_v7 := k0_pay7 (View.ld x5 r0_w5)
def c0_v9 := k0_pay8 (View.ld x1 r0_w1)
def c0_v11 := k0_pay9 (View.ld x6 r0_w6)
def c0_v12 := k0_pay10 (F := F)
def c0_v13 := k0_pay11 (F := F)
def c0_v34 := k0_pay12 (View.ld x2 r0_w2) (View.ld x3 r0_w3) (View.ld x4 r0_w4) (View.ld x1 r0_w1) (View.ld x0 r0_x0) (View.ld x0 r0_x1)
def c0_v60 := k0_pay16 (c0_v7 x5) (c0_v11 x6) (c0_v12 (F := F)) (c0_v34 x0 x1 x2 x3 x4)
def c0_v64 := k0_pay17 (c0_v7 x5) (c0_v11 x6) (c0_v13 (F := F)) (c0_v34 x0 x1 x2 x3 x4)
def c0_v73 := k0_pay18 (c0_v1 x2) (c0_v3 x3) (View.ld x0 r0_x2) (View.ld x0 r0_x3)
def c0_v74 := k0_pay19 (c0_v1 x2) (c0_v3 x3) (View.ld x0 r0_x2) (View.ld x0 r0_x3)
def c0_v111 := k0_pay23 (c0_v5 x4) (c0_v7 x5) (c0_v9 x1) (c0_v11 x6) (c0_v60 x0 x1 x2 x3 x4 x5 x6) (c0_v73 x0 x2 x3) (c0_v74 x0 x2 x3)
def c0_v115 := k0_pay24 (c0_v5 x4) (c0_v7 x5) (c0_v9 x1) (c0_v11 x6) (c0_v64 x0 x1 x2 x3 x4 x5 x6) (c0_v73 x0 x2 x3) (c0_v74 x0 x2 x3)
def c0_v149 := k0_pay25 (c0_v1 x2) (c0_v3 x3) (c0_v5 x4) (c0_v7 x5) (c0_v9 x1) (c0_v11 x6) (View.ld x0 r0_x4) (View.ld x0 r0_x5)
def c0_v156 := k0_pay27 (c0_v1 x2) (c0_v3 x3) (c0_v5 x4) (c0_v7 x5) (c0_v9 x1) (c0_v11 x6) (View.ld x0 r0_x4) (View.ld x0 r0_x5)
def c0_v162 := k0_pay29 (c0_v111 x0 x1 x2 x3 x4 x5 x6) (c0_v149 x0 x1 x2 x3 x4 x5 x6)
def c0_v166 := k0_pay30 (c0_v115 x0 x1 x2 x3 x4 x5 x6) (c0_v149 x0 x1 x2 x3 x4 x5 x6)
def c0_v200 := k0_pay31 (c0_v1 x2) (c0_v3 x3) (c0_v5 x4) (c0_v7 x5) (c0_v9 x1) (c0_v11 x6) (View.ld x0 r0_x6) (View.ld x0 r0_x7)
def c0_v202 := k0_pay32 (c0_v1 x2) (c0_v3 x3) (c0_v5 x4) (c0_v7 x5) (c0_v9 x1) (c0_v11 x6) (View.ld x0 r0_x6) (View.ld x0 r0_x7)
def c0_v213 := k0_pay35 (c0_v162 x0 x1 x2 x3 x4 x5 x6) (c0_v200 x0 x1 x2 x3 x4 x5 x6)
def c0_v217 := k0_pay36 (c0_v166 x0 x1 x2 x3 x4 x5 x6) (c0_v200 x0 x1 x2 x3 x4 x5 x6)
def c0_v241 := k0_pay37 (c0_v1 x2) (c0_v3 x3) (c0_v5 x4) (c0_v9 x1) (View.ld x0 r0_x8) (View.ld x0 r0_x9)
def c0_v264 := k0_pay41 (c0_v7 x5) (c0_v11 x6) (c0_v213 x0 x1 x2 x3 x4 x5 x6) (c0_v241 x0 x1 x2 x3 x4)
def c0_v268 := k0_pay42 (c0_v7 x5) (c0_v11 x6) (c0_v217 x0 x1 x2 x3 x4 x5 x6) (c0_v241 x0 x1 x2 x3 x4)
def c0_v281 := k0_pay44 (c0_v1 x2) (c0_v3 x3) (View.ld x0 r0_x10) (View.ld x0 r0_x11)
def c0_v282 := k0_pay45 (c0_v1 x2) (c0_v3 x3) (View.ld x0 r0_x10) (View.ld x0 r0_x11)
def c0_v315 := k0_pay49 (c0_v5 x4) (c0_v7 x5) (c0_v9 x1) (c0_v11 x6) (c0_v264 x0 x1 x2 x3 x4 x5 x6) (c0_v281 x0 x2 x3) (c0_v282 x0 x2 x3)
def c0_v319 := k0_pay50 (c0_v5 x4) (c0_v7 x5) (c0_v9 x1) (c0_v11 x6) (c0_v268 x0 x1 x2 x3 x4 x5 x6) (c0_v281 x0 x2 x3) (c0_v282 x0 x2 x3)
def c0_v321 := k0_pay51 (View.ld x0 r0_x12)
def c0_v353 := k0_pay52 (c0_v1 x2) (c0_v3 x3) (c0_v5 x4) (c0_v7 x5) (c0_v9 x1) (c0_v11 x6) (c0_v321 x0) (View.ld x0 r0_x13)
def c0_v364 := k0_pay55 (c0_v1 x2) (c0_v3 x3) (c0_v5 x4) (c0_v7 x5) (c0_v9 x1) (c0_v11 x6) (c0_v321 x0) (View.ld x0 r0_x13)
def c0_v366 := k0_pay56 (c0_v315 x0 x1 x2 x3 x4 x5 x6) (c0_v364 x0 x1 x2 x3 x4 x5 x6)
def c0_v370 := k0_pay57 (c0_v319 x0 x1 x2 x3 x4 x5 x6) (c0_v353 x0 x1 x2 x3 x4 x5 x6)
def c0_v404 := k0_pay58 (c0_v1 x2) (c0_v3 x3) (c0_v5 x4) (c0_v7 x5) (c0_v9 x1) (c0_v11 x6) (View.ld x0 r0_x14) (View.ld x0 r0_x15)
def c0_v406 := k0_pay59 (c0_v1 x2) (c0_v3 x3) (c0_v5 x4) (c0_v7 x5) (c0_v9 x1) (c0_v11 x6) (View.ld x0 r0_x14) (View.ld x0 r0_x15)
def c0_v417 := k0_pay62 (c0_v366 x0 x1 x2 x3 x4 x5 x6) (c0_v404 x0 x1 x2 x3 x4 x5 x6)
def c0_v421 := k0_pay63 (c0_v370 x0 x1 x2 x3 x4 x5 x6) (c0_v404 x0 x1 x2 x3 x4 x5 x6)
def c0_v447 := k0_pay64 (c0_v1 x2) (c0_v3 x3) (c0_v5 x4) (c0_v7 x5) (c0_v9 x1) (c0_v11 x6) (View.ld x0 r0_x16) (View.ld x0 r0_x17)
def c0_v448 := k0_pay65 (c0_v1 x2) (c0_v3 x3) (c0_v5 x4) (c0_v7 x5) (c0_v9 x1) (c0_v11 x6) (View.ld x0 r0_x16) (View.ld x0 r0_x17)
def c0_v468 := k0_pay69 (c0_v417 x0 x1 x2 x3 x4 x5 x6) (c0_v447 x0 x1 x2 x3 x4 x5 x6) (c0_v448 x0 x1 x2 x3 x4 x5 x6)
def c0_v472 := k0_pay70 (c0_v421 x0 x1 x2 x3 x4 x5 x6) (c0_v447 x0 x1 x2 x3 x4 x5 x6) (c0_v448 x0 x1 x2 x3 x4 x5 x6)
def c0_v489 := k0_pay71 (c0_v1 x2) (c0_v3 x3) (View.ld x0 r0_x18) (View.ld x0 r0_x19)
def c0_v519 := k0_pay75 (c0_v5 x4) (c0_v7 x5) (c0_v9 x1) (c0_v11 x6) (c0_v468 x0 x1 x2 x3 x4 x5 x6) (c0_v489 x0 x2 x3)
def c0_v523 := k0_pay76 (c0_v5 x4) (c0_v7 x5) (c0_v9 x1) (c0_v11 x6) (c0_v472 x0 x1 x2 x3 x4 x5 x6) (c0_v489 x0 x2 x3)
def c0_v528 := k0_pay77 (View.ld x0 r0_x20) (View.ld x0 r0_x21)
def c0_v570 := k0_pay81 (c0_v1 x2) (c0_v3 x3) (c0_v5 x4) (c0_v7 x5) (c0_v9 x1) (c0_v11 x6) (c0_v519 x0 x1 x2 x3 x4 x5 x6) (c0_v528 x0)
def c0_v571 := k0_pay82 (c0_v1 x2) (c0_v3 x3) (c0_v5 x4) (c0_v7 x5) (c0_v9 x1) (c0_v11 x6) (c0_v528 x0)
def c0_v574 := k0_pay83 (c0_v523 x0 x1 x2 x3 x4 x5 x6) (c0_v571 x0 x1 x2 x3 x4 x5 x6)
def c0_v608 := k0_pay84 (c0_v1 x2) (c0_v3 x3) (c0_v5 x4) (c0_v7 x5) (c0_v9 x1) (c0_v11 x6) (View.ld x0 r0_x22) (View.ld x0 r0_x23)
def c0_v614 := k0_pay86 (c0_v1 x2) (c0_v3 x3) (c0_v5 x4) (c0_v7 x5) (c0_v9 x1) (c0_v11 x6) (View.ld x0 r0_x22) (View.ld x0 r0_x23)
def c0_v621 := k0_pay88 (c0_v570 x0 x1 x2 x3 x4 x5 x6) (c0_v608 x0 x1 x2 x3 x4 x5 x6)
def c0_v625 := k0_pay89 (c0_v574 x0 x1 x2 x3 x4 x5 x6) (c0_v608 x0 x1 x2 x3 x4 x5 x6)
def c0_v655 := k0_pay91 (c0_v1 x2) (c0_v3 x3) (c0_v5 x4) (c0_v7 x5) (c0_v9 x1) (c0_v11 x6) (View.ld x0 r0_x24) (View.ld x0 r0_x25)
def c0_v656 := k0_pay92 (c0_v1 x2) (c0_v3 x3) (c0_v5 x4) (c0_v7 x5) (c0_v9 x1) (c0_v11 x6) (View.ld x0 r0_x24) (View.ld x0 r0_x25)
def c0_v672 := k0_pay96 (c0_v621 x0 x1 x2 x3 x4 x5 x6) (c0_v655 x0 x1 x2 x3 x4 x5 x6) (c0_v656 x0 x1 x2 x3 x4 x5 x6)
def c0_v676 := k0_pay97 (c0_v625 x0 x1 x2 x3 x4 x5 x6) (c0_v655 x0 x1 x2 x3 x4 x5 x6) (c0_v656 x0 x1 x2 x3 x4 x5 x6)
def c0_v696 := k0_pay98 (c0_v1 x2) (c0_v3 x3) (c0_v5 x4) (View.ld x0 r0_x26) (View.ld x0 r0_x27)
def c0_v723 := k0_pay102 (c0_v7 x5) (c0_v9 x1) (c0_v11 x6) (c0_v672 x0 x1 x2 x3 x4 x5 x6) (c0_v696 x0 x2 x3 x4)
def c0_v727 := k0_pay103 (c0_v7 x5) (c0_v9 x1) (c0_v11 x6) (c0_v676 x0 x1 x2 x3 x4 x5 x6) (c0_v696 x0 x2 x3 x4)
def c0_v734 := k0_pay104 (c0_v1 x2) (View.ld x0 r0_x28) (View.ld x0 r0_x29)
def c0_v735 := k0_pay105 (c0_v3 x3)
def c0_v774 := k0_pay109 (c0_v5 x4) (c0_v7 x5) (c0_v9 x1) (c0_v11 x6) (c0_v723 x0 x1 x2 x3 x4 x5 x6) (c0_v734 x0 x2) (c0_v735 x3)
def c0_v778 := k0_pay110 (c0_v5 x4) (c0_v7 x5) (c0_v9 x1) (c0_v11 x6) (c0_v727 x0 x1 x2 x3 x4 x5 x6) (c0_v734 x0 x2) (c0_v735 x3)
def c0_v812 := k0_pay111 (c0_v1 x2) (c0_v3 x3) (c0_v5 x4) (c0_v7 x5) (c0_v9 x1) (c0_v11 x6) (View.ld x0 r0_x30) (View.ld x0 r0_x31)
def c0_v819 := k0_pay113 (c0_v1 x2) (c0_v3 x3) (c0_v5 x4) (c0_v7 x5) (c0_v9 x1) (c0_v11 x6) (View.ld x0 r0_x30) (View.ld x0 r0_x31)

def out0_7 : Vec F S32x384x128 .bf16 :=
  View.canon [
    ⟨r0_o31, k0_pay1 (c0_v819 x0 x1 x2 x3 x4 x5 x6)⟩,
    ⟨r0_o30, k0_pay112 (c0_v1 x2) (c0_v3 x3) (c0_v5 x4) (c0_v7 x5) (c0_v9 x1) (c0_v11 x6) (View.ld x0 r0_x30) (View.ld x0 r0_x31)⟩,
    ⟨r0_o29, k0_pay108 (c0_v5 x4) (c0_v7 x5) (c0_v9 x1) (c0_v11 x6) (c0_v734 x0 x2) (c0_v735 x3)⟩,
    ⟨r0_o28, k0_pay107 (c0_v5 x4) (c0_v7 x5) (c0_v9 x1) (c0_v11 x6) (c0_v734 x0 x2) (c0_v735 x3)⟩,
    ⟨r0_o27, k0_pay101 (c0_v7 x5) (c0_v9 x1) (c0_v11 x6) (c0_v696 x0 x2 x3 x4)⟩,
    ⟨r0_o26, k0_pay100 (c0_v7 x5) (c0_v9 x1) (c0_v11 x6) (c0_v696 x0 x2 x3 x4)⟩,
    ⟨r0_o25, k0_pay95 (c0_v655 x0 x1 x2 x3 x4 x5 x6) (c0_v656 x0 x1 x2 x3 x4 x5 x6)⟩,
    ⟨r0_o24, k0_pay94 (c0_v655 x0 x1 x2 x3 x4 x5 x6) (c0_v656 x0 x1 x2 x3 x4 x5 x6)⟩,
    ⟨r0_o23, k0_pay87 (c0_v614 x0 x1 x2 x3 x4 x5 x6)⟩,
    ⟨r0_o22, k0_pay85 (c0_v1 x2) (c0_v3 x3) (c0_v5 x4) (c0_v7 x5) (c0_v9 x1) (c0_v11 x6) (View.ld x0 r0_x22) (View.ld x0 r0_x23)⟩,
    ⟨r0_o21, k0_pay80 (c0_v1 x2) (c0_v3 x3) (c0_v5 x4) (c0_v7 x5) (c0_v9 x1) (c0_v11 x6) (c0_v528 x0)⟩,
    ⟨r0_o20, k0_pay79 (c0_v1 x2) (c0_v3 x3) (c0_v5 x4) (c0_v7 x5) (c0_v9 x1) (c0_v11 x6) (c0_v528 x0)⟩,
    ⟨r0_o19, k0_pay74 (c0_v5 x4) (c0_v7 x5) (c0_v9 x1) (c0_v11 x6) (c0_v489 x0 x2 x3)⟩,
    ⟨r0_o18, k0_pay73 (c0_v5 x4) (c0_v7 x5) (c0_v9 x1) (c0_v11 x6) (c0_v489 x0 x2 x3)⟩,
    ⟨r0_o17, k0_pay68 (c0_v447 x0 x1 x2 x3 x4 x5 x6) (c0_v448 x0 x1 x2 x3 x4 x5 x6)⟩,
    ⟨r0_o16, k0_pay67 (c0_v447 x0 x1 x2 x3 x4 x5 x6) (c0_v448 x0 x1 x2 x3 x4 x5 x6)⟩,
    ⟨r0_o15, k0_pay61 (c0_v404 x0 x1 x2 x3 x4 x5 x6)⟩,
    ⟨r0_o14, k0_pay60 (c0_v406 x0 x1 x2 x3 x4 x5 x6)⟩,
    ⟨r0_o13, k0_pay54 (c0_v1 x2) (c0_v3 x3) (c0_v5 x4) (c0_v7 x5) (c0_v9 x1) (c0_v11 x6) (c0_v321 x0) (View.ld x0 r0_x13)⟩,
    ⟨r0_o12, k0_pay53 (c0_v1 x2) (c0_v3 x3) (c0_v5 x4) (c0_v7 x5) (c0_v9 x1) (c0_v11 x6) (c0_v321 x0) (View.ld x0 r0_x13)⟩,
    ⟨r0_o11, k0_pay48 (c0_v5 x4) (c0_v7 x5) (c0_v9 x1) (c0_v11 x6) (c0_v281 x0 x2 x3) (c0_v282 x0 x2 x3)⟩,
    ⟨r0_o10, k0_pay47 (c0_v5 x4) (c0_v7 x5) (c0_v9 x1) (c0_v11 x6) (c0_v281 x0 x2 x3) (c0_v282 x0 x2 x3)⟩,
    ⟨r0_o9, k0_pay40 (c0_v7 x5) (c0_v11 x6) (c0_v241 x0 x1 x2 x3 x4)⟩,
    ⟨r0_o8, k0_pay39 (c0_v7 x5) (c0_v11 x6) (c0_v241 x0 x1 x2 x3 x4)⟩,
    ⟨r0_o7, k0_pay34 (c0_v200 x0 x1 x2 x3 x4 x5 x6)⟩,
    ⟨r0_o6, k0_pay33 (c0_v202 x0 x1 x2 x3 x4 x5 x6)⟩,
    ⟨r0_o5, k0_pay28 (c0_v156 x0 x1 x2 x3 x4 x5 x6)⟩,
    ⟨r0_o4, k0_pay26 (c0_v1 x2) (c0_v3 x3) (c0_v5 x4) (c0_v7 x5) (c0_v9 x1) (c0_v11 x6) (View.ld x0 r0_x4) (View.ld x0 r0_x5)⟩,
    ⟨r0_o3, k0_pay22 (c0_v5 x4) (c0_v7 x5) (c0_v9 x1) (c0_v11 x6) (c0_v73 x0 x2 x3) (c0_v74 x0 x2 x3)⟩,
    ⟨r0_o2, k0_pay21 (c0_v5 x4) (c0_v7 x5) (c0_v9 x1) (c0_v11 x6) (c0_v73 x0 x2 x3) (c0_v74 x0 x2 x3)⟩,
    ⟨r0_o1, k0_pay15 (c0_v7 x5) (c0_v11 x6) (c0_v34 x0 x1 x2 x3 x4)⟩,
    ⟨r0_o0, k0_pay14 (c0_v7 x5) (c0_v11 x6) (c0_v34 x0 x1 x2 x3 x4)⟩]

def out0_8 : Vec F S1x1x128 .f32 :=
  View.canon [⟨r0_s, k0_pay2 (c0_v774 x0 x1 x2 x3 x4 x5 x6) (c0_v812 x0 x1 x2 x3 x4 x5 x6)⟩]

def out0_9 : Vec F S1x1x128 .f32 :=
  View.canon [⟨r0_s, k0_pay3 (c0_v778 x0 x1 x2 x3 x4 x5 x6) (c0_v812 x0 x1 x2 x3 x4 x5 x6)⟩]

end Cert.Kernel.Run

end
-- ==== Proof.BDefs.lean ====
import proofs.«181364_g2000406351686535_pallasbulk_564_19_alg».proof.Proof.BWire
import proofs.«181364_g2000406351686535_pallasbulk_564_19_alg».proof.Proof.Gen.Kernel.Skeleton
import proofs.«181364_g2000406351686535_pallasbulk_564_19_alg».proof.Proof.Gen.Kernel.Launch
import proofs.«181364_g2000406351686535_pallasbulk_564_19_alg».proof.Proof.Gen.Kernel.Points
import proofs.«181364_g2000406351686535_pallasbulk_564_19_alg».proof.Proof.Gen.Kernel.Regions
import Idealize.ShloMosaic.Lib.Pipeline.FrameBody
import Idealize.ShloMosaic.Lib.Pipeline.FrameSuffix

set_option maxRecDepth 16384

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Rounds
open Idealize.ShloMosaic.Pipeline (Dat Cfg Window cellOf)
open Cert.Kernel Cert.Kernel.Gen

variable {F : FTy → Type} [FloatOps F]

abbrev r1_b : Rect S32x384x128 := Rect.unit (s := S32x384x128) ![0, 0, 0] S32x384x128.size inb_S32x384x128_S32x384x128_0_0_0
abbrev r1_v : Rect S1x128 := Rect.unit (s := S1x128) ![0, 0] S1x128.size inb_S1x128_S1x128_0_0

def out1_3 (y0 : Vec F S32x384x128 .bf16) (y1 : Vec F S1x128 .f32) (y2 : Vec F S1x128 .f32) : Vec F S32x384x128 .f32 :=
  View.canon [⟨r1_b, k1_pay1 (View.ld y0 r1_b) (View.ld y1 r1_v) (View.ld y2 r1_v)⟩]

section Regions

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
    | ⟨9, _⟩ => out0_9 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

end Regions

variable (m : (ℓ : Loc nD τ sig) → Buf (Elt F) ℓ)

abbrev Vin0 : (c : Dev nD) → (b : Ref sig .tc) → Buf (Elt F) ((c : Thread nD τ).loc b) := fun c b => V15 m c b

def W16 (c : Dev nD) : Valuation τ sig (Elt F) :=
  Pipeline.withArrays spec0 c (V15 m c) fun w => (dat0 (Vin0 m) c).arrAt w cfg0.N

def outs0 : Outs (F := F) := fun _ r c => W16 m c r

abbrev Vin1 : (c : Dev nD) → (b : Ref sig .tc) → Buf (Elt F) ((c : Thread nD τ).loc b) := fun c b => V17 m (outs0 m) c b

def W18 (c : Dev nD) : Valuation τ sig (Elt F) :=
  Pipeline.withArrays spec1 c (V17 m (outs0 m) c) fun w => (dat1 (Vin1 m) c).arrAt w cfg1.N

def outs : Outs (F := F) := fun j r c => if j = 18 then W18 m c r else W16 m c r

def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c

def Wend (c : Dev nD) : Valuation τ sig (Elt F) := V19 m (outs m) c

end Cert.Kernel.Run

end
-- ==== Proof.BFrame.lean ====
import proofs.«181364_g2000406351686535_pallasbulk_564_19_alg».proof.Proof.BDefs
import Idealize.ShloMosaic.Lib.Pipeline.RegionsLoop
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

theorem before0 (c : Dev nD) (t : Fin cfg0.N) (w : Fin cfg0.W) (hw : w.1 < 7) :
    ∀ d, (dat0 V c).before w t d = (dat0 V c).after w t := by
  have h : w = 0 ∨ w = 1 ∨ w = 2 ∨ w = 3 ∨ w = 4 ∨ w = 5 ∨ w = 6 := by revert w; decide
  rcases h with rfl | rfl | rfl | rfl | rfl | rfl | rfl <;>
    exact fun d => ((dat0 V c).before_in_eq_fetched _ rfl (fun _ => rfl) (fun _ _ _ => rfl) (fun _ => rfl) t d).trans rfl

theorem cover0_7 (p0 p1 p2 p3 p4 p5 p6 p7 p8 p9 p10 p11 p12 p13 p14 p15 p16 p17 p18 p19 p20 p21 p22 p23 p24 p25 p26 p27 p28 p29 p30 p31 : Vec F S1x384x128 .bf16) (y : S32x384x128.Idx) :
    ∃ pc ∈ ([⟨r0_o31, p31⟩, ⟨r0_o30, p30⟩, ⟨r0_o29, p29⟩, ⟨r0_o28, p28⟩, ⟨r0_o27, p27⟩, ⟨r0_o26, p26⟩, ⟨r0_o25, p25⟩, ⟨r0_o24, p24⟩, ⟨r0_o23, p23⟩, ⟨r0_o22, p22⟩, ⟨r0_o21, p21⟩, ⟨r0_o20, p20⟩, ⟨r0_o19, p19⟩, ⟨r0_o18, p18⟩, ⟨r0_o17, p17⟩, ⟨r0_o16, p16⟩, ⟨r0_o15, p15⟩, ⟨r0_o14, p14⟩, ⟨r0_o13, p13⟩, ⟨r0_o12, p12⟩, ⟨r0_o11, p11⟩, ⟨r0_o10, p10⟩, ⟨r0_o9, p9⟩, ⟨r0_o8, p8⟩, ⟨r0_o7, p7⟩, ⟨r0_o6, p6⟩, ⟨r0_o5, p5⟩, ⟨r0_o4, p4⟩, ⟨r0_o3, p3⟩, ⟨r0_o2, p2⟩, ⟨r0_o1, p1⟩, ⟨r0_o0, p0⟩] : List (View.Piece (Elt F) S32x384x128 .bf16)), y ∈ pc.1.set :=
  View.cover_of_tiled (s := S32x384x128) _ S1x384x128.size (by rfl) y

theorem cover0_s (p : Vec F S1x1x128 .f32) (y : S1x1x128.Idx) :
    ∃ pc ∈ ([⟨r0_s, p⟩] : List (View.Piece (Elt F) S1x1x128 .f32)), y ∈ pc.1.set :=
  View.cover_of_tiled [⟨r0_s, p⟩] S1x1x128.size (by rfl) y

set_option maxHeartbeats 4000000 in
theorem sound_kernel0 (c : Dev nD) (E : Set ℕ) (i : grid0.Coords) (arg1 : Memref sig .tc .vmem S32x256x128 .f32) (harg1 : arg1.IsWhole) (arg2 : Memref sig .tc .vmem S256x256 .bf16) (harg2 : arg2.IsWhole) (arg3 : Memref sig .tc .vmem S1536x256 .bf16) (harg3 : arg3.IsWhole) (arg4 : Memref sig .tc .vmem S1536x1 .f32) (harg4 : arg4.IsWhole) (arg5 : Memref sig .tc .vmem S224x512 .bf16) (harg5 : arg5.IsWhole) (arg6 : Memref sig .tc .vmem S1152x232 .bf16) (harg6 : arg6.IsWhole) (arg7 : Memref sig .tc .vmem S8x256 .bf16) (harg7 : arg7.IsWhole) (arg8 : Memref sig .tc .vmem S32x384x128 .bf16) (harg8 : arg8.IsWhole) (arg9 : Memref sig .tc .vmem S1x1x128 .f32) (harg9 : arg9.IsWhole) (arg10 : Memref sig .tc .vmem S1x1x128 .f32) (harg10 : arg10.IsWhole)
    (x0 : Vec F S32x256x128 .f32) (x1 : Vec F S256x256 .bf16) (x2 : Vec F S1536x256 .bf16) (x3 : Vec F S1536x1 .f32) (x4 : Vec F S224x512 .bf16) (x5 : Vec F S1152x232 .bf16) (x6 : Vec F S8x256 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out0_7 x0 x1 x2 x3 x4 x5 x6) ∗ owns (c : Thread nD τ) arg9 fullShare (out0_8 x0 x1 x2 x3 x4 x5 x6) ∗ owns (c : Thread nD τ) arg10 fullShare (out0_9 x0 x1 x2 x3 x4 x5 x6)) -∗ K ⟨⟩))
      ⊢ wp frame (wpE (defs₀ (F := F)) Variants.none c none) E (cc0__fused_body i arg1 harg1 arg2 harg2 arg3 harg3 arg4 harg4 arg5 harg5 arg6 harg6 arg7 harg7 arg8 harg8 arg9 harg9 arg10 harg10) K := by
  simp only [cc0__fused_body_eq_skeleton]; unfold cc0__fused_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec_parts
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _ _ _ _ _ _ _ _ _ _ _ _ _ _ _ _ _ _ _ _ _ _ _ _ _ _ _ _ _ _ _ _)
  isplitl [H8]
  · iexists _; isplitr
    swap; · iexact H8
    ipureintro
    exact View.read_writes_eq_canon _ _ _ (cover0_s _)
  iexists _; isplitr
  swap; · iexact H9
  ipureintro
  exact View.read_writes_eq_canon _ _ _ (cover0_s _)

theorem body_obligation0 (c : Dev nD) : BodyObligation (dat0 (F := F) V c) (defs₀ (F := F)) Variants.none () Set.univ := fun t => by
  rw [bigSep_W0, bigSep_W0, show (dat0 V c).Φ t.succ = (dat0 V c).Φ t.castSucc from rfl,
    show (dat0 V c).owesAt () t.succ = (dat0 V c).owesAt () t.castSucc from rfl]
  simp only [before0 V c t 0 (by decide), before0 V c t 1 (by decide), before0 V c t 2 (by decide), before0 V c t 3 (by decide), before0 V c t 4 (by decide), before0 V c t 5 (by decide), before0 V c t 6 (by decide)]
  dsimp only [dat0]
  show _ ⊢ wp _ _ _ (bodyAt0 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  iframe H0 H1 H2 H3 H4 H5 H6
  isplitl [H7]; · iexists _; iexact H7
  isplitl [H8]; · iexists _; iexact H8
  isplitl [H9]; · iexists _; iexact H9
  iintro ⟨H0, H1, H2, H3, H4, H5, H6, H7, H8, H9⟩
  iframe

theorem before1 (c : Dev nD) (t : Fin cfg1.N) (w : Fin cfg1.W) (hw : w.1 < 3) :
    ∀ d, (dat1 V c).before w t d = (dat1 V c).after w t := by
  have h : w = 0 ∨ w = 1 ∨ w = 2 := by revert w; decide
  rcases h with rfl | rfl | rfl <;>
    exact fun d => ((dat1 V c).before_in_eq_fetched _ rfl (fun _ => rfl) (fun _ _ _ => rfl) (fun _ => rfl) t d).trans rfl

theorem cover1_3 (p : Vec F S32x384x128 .f32) (y : S32x384x128.Idx) :
    ∃ pc ∈ ([⟨r1_b, p⟩] : List (View.Piece (Elt F) S32x384x128 .f32)), y ∈ pc.1.set :=
  View.cover_of_tiled [⟨r1_b, p⟩] S32x384x128.size (by rfl) y

set_option maxHeartbeats 1000000 in
theorem sound_kernel1 (c : Dev nD) (E : Set ℕ) (i : grid1.Coords) (arg1 : Memref sig .tc .vmem S32x384x128 .bf16) (harg1 : arg1.IsWhole) (arg2 : Memref sig .tc .vmem S1x128 .f32) (harg2 : arg2.IsWhole) (arg3 : Memref sig .tc .vmem S1x128 .f32) (harg3 : arg3.IsWhole) (arg4 : Memref sig .tc .vmem S32x384x128 .f32) (harg4 : arg4.IsWhole)
    (y0 : Vec F S32x384x128 .bf16) (y1 : Vec F S1x128 .f32) (y2 : Vec F S1x128 .f32) (K : PUnit → sProp 𝕄) :
    iprop(owns (c : Thread nD τ) arg1 fullShare y0 ∗ owns (c : Thread nD τ) arg2 fullShare y1 ∗ owns (c : Thread nD τ) arg3 fullShare y2 ∗ (∃ d, owns (c : Thread nD τ) arg4 fullShare d)
        ∗ (iprop(owns (c : Thread nD τ) arg1 fullShare y0 ∗ owns (c : Thread nD τ) arg2 fullShare y1 ∗ owns (c : Thread nD τ) arg3 fullShare y2 ∗ owns (c : Thread nD τ) arg4 fullShare (out1_3 y0 y1 y2)) -∗ K ⟨⟩))
      ⊢ wp frame (wpE (defs₀ (F := F)) Variants.none c none) E (cc1__bn_body i arg1 harg1 arg2 harg2 arg3 harg3 arg4 harg4) K := by
  simp only [cc1__bn_body_eq_skeleton]; unfold cc1__bn_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

theorem body_obligation1 (c : Dev nD) : BodyObligation (dat1 (F := F) V c) (defs₀ (F := F)) Variants.none () Set.univ := fun t => by
  rw [bigSep_W1, bigSep_W1, show (dat1 V c).Φ t.succ = (dat1 V c).Φ t.castSucc from rfl,
    show (dat1 V c).owesAt () t.succ = (dat1 V c).owesAt () t.castSucc from rfl]
  simp only [before1 V c t 0 (by decide), before1 V c t 1 (by decide), before1 V c t 2 (by decide)]
  dsimp only [dat1]
  show _ ⊢ wp _ _ _ (bodyAt1 t) _
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  iframe H0 H1 H2
  isplitl [H3]; · iexists _; iexact H3
  iintro ⟨H0, H1, H2, H3⟩
  iframe

end Regions

variable (m : (ℓ : Loc nD τ sig) → Buf (Elt F) ℓ)

theorem outs16 (c : Dev nD) (w : Fin cfg0.W) :
    outs m 16 (Pipeline.arrRef spec0 w) c = (dat0 (Vin0 m) c).arrAt w cfg0.N := by
  unfold outs W16; rw [if_neg (by decide)]; exact Pipeline.withArrays_arr spec0 launch0.win.arr_inj c _ _ w
theorem outs18 (c : Dev nD) (w : Fin cfg1.W) :
    outs m 18 (Pipeline.arrRef spec1 w) c = (dat1 (Vin1 m) c).arrAt w cfg1.N := by
  unfold outs W18; rw [if_pos rfl]; exact Pipeline.withArrays_arr spec1 launch1.win.arr_inj c _ _ w

theorem V17_outs (c : Dev nD) : V17 m (outs m) c = V17 m (outs0 m) c := rfl

theorem V16_v70_0 (c : Dev nD) : V16 m (outs m) c main_v70_0 = outs m 16 main_v70_0 c :=
  (Function.update_of_ne (StableHlo.devRef_ne_of_ne (by decide)) _ _).trans
    ((Function.update_of_ne (StableHlo.devRef_ne_of_ne (by decide)) _ _).trans (Function.update_self _ _ _))
theorem V16_v70_1 (c : Dev nD) : V16 m (outs m) c main_v70_1 = outs m 16 main_v70_1 c :=
  (Function.update_of_ne (StableHlo.devRef_ne_of_ne (by decide)) _ _).trans (Function.update_self _ _ _)
theorem V16_v70_2 (c : Dev nD) : V16 m (outs m) c main_v70_2 = outs m 16 main_v70_2 c :=
  Function.update_self _ _ _
theorem V18_v94 (c : Dev nD) : V18 m (outs m) c main_v94 = outs m 18 main_v94 c :=
  Function.update_self _ _ _

theorem hF0 (c : Dev nD) (w : Fin cfg0.W) : (dat0 (Vin0 m) c).arrAt w cfg0.N = V16 m (outs m) c (Pipeline.arrRef spec0 w) := by
  by_cases h : (cfg0.win w).isOut = false
  · exact ((dat0 (Vin0 m) c).arrAt_in w h _).trans (V16_of m (outs m) c _ (by revert w; decide)).symm
  have hw : w = 7 ∨ w = 8 ∨ w = 9 := by revert w; decide
  rcases hw with rfl | rfl | rfl
  · exact ((V16_v70_0 m c).trans (outs16 m c 7)).symm
  · exact ((V16_v70_1 m c).trans (outs16 m c 8)).symm
  · exact ((V16_v70_2 m c).trans (outs16 m c 9)).symm
theorem hrest0 (c : Dev nD) : ∀ b, b ∉ Finset.univ.image (Pipeline.arrRef spec0) → V16 m (outs m) c b = Vin0 m c b :=
  fun b hb => V16_of m (outs m) c b fun h => hb (Finset.mem_image.mpr (by
    rcases List.mem_cons.mp h with rfl | h; · exact ⟨7, Finset.mem_univ _, rfl⟩
    rcases List.mem_cons.mp h with rfl | h; · exact ⟨8, Finset.mem_univ _, rfl⟩
    rcases List.mem_cons.mp h with rfl | h; · exact ⟨9, Finset.mem_univ _, rfl⟩
    exact absurd h List.not_mem_nil))

theorem hF1 (c : Dev nD) (w : Fin cfg1.W) : (dat1 (Vin1 m) c).arrAt w cfg1.N = V18 m (outs m) c (Pipeline.arrRef spec1 w) := by
  by_cases h : (cfg1.win w).isOut = false
  · exact ((dat1 (Vin1 m) c).arrAt_in w h _).trans ((V18_of m (outs m) c _ (by revert w; decide)).trans (congrFun (V17_outs m c) _)).symm
  have hw : w = 3 := by revert w; decide
  subst hw
  exact ((V18_v94 m c).trans (outs18 m c 3)).symm
theorem hrest1 (c : Dev nD) : ∀ b, b ∉ Finset.univ.image (Pipeline.arrRef spec1) → V18 m (outs m) c b = V17 m (outs m) c b :=
  fun b hb => V18_of m (outs m) c b fun h => hb (Finset.mem_image.mpr (by
    rcases List.mem_cons.mp h with rfl | h; · exact ⟨3, Finset.mem_univ _, rfl⟩
    exact absurd h List.not_mem_nil))

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

set_option backward.isDefEq.respectTransparency.types false in
def reg (p : Fin 2) (lf : Pipeline.LaunchFacts (nD := nD) (τ := τ) cfgs p) (Wi Wo : Dev nD → Valuation τ sig (Elt F))
    (hb : ∀ c, BodyObligation (pdats m p c) (defs₀ (F := F)) 𝒱₀ () Set.univ)
    (h : ∀ c, (∀ w, (pdats m p c).q w = fullShare) ∧ (∀ t, (pdats m p c).owed t = 0) ∧ (∀ t, (pdats m p c).recorded t = Set.univ)
      ∧ (∀ t, (pdats m p c).Φ t = Pipeline.ΦA (cfgs p).spec c)
      ∧ ((BI.emp : sProp 𝕄) ⊢ Pipeline.prefHeld (pcfgs (F := F) p).pre c (fun _ => fullShare) (adm p).1)
      ∧ (∀ w, (pdats m p c).A w = Wi c (Pipeline.arrRef (cfgs p).spec w))
      ∧ (∀ w, (pdats m p c).arrAt w (cfgs p).N = Wo c (Pipeline.arrRef (cfgs p).spec w))
      ∧ ∀ b : Ref sig .tc, b ∉ Finset.univ.image (Pipeline.arrRef (cfgs p).spec) → Wo c b = Wi c b) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (h c).2.1
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    obtain ⟨hq, ho, hr, -, hpf, hA, -, -⟩ := h c
    rw [Pipeline.ownSems0_none]
    have hsplit := Pipeline.arrays_of_unscopedBufs (p := p) (pcfgs (F := F)) adm (pdats m) lf.win lf.arr_whole c
      ((pdats m p c).share_full hq) (fun b => Wi c b) hA
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · iapply hpf; iempintro
    unfold Pipeline.Dat.owesAt Pipeline.owesWithin
    rw [ho, Pipeline.Dat.bound, hr]
    icases HO with ⟨%W, HO⟩; iexists W; isplitr; · ipureintro; exact fun _ _ => Or.inl trivial
    iexact HO
  hin c := by
    rw [(h c).2.2.2.1]; unfold Pipeline.ΦA
    iintro ⟨Hp, -, Hr⟩
    iframe
  hout c := by
    rw [Pipeline.ownSems0_none, (h c).2.2.2.1]; unfold Pipeline.ΦA
    iintro ⟨Hr, Hp⟩
    iframe
    iempintro
  hexit c := by
    obtain ⟨hq, ho, -, -, -, -, hF, hrest⟩ := h c
    have hjoin := Pipeline.unscopedBufs_of_arrays (p := p) (pcfgs (F := F)) adm (Ix := Unit) (Name := ℕ) (U := UR sig nD τ) (Lvl := ℕ)
      lf.win lf.arr_whole c (pdats m) ((pdats m p c).share_full hq)
      (fun b => Wi c b) (fun b => Wo c b) ((pdats m p c).arrAt · (cfgs p).N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho]
    icases HO with ⟨%W, -, HO⟩; iexists W; iexact HO

def reg0 : Pipeline.RegionSeg (pcfgs (F := F)) adm (pdats m) () defs₀ 𝒱₀ L lv 0 :=
  reg m 0 launch0 (V15 m) (V16 m (outs m)) (body_obligation0 (Vin0 m)) fun c => ⟨fun _ => rfl, fun _ => rfl, fun _ => rfl, fun _ => rfl,
    by unfold Pipeline.prefHeld; rw [show (Finset.univ : Finset (Fin 0)) = ∅ from rfl, BI.bigSep_empty], fun _ => rfl, hF0 m c, hrest0 m c⟩

def reg1 : Pipeline.RegionSeg (pcfgs (F := F)) adm (pdats m) () defs₀ 𝒱₀ L lv 1 :=
  reg m 1 launch1 (V17 m (outs m)) (V18 m (outs m)) (body_obligation1 (Vin1 m)) fun c => ⟨fun _ => rfl, fun _ => rfl, fun _ => rfl, fun _ => rfl,
    by unfold Pipeline.prefHeld; rw [show (Finset.univ : Finset (Fin 0)) = ∅ from rfl, BI.bigSep_empty], fun _ => (congrFun (V17_outs m c) _).symm, hF1 m c, hrest1 m c⟩

set_option backward.isDefEq.respectTransparency.types false in
theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = Wend m c b) := by
  refine Pipeline.θ_run_regions_kit_dev (pcfgs (F := F)) adm (pdats m) () cellOf_inj emb₁ defs₀ 𝒱₀ L lv m ρ main
    (segs m (outs m) 𝒱₀ L lv (fun _ c => R c) () (pdats m) (reg0 m) (reg1 m))
    (fun c Q => by
      rewrite [main_chain c, Seg.run_eq_chain]
      exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V19 m (outs m) c))
    (hch := fun c => ⟨.rfl, .rfl, .rfl, .rfl, .rfl, .rfl, .rfl, .rfl, .rfl, .rfl, .rfl, .rfl, .rfl, .rfl, .rfl, .rfl, .rfl, .rfl, .rfl,
      sep_mono .rfl (by iintro ⟨-, H⟩; iexact H)⟩)
    (hinit := ?_) (QY := fun c s => ∀ b ∈ Pipeline.ucRefs τ sig, s.mem ((c : Thread nD τ).1, b) = Wend m c b)
    (hfin := fun c s' => ?_) (hQ := fun _ h => h)
  · have h : ∀ c : Dev nD, (iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)) : sProp 𝕄)
        ⊢ iprop(StableHlo.held (c : Thread nD τ) (Pipeline.ucRefs τ sig) (V0 m c) ∗ R c) := fun c => by
      rw [← Pipeline.unscopedBufs_held (Ix := Unit) (Name := ℕ) (U := UR sig nD τ) (Lvl := ℕ) c (V0 m c)]
      exact sep_mono .rfl (by
        iintro ⟨-, HO, -, Hp, -⟩
        isplitl [Hp]; · iexists _; iexact Hp
        iexists ∅; iexact HO)
    iintro ⟨H, -⟩
    imodintro
    iapply (show (bigSep Finset.univ _ : sProp 𝕄) ⊢ bigSep Finset.univ _ from bigSep_mono fun c _ => h c)
    iexact H
  ·
    unfold StableHlo.held
    iintro ⟨Hh, HSI⟩
    ihave Hr := (pointsTo_read_all (Pipeline.ucRefs τ sig) (fun b => ((c : Thread nD τ).1, b)) (V19 m (outs m) c) s') $$ [Hh HSI]
    · isplitl [Hh] <;> iassumption
    icases Hr with ⟨%h, HSI⟩
    imodintro
    isplitr
    · ipureintro
      exact h
    · iexact HSI

theorem Wend_arg0 (c : Dev nD) : Wend m c main_arg0 = m ((c : Thread nD τ).loc main_arg0) := V19_main_arg0 m (outs m) c
theorem Wend_arg1 (c : Dev nD) : Wend m c main_arg1 = m ((c : Thread nD τ).loc main_arg1) := V19_main_arg1 m (outs m) c
theorem Wend_arg2 (c : Dev nD) : Wend m c main_arg2 = m ((c : Thread nD τ).loc main_arg2) := V19_main_arg2 m (outs m) c
theorem Wend_arg3 (c : Dev nD) : Wend m c main_arg3 = m ((c : Thread nD τ).loc main_arg3) := V19_main_arg3 m (outs m) c
theorem Wend_arg4 (c : Dev nD) : Wend m c main_arg4 = m ((c : Thread nD τ).loc main_arg4) := V19_main_arg4 m (outs m) c
theorem Wend_arg5 (c : Dev nD) : Wend m c main_arg5 = m ((c : Thread nD τ).loc main_arg5) := V19_main_arg5 m (outs m) c
theorem Wend_arg6 (c : Dev nD) : Wend m c main_arg6 = m ((c : Thread nD τ).loc main_arg6) := V19_main_arg6 m (outs m) c
theorem Wend_arg7 (c : Dev nD) : Wend m c main_arg7 = m ((c : Thread nD τ).loc main_arg7) := V19_main_arg7 m (outs m) c
theorem Wend_arg8 (c : Dev nD) : Wend m c main_arg8 = m ((c : Thread nD τ).loc main_arg8) := V19_main_arg8 m (outs m) c

end Cert.Kernel.Run

end
-- ==== Proof.KWire.lean ====
import proofs.«181364_g2000406351686535_pallasbulk_564_19_alg».proof.Proof.Gen.KernelIdeal.Skeleton
import Idealize.ShloMosaic.Lib.Pipeline.FrameBody

set_option maxRecDepth 16384

noncomputable section

namespace Cert.KernelIdeal.Run

open Idealize.ShloMosaic
open Cert.KernelIdeal Cert.KernelIdeal.Gen

variable {F : FTy → Type} [FloatOps F]
variable (x0 : Vec F S32x256x128 .f32) (x1 : Vec F S256x256 .bf16) (x2 : Vec F S1536x256 .bf16) (x3 : Vec F S1536x1 .f32) (x4 : Vec F S224x512 .bf16) (x5 : Vec F S1152x232 .bf16) (x6 : Vec F S8x256 .bf16)

abbrev r0_o0 : Rect S32x384x128 := Rect.unit ![0, 0, 0] S1x384x128.size inb_S32x384x128_S1x384x128_0_0_0
abbrev r0_o1 : Rect S32x384x128 := Rect.unit ![1, 0, 0] S1x384x128.size inb_S32x384x128_S1x384x128_1_0_0
abbrev r0_o2 : Rect S32x384x128 := Rect.unit ![2, 0, 0] S1x384x128.size inb_S32x384x128_S1x384x128_2_0_0
abbrev r0_o3 : Rect S32x384x128 := Rect.unit ![3, 0, 0] S1x384x128.size inb_S32x384x128_S1x384x128_3_0_0
abbrev r0_o4 : Rect S32x384x128 := Rect.unit ![4, 0, 0] S1x384x128.size inb_S32x384x128_S1x384x128_4_0_0
abbrev r0_o5 : Rect S32x384x128 := Rect.unit ![5, 0, 0] S1x384x128.size inb_S32x384x128_S1x384x128_5_0_0
abbrev r0_o6 : Rect S32x384x128 := Rect.unit ![6, 0, 0] S1x384x128.size inb_S32x384x128_S1x384x128_6_0_0
abbrev r0_o7 : Rect S32x384x128 := Rect.unit ![7, 0, 0] S1x384x128.size inb_S32x384x128_S1x384x128_7_0_0
abbrev r0_o8 : Rect S32x384x128 := Rect.unit ![8, 0, 0] S1x384x128.size inb_S32x384x128_S1x384x128_8_0_0
abbrev r0_o9 : Rect S32x384x128 := Rect.unit ![9, 0, 0] S1x384x128.size inb_S32x384x128_S1x384x128_9_0_0
abbrev r0_o10 : Rect S32x384x128 := Rect.unit ![10, 0, 0] S1x384x128.size inb_S32x384x128_S1x384x128_10_0_0
abbrev r0_o11 : Rect S32x384x128 := Rect.unit ![11, 0, 0] S1x384x128.size inb_S32x384x128_S1x384x128_11_0_0
abbrev r0_o12 : Rect S32x384x128 := Rect.unit ![12, 0, 0] S1x384x128.size inb_S32x384x128_S1x384x128_12_0_0
abbrev r0_o13 : Rect S32x384x128 := Rect.unit ![13, 0, 0] S1x384x128.size inb_S32x384x128_S1x384x128_13_0_0
abbrev r0_o14 : Rect S32x384x128 := Rect.unit ![14, 0, 0] S1x384x128.size inb_S32x384x128_S1x384x128_14_0_0
abbrev r0_o15 : Rect S32x384x128 := Rect.unit ![15, 0, 0] S1x384x128.size inb_S32x384x128_S1x384x128_15_0_0
abbrev r0_o16 : Rect S32x384x128 := Rect.unit ![16, 0, 0] S1x384x128.size inb_S32x384x128_S1x384x128_16_0_0
abbrev r0_o17 : Rect S32x384x128 := Rect.unit ![17, 0, 0] S1x384x128.size inb_S32x384x128_S1x384x128_17_0_0
abbrev r0_o18 : Rect S32x384x128 := Rect.unit ![18, 0, 0] S1x384x128.size inb_S32x384x128_S1x384x128_18_0_0
abbrev r0_o19 : Rect S32x384x128 := Rect.unit ![19, 0, 0] S1x384x128.size inb_S32x384x128_S1x384x128_19_0_0
abbrev r0_o20 : Rect S32x384x128 := Rect.unit ![20, 0, 0] S1x384x128.size inb_S32x384x128_S1x384x128_20_0_0
abbrev r0_o21 : Rect S32x384x128 := Rect.unit ![21, 0, 0] S1x384x128.size inb_S32x384x128_S1x384x128_21_0_0
abbrev r0_o22 : Rect S32x384x128 := Rect.unit ![22, 0, 0] S1x384x128.size inb_S32x384x128_S1x384x128_22_0_0
abbrev r0_o23 : Rect S32x384x128 := Rect.unit ![23, 0, 0] S1x384x128.size inb_S32x384x128_S1x384x128_23_0_0
abbrev r0_o24 : Rect S32x384x128 := Rect.unit ![24, 0, 0] S1x384x128.size inb_S32x384x128_S1x384x128_24_0_0
abbrev r0_o25 : Rect S32x384x128 := Rect.unit ![25, 0, 0] S1x384x128.size inb_S32x384x128_S1x384x128_25_0_0
abbrev r0_o26 : Rect S32x384x128 := Rect.unit ![26, 0, 0] S1x384x128.size inb_S32x384x128_S1x384x128_26_0_0
abbrev r0_o27 : Rect S32x384x128 := Rect.unit ![27, 0, 0] S1x384x128.size inb_S32x384x128_S1x384x128_27_0_0
abbrev r0_o28 : Rect S32x384x128 := Rect.unit ![28, 0, 0] S1x384x128.size inb_S32x384x128_S1x384x128_28_0_0
abbrev r0_o29 : Rect S32x384x128 := Rect.unit ![29, 0, 0] S1x384x128.size inb_S32x384x128_S1x384x128_29_0_0
abbrev r0_o30 : Rect S32x384x128 := Rect.unit ![30, 0, 0] S1x384x128.size inb_S32x384x128_S1x384x128_30_0_0
abbrev r0_o31 : Rect S32x384x128 := Rect.unit ![31, 0, 0] S1x384x128.size inb_S32x384x128_S1x384x128_31_0_0
abbrev r0_s : Rect S1x1x128 := Rect.unit ![0, 0, 0] S1x1x128.size inb_S1x1x128_S1x1x128_0_0_0
abbrev r0_w1 : Rect S256x256 := Rect.unit ![0, 0] S256x256.size inb_S256x256_S256x256_0_0
abbrev r0_w2 : Rect S1536x256 := Rect.unit ![0, 0] S1536x256.size inb_S1536x256_S1536x256_0_0
abbrev r0_w3 : Rect S1536x1 := Rect.unit ![0, 0] S1536x1.size inb_S1536x1_S1536x1_0_0
abbrev r0_w4 : Rect S224x512 := Rect.unit ![0, 0] S224x512.size inb_S224x512_S224x512_0_0
abbrev r0_w5 : Rect S1152x232 := Rect.unit ![0, 0] S1152x232.size inb_S1152x232_S1152x232_0_0
abbrev r0_w6 : Rect S8x256 := Rect.unit ![0, 0] S8x256.size inb_S8x256_S8x256_0_0
abbrev r0_x0 : Rect S32x256x128 := Rect.unit ![0, 0, 0] S1x256x128.size inb_S32x256x128_S1x256x128_0_0_0
abbrev r0_x1 : Rect S32x256x128 := Rect.unit ![1, 0, 0] S1x256x128.size inb_S32x256x128_S1x256x128_1_0_0
abbrev r0_x2 : Rect S32x256x128 := Rect.unit ![2, 0, 0] S1x256x128.size inb_S32x256x128_S1x256x128_2_0_0
abbrev r0_x3 : Rect S32x256x128 := Rect.unit ![3, 0, 0] S1x256x128.size inb_S32x256x128_S1x256x128_3_0_0
abbrev r0_x4 : Rect S32x256x128 := Rect.unit ![4, 0, 0] S1x256x128.size inb_S32x256x128_S1x256x128_4_0_0
abbrev r0_x5 : Rect S32x256x128 := Rect.unit ![5, 0, 0] S1x256x128.size inb_S32x256x128_S1x256x128_5_0_0
abbrev r0_x6 : Rect S32x256x128 := Rect.unit ![6, 0, 0] S1x256x128.size inb_S32x256x128_S1x256x128_6_0_0
abbrev r0_x7 : Rect S32x256x128 := Rect.unit ![7, 0, 0] S1x256x128.size inb_S32x256x128_S1x256x128_7_0_0
abbrev r0_x8 : Rect S32x256x128 := Rect.unit ![8, 0, 0] S1x256x128.size inb_S32x256x128_S1x256x128_8_0_0
abbrev r0_x9 : Rect S32x256x128 := Rect.unit ![9, 0, 0] S1x256x128.size inb_S32x256x128_S1x256x128_9_0_0
abbrev r0_x10 : Rect S32x256x128 := Rect.unit ![10, 0, 0] S1x256x128.size inb_S32x256x128_S1x256x128_10_0_0
abbrev r0_x11 : Rect S32x256x128 := Rect.unit ![11, 0, 0] S1x256x128.size inb_S32x256x128_S1x256x128_11_0_0
abbrev r0_x12 : Rect S32x256x128 := Rect.unit ![12, 0, 0] S1x256x128.size inb_S32x256x128_S1x256x128_12_0_0
abbrev r0_x13 : Rect S32x256x128 := Rect.unit ![13, 0, 0] S1x256x128.size inb_S32x256x128_S1x256x128_13_0_0
abbrev r0_x14 : Rect S32x256x128 := Rect.unit ![14, 0, 0] S1x256x128.size inb_S32x256x128_S1x256x128_14_0_0
abbrev r0_x15 : Rect S32x256x128 := Rect.unit ![15, 0, 0] S1x256x128.size inb_S32x256x128_S1x256x128_15_0_0
abbrev r0_x16 : Rect S32x256x128 := Rect.unit ![16, 0, 0] S1x256x128.size inb_S32x256x128_S1x256x128_16_0_0
abbrev r0_x17 : Rect S32x256x128 := Rect.unit ![17, 0, 0] S1x256x128.size inb_S32x256x128_S1x256x128_17_0_0
abbrev r0_x18 : Rect S32x256x128 := Rect.unit ![18, 0, 0] S1x256x128.size inb_S32x256x128_S1x256x128_18_0_0
abbrev r0_x19 : Rect S32x256x128 := Rect.unit ![19, 0, 0] S1x256x128.size inb_S32x256x128_S1x256x128_19_0_0
abbrev r0_x20 : Rect S32x256x128 := Rect.unit ![20, 0, 0] S1x256x128.size inb_S32x256x128_S1x256x128_20_0_0
abbrev r0_x21 : Rect S32x256x128 := Rect.unit ![21, 0, 0] S1x256x128.size inb_S32x256x128_S1x256x128_21_0_0
abbrev r0_x22 : Rect S32x256x128 := Rect.unit ![22, 0, 0] S1x256x128.size inb_S32x256x128_S1x256x128_22_0_0
abbrev r0_x23 : Rect S32x256x128 := Rect.unit ![23, 0, 0] S1x256x128.size inb_S32x256x128_S1x256x128_23_0_0
abbrev r0_x24 : Rect S32x256x128 := Rect.unit ![24, 0, 0] S1x256x128.size inb_S32x256x128_S1x256x128_24_0_0
abbrev r0_x25 : Rect S32x256x128 := Rect.unit ![25, 0, 0] S1x256x128.size inb_S32x256x128_S1x256x128_25_0_0
abbrev r0_x26 : Rect S32x256x128 := Rect.unit ![26, 0, 0] S1x256x128.size inb_S32x256x128_S1x256x128_26_0_0
abbrev r0_x27 : Rect S32x256x128 := Rect.unit ![27, 0, 0] S1x256x128.size inb_S32x256x128_S1x256x128_27_0_0
abbrev r0_x28 : Rect S32x256x128 := Rect.unit ![28, 0, 0] S1x256x128.size inb_S32x256x128_S1x256x128_28_0_0
abbrev r0_x29 : Rect S32x256x128 := Rect.unit ![29, 0, 0] S1x256x128.size inb_S32x256x128_S1x256x128_29_0_0
abbrev r0_x30 : Rect S32x256x128 := Rect.unit ![30, 0, 0] S1x256x128.size inb_S32x256x128_S1x256x128_30_0_0
abbrev r0_x31 : Rect S32x256x128 := Rect.unit ![31, 0, 0] S1x256x128.size inb_S32x256x128_S1x256x128_31_0_0

def c0_v1 := k0_pay4 (View.ld x2 r0_w2)
def c0_v3 := k0_pay5 (View.ld x3 r0_w3)
def c0_v5 := k0_pay6 (View.ld x4 r0_w4)
def c0_v7 := k0_pay7 (View.ld x5 r0_w5)
def c0_v9 := k0_pay8 (View.ld x1 r0_w1)
def c0_v11 := k0_pay9 (View.ld x6 r0_w6)
def c0_v12 := k0_pay10 (F := F)
def c0_v13 := k0_pay11 (F := F)
def c0_v34 := k0_pay12 (View.ld x2 r0_w2) (View.ld x3 r0_w3) (View.ld x4 r0_w4) (View.ld x1 r0_w1) (View.ld x0 r0_x0) (View.ld x0 r0_x1)
def c0_v60 := k0_pay16 (c0_v7 x5) (c0_v11 x6) (c0_v12 (F := F)) (c0_v34 x0 x1 x2 x3 x4)
def c0_v64 := k0_pay17 (c0_v7 x5) (c0_v11 x6) (c0_v13 (F := F)) (c0_v34 x0 x1 x2 x3 x4)
def c0_v73 := k0_pay18 (c0_v1 x2) (c0_v3 x3) (View.ld x0 r0_x2) (View.ld x0 r0_x3)
def c0_v74 := k0_pay19 (c0_v1 x2) (c0_v3 x3) (View.ld x0 r0_x2) (View.ld x0 r0_x3)
def c0_v111 := k0_pay23 (c0_v5 x4) (c0_v7 x5) (c0_v9 x1) (c0_v11 x6) (c0_v60 x0 x1 x2 x3 x4 x5 x6) (c0_v73 x0 x2 x3) (c0_v74 x0 x2 x3)
def c0_v115 := k0_pay24 (c0_v5 x4) (c0_v7 x5) (c0_v9 x1) (c0_v11 x6) (c0_v64 x0 x1 x2 x3 x4 x5 x6) (c0_v73 x0 x2 x3) (c0_v74 x0 x2 x3)
def c0_v149 := k0_pay25 (c0_v1 x2) (c0_v3 x3) (c0_v5 x4) (c0_v7 x5) (c0_v9 x1) (c0_v11 x6) (View.ld x0 r0_x4) (View.ld x0 r0_x5)
def c0_v156 := k0_pay27 (c0_v1 x2) (c0_v3 x3) (c0_v5 x4) (c0_v7 x5) (c0_v9 x1) (c0_v11 x6) (View.ld x0 r0_x4) (View.ld x0 r0_x5)
def c0_v162 := k0_pay29 (c0_v111 x0 x1 x2 x3 x4 x5 x6) (c0_v149 x0 x1 x2 x3 x4 x5 x6)
def c0_v166 := k0_pay30 (c0_v115 x0 x1 x2 x3 x4 x5 x6) (c0_v149 x0 x1 x2 x3 x4 x5 x6)
def c0_v200 := k0_pay31 (c0_v1 x2) (c0_v3 x3) (c0_v5 x4) (c0_v7 x5) (c0_v9 x1) (c0_v11 x6) (View.ld x0 r0_x6) (View.ld x0 r0_x7)
def c0_v202 := k0_pay32 (c0_v1 x2) (c0_v3 x3) (c0_v5 x4) (c0_v7 x5) (c0_v9 x1) (c0_v11 x6) (View.ld x0 r0_x6) (View.ld x0 r0_x7)
def c0_v213 := k0_pay35 (c0_v162 x0 x1 x2 x3 x4 x5 x6) (c0_v200 x0 x1 x2 x3 x4 x5 x6)
def c0_v217 := k0_pay36 (c0_v166 x0 x1 x2 x3 x4 x5 x6) (c0_v200 x0 x1 x2 x3 x4 x5 x6)
def c0_v241 := k0_pay37 (c0_v1 x2) (c0_v3 x3) (c0_v5 x4) (c0_v9 x1) (View.ld x0 r0_x8) (View.ld x0 r0_x9)
def c0_v264 := k0_pay41 (c0_v7 x5) (c0_v11 x6) (c0_v213 x0 x1 x2 x3 x4 x5 x6) (c0_v241 x0 x1 x2 x3 x4)
def c0_v268 := k0_pay42 (c0_v7 x5) (c0_v11 x6) (c0_v217 x0 x1 x2 x3 x4 x5 x6) (c0_v241 x0 x1 x2 x3 x4)
def c0_v281 := k0_pay44 (c0_v1 x2) (c0_v3 x3) (View.ld x0 r0_x10) (View.ld x0 r0_x11)
def c0_v282 := k0_pay45 (c0_v1 x2) (c0_v3 x3) (View.ld x0 r0_x10) (View.ld x0 r0_x11)
def c0_v315 := k0_pay49 (c0_v5 x4) (c0_v7 x5) (c0_v9 x1) (c0_v11 x6) (c0_v264 x0 x1 x2 x3 x4 x5 x6) (c0_v281 x0 x2 x3) (c0_v282 x0 x2 x3)
def c0_v319 := k0_pay50 (c0_v5 x4) (c0_v7 x5) (c0_v9 x1) (c0_v11 x6) (c0_v268 x0 x1 x2 x3 x4 x5 x6) (c0_v281 x0 x2 x3) (c0_v282 x0 x2 x3)
def c0_v321 := k0_pay51 (View.ld x0 r0_x12)
def c0_v353 := k0_pay52 (c0_v1 x2) (c0_v3 x3) (c0_v5 x4) (c0_v7 x5) (c0_v9 x1) (c0_v11 x6) (c0_v321 x0) (View.ld x0 r0_x13)
def c0_v364 := k0_pay55 (c0_v1 x2) (c0_v3 x3) (c0_v5 x4) (c0_v7 x5) (c0_v9 x1) (c0_v11 x6) (c0_v321 x0) (View.ld x0 r0_x13)
def c0_v366 := k0_pay56 (c0_v315 x0 x1 x2 x3 x4 x5 x6) (c0_v364 x0 x1 x2 x3 x4 x5 x6)
def c0_v370 := k0_pay57 (c0_v319 x0 x1 x2 x3 x4 x5 x6) (c0_v353 x0 x1 x2 x3 x4 x5 x6)
def c0_v404 := k0_pay58 (c0_v1 x2) (c0_v3 x3) (c0_v5 x4) (c0_v7 x5) (c0_v9 x1) (c0_v11 x6) (View.ld x0 r0_x14) (View.ld x0 r0_x15)
def c0_v406 := k0_pay59 (c0_v1 x2) (c0_v3 x3) (c0_v5 x4) (c0_v7 x5) (c0_v9 x1) (c0_v11 x6) (View.ld x0 r0_x14) (View.ld x0 r0_x15)
def c0_v417 := k0_pay62 (c0_v366 x0 x1 x2 x3 x4 x5 x6) (c0_v404 x0 x1 x2 x3 x4 x5 x6)
def c0_v421 := k0_pay63 (c0_v370 x0 x1 x2 x3 x4 x5 x6) (c0_v404 x0 x1 x2 x3 x4 x5 x6)
def c0_v447 := k0_pay64 (c0_v1 x2) (c0_v3 x3) (c0_v5 x4) (c0_v7 x5) (c0_v9 x1) (c0_v11 x6) (View.ld x0 r0_x16) (View.ld x0 r0_x17)
def c0_v448 := k0_pay65 (c0_v1 x2) (c0_v3 x3) (c0_v5 x4) (c0_v7 x5) (c0_v9 x1) (c0_v11 x6) (View.ld x0 r0_x16) (View.ld x0 r0_x17)
def c0_v468 := k0_pay69 (c0_v417 x0 x1 x2 x3 x4 x5 x6) (c0_v447 x0 x1 x2 x3 x4 x5 x6) (c0_v448 x0 x1 x2 x3 x4 x5 x6)
def c0_v472 := k0_pay70 (c0_v421 x0 x1 x2 x3 x4 x5 x6) (c0_v447 x0 x1 x2 x3 x4 x5 x6) (c0_v448 x0 x1 x2 x3 x4 x5 x6)
def c0_v489 := k0_pay71 (c0_v1 x2) (c0_v3 x3) (View.ld x0 r0_x18) (View.ld x0 r0_x19)
def c0_v519 := k0_pay75 (c0_v5 x4) (c0_v7 x5) (c0_v9 x1) (c0_v11 x6) (c0_v468 x0 x1 x2 x3 x4 x5 x6) (c0_v489 x0 x2 x3)
def c0_v523 := k0_pay76 (c0_v5 x4) (c0_v7 x5) (c0_v9 x1) (c0_v11 x6) (c0_v472 x0 x1 x2 x3 x4 x5 x6) (c0_v489 x0 x2 x3)
def c0_v528 := k0_pay77 (View.ld x0 r0_x20) (View.ld x0 r0_x21)
def c0_v570 := k0_pay81 (c0_v1 x2) (c0_v3 x3) (c0_v5 x4) (c0_v7 x5) (c0_v9 x1) (c0_v11 x6) (c0_v519 x0 x1 x2 x3 x4 x5 x6) (c0_v528 x0)
def c0_v571 := k0_pay82 (c0_v1 x2) (c0_v3 x3) (c0_v5 x4) (c0_v7 x5) (c0_v9 x1) (c0_v11 x6) (c0_v528 x0)
def c0_v574 := k0_pay83 (c0_v523 x0 x1 x2 x3 x4 x5 x6) (c0_v571 x0 x1 x2 x3 x4 x5 x6)
def c0_v608 := k0_pay84 (c0_v1 x2) (c0_v3 x3) (c0_v5 x4) (c0_v7 x5) (c0_v9 x1) (c0_v11 x6) (View.ld x0 r0_x22) (View.ld x0 r0_x23)
def c0_v614 := k0_pay86 (c0_v1 x2) (c0_v3 x3) (c0_v5 x4) (c0_v7 x5) (c0_v9 x1) (c0_v11 x6) (View.ld x0 r0_x22) (View.ld x0 r0_x23)
def c0_v621 := k0_pay88 (c0_v570 x0 x1 x2 x3 x4 x5 x6) (c0_v608 x0 x1 x2 x3 x4 x5 x6)
def c0_v625 := k0_pay89 (c0_v574 x0 x1 x2 x3 x4 x5 x6) (c0_v608 x0 x1 x2 x3 x4 x5 x6)
def c0_v655 := k0_pay91 (c0_v1 x2) (c0_v3 x3) (c0_v5 x4) (c0_v7 x5) (c0_v9 x1) (c0_v11 x6) (View.ld x0 r0_x24) (View.ld x0 r0_x25)
def c0_v656 := k0_pay92 (c0_v1 x2) (c0_v3 x3) (c0_v5 x4) (c0_v7 x5) (c0_v9 x1) (c0_v11 x6) (View.ld x0 r0_x24) (View.ld x0 r0_x25)
def c0_v672 := k0_pay96 (c0_v621 x0 x1 x2 x3 x4 x5 x6) (c0_v655 x0 x1 x2 x3 x4 x5 x6) (c0_v656 x0 x1 x2 x3 x4 x5 x6)
def c0_v676 := k0_pay97 (c0_v625 x0 x1 x2 x3 x4 x5 x6) (c0_v655 x0 x1 x2 x3 x4 x5 x6) (c0_v656 x0 x1 x2 x3 x4 x5 x6)
def c0_v696 := k0_pay98 (c0_v1 x2) (c0_v3 x3) (c0_v5 x4) (View.ld x0 r0_x26) (View.ld x0 r0_x27)
def c0_v723 := k0_pay102 (c0_v7 x5) (c0_v9 x1) (c0_v11 x6) (c0_v672 x0 x1 x2 x3 x4 x5 x6) (c0_v696 x0 x2 x3 x4)
def c0_v727 := k0_pay103 (c0_v7 x5) (c0_v9 x1) (c0_v11 x6) (c0_v676 x0 x1 x2 x3 x4 x5 x6) (c0_v696 x0 x2 x3 x4)
def c0_v734 := k0_pay104 (c0_v1 x2) (View.ld x0 r0_x28) (View.ld x0 r0_x29)
def c0_v735 := k0_pay105 (c0_v3 x3)
def c0_v774 := k0_pay109 (c0_v5 x4) (c0_v7 x5) (c0_v9 x1) (c0_v11 x6) (c0_v723 x0 x1 x2 x3 x4 x5 x6) (c0_v734 x0 x2) (c0_v735 x3)
def c0_v778 := k0_pay110 (c0_v5 x4) (c0_v7 x5) (c0_v9 x1) (c0_v11 x6) (c0_v727 x0 x1 x2 x3 x4 x5 x6) (c0_v734 x0 x2) (c0_v735 x3)
def c0_v812 := k0_pay111 (c0_v1 x2) (c0_v3 x3) (c0_v5 x4) (c0_v7 x5) (c0_v9 x1) (c0_v11 x6) (View.ld x0 r0_x30) (View.ld x0 r0_x31)
def c0_v819 := k0_pay113 (c0_v1 x2) (c0_v3 x3) (c0_v5 x4) (c0_v7 x5) (c0_v9 x1) (c0_v11 x6) (View.ld x0 r0_x30) (View.ld x0 r0_x31)

def out0_7 : Vec F S32x384x128 .bf16 :=
  View.canon [
    ⟨r0_o31, k0_pay1 (c0_v819 x0 x1 x2 x3 x4 x5 x6)⟩,
    ⟨r0_o30, k0_pay112 (c0_v1 x2) (c0_v3 x3) (c0_v5 x4) (c0_v7 x5) (c0_v9 x1) (c0_v11 x6) (View.ld x0 r0_x30) (View.ld x0 r0_x31)⟩,
    ⟨r0_o29, k0_pay108 (c0_v5 x4) (c0_v7 x5) (c0_v9 x1) (c0_v11 x6) (c0_v734 x0 x2) (c0_v735 x3)⟩,
    ⟨r0_o28, k0_pay107 (c0_v5 x4) (c0_v7 x5) (c0_v9 x1) (c0_v11 x6) (c0_v734 x0 x2) (c0_v735 x3)⟩,
    ⟨r0_o27, k0_pay101 (c0_v7 x5) (c0_v9 x1) (c0_v11 x6) (c0_v696 x0 x2 x3 x4)⟩,
    ⟨r0_o26, k0_pay100 (c0_v7 x5) (c0_v9 x1) (c0_v11 x6) (c0_v696 x0 x2 x3 x4)⟩,
    ⟨r0_o25, k0_pay95 (c0_v655 x0 x1 x2 x3 x4 x5 x6) (c0_v656 x0 x1 x2 x3 x4 x5 x6)⟩,
    ⟨r0_o24, k0_pay94 (c0_v655 x0 x1 x2 x3 x4 x5 x6) (c0_v656 x0 x1 x2 x3 x4 x5 x6)⟩,
    ⟨r0_o23, k0_pay87 (c0_v614 x0 x1 x2 x3 x4 x5 x6)⟩,
    ⟨r0_o22, k0_pay85 (c0_v1 x2) (c0_v3 x3) (c0_v5 x4) (c0_v7 x5) (c0_v9 x1) (c0_v11 x6) (View.ld x0 r0_x22) (View.ld x0 r0_x23)⟩,
    ⟨r0_o21, k0_pay80 (c0_v1 x2) (c0_v3 x3) (c0_v5 x4) (c0_v7 x5) (c0_v9 x1) (c0_v11 x6) (c0_v528 x0)⟩,
    ⟨r0_o20, k0_pay79 (c0_v1 x2) (c0_v3 x3) (c0_v5 x4) (c0_v7 x5) (c0_v9 x1) (c0_v11 x6) (c0_v528 x0)⟩,
    ⟨r0_o19, k0_pay74 (c0_v5 x4) (c0_v7 x5) (c0_v9 x1) (c0_v11 x6) (c0_v489 x0 x2 x3)⟩,
    ⟨r0_o18, k0_pay73 (c0_v5 x4) (c0_v7 x5) (c0_v9 x1) (c0_v11 x6) (c0_v489 x0 x2 x3)⟩,
    ⟨r0_o17, k0_pay68 (c0_v447 x0 x1 x2 x3 x4 x5 x6) (c0_v448 x0 x1 x2 x3 x4 x5 x6)⟩,
    ⟨r0_o16, k0_pay67 (c0_v447 x0 x1 x2 x3 x4 x5 x6) (c0_v448 x0 x1 x2 x3 x4 x5 x6)⟩,
    ⟨r0_o15, k0_pay61 (c0_v404 x0 x1 x2 x3 x4 x5 x6)⟩,
    ⟨r0_o14, k0_pay60 (c0_v406 x0 x1 x2 x3 x4 x5 x6)⟩,
    ⟨r0_o13, k0_pay54 (c0_v1 x2) (c0_v3 x3) (c0_v5 x4) (c0_v7 x5) (c0_v9 x1) (c0_v11 x6) (c0_v321 x0) (View.ld x0 r0_x13)⟩,
    ⟨r0_o12, k0_pay53 (c0_v1 x2) (c0_v3 x3) (c0_v5 x4) (c0_v7 x5) (c0_v9 x1) (c0_v11 x6) (c0_v321 x0) (View.ld x0 r0_x13)⟩,
    ⟨r0_o11, k0_pay48 (c0_v5 x4) (c0_v7 x5) (c0_v9 x1) (c0_v11 x6) (c0_v281 x0 x2 x3) (c0_v282 x0 x2 x3)⟩,
    ⟨r0_o10, k0_pay47 (c0_v5 x4) (c0_v7 x5) (c0_v9 x1) (c0_v11 x6) (c0_v281 x0 x2 x3) (c0_v282 x0 x2 x3)⟩,
    ⟨r0_o9, k0_pay40 (c0_v7 x5) (c0_v11 x6) (c0_v241 x0 x1 x2 x3 x4)⟩,
    ⟨r0_o8, k0_pay39 (c0_v7 x5) (c0_v11 x6) (c0_v241 x0 x1 x2 x3 x4)⟩,
    ⟨r0_o7, k0_pay34 (c0_v200 x0 x1 x2 x3 x4 x5 x6)⟩,
    ⟨r0_o6, k0_pay33 (c0_v202 x0 x1 x2 x3 x4 x5 x6)⟩,
    ⟨r0_o5, k0_pay28 (c0_v156 x0 x1 x2 x3 x4 x5 x6)⟩,
    ⟨r0_o4, k0_pay26 (c0_v1 x2) (c0_v3 x3) (c0_v5 x4) (c0_v7 x5) (c0_v9 x1) (c0_v11 x6) (View.ld x0 r0_x4) (View.ld x0 r0_x5)⟩,
    ⟨r0_o3, k0_pay22 (c0_v5 x4) (c0_v7 x5) (c0_v9 x1) (c0_v11 x6) (c0_v73 x0 x2 x3) (c0_v74 x0 x2 x3)⟩,
    ⟨r0_o2, k0_pay21 (c0_v5 x4) (c0_v7 x5) (c0_v9 x1) (c0_v11 x6) (c0_v73 x0 x2 x3) (c0_v74 x0 x2 x3)⟩,
    ⟨r0_o1, k0_pay15 (c0_v7 x5) (c0_v11 x6) (c0_v34 x0 x1 x2 x3 x4)⟩,
    ⟨r0_o0, k0_pay14 (c0_v7 x5) (c0_v11 x6) (c0_v34 x0 x1 x2 x3 x4)⟩]

def out0_8 : Vec F S1x1x128 .f32 :=
  View.canon [⟨r0_s, k0_pay2 (c0_v774 x0 x1 x2 x3 x4 x5 x6) (c0_v812 x0 x1 x2 x3 x4 x5 x6)⟩]

def out0_9 : Vec F S1x1x128 .f32 :=
  View.canon [⟨r0_s, k0_pay3 (c0_v778 x0 x1 x2 x3 x4 x5 x6) (c0_v812 x0 x1 x2 x3 x4 x5 x6)⟩]

end Cert.KernelIdeal.Run

end
-- ==== Proof.KDefs.lean ====
import proofs.«181364_g2000406351686535_pallasbulk_564_19_alg».proof.Proof.KWire
import proofs.«181364_g2000406351686535_pallasbulk_564_19_alg».proof.Proof.Gen.KernelIdeal.Skeleton
import proofs.«181364_g2000406351686535_pallasbulk_564_19_alg».proof.Proof.Gen.KernelIdeal.Launch
import proofs.«181364_g2000406351686535_pallasbulk_564_19_alg».proof.Proof.Gen.KernelIdeal.Points
import proofs.«181364_g2000406351686535_pallasbulk_564_19_alg».proof.Proof.Gen.KernelIdeal.Regions
import Idealize.ShloMosaic.Lib.Pipeline.FrameBody
import Idealize.ShloMosaic.Lib.Pipeline.FrameSuffix

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Rounds
open Idealize.ShloMosaic.Pipeline (Dat Cfg Window cellOf)
open Cert.KernelIdeal Cert.KernelIdeal.Gen

variable {F : FTy → Type} [FloatOps F]

abbrev r1_b : Rect S32x384x128 := Rect.unit (s := S32x384x128) ![0, 0, 0] S32x384x128.size inb_S32x384x128_S32x384x128_0_0_0
abbrev r1_v : Rect S1x128 := Rect.unit (s := S1x128) ![0, 0] S1x128.size inb_S1x128_S1x128_0_0

def out1_3 (y0 : Vec F S32x384x128 .bf16) (y1 : Vec F S1x128 .f32) (y2 : Vec F S1x128 .f32) : Vec F S32x384x128 .f32 :=
  View.canon [⟨r1_b, k1_pay1 (View.ld y0 r1_b) (View.ld y1 r1_v) (View.ld y2 r1_v)⟩]

section Regions

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
    | ⟨9, _⟩ => out0_9 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

end Regions

variable (m : (ℓ : Loc nD τ sig) → Buf (Elt F) ℓ)

abbrev Vin0 : (c : Dev nD) → (b : Ref sig .tc) → Buf (Elt F) ((c : Thread nD τ).loc b) := fun c b => V15 m c b

def W16 (c : Dev nD) : Valuation τ sig (Elt F) :=
  Pipeline.withArrays spec0 c (V15 m c) fun w => (dat0 (Vin0 m) c).arrAt w cfg0.N

def outs0 : Outs (F := F) := fun _ r c => W16 m c r

abbrev Vin1 : (c : Dev nD) → (b : Ref sig .tc) → Buf (Elt F) ((c : Thread nD τ).loc b) := fun c b => V17 m (outs0 m) c b

def W18 (c : Dev nD) : Valuation τ sig (Elt F) :=
  Pipeline.withArrays spec1 c (V17 m (outs0 m) c) fun w => (dat1 (Vin1 m) c).arrAt w cfg1.N

def outs : Outs (F := F) := fun j r c => if j = 18 then W18 m c r else W16 m c r

def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c

def Wend (c : Dev nD) : Valuation τ sig (Elt F) := V19 m (outs m) c

end Cert.KernelIdeal.Run

end
-- ==== Proof.KFrame.lean ====
import proofs.«181364_g2000406351686535_pallasbulk_564_19_alg».proof.Proof.KDefs
import Idealize.ShloMosaic.Lib.Pipeline.RegionsLoop
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

theorem before0 (c : Dev nD) (t : Fin cfg0.N) (w : Fin cfg0.W) (hw : w.1 < 7) :
    ∀ d, (dat0 V c).before w t d = (dat0 V c).after w t := by
  have h : w = 0 ∨ w = 1 ∨ w = 2 ∨ w = 3 ∨ w = 4 ∨ w = 5 ∨ w = 6 := by revert w; decide
  rcases h with rfl | rfl | rfl | rfl | rfl | rfl | rfl <;>
    exact fun d => ((dat0 V c).before_in_eq_fetched _ rfl (fun _ => rfl) (fun _ _ _ => rfl) (fun _ => rfl) t d).trans rfl

theorem cover0_7 (p0 p1 p2 p3 p4 p5 p6 p7 p8 p9 p10 p11 p12 p13 p14 p15 p16 p17 p18 p19 p20 p21 p22 p23 p24 p25 p26 p27 p28 p29 p30 p31 : Vec F S1x384x128 .bf16) (y : S32x384x128.Idx) :
    ∃ pc ∈ ([⟨r0_o31, p31⟩, ⟨r0_o30, p30⟩, ⟨r0_o29, p29⟩, ⟨r0_o28, p28⟩, ⟨r0_o27, p27⟩, ⟨r0_o26, p26⟩, ⟨r0_o25, p25⟩, ⟨r0_o24, p24⟩, ⟨r0_o23, p23⟩, ⟨r0_o22, p22⟩, ⟨r0_o21, p21⟩, ⟨r0_o20, p20⟩, ⟨r0_o19, p19⟩, ⟨r0_o18, p18⟩, ⟨r0_o17, p17⟩, ⟨r0_o16, p16⟩, ⟨r0_o15, p15⟩, ⟨r0_o14, p14⟩, ⟨r0_o13, p13⟩, ⟨r0_o12, p12⟩, ⟨r0_o11, p11⟩, ⟨r0_o10, p10⟩, ⟨r0_o9, p9⟩, ⟨r0_o8, p8⟩, ⟨r0_o7, p7⟩, ⟨r0_o6, p6⟩, ⟨r0_o5, p5⟩, ⟨r0_o4, p4⟩, ⟨r0_o3, p3⟩, ⟨r0_o2, p2⟩, ⟨r0_o1, p1⟩, ⟨r0_o0, p0⟩] : List (View.Piece (Elt F) S32x384x128 .bf16)), y ∈ pc.1.set :=
  View.cover_of_tiled (s := S32x384x128) _ S1x384x128.size (by rfl) y

theorem cover0_s (p : Vec F S1x1x128 .f32) (y : S1x1x128.Idx) :
    ∃ pc ∈ ([⟨r0_s, p⟩] : List (View.Piece (Elt F) S1x1x128 .f32)), y ∈ pc.1.set :=
  View.cover_of_tiled [⟨r0_s, p⟩] S1x1x128.size (by rfl) y

set_option maxHeartbeats 4000000 in
theorem sound_kernel0 (c : Dev nD) (E : Set ℕ) (i : grid0.Coords) (arg1 : Memref sig .tc .vmem S32x256x128 .f32) (harg1 : arg1.IsWhole) (arg2 : Memref sig .tc .vmem S256x256 .bf16) (harg2 : arg2.IsWhole) (arg3 : Memref sig .tc .vmem S1536x256 .bf16) (harg3 : arg3.IsWhole) (arg4 : Memref sig .tc .vmem S1536x1 .f32) (harg4 : arg4.IsWhole) (arg5 : Memref sig .tc .vmem S224x512 .bf16) (harg5 : arg5.IsWhole) (arg6 : Memref sig .tc .vmem S1152x232 .bf16) (harg6 : arg6.IsWhole) (arg7 : Memref sig .tc .vmem S8x256 .bf16) (harg7 : arg7.IsWhole) (arg8 : Memref sig .tc .vmem S32x384x128 .bf16) (harg8 : arg8.IsWhole) (arg9 : Memref sig .tc .vmem S1x1x128 .f32) (harg9 : arg9.IsWhole) (arg10 : Memref sig .tc .vmem S1x1x128 .f32) (harg10 : arg10.IsWhole)
    (x0 : Vec F S32x256x128 .f32) (x1 : Vec F S256x256 .bf16) (x2 : Vec F S1536x256 .bf16) (x3 : Vec F S1536x1 .f32) (x4 : Vec F S224x512 .bf16) (x5 : Vec F S1152x232 .bf16) (x6 : Vec F S8x256 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out0_7 x0 x1 x2 x3 x4 x5 x6) ∗ owns (c : Thread nD τ) arg9 fullShare (out0_8 x0 x1 x2 x3 x4 x5 x6) ∗ owns (c : Thread nD τ) arg10 fullShare (out0_9 x0 x1 x2 x3 x4 x5 x6)) -∗ K ⟨⟩))
      ⊢ wp frame (wpE (defs₀ (F := F)) Variants.none c none) E (cc0__fused_body i arg1 harg1 arg2 harg2 arg3 harg3 arg4 harg4 arg5 harg5 arg6 harg6 arg7 harg7 arg8 harg8 arg9 harg9 arg10 harg10) K := by
  simp only [cc0__fused_body_eq_skeleton]; unfold cc0__fused_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec_parts
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _ _ _ _ _ _ _ _ _ _ _ _ _ _ _ _ _ _ _ _ _ _ _ _ _ _ _ _ _ _ _ _)
  isplitl [H8]
  · iexists _; isplitr
    swap; · iexact H8
    ipureintro
    exact View.read_writes_eq_canon _ _ _ (cover0_s _)
  iexists _; isplitr
  swap; · iexact H9
  ipureintro
  exact View.read_writes_eq_canon _ _ _ (cover0_s _)

theorem body_obligation0 (c : Dev nD) : BodyObligation (dat0 (F := F) V c) (defs₀ (F := F)) Variants.none () Set.univ := fun t => by
  rw [bigSep_W0, bigSep_W0, show (dat0 V c).Φ t.succ = (dat0 V c).Φ t.castSucc from rfl,
    show (dat0 V c).owesAt () t.succ = (dat0 V c).owesAt () t.castSucc from rfl]
  simp only [before0 V c t 0 (by decide), before0 V c t 1 (by decide), before0 V c t 2 (by decide), before0 V c t 3 (by decide), before0 V c t 4 (by decide), before0 V c t 5 (by decide), before0 V c t 6 (by decide)]
  dsimp only [dat0]
  show _ ⊢ wp _ _ _ (bodyAt0 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  iframe H0 H1 H2 H3 H4 H5 H6
  isplitl [H7]; · iexists _; iexact H7
  isplitl [H8]; · iexists _; iexact H8
  isplitl [H9]; · iexists _; iexact H9
  iintro ⟨H0, H1, H2, H3, H4, H5, H6, H7, H8, H9⟩
  iframe

theorem before1 (c : Dev nD) (t : Fin cfg1.N) (w : Fin cfg1.W) (hw : w.1 < 3) :
    ∀ d, (dat1 V c).before w t d = (dat1 V c).after w t := by
  have h : w = 0 ∨ w = 1 ∨ w = 2 := by revert w; decide
  rcases h with rfl | rfl | rfl <;>
    exact fun d => ((dat1 V c).before_in_eq_fetched _ rfl (fun _ => rfl) (fun _ _ _ => rfl) (fun _ => rfl) t d).trans rfl

theorem cover1_3 (p : Vec F S32x384x128 .f32) (y : S32x384x128.Idx) :
    ∃ pc ∈ ([⟨r1_b, p⟩] : List (View.Piece (Elt F) S32x384x128 .f32)), y ∈ pc.1.set :=
  View.cover_of_tiled [⟨r1_b, p⟩] S32x384x128.size (by rfl) y

set_option maxHeartbeats 1000000 in
theorem sound_kernel1 (c : Dev nD) (E : Set ℕ) (i : grid1.Coords) (arg1 : Memref sig .tc .vmem S32x384x128 .bf16) (harg1 : arg1.IsWhole) (arg2 : Memref sig .tc .vmem S1x128 .f32) (harg2 : arg2.IsWhole) (arg3 : Memref sig .tc .vmem S1x128 .f32) (harg3 : arg3.IsWhole) (arg4 : Memref sig .tc .vmem S32x384x128 .f32) (harg4 : arg4.IsWhole)
    (y0 : Vec F S32x384x128 .bf16) (y1 : Vec F S1x128 .f32) (y2 : Vec F S1x128 .f32) (K : PUnit → sProp 𝕄) :
    iprop(owns (c : Thread nD τ) arg1 fullShare y0 ∗ owns (c : Thread nD τ) arg2 fullShare y1 ∗ owns (c : Thread nD τ) arg3 fullShare y2 ∗ (∃ d, owns (c : Thread nD τ) arg4 fullShare d)
        ∗ (iprop(owns (c : Thread nD τ) arg1 fullShare y0 ∗ owns (c : Thread nD τ) arg2 fullShare y1 ∗ owns (c : Thread nD τ) arg3 fullShare y2 ∗ owns (c : Thread nD τ) arg4 fullShare (out1_3 y0 y1 y2)) -∗ K ⟨⟩))
      ⊢ wp frame (wpE (defs₀ (F := F)) Variants.none c none) E (cc1__bn_body i arg1 harg1 arg2 harg2 arg3 harg3 arg4 harg4) K := by
  simp only [cc1__bn_body_eq_skeleton]; unfold cc1__bn_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

theorem body_obligation1 (c : Dev nD) : BodyObligation (dat1 (F := F) V c) (defs₀ (F := F)) Variants.none () Set.univ := fun t => by
  rw [bigSep_W1, bigSep_W1, show (dat1 V c).Φ t.succ = (dat1 V c).Φ t.castSucc from rfl,
    show (dat1 V c).owesAt () t.succ = (dat1 V c).owesAt () t.castSucc from rfl]
  simp only [before1 V c t 0 (by decide), before1 V c t 1 (by decide), before1 V c t 2 (by decide)]
  dsimp only [dat1]
  show _ ⊢ wp _ _ _ (bodyAt1 t) _
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  iframe H0 H1 H2
  isplitl [H3]; · iexists _; iexact H3
  iintro ⟨H0, H1, H2, H3⟩
  iframe

end Regions

variable (m : (ℓ : Loc nD τ sig) → Buf (Elt F) ℓ)

theorem outs16 (c : Dev nD) (w : Fin cfg0.W) :
    outs m 16 (Pipeline.arrRef spec0 w) c = (dat0 (Vin0 m) c).arrAt w cfg0.N := by
  unfold outs W16; rw [if_neg (by decide)]; exact Pipeline.withArrays_arr spec0 launch0.win.arr_inj c _ _ w
theorem outs18 (c : Dev nD) (w : Fin cfg1.W) :
    outs m 18 (Pipeline.arrRef spec1 w) c = (dat1 (Vin1 m) c).arrAt w cfg1.N := by
  unfold outs W18; rw [if_pos rfl]; exact Pipeline.withArrays_arr spec1 launch1.win.arr_inj c _ _ w

theorem V17_outs (c : Dev nD) : V17 m (outs m) c = V17 m (outs0 m) c := rfl

theorem V16_v70_0 (c : Dev nD) : V16 m (outs m) c main_v70_0 = outs m 16 main_v70_0 c :=
  (Function.update_of_ne (StableHlo.devRef_ne_of_ne (by decide)) _ _).trans
    ((Function.update_of_ne (StableHlo.devRef_ne_of_ne (by decide)) _ _).trans (Function.update_self _ _ _))
theorem V16_v70_1 (c : Dev nD) : V16 m (outs m) c main_v70_1 = outs m 16 main_v70_1 c :=
  (Function.update_of_ne (StableHlo.devRef_ne_of_ne (by decide)) _ _).trans (Function.update_self _ _ _)
theorem V16_v70_2 (c : Dev nD) : V16 m (outs m) c main_v70_2 = outs m 16 main_v70_2 c :=
  Function.update_self _ _ _
theorem V18_v94 (c : Dev nD) : V18 m (outs m) c main_v94 = outs m 18 main_v94 c :=
  Function.update_self _ _ _

theorem hF0 (c : Dev nD) (w : Fin cfg0.W) : (dat0 (Vin0 m) c).arrAt w cfg0.N = V16 m (outs m) c (Pipeline.arrRef spec0 w) := by
  by_cases h : (cfg0.win w).isOut = false
  · exact ((dat0 (Vin0 m) c).arrAt_in w h _).trans (V16_of m (outs m) c _ (by revert w; decide)).symm
  have hw : w = 7 ∨ w = 8 ∨ w = 9 := by revert w; decide
  rcases hw with rfl | rfl | rfl
  · exact ((V16_v70_0 m c).trans (outs16 m c 7)).symm
  · exact ((V16_v70_1 m c).trans (outs16 m c 8)).symm
  · exact ((V16_v70_2 m c).trans (outs16 m c 9)).symm
theorem hrest0 (c : Dev nD) : ∀ b, b ∉ Finset.univ.image (Pipeline.arrRef spec0) → V16 m (outs m) c b = Vin0 m c b :=
  fun b hb => V16_of m (outs m) c b fun h => hb (Finset.mem_image.mpr (by
    rcases List.mem_cons.mp h with rfl | h; · exact ⟨7, Finset.mem_univ _, rfl⟩
    rcases List.mem_cons.mp h with rfl | h; · exact ⟨8, Finset.mem_univ _, rfl⟩
    rcases List.mem_cons.mp h with rfl | h; · exact ⟨9, Finset.mem_univ _, rfl⟩
    exact absurd h List.not_mem_nil))

theorem hF1 (c : Dev nD) (w : Fin cfg1.W) : (dat1 (Vin1 m) c).arrAt w cfg1.N = V18 m (outs m) c (Pipeline.arrRef spec1 w) := by
  by_cases h : (cfg1.win w).isOut = false
  · exact ((dat1 (Vin1 m) c).arrAt_in w h _).trans ((V18_of m (outs m) c _ (by revert w; decide)).trans (congrFun (V17_outs m c) _)).symm
  have hw : w = 3 := by revert w; decide
  subst hw
  exact ((V18_v94 m c).trans (outs18 m c 3)).symm
theorem hrest1 (c : Dev nD) : ∀ b, b ∉ Finset.univ.image (Pipeline.arrRef spec1) → V18 m (outs m) c b = V17 m (outs m) c b :=
  fun b hb => V18_of m (outs m) c b fun h => hb (Finset.mem_image.mpr (by
    rcases List.mem_cons.mp h with rfl | h; · exact ⟨3, Finset.mem_univ _, rfl⟩
    exact absurd h List.not_mem_nil))

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

set_option backward.isDefEq.respectTransparency.types false in
def reg (p : Fin 2) (lf : Pipeline.LaunchFacts (nD := nD) (τ := τ) cfgs p) (Wi Wo : Dev nD → Valuation τ sig (Elt F))
    (hb : ∀ c, BodyObligation (pdats m p c) (defs₀ (F := F)) 𝒱₀ () Set.univ)
    (h : ∀ c, (∀ w, (pdats m p c).q w = fullShare) ∧ (∀ t, (pdats m p c).owed t = 0) ∧ (∀ t, (pdats m p c).recorded t = Set.univ)
      ∧ (∀ t, (pdats m p c).Φ t = Pipeline.ΦA (cfgs p).spec c)
      ∧ ((BI.emp : sProp 𝕄) ⊢ Pipeline.prefHeld (pcfgs (F := F) p).pre c (fun _ => fullShare) (adm p).1)
      ∧ (∀ w, (pdats m p c).A w = Wi c (Pipeline.arrRef (cfgs p).spec w))
      ∧ (∀ w, (pdats m p c).arrAt w (cfgs p).N = Wo c (Pipeline.arrRef (cfgs p).spec w))
      ∧ ∀ b : Ref sig .tc, b ∉ Finset.univ.image (Pipeline.arrRef (cfgs p).spec) → Wo c b = Wi c b) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (h c).2.1
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    obtain ⟨hq, ho, hr, -, hpf, hA, -, -⟩ := h c
    rw [Pipeline.ownSems0_none]
    have hsplit := Pipeline.arrays_of_unscopedBufs (p := p) (pcfgs (F := F)) adm (pdats m) lf.win lf.arr_whole c
      ((pdats m p c).share_full hq) (fun b => Wi c b) hA
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · iapply hpf; iempintro
    unfold Pipeline.Dat.owesAt Pipeline.owesWithin
    rw [ho, Pipeline.Dat.bound, hr]
    icases HO with ⟨%W, HO⟩; iexists W; isplitr; · ipureintro; exact fun _ _ => Or.inl trivial
    iexact HO
  hin c := by
    rw [(h c).2.2.2.1]; unfold Pipeline.ΦA
    iintro ⟨Hp, -, Hr⟩
    iframe
  hout c := by
    rw [Pipeline.ownSems0_none, (h c).2.2.2.1]; unfold Pipeline.ΦA
    iintro ⟨Hr, Hp⟩
    iframe
    iempintro
  hexit c := by
    obtain ⟨hq, ho, -, -, -, -, hF, hrest⟩ := h c
    have hjoin := Pipeline.unscopedBufs_of_arrays (p := p) (pcfgs (F := F)) adm (Ix := Unit) (Name := ℕ) (U := UR sig nD τ) (Lvl := ℕ)
      lf.win lf.arr_whole c (pdats m) ((pdats m p c).share_full hq)
      (fun b => Wi c b) (fun b => Wo c b) ((pdats m p c).arrAt · (cfgs p).N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho]
    icases HO with ⟨%W, -, HO⟩; iexists W; iexact HO

def reg0 : Pipeline.RegionSeg (pcfgs (F := F)) adm (pdats m) () defs₀ 𝒱₀ L lv 0 :=
  reg m 0 launch0 (V15 m) (V16 m (outs m)) (body_obligation0 (Vin0 m)) fun c => ⟨fun _ => rfl, fun _ => rfl, fun _ => rfl, fun _ => rfl,
    by unfold Pipeline.prefHeld; rw [show (Finset.univ : Finset (Fin 0)) = ∅ from rfl, BI.bigSep_empty], fun _ => rfl, hF0 m c, hrest0 m c⟩

def reg1 : Pipeline.RegionSeg (pcfgs (F := F)) adm (pdats m) () defs₀ 𝒱₀ L lv 1 :=
  reg m 1 launch1 (V17 m (outs m)) (V18 m (outs m)) (body_obligation1 (Vin1 m)) fun c => ⟨fun _ => rfl, fun _ => rfl, fun _ => rfl, fun _ => rfl,
    by unfold Pipeline.prefHeld; rw [show (Finset.univ : Finset (Fin 0)) = ∅ from rfl, BI.bigSep_empty], fun _ => (congrFun (V17_outs m c) _).symm, hF1 m c, hrest1 m c⟩

set_option backward.isDefEq.respectTransparency.types false in
theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = Wend m c b) := by
  refine Pipeline.θ_run_regions_kit_dev (pcfgs (F := F)) adm (pdats m) () cellOf_inj emb₁ defs₀ 𝒱₀ L lv m ρ main
    (segs m (outs m) 𝒱₀ L lv (fun _ c => R c) () (pdats m) (reg0 m) (reg1 m))
    (fun c Q => by
      rewrite [main_chain c, Seg.run_eq_chain]
      exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V19 m (outs m) c))
    (hch := fun c => ⟨.rfl, .rfl, .rfl, .rfl, .rfl, .rfl, .rfl, .rfl, .rfl, .rfl, .rfl, .rfl, .rfl, .rfl, .rfl, .rfl, .rfl, .rfl, .rfl,
      sep_mono .rfl (by iintro ⟨-, H⟩; iexact H)⟩)
    (hinit := ?_) (QY := fun c s => ∀ b ∈ Pipeline.ucRefs τ sig, s.mem ((c : Thread nD τ).1, b) = Wend m c b)
    (hfin := fun c s' => ?_) (hQ := fun _ h => h)
  · have h : ∀ c : Dev nD, (iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)) : sProp 𝕄)
        ⊢ iprop(StableHlo.held (c : Thread nD τ) (Pipeline.ucRefs τ sig) (V0 m c) ∗ R c) := fun c => by
      rw [← Pipeline.unscopedBufs_held (Ix := Unit) (Name := ℕ) (U := UR sig nD τ) (Lvl := ℕ) c (V0 m c)]
      exact sep_mono .rfl (by
        iintro ⟨-, HO, -, Hp, -⟩
        isplitl [Hp]; · iexists _; iexact Hp
        iexists ∅; iexact HO)
    iintro ⟨H, -⟩
    imodintro
    iapply (show (bigSep Finset.univ _ : sProp 𝕄) ⊢ bigSep Finset.univ _ from bigSep_mono fun c _ => h c)
    iexact H
  ·
    unfold StableHlo.held
    iintro ⟨Hh, HSI⟩
    ihave Hr := (pointsTo_read_all (Pipeline.ucRefs τ sig) (fun b => ((c : Thread nD τ).1, b)) (V19 m (outs m) c) s') $$ [Hh HSI]
    · isplitl [Hh] <;> iassumption
    icases Hr with ⟨%h, HSI⟩
    imodintro
    isplitr
    · ipureintro
      exact h
    · iexact HSI

theorem Wend_arg0 (c : Dev nD) : Wend m c main_arg0 = m ((c : Thread nD τ).loc main_arg0) := V19_main_arg0 m (outs m) c
theorem Wend_arg1 (c : Dev nD) : Wend m c main_arg1 = m ((c : Thread nD τ).loc main_arg1) := V19_main_arg1 m (outs m) c
theorem Wend_arg2 (c : Dev nD) : Wend m c main_arg2 = m ((c : Thread nD τ).loc main_arg2) := V19_main_arg2 m (outs m) c
theorem Wend_arg3 (c : Dev nD) : Wend m c main_arg3 = m ((c : Thread nD τ).loc main_arg3) := V19_main_arg3 m (outs m) c
theorem Wend_arg4 (c : Dev nD) : Wend m c main_arg4 = m ((c : Thread nD τ).loc main_arg4) := V19_main_arg4 m (outs m) c
theorem Wend_arg5 (c : Dev nD) : Wend m c main_arg5 = m ((c : Thread nD τ).loc main_arg5) := V19_main_arg5 m (outs m) c
theorem Wend_arg6 (c : Dev nD) : Wend m c main_arg6 = m ((c : Thread nD τ).loc main_arg6) := V19_main_arg6 m (outs m) c
theorem Wend_arg7 (c : Dev nD) : Wend m c main_arg7 = m ((c : Thread nD τ).loc main_arg7) := V19_main_arg7 m (outs m) c
theorem Wend_arg8 (c : Dev nD) : Wend m c main_arg8 = m ((c : Thread nD τ).loc main_arg8) := V19_main_arg8 m (outs m) c

end Cert.KernelIdeal.Run

end
-- ==== Proof.RDefs.lean ====
import proofs.«181364_g2000406351686535_pallasbulk_564_19_alg».proof.Proof.Gen.ReferenceIdeal.Launch
import proofs.«181364_g2000406351686535_pallasbulk_564_19_alg».proof.Proof.Gen.ReferenceIdeal.Skeleton
import proofs.«181364_g2000406351686535_pallasbulk_564_19_alg».proof.Proof.Gen.ReferenceIdeal.Points
import Idealize.ShloMosaic.Lib.Pipeline.FrameBody
import Idealize.ShloMosaic.Lib.Pipeline.RegionsLoop
import Idealize.ShloMosaic.Lib.Pipeline.FrameSuffix

set_option maxRecDepth 16384

noncomputable section

namespace Cert.ReferenceIdeal.Run

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

section Regions

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S8x128x256 := Rect.unit (s := S8x128x256) ![0, 0, 0] S8x128x256.size inb_S8x128x256_S8x128x256_0_0_0
abbrev r0_1 : Rect S1024x1024 := Rect.unit (s := S1024x1024) ![0, 0] S1024x1024.size inb_S1024x1024_S1024x1024_0_0
abbrev r0_2 : Rect S256x1536 := Rect.unit (s := S256x1536) ![0, 0] S256x1536.size inb_S256x1536_S256x1536_0_0
abbrev r0_3 : Rect S1x1536 := Rect.unit (s := S1x1536) ![0, 0] S1x1536.size inb_S1x1536_S1x1536_0_0
abbrev r0_4 : Rect S512x224 := Rect.unit (s := S512x224) ![0, 0] S512x224.size inb_S512x224_S512x224_0_0
abbrev r0_5 : Rect S224x1152 := Rect.unit (s := S224x1152) ![0, 0] S224x1152.size inb_S224x1152_S224x1152_0_0
abbrev r0_6 : Rect S1x1152 := Rect.unit (s := S1x1152) ![0, 0] S1x1152.size inb_S1x1152_S1x1152_0_0
abbrev r0_7 : Rect S8x128x384 := Rect.unit (s := S8x128x384) ![0, 0, 0] S8x128x384.size inb_S8x128x384_S8x128x384_0_0_0
abbrev r0_8 : Rect S8x128x1 := Rect.unit (s := S8x128x1) ![0, 0, 0] S8x128x1.size inb_S8x128x1_S8x128x1_0_0_0

def pay35 (x0 : Vec F S8x128x256 .f32) (x1 : Vec F S1024x1024 .f32) (x2 : Vec F S256x1536 .f32) (x3 : Vec F S1x1536 .f32)
    (x4 : Vec F S512x224 .f32) (x5 : Vec F S224x1152 .f32) (x6 : Vec F S1x1152 .f32) : FVec F S1024x384 .f32 :=
  k0_pay6 (View.ld x0 r0_0) (View.ld x2 r0_2) (View.ld x3 r0_3) (View.ld x4 r0_4) (View.ld x1 r0_1) (View.ld x5 r0_5) (View.ld x6 r0_6)

def pay37 (x0 : Vec F S8x128x256 .f32) (x1 : Vec F S1024x1024 .f32) (x2 : Vec F S256x1536 .f32) (x3 : Vec F S1x1536 .f32)
    (x4 : Vec F S512x224 .f32) (x5 : Vec F S224x1152 .f32) (x6 : Vec F S1x1152 .f32) : FVec F S1024x384 .f32 :=
  k0_pay7 (View.ld x0 r0_0) (View.ld x2 r0_2) (View.ld x3 r0_3) (View.ld x4 r0_4) (View.ld x1 r0_1) (View.ld x5 r0_5) (View.ld x6 r0_6)

def out0_7 (x0 : Vec F S8x128x256 .f32) (x1 : Vec F S1024x1024 .f32) (x2 : Vec F S256x1536 .f32) (x3 : Vec F S1x1536 .f32)
    (x4 : Vec F S512x224 .f32) (x5 : Vec F S224x1152 .f32) (x6 : Vec F S1x1152 .f32) : Vec F S8x128x384 .f32 :=
  View.canon [⟨r0_7, k0_pay2 (pay35 x0 x1 x2 x3 x4 x5 x6) (pay37 x0 x1 x2 x3 x4 x5 x6)⟩]

def out0_8 (x0 : Vec F S8x128x256 .f32) (x1 : Vec F S1024x1024 .f32) (x2 : Vec F S256x1536 .f32) (x3 : Vec F S1x1536 .f32)
    (x4 : Vec F S512x224 .f32) (x5 : Vec F S224x1152 .f32) (x6 : Vec F S1x1152 .f32) : Vec F S8x128x1 .f32 :=
  View.canon [⟨r0_8, k0_pay3 (pay35 x0 x1 x2 x3 x4 x5 x6) (pay37 x0 x1 x2 x3 x4 x5 x6)⟩]

def out0_9 (x0 : Vec F S8x128x256 .f32) (x1 : Vec F S1024x1024 .f32) (x2 : Vec F S256x1536 .f32) (x3 : Vec F S1x1536 .f32)
    (x4 : Vec F S512x224 .f32) (x5 : Vec F S224x1152 .f32) (x6 : Vec F S1x1152 .f32) : Vec F S8x128x1 .f32 :=
  View.canon [⟨r0_8, k0_pay4 (pay35 x0 x1 x2 x3 x4 x5 x6) (pay37 x0 x1 x2 x3 x4 x5 x6)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
    | ⟨9, _⟩ => out0_9 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S8x128x384 := Rect.unit (s := S8x128x384) ![0, 0, 0] S8x128x384.size inb_S8x128x384_S8x128x384_0_0_0
abbrev r1_1 : Rect S128x1 := Rect.unit (s := S128x1) ![0, 0] S128x1.size inb_S128x1_S128x1_0_0

def out1_3 (x0 : Vec F S8x128x384 .f32) (x1 : Vec F S128x1 .f32) (x2 : Vec F S128x1 .f32) : Vec F S8x128x384 .f32 :=
  View.canon [⟨r1_0, k1_pay1 (View.ld x1 r1_1) (View.ld x2 r1_1) (View.ld x0 r1_0)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

end Regions

variable (m : (ℓ : Loc nD τ sig) → Buf (Elt F) ℓ)

abbrev W0 (c : Dev nD) : Valuation τ sig (Elt F) := fun b => m (c, b)
abbrev W1 (c : Dev nD) : Valuation τ sig (Elt F) := StableHlo.after hostOps0 (W0 m c)
abbrev W2 (c : Dev nD) : Valuation τ sig (Elt F) := StableHlo.after hostOps0_1 (W1 m c)
abbrev W3 (c : Dev nD) : Valuation τ sig (Elt F) := StableHlo.after hostOps0_2 (W2 m c)
abbrev W4 (c : Dev nD) : Valuation τ sig (Elt F) := StableHlo.after hostOps0_3 (W3 m c)
abbrev W5 (c : Dev nD) : Valuation τ sig (Elt F) := StableHlo.after hostOps0_4 (W4 m c)
abbrev W6 (c : Dev nD) : Valuation τ sig (Elt F) := StableHlo.after hostOps0_5 (W5 m c)
abbrev W7 (c : Dev nD) : Valuation τ sig (Elt F) := StableHlo.after hostOps0_6 (W6 m c)
abbrev W8 (c : Dev nD) : Valuation τ sig (Elt F) := StableHlo.after hostOps0_7 (W7 m c)
abbrev W9 (c : Dev nD) : Valuation τ sig (Elt F) := StableHlo.after hostOps0_8 (W8 m c)
abbrev W10 (c : Dev nD) : Valuation τ sig (Elt F) := StableHlo.after hostOps0_9 (W9 m c)
abbrev W11 (c : Dev nD) : Valuation τ sig (Elt F) := StableHlo.after hostOps0_10 (W10 m c)
abbrev W12 (c : Dev nD) : Valuation τ sig (Elt F) := StableHlo.after hostOps0_11 (W11 m c)
abbrev W13 (c : Dev nD) : Valuation τ sig (Elt F) := StableHlo.after hostOps0_12 (W12 m c)
abbrev W14 (c : Dev nD) : Valuation τ sig (Elt F) := StableHlo.after hostOps0_13 (W13 m c)
abbrev W15 (c : Dev nD) : Valuation τ sig (Elt F) := StableHlo.after hostOps0_14 (W14 m c)
abbrev W16 (c : Dev nD) : Valuation τ sig (Elt F) := StableHlo.after hostOps0_15 (W15 m c)
abbrev W17 (c : Dev nD) : Valuation τ sig (Elt F) := StableHlo.after hostOps0_16 (W16 m c)
abbrev W18 (c : Dev nD) : Valuation τ sig (Elt F) := StableHlo.after hostOps0_17 (W17 m c)
abbrev W19 (c : Dev nD) : Valuation τ sig (Elt F) := StableHlo.after hostOps0_18 (W18 m c)
abbrev W20 (c : Dev nD) : Valuation τ sig (Elt F) := StableHlo.after hostOps0_19 (W19 m c)
abbrev W21 (c : Dev nD) : Valuation τ sig (Elt F) := StableHlo.after hostOps0_20 (W20 m c)
abbrev W22 (c : Dev nD) : Valuation τ sig (Elt F) := StableHlo.after hostOps0_21 (W21 m c)
abbrev W23 (c : Dev nD) : Valuation τ sig (Elt F) := StableHlo.after hostOps0_22 (W22 m c)
abbrev W24 (c : Dev nD) : Valuation τ sig (Elt F) := StableHlo.after hostOps0_23 (W23 m c)
abbrev W25 (c : Dev nD) : Valuation τ sig (Elt F) := StableHlo.after hostOps0_24 (W24 m c)
abbrev W26 (c : Dev nD) : Valuation τ sig (Elt F) := StableHlo.after hostOps0_25 (W25 m c)
abbrev W27 (c : Dev nD) : Valuation τ sig (Elt F) := StableHlo.after hostOps0_26 (W26 m c)
abbrev W28 (c : Dev nD) : Valuation τ sig (Elt F) := StableHlo.after hostOps0_27 (W27 m c)
abbrev W29 (c : Dev nD) : Valuation τ sig (Elt F) := StableHlo.after hostOps0_28 (W28 m c)
abbrev W30 (c : Dev nD) : Valuation τ sig (Elt F) := StableHlo.after hostOps0_29 (W29 m c)
abbrev W31 (c : Dev nD) : Valuation τ sig (Elt F) := StableHlo.after hostOps0_30 (W30 m c)

abbrev V31 : (c : Dev nD) → (b : Ref sig .tc) → Buf (Elt F) ((c : Thread nD τ).loc b) := fun c b => W31 m c b

def W32 (c : Dev nD) : Valuation τ sig (Elt F) :=
  Pipeline.withArrays spec0 c (W31 m c) fun w => (dat0 (V31 m) c).arrAt w cfg0.N
abbrev V32 : (c : Dev nD) → (b : Ref sig .tc) → Buf (Elt F) ((c : Thread nD τ).loc b) := fun c b => W32 m c b
abbrev W33 (c : Dev nD) : Valuation τ sig (Elt F) := StableHlo.after hostOps1 (W32 m c)

abbrev V33 : (c : Dev nD) → (b : Ref sig .tc) → Buf (Elt F) ((c : Thread nD τ).loc b) := fun c b => W33 m c b

def W34 (c : Dev nD) : Valuation τ sig (Elt F) :=
  Pipeline.withArrays spec1 c (W33 m c) fun w => (dat1 (V33 m) c).arrAt w cfg1.N
abbrev V34 : (c : Dev nD) → (b : Ref sig .tc) → Buf (Elt F) ((c : Thread nD τ).loc b) := fun c b => W34 m c b
abbrev W35 (c : Dev nD) : Valuation τ sig (Elt F) := StableHlo.after hostOps2 (W34 m c)

def Wend (m : (ℓ : Loc nD τ sig) → Buf (Elt F) ℓ) (c : Dev nD) : Valuation τ sig (Elt F) := W35 m c

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V31 m) c
  | ⟨1, _⟩ => fun c => dat1 (V33 m) c

end Cert.ReferenceIdeal.Run

end
-- ==== Proof.RFrame.lean ====
import proofs.«181364_g2000406351686535_pallasbulk_564_19_alg».proof.Proof.RDefs
import Idealize.ShloMosaic.Lib.Ring
import Idealize.ShloMosaic.Lib.Tactic

set_option maxRecDepth 16384

noncomputable section

namespace Cert.ReferenceIdeal.Run

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

theorem before0 (c : Dev nD) : (∀ t d, (dat0 V c).before 0 t d = iblk0 V c 0 t) ∧
    (∀ t d, (dat0 V c).before 1 t d = iblk0 V c 1 t) ∧
    (∀ t d, (dat0 V c).before 2 t d = iblk0 V c 2 t) ∧
    (∀ t d, (dat0 V c).before 3 t d = iblk0 V c 3 t) ∧
    (∀ t d, (dat0 V c).before 4 t d = iblk0 V c 4 t) ∧
    (∀ t d, (dat0 V c).before 5 t d = iblk0 V c 5 t) ∧
    (∀ t d, (dat0 V c).before 6 t d = iblk0 V c 6 t) := by
  refine ⟨?_, ?_, ?_, ?_, ?_, ?_, ?_⟩ <;> exact fun t d =>
    ((dat0 V c).before_in_eq_fetched _ rfl (fun _ => rfl) (fun _ _ _ => rfl) (fun _ => rfl) t d).trans rfl

set_option maxHeartbeats 4000000 in
theorem sound_kernel0 (c : Dev nD) (E : Set ℕ) (i : grid0.Coords) (arg1 : Memref sig .tc .vmem S8x128x256 .f32) (harg1 : arg1.IsWhole) (arg2 : Memref sig .tc .vmem S1024x1024 .f32) (harg2 : arg2.IsWhole) (arg3 : Memref sig .tc .vmem S256x1536 .f32) (harg3 : arg3.IsWhole) (arg4 : Memref sig .tc .vmem S1x1536 .f32) (harg4 : arg4.IsWhole) (arg5 : Memref sig .tc .vmem S512x224 .f32) (harg5 : arg5.IsWhole) (arg6 : Memref sig .tc .vmem S224x1152 .f32) (harg6 : arg6.IsWhole) (arg7 : Memref sig .tc .vmem S1x1152 .f32) (harg7 : arg7.IsWhole) (arg8 : Memref sig .tc .vmem S8x128x384 .f32) (harg8 : arg8.IsWhole) (arg9 : Memref sig .tc .vmem S8x128x1 .f32) (harg9 : arg9.IsWhole) (arg10 : Memref sig .tc .vmem S8x128x1 .f32) (harg10 : arg10.IsWhole)
    (x0 : Vec F S8x128x256 .f32) (x1 : Vec F S1024x1024 .f32) (x2 : Vec F S256x1536 .f32) (x3 : Vec F S1x1536 .f32) (x4 : Vec F S512x224 .f32) (x5 : Vec F S224x1152 .f32) (x6 : Vec F S1x1152 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6) ∗ owns (c : Thread nD τ) arg9 fullShare (out0_8 x0 x1 x2 x3 x4 x5 x6) ∗ owns (c : Thread nD τ) arg10 fullShare (out0_9 x0 x1 x2 x3 x4 x5 x6)) -∗ K ⟨⟩))
      ⊢ wp frame (wpE (defs₀ (F := F)) Variants.none c none) E (cc0__tcn_fused_kernel i arg1 harg1 arg2 harg2 arg3 harg3 arg4 harg4 arg5 harg5 arg6 harg6 arg7 harg7 arg8 harg8 arg9 harg9 arg10 harg10) K := by
  simp only [cc0__tcn_fused_kernel_eq_skeleton]; unfold cc0__tcn_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (View.cover_of_tiled _ S8x128x384.size (by rfl))
  isplitl [H8]
  · iexists _; isplitr
    swap; · iexact H8
    ipureintro
    exact View.read_writes_eq_canon _ _ _ (View.cover_of_tiled _ S8x128x1.size (by rfl))
  iexists _; isplitr
  swap; · iexact H9
  ipureintro
  exact View.read_writes_eq_canon _ _ _ (View.cover_of_tiled _ S8x128x1.size (by rfl))

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  obtain ⟨h0, h1, h2, h3, h4, h5, h6⟩ := before0 V c
  simp only [h0, h1, h2, h3, h4, h5, h6]
  rw [show (dat0 V c).Φ t.succ = (dat0 V c).Φ t.castSucc from rfl,
    show (dat0 V c).owesAt () t.succ = (dat0 V c).owesAt () t.castSucc from rfl,
    show (dat0 V c).after 0 t = iblk0 V c 0 t from rfl,
    show (dat0 V c).after 1 t = iblk0 V c 1 t from rfl,
    show (dat0 V c).after 2 t = iblk0 V c 2 t from rfl,
    show (dat0 V c).after 3 t = iblk0 V c 3 t from rfl,
    show (dat0 V c).after 4 t = iblk0 V c 4 t from rfl,
    show (dat0 V c).after 5 t = iblk0 V c 5 t from rfl,
    show (dat0 V c).after 6 t = iblk0 V c 6 t from rfl,
    show (dat0 V c).after 7 t = out0_7 _ _ _ _ _ _ _ from rfl,
    show (dat0 V c).after 8 t = out0_8 _ _ _ _ _ _ _ from rfl,
    show (dat0 V c).after 9 t = out0_9 _ _ _ _ _ _ _ from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  iframe H0 H1 H2 H3 H4 H5 H6
  isplitl [H7]; · iexists _; iexact H7
  isplitl [H8]; · iexists _; iexact H8
  isplitl [H9]; · iexists _; iexact H9
  iintro ⟨H0, H1, H2, H3, H4, H5, H6, H7, H8, H9⟩
  iframe
  all_goals iempintro

theorem body_obligation0 (c : Dev nD) : BodyObligation (dat0 (F := F) V c) (defs₀ (F := F)) Variants.none () Set.univ := fun t => by
  rw [bigSep_W0, bigSep_W0]
  exact sound_body0 V c t

theorem before1 (c : Dev nD) : (∀ t d, (dat1 V c).before 0 t d = iblk1 V c 0 t) ∧
    (∀ t d, (dat1 V c).before 1 t d = iblk1 V c 1 t) ∧
    (∀ t d, (dat1 V c).before 2 t d = iblk1 V c 2 t) := by
  refine ⟨?_, ?_, ?_⟩ <;> exact fun t d =>
    ((dat1 V c).before_in_eq_fetched _ rfl (fun _ => rfl) (fun _ _ _ => rfl) (fun _ => rfl) t d).trans rfl

set_option maxHeartbeats 4000000 in
theorem sound_kernel1 (c : Dev nD) (E : Set ℕ) (i : grid1.Coords) (arg2 : Memref sig .tc .vmem S8x128x384 .f32) (harg2 : arg2.IsWhole) (arg3 : Memref sig .tc .vmem S128x1 .f32) (harg3 : arg3.IsWhole) (arg4 : Memref sig .tc .vmem S128x1 .f32) (harg4 : arg4.IsWhole) (arg5 : Memref sig .tc .vmem S8x128x384 .f32) (harg5 : arg5.IsWhole)
    (x0 : Vec F S8x128x384 .f32) (x1 : Vec F S128x1 .f32) (x2 : Vec F S128x1 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2)) -∗ K ⟨⟩))
      ⊢ wp frame (wpE (defs₀ (F := F)) Variants.none c none) E (cc1__bn_apply_kernel i arg2 harg2 arg3 harg3 arg4 harg4 arg5 harg5) K := by
  simp only [cc1__bn_apply_kernel_eq_skeleton]; unfold cc1__bn_apply_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S8x128x384.size (by rfl))

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  obtain ⟨h0, h1, h2⟩ := before1 V c
  simp only [h0, h1, h2]
  rw [show (dat1 V c).Φ t.succ = (dat1 V c).Φ t.castSucc from rfl,
    show (dat1 V c).owesAt () t.succ = (dat1 V c).owesAt () t.castSucc from rfl,
    show (dat1 V c).after 0 t = iblk1 V c 0 t from rfl,
    show (dat1 V c).after 1 t = iblk1 V c 1 t from rfl,
    show (dat1 V c).after 2 t = iblk1 V c 2 t from rfl,
    show (dat1 V c).after 3 t = out1_3 _ _ _ from rfl]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  iframe H0 H1 H2
  isplitl [H3]; · iexists _; iexact H3
  iintro ⟨H0, H1, H2, H3⟩
  iframe
  all_goals iempintro

theorem body_obligation1 (c : Dev nD) : BodyObligation (dat1 (F := F) V c) (defs₀ (F := F)) Variants.none () Set.univ := fun t => by
  rw [bigSep_W1, bigSep_W1]
  exact sound_body1 V c t

end Regions

variable (m : (ℓ : Loc nD τ sig) → Buf (Elt F) ℓ)

theorem W32_arr (c : Dev nD) (w : Fin cfg0.W) :
    W32 m c (Proc.devRef .tc (Pipeline.arrRef spec0 w)) = (dat0 (V31 m) c).arrAt w cfg0.N := by
  unfold W32; exact Pipeline.withArrays_arr spec0 launch0.win.arr_inj c _ _ w
theorem W32_of_ne (c : Dev nD) (b : Ref sig .tc) (hb : ∀ w, Pipeline.arrRef spec0 w ≠ b) :
    W32 m c (Proc.devRef .tc b) = W31 m c (Proc.devRef .tc b) := by
  unfold W32; exact Pipeline.withArrays_of_ne spec0 c _ _ b hb

theorem W34_arr (c : Dev nD) (w : Fin cfg1.W) :
    W34 m c (Proc.devRef .tc (Pipeline.arrRef spec1 w)) = (dat1 (V33 m) c).arrAt w cfg1.N := by
  unfold W34; exact Pipeline.withArrays_arr spec1 launch1.win.arr_inj c _ _ w
theorem W34_of_ne (c : Dev nD) (b : Ref sig .tc) (hb : ∀ w, Pipeline.arrRef spec1 w ≠ b) :
    W34 m c (Proc.devRef .tc b) = W33 m c (Proc.devRef .tc b) := by
  unfold W34; exact Pipeline.withArrays_of_ne spec1 c _ _ b hb

abbrev argRefs : List (Ref sig .tc) := [main_arg0, main_arg1, main_arg2, main_arg3, main_arg4, main_arg5, main_arg6, main_arg7, main_arg8]
theorem args_ne {r x : Ref sig .tc} (hr : r ∈ argRefs) (hx : x ∉ argRefs) : Proc.devRef (τ := τ) .tc r ≠ Proc.devRef .tc x :=
  StableHlo.devRef_ne_of_ne fun e => hx (e ▸ hr)

abbrev hostAll : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps1, hostOps2]

abbrev okOp (op : HloOp τ sig (Elt F)) : Prop := op.fresh = ∅ ∧ ∀ r ∈ argRefs, Proc.devRef (τ := τ) .tc r ∉ op.writes

set_option maxHeartbeats 4000000 in
-- each operation of a host stretch writes its own result only, and no result is an argument
theorem host_ok : (hostAll (F := F)).Forall fun ops => ops.Forall okOp := by
  simp only [List.Forall]
  repeat' apply And.intro
  all_goals first | rfl | exact fun r hr h => args_ne hr (by decide) (Finset.mem_singleton.mp h)

theorem host_at (k : ℕ) (h : k < 33 := by decide) : ((hostAll (F := F))[k]'h).Forall okOp :=
  List.forall_iff_forall_mem.mp host_ok _ (List.getElem_mem h)

-- a buffer no operation of a stretch writes keeps its contents over the stretch
theorem host_keeps (k : ℕ) {r : Ref sig .tc} (hr : r ∈ argRefs) (W : Valuation τ sig (Elt F)) (h : k < 33 := by decide) :
    StableHlo.after (hostAll[k]'h) W (Proc.devRef .tc r) = W (Proc.devRef .tc r) :=
  StableHlo.after_of_forall_not_mem _ _ fun op ho => (List.forall_iff_forall_mem.mp (host_at k h) op ho).2 r hr

theorem hostOps1_keeps {r : Ref sig .tc} (hr : r ∈ argRefs) (W : Valuation τ sig (Elt F)) :
    StableHlo.after hostOps1 W (Proc.devRef .tc r) = W (Proc.devRef .tc r) := host_keeps 31 hr W
theorem hostOps2_keeps {r : Ref sig .tc} (hr : r ∈ argRefs) (W : Valuation τ sig (Elt F)) :
    StableHlo.after hostOps2 W (Proc.devRef .tc r) = W (Proc.devRef .tc r) := host_keeps 32 hr W

-- an argument is written by no stretch and is no region's array, so it ends as launched
theorem Wend_of_arg {r : Ref sig .tc} (hr : r ∈ argRefs) (c : Dev nD) : Wend m c (Proc.devRef .tc r) = m ((c : Thread nD τ).loc r) :=
  (host_keeps 32 hr _).trans <| (W34_of_ne m c r ((by decide : ∀ r ∈ argRefs, ∀ w : Fin cfg1.W, Pipeline.arrRef spec1 w ≠ r) r hr)).trans <|
  (host_keeps 31 hr _).trans <| (W32_of_ne m c r ((by decide : ∀ r ∈ argRefs, ∀ w : Fin cfg0.W, Pipeline.arrRef spec0 w ≠ r) r hr)).trans <|
  (host_keeps 30 hr _).trans <| (host_keeps 29 hr _).trans <| (host_keeps 28 hr _).trans <| (host_keeps 27 hr _).trans <| (host_keeps 26 hr _).trans <|
  (host_keeps 25 hr _).trans <| (host_keeps 24 hr _).trans <| (host_keeps 23 hr _).trans <| (host_keeps 22 hr _).trans <| (host_keeps 21 hr _).trans <|
  (host_keeps 20 hr _).trans <| (host_keeps 19 hr _).trans <| (host_keeps 18 hr _).trans <| (host_keeps 17 hr _).trans <| (host_keeps 16 hr _).trans <|
  (host_keeps 15 hr _).trans <| (host_keeps 14 hr _).trans <| (host_keeps 13 hr _).trans <| (host_keeps 12 hr _).trans <| (host_keeps 11 hr _).trans <|
  (host_keeps 10 hr _).trans <| (host_keeps 9 hr _).trans <| (host_keeps 8 hr _).trans <| (host_keeps 7 hr _).trans <| (host_keeps 6 hr _).trans <|
  (host_keeps 5 hr _).trans <| (host_keeps 4 hr _).trans <| (host_keeps 3 hr _).trans <| (host_keeps 2 hr _).trans <| (host_keeps 1 hr _).trans <|
  host_keeps 0 hr _

theorem Wend_arg0 (c : Dev nD) : Wend m c main_arg0 = m ((c : Thread nD τ).loc main_arg0) := Wend_of_arg m (by decide) c
theorem Wend_arg1 (c : Dev nD) : Wend m c main_arg1 = m ((c : Thread nD τ).loc main_arg1) := Wend_of_arg m (by decide) c
theorem Wend_arg2 (c : Dev nD) : Wend m c main_arg2 = m ((c : Thread nD τ).loc main_arg2) := Wend_of_arg m (by decide) c
theorem Wend_arg3 (c : Dev nD) : Wend m c main_arg3 = m ((c : Thread nD τ).loc main_arg3) := Wend_of_arg m (by decide) c
theorem Wend_arg4 (c : Dev nD) : Wend m c main_arg4 = m ((c : Thread nD τ).loc main_arg4) := Wend_of_arg m (by decide) c
theorem Wend_arg5 (c : Dev nD) : Wend m c main_arg5 = m ((c : Thread nD τ).loc main_arg5) := Wend_of_arg m (by decide) c
theorem Wend_arg6 (c : Dev nD) : Wend m c main_arg6 = m ((c : Thread nD τ).loc main_arg6) := Wend_of_arg m (by decide) c
theorem Wend_arg7 (c : Dev nD) : Wend m c main_arg7 = m ((c : Thread nD τ).loc main_arg7) := Wend_of_arg m (by decide) c
theorem Wend_arg8 (c : Dev nD) : Wend m c main_arg8 = m ((c : Thread nD τ).loc main_arg8) := Wend_of_arg m (by decide) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg {ops : List (HloOp τ sig (Elt F))} (hsub : ops.Forall fun op => op.bufs ⊆ StableHlo.tcRefs τ sig)
    (hok : ops.Forall okOp) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hok op h).1) W R

abbrev Tₙ (c : Dev nD) : sProp 𝕄 := iprop(StableHlo.held (c : Thread nD τ) (Pipeline.ucRefs τ sig) (W35 m c) ∗ ∃ r, prngReg c r)

set_option backward.isDefEq.respectTransparency.types false in
def regOf (p : Fin 2) (lf : Pipeline.LaunchFacts (nD := nD) (τ := τ) cfgs p) (Wi Wo : Dev nD → Valuation τ sig (Elt F))
    (hb : ∀ c, BodyObligation (pdats m p c) (defs₀ (F := F)) 𝒱₀ () Set.univ)
    (hq : ∀ c w, (pdats m p c).q w = fullShare) (hO : ∀ c t, (pdats m p c).owed t = 0) (hR : ∀ c t, (pdats m p c).recorded t = Set.univ)
    (hA : ∀ c w, (pdats m p c).A w = Wi c (Proc.devRef .tc (Pipeline.arrRef (cfgs p).spec w)))
    (hΦ : ∀ c t, (pdats m p c).Φ t = Pipeline.ΦA (cfgs p).spec c)
    (hF : ∀ c w, (pdats m p c).arrAt w (cfgs p).N = Wo c (Proc.devRef .tc (Pipeline.arrRef (cfgs p).spec w)))
    (hrest : ∀ c (b : Ref sig .tc), (∀ w, Pipeline.arrRef (cfgs p).spec w ≠ b) → Wo c (Proc.devRef .tc b) = Wi c (Proc.devRef .tc b)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p hO
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Wi c b)
  hentry c := by
    rw [Pipeline.ownSems0_none]
    have hsplit := Pipeline.arrays_of_unscopedBufs (p := p) (pcfgs (F := F)) adm (pdats m) lf.win lf.arr_whole c
      ((pdats m p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [hO]
      icases HO with ⟨%W, HO⟩; iexists W; isplitr; · ipureintro; exact fun _ _ => Or.inl (by rw [hR]; trivial)
      iexact HO
    isplitl [Hp]; · iexact Hp
    iexact Hrest
  hin c := by
    rw [hΦ]; unfold Pipeline.ΦA
    iintro ⟨Hp, -, Hr⟩
    isplitl [Hr]; · iexact Hr
    iexact Hp
  hout c := by
    rw [Pipeline.ownSems0_none, hΦ]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Wi c b) (fun b => Wo c b) ((pdats m p c).arrAt · (cfgs p).N) (hF c)
      (fun b hb => hrest c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [hO]
    icases HO with ⟨%W, -, HO⟩; iexists W; iexact HO

abbrev segs : List (Pipeline.Seg (pcfgs (F := F)) adm (pdats m) () defs₀ 𝒱₀ L lv) :=
  [ .host (hseg hostOps0_sub (host_at 0) (W0 m)), .host (hseg hostOps0_1_sub (host_at 1) (W1 m)), .host (hseg hostOps0_2_sub (host_at 2) (W2 m)),
    .host (hseg hostOps0_3_sub (host_at 3) (W3 m)), .host (hseg hostOps0_4_sub (host_at 4) (W4 m)), .host (hseg hostOps0_5_sub (host_at 5) (W5 m)),
    .host (hseg hostOps0_6_sub (host_at 6) (W6 m)), .host (hseg hostOps0_7_sub (host_at 7) (W7 m)), .host (hseg hostOps0_8_sub (host_at 8) (W8 m)),
    .host (hseg hostOps0_9_sub (host_at 9) (W9 m)), .host (hseg hostOps0_10_sub (host_at 10) (W10 m)), .host (hseg hostOps0_11_sub (host_at 11) (W11 m)),
    .host (hseg hostOps0_12_sub (host_at 12) (W12 m)), .host (hseg hostOps0_13_sub (host_at 13) (W13 m)), .host (hseg hostOps0_14_sub (host_at 14) (W14 m)),
    .host (hseg hostOps0_15_sub (host_at 15) (W15 m)), .host (hseg hostOps0_16_sub (host_at 16) (W16 m)), .host (hseg hostOps0_17_sub (host_at 17) (W17 m)),
    .host (hseg hostOps0_18_sub (host_at 18) (W18 m)), .host (hseg hostOps0_19_sub (host_at 19) (W19 m)), .host (hseg hostOps0_20_sub (host_at 20) (W20 m)),
    .host (hseg hostOps0_21_sub (host_at 21) (W21 m)), .host (hseg hostOps0_22_sub (host_at 22) (W22 m)), .host (hseg hostOps0_23_sub (host_at 23) (W23 m)),
    .host (hseg hostOps0_24_sub (host_at 24) (W24 m)), .host (hseg hostOps0_25_sub (host_at 25) (W25 m)), .host (hseg hostOps0_26_sub (host_at 26) (W26 m)),
    .host (hseg hostOps0_27_sub (host_at 27) (W27 m)), .host (hseg hostOps0_28_sub (host_at 28) (W28 m)), .host (hseg hostOps0_29_sub (host_at 29) (W29 m)),
    .host (hseg hostOps0_30_sub (host_at 30) (W30 m)), .region (regOf m 0 launch0 (W31 m) (W32 m) (body_obligation0 (V31 m)) (fun _ _ => rfl) (fun _ _ => rfl) (fun _ _ => rfl) (fun _ _ => rfl) (fun _ _ => rfl) (fun c w => (W32_arr m c w).symm) (W32_of_ne m)), .host (hseg hostOps1_sub (host_at 31) (W32 m)),
    .region (regOf m 1 launch1 (W33 m) (W34 m) (body_obligation1 (V33 m)) (fun _ _ => rfl) (fun _ _ => rfl) (fun _ _ => rfl) (fun _ _ => rfl) (fun _ _ => rfl) (fun c w => (W34_arr m c w).symm) (W34_of_ne m)), .host (hseg hostOps2_sub (host_at 32) (W34 m)) ]

set_option maxHeartbeats 4000000 in
theorem main_run (c : Dev nD) : main (F := F) c = Pipeline.Seg.run (segs m) := by
  rw [main_chain c, Pipeline.Seg.run_eq_chain]
  rfl

set_option maxHeartbeats 4000000 in
set_option backward.isDefEq.respectTransparency.types false in
theorem run_all (ρ : Dev nD → PrngReg) : θ_run defs (onTc (τ := τ) (main (F := F))) ⟨m, fun _ => 0, ρ⟩ (fun r => ∀ c : Dev nD,
      ∀ b ∈ Pipeline.ucRefs τ sig, r.2.mem ((c : Thread nD τ).1, b) = Wend m c b) :=
  Pipeline.θ_run_regions_kit (pcfgs (F := F)) adm (pdats m) () cellOf_inj emb₁ defs₀ 𝒱₀ L lv m ρ main (segs m)
    (fun c Q => by rw [main_run m c])
    (by show List.Nodup ([0, 1] : List (Fin 2)); decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := by
      iterate 35 refine ⟨fun _ => .rfl, ?_⟩
      exact fun _ => sep_assoc')
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W35 m c b)
    (hfin := fun c s' => by
      iintro ⟨⟨Hh, -⟩, HSI⟩
      unfold StableHlo.held
      imodintro
      iapply (pointsTo_read_all (Pipeline.ucRefs τ sig) (fun b => (((c : Thread nD τ)).1, b)) (W35 m c) s')
      isplitl [Hh] <;> iassumption)
    (hQ := fun s h c b hb => h c b hb)

end Cert.ReferenceIdeal.Run

end
-- ==== Proof.KIter.lean ====
import proofs.«181364_g2000406351686535_pallasbulk_564_19_alg».proof.KernelIdeal
import proofs.«181364_g2000406351686535_pallasbulk_564_19_alg».proof.Proof.Spec
import Idealize.ShloMosaic.Lib.ValueIdxRank1
import Idealize.ShloMosaic.Lib.ValueLayout
import Idealize.ShloMosaic.PureOps.Ideal.Laws

noncomputable section

namespace Cert.KernelIdeal.Val

open Idealize.ShloMosaic Idealize.ShloMosaic.ValueIdx
open Cert.KernelIdeal

variable [Facts₀]
open Facts₀

def iterPre1 (v1 : FVec Ideal S1536x256 .bf16) (v3 : FVec Ideal S1536x1 .f32)
    (v14 v16 : FVec Ideal S1x256x128 .f32) : FVec Ideal S1536x256 .f32 :=
  addf (matmul dot_S1536x256_S256x256_S1536x256_1_0_0_1_n_n none v1
      (truncf .bf16 (concatenate S256x256 1 [⟨S256x128, shapeCast S256x128 v14 shapeCasts_S1x256x128_S256x128⟩,
        ⟨S256x128, shapeCast S256x128 v16 shapeCasts_S1x256x128_S256x128⟩] concatenates_S256x128_S256x128_S256x256_d1)
        bitsLt_bf16_f32) (constant S1536x256 .f32 0x00000000#32))
    (broadcastTo S1536x256 v3 broadcasts_S1536x1_S1536x256)

def iterH1 (v22 : FVec Ideal S1536x256 .f32) : FVec Ideal S512x256 .bf16 :=
  truncf .bf16 (maximumf (addf (mulf (extractStridedSlice S512x256 ![0, 0] v22 slices_S1536x256_o0_0_S512x256)
      (logistic (extractStridedSlice S512x256 ![512, 0] v22 slices_S1536x256_o512_0_S512x256)))
      (extractStridedSlice S512x256 ![1024, 0] v22 slices_S1536x256_o1024_0_S512x256))
    (broadcast S512x256 (Scalar.ofBits .f32 0x00000000#32))) bitsLt_bf16_f32

def iterProj (v5 : FVec Ideal S224x512 .bf16) (v22 : FVec Ideal S1536x256 .f32) : FVec Ideal S224x256 .bf16 :=
  truncf .bf16 (matmul dot_S224x512_S512x256_S224x256_1_0_0_1_n_n none v5 (iterH1 v22)
    (constant S224x256 .f32 0x00000000#32)) bitsLt_bf16_f32

def iterMixed (v5 : FVec Ideal S224x512 .bf16) (v9 : FVec Ideal S256x256 .bf16)
    (v22 : FVec Ideal S1536x256 .f32) : FVec Ideal S224x256 .f32 :=
  matmul dot_S224x256_S256x256_S224x256_1_0_0_1_n_n none (iterProj v5 v22) v9 (constant S224x256 .f32 0x00000000#32)

def iterH2 (v11 : FVec Ideal S8x256 .bf16) (v34 : FVec Ideal S224x256 .f32) : FVec Ideal S232x256 .bf16 :=
  concatenate S232x256 0 [⟨S224x256, truncf .bf16 (maximumf v34 (broadcast S224x256 (Scalar.ofBits .f32 0x00000000#32)))
    bitsLt_bf16_f32⟩, ⟨S8x256, v11⟩] concatenates_S224x256_S8x256_S232x256_d0

def iterPre2 (v7 : FVec Ideal S1152x232 .bf16) (v11 : FVec Ideal S8x256 .bf16)
    (v34 : FVec Ideal S224x256 .f32) : FVec Ideal S1152x256 .f32 :=
  matmul dot_S1152x232_S232x256_S1152x256_1_0_0_1_n_n none v7 (iterH2 v11 v34) (constant S1152x256 .f32 0x00000000#32)

def iterOut (v7 : FVec Ideal S1152x232 .bf16) (v11 : FVec Ideal S8x256 .bf16)
    (v34 : FVec Ideal S224x256 .f32) : FVec Ideal S384x256 .f32 :=
  maximumf (addf (mulf (extractStridedSlice S384x256 ![0, 0] (iterPre2 v7 v11 v34) slices_S1152x256_o0_0_S384x256)
      (logistic (extractStridedSlice S384x256 ![384, 0] (iterPre2 v7 v11 v34) slices_S1152x256_o384_0_S384x256)))
      (extractStridedSlice S384x256 ![768, 0] (iterPre2 v7 v11 v34) slices_S1152x256_o768_0_S384x256))
    (broadcast S384x256 (Scalar.ofBits .f32 0x00000000#32))

def iter (w1 : FVec Ideal S1536x256 .bf16) (b1 : FVec Ideal S1536x1 .f32) (th : FVec Ideal S224x512 .bf16)
    (w2 : FVec Ideal S1152x232 .bf16) (akt : FVec Ideal S256x256 .bf16) (onez : FVec Ideal S8x256 .bf16)
    (xa xb : FVec Ideal S1x256x128 .f32) : FVec Ideal S384x256 .f32 :=
  iterOut w2 onez (iterMixed th akt (iterPre1 w1 b1 xa xb))

def accSum (v12 : FVec Ideal S1x256 .f32) (v47 : FVec Ideal S384x256 .f32) : FVec Ideal S1x256 .f32 :=
  addf v12 (shapeCast S1x256 (multiReduction .add [0] S256 v47 0x00000000#32 reduces_S384x256_S256 (.inl rfl) rfl)
    shapeCasts_S256_S1x256)

def accSq (v13 : FVec Ideal S1x256 .f32) (v47 : FVec Ideal S384x256 .f32) : FVec Ideal S1x256 .f32 :=
  accSum v13 (mulf v47 v47)

-- A sum over 256 lanes whose terms vanish outside the half of lane l is the sum over that half.
theorem sum_half (g : Fin 256 → EReal) (T : Fin 128 → EReal) (l : Fin 256)
    (hz : ∀ l0 : Fin 256, l0.val / 128 ≠ l.val / 128 → g l0 = 0)
    (hs : ∀ l0 : Fin 256, l0.val / 128 = l.val / 128 → g l0 = T ⟨l0.val % 128, Nat.mod_lt _ (by decide)⟩) :
    ∑ l0 : Fin 256, g l0 = ∑ n' : Fin 128, T n' := by
  refine (Fin.sum_univ_add (a := 128) (b := 128) g).trans ?_
  by_cases h : l.val < 128
  · exact (congrArg₂ (· + ·)
      (Finset.sum_congr rfl fun n _ => (hs _ (by show n.val / 128 = l.val / 128; omega)).trans
        (congrArg T (Fin.ext (by show n.val % 128 = n.val; omega))))
      (Finset.sum_eq_zero fun n _ => hz _ (by show (128 + n.val) / 128 ≠ l.val / 128; omega))).trans (add_zero _)
  · exact (congrArg₂ (· + ·)
      (Finset.sum_eq_zero fun n _ => hz _ (by show n.val / 128 ≠ l.val / 128; have := l.isLt; omega))
      (Finset.sum_congr rfl fun n _ => (hs _ (by show (128 + n.val) / 128 = l.val / 128; have := l.isLt; omega)).trans
        (congrArg T (Fin.ext (by show (128 + n.val) % 128 = n.val; omega))))).trans (zero_add _)

-- The entry at (r, l) of an M x K by K x N product into zeros is the sum over the K shared positions of the products.
theorem matmul_plain_zero_apply {M K N : Nat} {φ₁ φ₂ : FTy} (d : DotDims ⟨2, ![M, K]⟩ ⟨2, ![K, N]⟩ ⟨2, ![M, N]⟩)
    (hd : d = DotDims.plain M K N) (prec : Option ContractPrecision)
    (A : FVec Ideal ⟨2, ![M, K]⟩ φ₁) (B : FVec Ideal ⟨2, ![K, N]⟩ φ₂) (r : Fin M) (l : Fin N) :
    matmul d prec A B (constant ⟨2, ![M, N]⟩ .f32 0x00000000#32) (ix2 r l)
      = ∑ k : Fin K, A (ix2 r k) * B (ix2 k l) := by
  subst hd
  simp only [matmul]
  rw [Ideal.matmul_constant_zero_apply, ← Equiv.sum_comp (contrEquiv1 (DotDims.plain M K N) K rfl rfl).symm]
  refine Finset.sum_congr rfl fun k _ => ?_
  have ck := contrEquiv1_symm_val (DotDims.plain M K N) K rfl rfl k
  rw [show (DotDims.plain M K N).lhsIdx (ix2 r l) ((contrEquiv1 _ K rfl rfl).symm k) = ix2 r k from
      funext fun ax => Fin.ext (by match ax with | ⟨0, _⟩ => rfl | ⟨1, _⟩ => exact ck),
    show (DotDims.plain M K N).rhsIdx (ix2 r l) ((contrEquiv1 _ K rfl rfl).symm k) = ix2 k l from
      funext fun ax => Fin.ext (by match ax with | ⟨0, _⟩ => exact ck | ⟨1, _⟩ => rfl)]

abbrev laneB (ba bb : Fin 256) (l : Fin 256) : Fin 256 := if l.val < 128 then ba else bb
abbrev laneN (l : Fin 256) : Fin 128 := ⟨l.val % 128, Nat.mod_lt _ (by decide)⟩

theorem logistic_apply' {s : Shape} {φ : FTy} (x : FVec Ideal s φ) (i : s.Idx) :
    logistic x i = Ideal.logistic (x i) := rfl

-- One pass read at an output position and a lane: each stage in turn is the specification's stage for the lane's batch and node.
theorem iter_apply (a : Cert.Spec.Args) (ba bb : Fin 256)
    (w1 : FVec Ideal S1536x256 .bf16) (b1 : FVec Ideal S1536x1 .f32) (th : FVec Ideal S224x512 .bf16)
    (w2 : FVec Ideal S1152x232 .bf16) (akt : FVec Ideal S256x256 .bf16) (onez : FVec Ideal S8x256 .bf16)
    (xa xb : FVec Ideal S1x256x128 .f32)
    (hw1 : ∀ (r : Fin 1536) (i : Fin 256), w1 (ix2 r i) = Cert.Spec.W1 a i.val r.val)
    (hb1 : ∀ r : Fin 1536, b1 (ix2 r 0) = Cert.Spec.B1 a r.val)
    (hth : ∀ (q : Fin 224) (j : Fin 512), th (ix2 q j) = Cert.Spec.ThetaBD a j.val q.val)
    (hw2 : ∀ (r : Fin 1152) (k : Fin 232), w2 (ix2 r k) =
      if k.val < 224 then Cert.Spec.W2 a k.val r.val else if k.val = 224 then Cert.Spec.B2 a r.val else 0)
    (hakt : ∀ (l l' : Fin 256), akt (ix2 l l') =
      if l.val / 128 = l'.val / 128 then
        a.A (ix2 ⟨l'.val % 128, Nat.mod_lt _ (by decide)⟩ ⟨l.val % 128, Nat.mod_lt _ (by decide)⟩)
      else 0)
    (honez : ∀ (k : Fin 8) (l : Fin 256), onez (ix2 k l) = (if k.val = 0 then 1 else 0 : EReal))
    (hxa : ∀ (i : Fin 256) (n : Fin 128), xa (ix3 0 i n) = Cert.Spec.xrow a ba n i)
    (hxb : ∀ (i : Fin 256) (n : Fin 128), xb (ix3 0 i n) = Cert.Spec.xrow a bb n i)
    (u : Fin 384) (l : Fin 256) :
    iter w1 b1 th w2 akt onez xa xb (ix2 u l)
      = Cert.Spec.t3 a (if l.val < 128 then ba else bb) ⟨l.val % 128, Nat.mod_lt _ (by decide)⟩ u.val := by
  have p1 (r : Fin 1536) (l : Fin 256) :
      iterPre1 w1 b1 xa xb (ix2 r l) = Cert.Spec.pre1 a (laneB ba bb l) (laneN l) r.val := by
    unfold iterPre1 Cert.Spec.pre1
    rw [addf_apply, matmul_plain_zero_apply dot_S1536x256_S256x256_S1536x256_1_0_0_1_n_n rfl,
      broadcastTo_apply b1 _ (ix2 r l) (ix2 r 0) (fun ax => by
        match ax with
        | ⟨0, _⟩ => rfl
        | ⟨1, _⟩ => rfl), hb1]
    refine congrArg (· + _) (Finset.sum_congr rfl fun k _ => ?_)
    rw [hw1, truncf_apply, mul_comm]
    refine congrArg (· * _) ?_
    by_cases h : l.val < 128
    · rw [show laneB ba bb l = ba from if_pos h, concatenate_pair_apply_left (s₁ := S256x128) (s₂ := S256x128) (1 : Fin 2) _ _ _
        (ix2 k l) rfl (ix2 k (laneN l) : S256x128.Idx) (fun b => by
          match b with
          | ⟨0, _⟩ => rfl
          | ⟨1, _⟩ => exact Nat.mod_eq_of_lt h), shapeCast_1ab_ab_apply]
      exact hxa _ _
    · rw [show laneB ba bb l = bb from if_neg h, concatenate_pair_apply_right (s₁ := S256x128) (s₂ := S256x128) (1 : Fin 2) _ _ _
        (ix2 k l) rfl rfl (ix2 k (laneN l) : S256x128.Idx) (fun b hb => by
          match b with
          | ⟨0, _⟩ => rfl
          | ⟨1, _⟩ => exact absurd rfl hb)
        (by show l.val % 128 + 128 = l.val; have := l.isLt; omega), shapeCast_1ab_ab_apply]
      exact hxb _ _
  have ph (j : Fin 512) (l : Fin 256) :
      iterH1 (iterPre1 w1 b1 xa xb) (ix2 j l) = Cert.Spec.h1 a (laneB ba bb l) (laneN l) j.val := by
    unfold iterH1 Cert.Spec.h1 Cert.Spec.gate
    rw [truncf_apply, maximumf_apply, addf_apply, mulf_apply, broadcast_apply, logistic_apply',
      slice2_axis0_apply 0 (iterPre1 w1 b1 xa xb) _ j l ⟨j.val, by omega⟩ (Nat.zero_add _).symm,
      slice2_axis0_apply 512 (iterPre1 w1 b1 xa xb) _ j l ⟨512 + j.val, by omega⟩ rfl,
      slice2_axis0_apply 1024 (iterPre1 w1 b1 xa xb) _ j l ⟨1024 + j.val, by omega⟩ rfl, p1, p1, p1]
    exact congrArg (max _) Ideal.ofBits_zero_f32
  have pp (q : Fin 224) (l : Fin 256) : iterProj th (iterPre1 w1 b1 xa xb) (ix2 q l)
      = Cert.Spec.proj a (laneB ba bb l) (laneN l) q.val := by
    unfold iterProj Cert.Spec.proj
    rw [truncf_apply, matmul_plain_zero_apply dot_S224x512_S512x256_S224x256_1_0_0_1_n_n rfl]
    exact Finset.sum_congr rfl fun j _ => by rw [hth, ph, mul_comm]
  have pm (q : Fin 224) (l : Fin 256) : iterMixed th akt (iterPre1 w1 b1 xa xb) (ix2 q l)
      = ∑ n' : Fin 128, a.A (ix2 (laneN l) n') * Cert.Spec.proj a (laneB ba bb l) n' q.val := by
    unfold iterMixed
    rw [matmul_plain_zero_apply dot_S224x256_S256x256_S224x256_1_0_0_1_n_n rfl]
    refine sum_half _ (fun n' => a.A (ix2 (laneN l) n') * Cert.Spec.proj a (laneB ba bb l) n' q.val) l
      (fun l0 h0 => ?_) (fun l0 h0 => ?_)
    · rw [hakt, if_neg h0, mul_zero]
    · rw [hakt, if_pos h0, pp, mul_comm, show laneB ba bb l0 = laneB ba bb l from by
        show (if l0.val < 128 then ba else bb) = (if l.val < 128 then ba else bb)
        by_cases h : l.val < 128
        · rw [if_pos h, if_pos (by omega)]
        · rw [if_neg h, if_neg (by omega)]]
  have p2 (r : Fin 1152) (l : Fin 256) : iterPre2 w2 onez (iterMixed th akt (iterPre1 w1 b1 xa xb)) (ix2 r l)
      = Cert.Spec.pre2 a (laneB ba bb l) (laneN l) r.val := by
    unfold iterPre2 iterH2 Cert.Spec.pre2
    rw [matmul_plain_zero_apply dot_S1152x232_S232x256_S1152x256_1_0_0_1_n_n rfl]
    refine (Fin.sum_univ_add (a := 224) (b := 8) _).trans (congrArg₂ (· + ·) (Finset.sum_congr rfl fun q _ => ?_) ?_)
    · rw [hw2, if_pos (show (Fin.castAdd 8 q).val < 224 from q.isLt),
        concatenate_pair_apply_left (t := S232x256) (s₁ := S224x256) (s₂ := S8x256) (0 : Fin 2) _ _ _ _ rfl
          (ix2 q l : S224x256.Idx) (fun b => by
            match b with
            | ⟨0, _⟩ => rfl
            | ⟨1, _⟩ => rfl), truncf_apply, maximumf_apply, pm, mul_comm]
      exact congrArg (· * _) (congrArg (max _) Ideal.ofBits_zero_f32)
    · have hge (e : Fin 8) : ¬ (Fin.natAdd 224 e).val < 224 := Nat.not_lt.mpr (Nat.le_add_right _ _)
      rw [Finset.sum_eq_single (0 : Fin 8) (fun e _ he => ?_) (fun h => absurd (Finset.mem_univ _) h)]
      · rw [hw2, if_neg (hge 0), if_pos (show (Fin.natAdd 224 (0 : Fin 8)).val = 224 from rfl),
          concatenate_pair_apply_right (t := S232x256) (s₁ := S224x256) (s₂ := S8x256) (0 : Fin 2) _ _ _ _ rfl rfl
            (ix2 (0 : Fin 8) l : S8x256.Idx) (fun b hb => by
              match b with
              | ⟨0, _⟩ => exact absurd rfl hb
              | ⟨1, _⟩ => rfl) (Nat.add_comm _ _), honez,
          if_pos (show (0 : Fin 8).val = 0 from rfl), mul_one]
      · rw [hw2, if_neg (hge e), if_neg (show ¬ (Fin.natAdd 224 e).val = 224 from fun h => he (Fin.ext (by
          show e.val = 0; have : 224 + e.val = 224 := h; omega))), zero_mul]
  unfold iter iterOut Cert.Spec.t3 Cert.Spec.gate
  rw [maximumf_apply, addf_apply, mulf_apply, broadcast_apply, logistic_apply',
    slice2_axis0_apply 0 (iterPre2 w2 onez (iterMixed th akt (iterPre1 w1 b1 xa xb))) _ u l ⟨u.val, by omega⟩ (Nat.zero_add _).symm,
    slice2_axis0_apply 384 (iterPre2 w2 onez (iterMixed th akt (iterPre1 w1 b1 xa xb))) _ u l ⟨384 + u.val, by omega⟩ rfl,
    slice2_axis0_apply 768 (iterPre2 w2 onez (iterMixed th akt (iterPre1 w1 b1 xa xb))) _ u l ⟨768 + u.val, by omega⟩ rfl, p2, p2, p2]
  exact congrArg (max _) Ideal.ofBits_zero_f32

-- The running sum after a pass, read at a lane: the sum before plus the pass's values over the 384 positions.
theorem accSum_apply (acc : FVec Ideal S1x256 .f32) (out : FVec Ideal S384x256 .f32) (l : Fin 256) :
    accSum acc out (ix2 0 l) = acc (ix2 0 l) + ∑ u : Fin 384, out (ix2 u l) := by
  unfold accSum
  rw [addf_apply, shapeCast_a_1a_apply _ _ 0 l]
  refine congrArg (acc (ix2 0 l) + ·) ((Ideal.multiReduction_add_single out _ reduces_S384x256_S256 _ _ (ix1 l)).trans ?_)
  exact Finset.sum_congr rfl fun u _ => congrArg out (funext fun ax => by
    match ax with
    | ⟨0, _⟩ => rfl
    | ⟨1, _⟩ => rfl)

theorem accSq_apply (acc : FVec Ideal S1x256 .f32) (out : FVec Ideal S384x256 .f32) (l : Fin 256) :
    accSq acc out (ix2 0 l) = acc (ix2 0 l) + ∑ u : Fin 384, out (ix2 u l) * out (ix2 u l) :=
  accSum_apply acc (mulf out out) l

end Cert.KernelIdeal.Val

end
-- ==== Proof.KPieces.lean ====
import proofs.«181364_g2000406351686535_pallasbulk_564_19_alg».proof.Proof.KWire
import proofs.«181364_g2000406351686535_pallasbulk_564_19_alg».proof.Proof.KIter
import Mathlib.Tactic.FinCases
import Mathlib.Tactic.Abel

set_option maxRecDepth 16384

noncomputable section

namespace Cert.KernelIdeal.Val

open Idealize.ShloMosaic Idealize.ShloMosaic.ValueIdx
open Cert.KernelIdeal Cert.KernelIdeal.Gen Cert.KernelIdeal.Run

variable {x0 : Vec Ideal S32x256x128 .f32} {x1 : Vec Ideal S256x256 .bf16} {x2 : Vec Ideal S1536x256 .bf16} {x3 : Vec Ideal S1536x1 .f32} {x4 : Vec Ideal S224x512 .bf16} {x5 : Vec Ideal S1152x232 .bf16} {x6 : Vec Ideal S8x256 .bf16}

def rowLo (out : FVec Ideal S384x256 .f32) : FVec Ideal S1x384x128 .bf16 :=
  shapeCast S1x384x128 (truncf .bf16 (extractStridedSlice S384x128 ![0, 0] out Facts₀.slices_S384x256_o0_0_S384x128) Facts₀.bitsLt_bf16_f32) Facts₀.shapeCasts_S384x128_S1x384x128
def rowHi (out : FVec Ideal S384x256 .f32) : FVec Ideal S1x384x128 .bf16 :=
  shapeCast S1x384x128 (truncf .bf16 (extractStridedSlice S384x128 ![0, 128] out Facts₀.slices_S384x256_o0_128_S384x128) Facts₀.bitsLt_bf16_f32) Facts₀.shapeCasts_S384x128_S1x384x128

theorem zeros2 : (![0, 0] : Fin 2 → Nat) = fun _ => 0 := by funext ax; fin_cases ax <;> rfl

-- A load through the whole rectangle is the identity, so each operand is the block itself.
theorem iter_operands : iter (c0_v1 x2) (c0_v3 x3) (c0_v5 x4) (c0_v7 x5) (c0_v9 x1) (c0_v11 x6) = iter x2 x3 x4 x5 x1 x6 := by
  unfold c0_v1 c0_v3 c0_v5 c0_v7 c0_v9 c0_v11 k0_pay4 k0_pay5 k0_pay6 k0_pay7 k0_pay8 k0_pay9
  repeat rw [shapeCast_self, View.ld_unit_zero zeros2]

theorem ld_row (k : ℕ) (hk : k < 32) (inb) (i : Fin 256) (n : Fin 128) :
    View.ld x0 (Rect.unit (s := S32x256x128) ![k, 0, 0] S1x256x128.size inb) (ix3 (0 : Fin 1) i n)
      = x0 (ix3 (⟨k, hk⟩ : Fin 32) i n) := by
  refine congrArg x0 (funext fun ax => Fin.ext ?_)
  match ax with
  | ⟨0, _⟩ => show k + 1 * 0 = k; omega
  | ⟨1, _⟩ => show 0 + 1 * i.val = i.val; omega
  | ⟨2, _⟩ => show 0 + 1 * n.val = n.val; omega

def bAt (s : ℕ) (i : ℕ) : Fin 256 := ⟨(32 * s + i) % 256, Nat.mod_lt _ (by decide)⟩

structure PointHyp (a : Cert.Spec.Args) (s : ℕ) (x0 : Vec Ideal S32x256x128 .f32) (x1 : Vec Ideal S256x256 .bf16) (x2 : Vec Ideal S1536x256 .bf16) (x3 : Vec Ideal S1536x1 .f32) (x4 : Vec Ideal S224x512 .bf16) (x5 : Vec Ideal S1152x232 .bf16) (x6 : Vec Ideal S8x256 .bf16) : Prop where
  hx : ∀ (k : Fin 32) (i : Fin 256) (n : Fin 128), x0 (ix3 k i n) = Cert.Spec.xrow a (bAt s k.val) n i
  hakt : ∀ (l l' : Fin 256), x1 (ix2 l l') =
      if l.val / 128 = l'.val / 128 then
        a.A (ix2 ⟨l'.val % 128, Nat.mod_lt _ (by decide)⟩ ⟨l.val % 128, Nat.mod_lt _ (by decide)⟩)
      else 0
  hw1 : ∀ (r : Fin 1536) (i : Fin 256), x2 (ix2 r i) = Cert.Spec.W1 a i.val r.val
  hb1 : ∀ r : Fin 1536, x3 (ix2 r 0) = Cert.Spec.B1 a r.val
  hth : ∀ (q : Fin 224) (j : Fin 512), x4 (ix2 q j) = Cert.Spec.ThetaBD a j.val q.val
  hw2 : ∀ (r : Fin 1152) (k : Fin 232), x5 (ix2 r k) =
      if k.val < 224 then Cert.Spec.W2 a k.val r.val else if k.val = 224 then Cert.Spec.B2 a r.val else 0
  honez : ∀ (k : Fin 8) (l : Fin 256), x6 (ix2 k l) = (if k.val = 0 then 1 else 0 : EReal)

def t3q (a : Cert.Spec.Args) (k nn uu : ℕ) : EReal :=
  Cert.Spec.t3 a ⟨k % 256, Nat.mod_lt _ (by decide)⟩ ⟨nn % 128, Nat.mod_lt _ (by decide)⟩ uu

theorem t3q_eq (a : Cert.Spec.Args) (b : Fin 256) (n : Fin 128) (u : ℕ) : t3q a b.val n.val u = Cert.Spec.t3 a b n u :=
  congrArg₂ (fun b' n' => Cert.Spec.t3 a b' n' u) (Fin.ext (Nat.mod_eq_of_lt b.isLt)) (Fin.ext (Nat.mod_eq_of_lt n.isLt))

def rowSum (a : Cert.Spec.Args) (s nn : ℕ) : EReal :=
  ∑ i ∈ Finset.range 32, ∑ u : Fin 384, t3q a (32 * s + i) nn u.val
def rowSq (a : Cert.Spec.Args) (s nn : ℕ) : EReal :=
  ∑ i ∈ Finset.range 32, ∑ u : Fin 384, t3q a (32 * s + i) nn u.val * t3q a (32 * s + i) nn u.val

/-- `out` carries batch `k` of grid point `s` on its first 128 lanes and batch `k + 1` on its last 128. -/
def Holds (a : Cert.Spec.Args) (s k : ℕ) (out : FVec Ideal S384x256 .f32) : Prop :=
  ∀ (u : Fin 384) (n : Fin 128), out (ix2 u ⟨n.val, by omega⟩) = t3q a (32 * s + k) n.val u.val
    ∧ out (ix2 u ⟨128 + n.val, by omega⟩) = t3q a (32 * s + (k + 1)) n.val u.val

section Point
variable {a : Cert.Spec.Args} {s : ℕ} (H : PointHyp a s x0 x1 x2 x3 x4 x5 x6)
include H

-- The pass on rows k and k + 1 is the one-pass function of operands and rows that hold what the specification names.
theorem pass_holds (k : ℕ) {ia ib} (hk : k + 1 < 32 := by decide) :
    Holds a s k (iter (c0_v1 x2) (c0_v3 x3) (c0_v5 x4) (c0_v7 x5) (c0_v9 x1) (c0_v11 x6)
      (View.ld x0 (Rect.unit (s := S32x256x128) ![k, 0, 0] S1x256x128.size ia))
      (View.ld x0 (Rect.unit (s := S32x256x128) ![k + 1, 0, 0] S1x256x128.size ib))) := by
  intro u n
  rw [iter_operands]
  have h := iter_apply a (bAt s k) (bAt s (k + 1)) x2 x3 x4 x5 x1 x6 _ _ H.hw1 H.hb1 H.hth H.hw2 H.hakt H.honez
    (fun i n => (ld_row k (by omega) ia i n).trans (H.hx ⟨k, by omega⟩ i n))
    (fun i n => (ld_row (k + 1) hk ib i n).trans (H.hx ⟨k + 1, hk⟩ i n)) u
  constructor
  · rw [h]
    show Cert.Spec.t3 a (if n.val < 128 then _ else _) ⟨n.val % 128, _⟩ u.val = _
    rw [if_pos n.isLt]
    rfl
  · rw [h]
    show Cert.Spec.t3 a (if 128 + n.val < 128 then _ else _) ⟨(128 + n.val) % 128, _⟩ u.val = _
    rw [if_neg (by omega)]
    exact congrArg (fun n' => Cert.Spec.t3 a _ n' u.val) (Fin.ext (Nat.add_mod_left 128 n.val))

end Point

theorem rowLo_apply (out : FVec Ideal S384x256 .f32) (k0 : Fin 1) (u : Fin 384) (n : Fin 128) :
    rowLo out (ix3 k0 u n) = out (ix2 u ⟨n.val, by omega⟩) := by
  unfold rowLo
  rw [shapeCast_ab_1ab_apply, truncf_apply, slice2_axis1_apply 0 out _ u n ⟨n.val, by omega⟩ (Nat.zero_add _).symm]

theorem rowHi_apply (out : FVec Ideal S384x256 .f32) (k0 : Fin 1) (u : Fin 384) (n : Fin 128) :
    rowHi out (ix3 k0 u n) = out (ix2 u ⟨128 + n.val, by omega⟩) := by
  unfold rowHi
  rw [shapeCast_ab_1ab_apply, truncf_apply, slice2_axis1_apply 128 out _ u n ⟨128 + n.val, by omega⟩ rfl]

def blockG (a : Cert.Spec.Args) (s : ℕ) : S32x384x128.Idx → EReal :=
  fun y => t3q a (32 * s + (y 0).val) (y 2).val (y 1).val

theorem row_block (a : Cert.Spec.Args) (s j : ℕ) (inb) (w : FVec Ideal S1x384x128 .bf16)
    (hw : ∀ (k0 : Fin 1) (u : Fin 384) (n : Fin 128), w (ix3 k0 u n) = t3q a (32 * s + j) n.val u.val)
    (x : S1x384x128.Idx) :
    w x = blockG a s ((Rect.unit (s := S32x384x128) ![j, 0, 0] S1x384x128.size inb).emb x) := by
  obtain ⟨k0, u, n, rfl⟩ : ∃ (k0 : Fin 1) (u : Fin 384) (n : Fin 128), x = ix3 k0 u n := ⟨x 0, x 1, x 2, eq_ix3 x⟩
  rw [hw]
  show _ = t3q a (32 * s + (j + 1 * k0.val)) (0 + 1 * n.val) (0 + 1 * u.val)
  have hk0 : k0.val = 0 := by omega
  rw [hk0, Nat.mul_zero, Nat.add_zero, Nat.zero_add, Nat.zero_add, Nat.one_mul, Nat.one_mul]

theorem mem_row (j : ℕ) (inb) (k : Fin 32) (hk : k.val = j) (u : Fin 384) (n : Fin 128) :
    (ix3 k u n : S32x384x128.Idx) ∈ (Rect.unit (s := S32x384x128) ![j, 0, 0] S1x384x128.size inb).set := by
  rw [Rect.mem_set_unit]
  intro ax
  match ax with
  | ⟨0, _⟩ => show j ≤ k.val ∧ k.val < j + 1; omega
  | ⟨1, _⟩ => show 0 ≤ u.val ∧ u.val < 0 + 384; omega
  | ⟨2, _⟩ => show 0 ≤ n.val ∧ n.val < 0 + 128; omega

/-- The stored pieces `L` agree with the specification, and cover the rows below `m`. -/
def Inv (a : Cert.Spec.Args) (s m : ℕ) (L : List (View.Piece (Elt Ideal) S32x384x128 .bf16)) : Prop :=
  (∀ p ∈ L, ∀ x, p.2 x = blockG a s (p.1.emb x)) ∧
    ∀ (j : Fin 32) (u : Fin 384) (n : Fin 128), j.val < m → ∃ p ∈ L, ix3 j u n ∈ p.1.set

theorem Inv.nil (a : Cert.Spec.Args) (s : ℕ) : Inv a s 0 [] :=
  ⟨fun _ h => absurd h List.not_mem_nil, fun _ _ _ h => absurd h (Nat.not_lt_zero _)⟩

-- A pass adds its two rows: the halves of its lanes are the two batches it carries.
theorem Inv.step {a : Cert.Spec.Args} {s k : ℕ} {L} (hL : Inv a s k L) {out} (h : Holds a s k out) {ia ib} :
    Inv a s (k + 2) ((⟨Rect.unit (s := S32x384x128) ![k + 1, 0, 0] S1x384x128.size ib, rowHi out⟩ : View.Piece (Elt Ideal) S32x384x128 .bf16)
      :: ⟨Rect.unit (s := S32x384x128) ![k, 0, 0] S1x384x128.size ia, rowLo out⟩ :: L) := by
  refine ⟨List.forall_mem_cons.mpr ⟨row_block a s (k + 1) ib _ fun k0 u n => (rowHi_apply _ k0 u n).trans (h u n).2,
    List.forall_mem_cons.mpr ⟨row_block a s k ia _ fun k0 u n => (rowLo_apply _ k0 u n).trans (h u n).1, hL.1⟩⟩,
    fun j u n hj => ?_⟩
  by_cases h1 : j.val = k + 1
  · exact ⟨_, List.Mem.head _, mem_row (k + 1) ib j h1 u n⟩
  by_cases h0 : j.val = k
  · exact ⟨_, List.Mem.tail _ (List.Mem.head _), mem_row k ia j h0 u n⟩
  obtain ⟨p, hp, hy⟩ := hL.2 j u n (by omega)
  exact ⟨p, List.Mem.tail _ (List.Mem.tail _ hp), hy⟩

theorem Inv.canon {a : Cert.Spec.Args} {s : ℕ} {L} (hL : Inv a s 32 L) (y : S32x384x128.Idx) :
    View.canon L y = blockG a s y := by
  obtain ⟨k, u, n, rfl⟩ : ∃ (k : Fin 32) (u : Fin 384) (n : Fin 128), y = ix3 k u n := ⟨y 0, y 1, y 2, eq_ix3 y⟩
  exact View.canon_apply_of_pieces (Val := Elt Ideal) (e := .bf16) (blockG a s) L hL.1 _ (hL.2 k u n k.isLt)

def foldLanes (v : FVec Ideal S1x256 .f32) : FVec Ideal S1x1x128 .f32 :=
  shapeCast S1x1x128 (addf (extractStridedSlice S1x128 ![0, 0] v Facts₀.slices_S1x256_o0_0_S1x128)
    (extractStridedSlice S1x128 ![0, 128] v Facts₀.slices_S1x256_o0_128_S1x128)) Facts₀.shapeCasts_S1x128_S1x1x128

theorem foldLanes_apply (v : FVec Ideal S1x256 .f32) (n : Fin 128) :
    foldLanes v (ix3 0 0 n) = v (ix2 0 ⟨n.val, by omega⟩) + v (ix2 0 ⟨128 + n.val, by omega⟩) := by
  unfold foldLanes
  rw [shapeCast_ab_1ab_apply, addf_apply, slice2_axis1_apply 0 v _ 0 n ⟨n.val, by omega⟩ (Nat.zero_add _).symm,
    slice2_axis1_apply 128 v _ 0 n ⟨128 + n.val, by omega⟩ rfl]

theorem pay2_eq (v774 : FVec Ideal S1x256 .f32) (v812 : FVec Ideal S384x256 .f32) :
    k0_pay2 v774 v812 = foldLanes (accSum v774 v812) := rfl
theorem pay3_eq (v778 : FVec Ideal S1x256 .f32) (v812 : FVec Ideal S384x256 .f32) :
    k0_pay3 v778 v812 = foldLanes (accSq v778 v812) := rfl

theorem zeros3 : (![0, 0, 0] : Fin 3 → Nat) = fun _ => 0 := by funext ax; fin_cases ax <;> rfl

theorem c0_v12_apply (i : S1x256.Idx) : c0_v12 (F := Ideal) i = 0 := Ideal.ofBits_zero_f32
theorem c0_v13_apply (i : S1x256.Idx) : c0_v13 (F := Ideal) i = 0 := Ideal.ofBits_zero_f32

/-- Lanes `n` and `128 + n` of a running sum `acc` add up to the first `k` batches' sums of `f` of the values. -/
def SumInv (a : Cert.Spec.Args) (s : ℕ) (f : EReal → EReal) (k : ℕ) (n : Fin 128) (acc : FVec Ideal S1x256 .f32) : Prop :=
  acc (ix2 0 ⟨n.val, by omega⟩) + acc (ix2 0 ⟨128 + n.val, by omega⟩)
    = ∑ i ∈ Finset.range k, ∑ u : Fin 384, f (t3q a (32 * s + i) n.val u.val)

theorem SumInv.zero {a : Cert.Spec.Args} {s : ℕ} {f : EReal → EReal} {n : Fin 128} {acc : FVec Ideal S1x256 .f32}
    (h : ∀ i, acc i = 0) : SumInv a s f 0 n acc := by
  unfold SumInv
  rw [h, h, Finset.sum_range_zero, add_zero]

theorem two_step {T : ℕ → EReal} {k : ℕ} {A B p q : EReal} (h : A + B = ∑ i ∈ Finset.range k, T i)
    (hp : p = T k) (hq : q = T (k + 1)) : A + p + (B + q) = ∑ i ∈ Finset.range (k + 2), T i := by
  rw [Finset.sum_range_succ, Finset.sum_range_succ, ← h, hp, hq]
  abel

-- A pass adds, on each half of the lanes, the sum over the positions of `f` of the batch it carries there.
theorem SumInv.step {a : Cert.Spec.Args} {s : ℕ} {f : EReal → EReal} {k : ℕ} {n : Fin 128} {acc : FVec Ideal S1x256 .f32}
    (hacc : SumInv a s f k n acc) {F : FVec Ideal S1x256 .f32 → FVec Ideal S384x256 .f32 → FVec Ideal S1x256 .f32}
    (hF : ∀ acc out l, F acc out (ix2 0 l) = acc (ix2 0 l) + ∑ u : Fin 384, f (out (ix2 u l)))
    {out} (h : Holds a s k out) : SumInv a s f (k + 2) n (F acc out) := by
  unfold SumInv
  rw [hF, hF]
  exact two_step hacc (Finset.sum_congr rfl fun u _ => congrArg f (h u n).1)
    (Finset.sum_congr rfl fun u _ => congrArg f (h u n).2)

section Point4
variable (x0 x1 x2 x3 x4 x5 x6) (a : Cert.Spec.Args) (s : ℕ) (H : PointHyp a s x0 x1 x2 x3 x4 x5 x6)
include H

theorem out0_7_block_q (y : S32x384x128.Idx) :
    out0_7 x0 x1 x2 x3 x4 x5 x6 y = t3q a (32 * s + (y 0).val) (y 2).val (y 1).val :=
  (((((((((((((((((Inv.nil a s).step (pass_holds H 0)).step (pass_holds H 2)).step (pass_holds H 4)).step (pass_holds H 6)).step
    (pass_holds H 8)).step (pass_holds H 10)).step (pass_holds H 12)).step (pass_holds H 14)).step (pass_holds H 16)).step
    (pass_holds H 18)).step (pass_holds H 20)).step (pass_holds H 22)).step (pass_holds H 24)).step (pass_holds H 26)).step
    (pass_holds H 28)).step (pass_holds H 30)).canon y

theorem out0_8_rowSum (n : Fin 128) : out0_8 x0 x1 x2 x3 x4 x5 x6 (ix3 0 0 n) = rowSum a s n.val := by
  unfold out0_8
  rw [View.canon_unit_zero zeros3, pay2_eq, foldLanes_apply]
  exact ((((((((((((((((SumInv.zero (f := fun v => v) c0_v12_apply).step accSum_apply (pass_holds H 0)).step accSum_apply (pass_holds H 2)).step
    accSum_apply (pass_holds H 4)).step accSum_apply (pass_holds H 6)).step accSum_apply (pass_holds H 8)).step
    accSum_apply (pass_holds H 10)).step accSum_apply (pass_holds H 12)).step accSum_apply (pass_holds H 14)).step
    accSum_apply (pass_holds H 16)).step accSum_apply (pass_holds H 18)).step accSum_apply (pass_holds H 20)).step
    accSum_apply (pass_holds H 22)).step accSum_apply (pass_holds H 24)).step accSum_apply (pass_holds H 26)).step
    accSum_apply (pass_holds H 28)).step accSum_apply (pass_holds H 30)

theorem out0_9_rowSq (n : Fin 128) : out0_9 x0 x1 x2 x3 x4 x5 x6 (ix3 0 0 n) = rowSq a s n.val := by
  unfold out0_9
  rw [View.canon_unit_zero zeros3, pay3_eq, foldLanes_apply]
  exact ((((((((((((((((SumInv.zero (f := fun v => v * v) c0_v13_apply).step accSq_apply (pass_holds H 0)).step accSq_apply (pass_holds H 2)).step
    accSq_apply (pass_holds H 4)).step accSq_apply (pass_holds H 6)).step accSq_apply (pass_holds H 8)).step
    accSq_apply (pass_holds H 10)).step accSq_apply (pass_holds H 12)).step accSq_apply (pass_holds H 14)).step
    accSq_apply (pass_holds H 16)).step accSq_apply (pass_holds H 18)).step accSq_apply (pass_holds H 20)).step
    accSq_apply (pass_holds H 22)).step accSq_apply (pass_holds H 24)).step accSq_apply (pass_holds H 26)).step
    accSq_apply (pass_holds H 28)).step accSq_apply (pass_holds H 30)

end Point4

end Cert.KernelIdeal.Val

end
-- ==== Proof.KWeights.lean ====
import proofs.«181364_g2000406351686535_pallasbulk_564_19_alg».proof.Proof.Gen.KernelIdeal.Regions
import proofs.«181364_g2000406351686535_pallasbulk_564_19_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.Lib.KernelVsHost

noncomputable section

namespace Cert.KernelIdeal.Val

open Idealize.ShloMosaic Idealize.ShloMosaic.TcCoe Idealize.ShloMosaic.ValueIdx
open Cert.KernelIdeal Cert.KernelIdeal.Gen

variable (m : (ℓ : Loc nD τ sig) → Buf (Elt Ideal) ℓ) (c : Dev nD)

def argsK : Cert.Spec.Args :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4), m ((c.tc : Thread nD τ).loc main_arg5),
   m ((c.tc : Thread nD τ).loc main_arg6), m ((c.tc : Thread nD τ).loc main_arg7), m ((c.tc : Thread nD τ).loc main_arg8)⟩

theorem s12_v62 : @Eq (FVec Ideal S256x256 .bf16) (V13 m c main_v62)
    (truncf .bf16 (V12 m c main_v61 : FVec Ideal S256x256 .f32) bitsLt_bf16_f32) := by
  dsimp only [V13, hostOps0_12]; generalize V12 m c = W; after_results <;> rfl

theorem s10_v59 : @Eq (FVec Ideal S2x2 .f32) (V11 m c main_v59)
    (uitofp .f32 (cmpi .eq (addi (iotaInDim S2x2 32 0) (broadcastInDim S2x2 ![] bcast_S_S2x2 (constantI S_ 32 0#32)))
      (iotaInDim S2x2 32 1))) := by
  dsimp only [V11, hostOps0_10]; generalize V10 m c = W; after_results <;> rfl

theorem s10_v60 : @Eq (FVec Ideal S128x128 .f32) (V11 m c main_v60)
    (transpose S128x128 [1, 0] (V10 m c main_arg8 : FVec Ideal S128x128 .f32) transposes_S128x128_S128x128_1_0) := by
  dsimp only [V11, hostOps0_10]; generalize V10 m c = W; after_results <;> rfl

theorem s10_v53 : @Eq (FVec Ideal S224x512 .bf16) (V11 m c main_v53)
    (truncf .bf16 (V10 m c main_v52 : FVec Ideal S224x512 .f32) bitsLt_bf16_f32) := by
  dsimp only [V11, hostOps0_10]; generalize V10 m c = W; after_results <;> rfl

theorem s9_v52 : @Eq (FVec Ideal S224x512 .f32) (V10 m c main_v52)
    (pad S224x512 ![0, 0] ![0, 64] ![0, 0] (V9 m c main_v51 : FVec Ideal S224x448 .f32)
      (sitofp .f32 (V9 m c main_c_6 : IVec S_ 32) : FVec Ideal S_ .f32) pads_S224x448_S224x512_000_0640 h_S_) := by
  dsimp only [V10, hostOps0_9]; generalize V9 m c = W; after_results <;> rfl

theorem s8_c6 : @Eq (IVec S_ 32) (V9 m c main_c_6) (constantI S_ 32 0#32) := by
  dsimp only [V9, hostOps0_8]; generalize V8 m c = W; after_results <;> rfl

theorem s11_v61 : @Eq (FVec Ideal S256x256 .f32) (V12 m c main_v61)
    (shapeCast S256x256
      (mulf
        (broadcastInDim S2x128x2x128 ![0, 1, 2, 3] bcast_S2x1x2x1_S2x128x2x128_0_1_2_3
          (broadcastInDim S2x1x2x1 ![0, 2] bcast_S2x2_S2x1x2x1_0_2 (V11 m c main_v59 : FVec Ideal S2x2 .f32)))
        (broadcastInDim S2x128x2x128 ![0, 1, 2, 3] bcast_S1x128x1x128_S2x128x2x128_0_1_2_3
          (broadcastInDim S1x128x1x128 ![1, 3] bcast_S128x128_S1x128x1x128_1_3 (V11 m c main_v60 : FVec Ideal S128x128 .f32))))
      shapeCasts_S2x128x2x128_S256x256) := by
  dsimp only [V12, hostOps0_11]; generalize V11 m c = W; after_results <;> rfl

theorem s8_v51 : @Eq (FVec Ideal S224x448 .f32) (V9 m c main_v51)
    (shapeCast S224x448
      (mulf
        (broadcastInDim S14x16x14x32 ![0, 1, 2, 3] bcast_S14x1x14x1_S14x16x14x32_0_1_2_3
          (broadcastInDim S14x1x14x1 ![0, 2] bcast_S14x14_S14x1x14x1_0_2
            (uitofp .f32 (cmpi .eq
              (addi (iotaInDim S14x14 32 0) (broadcastInDim S14x14 ![] bcast_S_S14x14 (constantI S_ 32 0#32)))
              (iotaInDim S14x14 32 1)) : FVec Ideal S14x14 .f32)))
        (broadcastInDim S14x16x14x32 ![0, 1, 2, 3] bcast_S1x16x1x32_S14x16x14x32_0_1_2_3
          (broadcastInDim S1x16x1x32 ![1, 3] bcast_S16x32_S1x16x1x32_1_3
            (transpose S16x32 [1, 0] (V8 m c main_arg2 : FVec Ideal S32x16 .f32) transposes_S32x16_S16x32_1_0))))
      shapeCasts_S14x16x14x32_S224x448) := by
  dsimp only [V9, hostOps0_8]; generalize V8 m c = W; after_results <;> rfl

theorem eye_apply {n : Nat} (hn : n ≤ 4294967296) (h : (⟨0, ![]⟩ : Shape).BroadcastsInDim ⟨2, ![n, n]⟩ ![]) (p p' : Fin n) :
    (uitofp .f32 (cmpi .eq (addi (iotaInDim ⟨2, ![n, n]⟩ 32 0) (broadcastInDim ⟨2, ![n, n]⟩ ![] h (constantI ⟨0, ![]⟩ 32 0#32)))
      (iotaInDim ⟨2, ![n, n]⟩ 32 1)) : FVec Ideal ⟨2, ![n, n]⟩ .f32) (ix2 p p') = if p.val = p'.val then 1 else 0 := by
  show (((IntOp.cmpi .eq (IntOp.addi (BitVec.ofNat 32 p.val) 0#32) (BitVec.ofNat 32 p'.val)).toNat : ℝ) : EReal) = _
  by_cases e : p.val = p'.val
  · rw [if_pos e, e]; simp [IntOp.cmpi, IntOp.addi]
  · rw [if_neg e]
    have ne : ¬ BitVec.ofNat 32 p.val = BitVec.ofNat 32 p'.val := fun hh => by
      have := congrArg BitVec.toNat hh
      rw [BitVec.toNat_ofNat, BitVec.toNat_ofNat, Nat.mod_eq_of_lt (by omega), Nat.mod_eq_of_lt (by omega)] at this
      exact e this
    simp [IntOp.cmpi, IntOp.addi, ne]

theorem select_iota_zero {α : Type} (h : Nat) (hh : h < 4294967296) (A B : α) :
    Scalar.select (IntOp.cmpi .eq (BitVec.ofNat 32 h) 0#32) A B = if h = 0 then A else B := by
  by_cases e : h = 0
  · subst e; rw [if_pos rfl]; exact select_one A B
  · rw [if_neg e]
    have ne : ¬ BitVec.ofNat 32 h = 0#32 := fun hh' => by
      have := congrArg BitVec.toNat hh'
      rw [BitVec.toNat_ofNat, Nat.mod_eq_of_lt (by omega)] at this
      exact e this
    have hb : (BitVec.ofNat 32 h == 0#32) = false := beq_eq_false_iff_ne.mpr ne
    have z : IntOp.cmpi .eq (BitVec.ofNat 32 h) 0#32 = 0#1 := by
      show BitVec.ofBool (BitVec.ofNat 32 h == 0#32) = 0#1
      rw [hb]; rfl
    rw [z]; exact select_zero A B

theorem V8_arg2 : V8 m c main_arg2 = m ((c.tc : Thread nD τ).loc main_arg2) := by
  rw [V8_of, V7_of, V6_of, V5_of, V4_of, V3_of, V2_of, V1_of] <;> first | decide | rfl

theorem V10_arg8 : V10 m c main_arg8 = m ((c.tc : Thread nD τ).loc main_arg8) := by
  rw [V10_of, V9_of, V8_of, V7_of, V6_of, V5_of, V4_of, V3_of, V2_of, V1_of] <;> first | decide | rfl

theorem V14_arg7 : V14 m c main_arg7 = m ((c.tc : Thread nD τ).loc main_arg7) := by
  rw [V14_of, V13_of, V12_of, V11_of, V10_of, V9_of, V8_of, V7_of, V6_of, V5_of, V4_of, V3_of, V2_of, V1_of] <;> first | decide | rfl

-- Entry (q, j) of the outer product of the 14 x 14 identity with the transposed projection is the identity's entry at the quotients times the projection's at the remainders.
theorem tht_eq (q : Fin 224) (j : Fin 512) :
    V15 m c main_v53 (ix2 q j) = Cert.Spec.ThetaBD (argsK m c) j.val q.val := by
  rw [V15_of, V14_of, V13_of, V12_of] <;> try decide
  rw [s10_v53, truncf_apply, s9_v52, s8_v51, s8_c6]
  by_cases hj : j.val < 448
  · rw [pad_apply_of_inside _ _ _ _ _ _ _ (ix2 q j) (ix2 q ⟨j.val, hj⟩) (by exact fun
        | ⟨0, _⟩ => (show q.val = 0 + q.val * (0 + 1) by omega)
        | ⟨1, _⟩ => (show j.val = 0 + j.val * (0 + 1) by omega)),
      shapeCast_apply _ _ _ (ix4 ⟨q.val / 16, by omega⟩ ⟨q.val % 16, Nat.mod_lt _ (by decide)⟩ ⟨j.val / 32, by omega⟩ ⟨j.val % 32, Nat.mod_lt _ (by decide)⟩)
      (by rw [Shape.rowMajor_val_four, Shape.rowMajor_val_two]
          show ((q.val / 16 * 16 + q.val % 16) * 14 + j.val / 32) * 32 + j.val % 32 = q.val * 448 + j.val
          omega), mulf_apply,
      broadcastInDim_apply _ _ _ _ (ix4 ⟨q.val / 16, by omega⟩ (0 : Fin 1) ⟨j.val / 32, by omega⟩ (0 : Fin 1))
        fun | ⟨0, _⟩ | ⟨1, _⟩ | ⟨2, _⟩ | ⟨3, _⟩ => rfl,
      broadcastInDim_apply _ _ _ _ (ix2 ⟨q.val / 16, by omega⟩ ⟨j.val / 32, by omega⟩) fun | ⟨0, _⟩ | ⟨1, _⟩ => rfl,
      eye_apply (n := 14) (by decide),
      broadcastInDim_apply _ _ _ _ (ix4 (0 : Fin 1) ⟨q.val % 16, Nat.mod_lt _ (by decide)⟩ (0 : Fin 1) ⟨j.val % 32, Nat.mod_lt _ (by decide)⟩)
        fun | ⟨0, _⟩ | ⟨1, _⟩ | ⟨2, _⟩ | ⟨3, _⟩ => rfl,
      broadcastInDim_apply _ _ _ _ (ix2 ⟨q.val % 16, Nat.mod_lt _ (by decide)⟩ ⟨j.val % 32, Nat.mod_lt _ (by decide)⟩) fun | ⟨0, _⟩ | ⟨1, _⟩ => rfl,
      transpose_ix2_apply, V8_arg2 m c]
    unfold Cert.Spec.ThetaBD
    by_cases h : j.val / 32 = q.val / 16
    · rw [dif_pos ⟨hj, h⟩, if_pos h.symm, one_mul]; rfl
    · rw [dif_neg (fun hh => h hh.2), if_neg (fun hh => h hh.symm), zero_mul]
  · rw [pad_apply_of_not_inside _ _ _ _ _ _ _ (ix2 q j) (1 : Fin 2)
      (by show ¬ (0 ≤ j.val ∧ (j.val - 0) % (0 + 1) = 0 ∧ (j.val - 0) / (0 + 1) < 448); omega)]
    unfold Cert.Spec.ThetaBD
    rw [dif_neg (fun hh => hj hh.1)]
    show (((0#32 : BitVec 32).toInt : ℝ) : EReal) = 0
    simp

theorem akt_eq (l l' : Fin 256) :
    V15 m c main_v62 (ix2 l l') =
      if l.val / 128 = l'.val / 128 then
        (argsK m c).A (ix2 ⟨l'.val % 128, Nat.mod_lt _ (by decide)⟩ ⟨l.val % 128, Nat.mod_lt _ (by decide)⟩)
      else 0 := by
  rw [V15_of, V14_of] <;> try decide
  rw [s12_v62, truncf_apply, s11_v61, shapeCast_apply _ _ _ (ix4 ⟨l.val / 128, by omega⟩ ⟨l.val % 128, Nat.mod_lt _ (by decide)⟩ ⟨l'.val / 128, by omega⟩ ⟨l'.val % 128, Nat.mod_lt _ (by decide)⟩)
    (by rw [Shape.rowMajor_val_four, Shape.rowMajor_val_two]
        show ((l.val / 128 * 128 + l.val % 128) * 2 + l'.val / 128) * 128 + l'.val % 128 = l.val * 256 + l'.val
        omega), mulf_apply,
    broadcastInDim_apply _ _ _ _ (ix4 ⟨l.val / 128, by omega⟩ (0 : Fin 1) ⟨l'.val / 128, by omega⟩ (0 : Fin 1))
      fun | ⟨0, _⟩ | ⟨1, _⟩ | ⟨2, _⟩ | ⟨3, _⟩ => rfl,
    broadcastInDim_apply _ _ _ _ (ix2 ⟨l.val / 128, by omega⟩ ⟨l'.val / 128, by omega⟩) fun | ⟨0, _⟩ | ⟨1, _⟩ => rfl,
    broadcastInDim_apply _ _ _ _ (ix4 (0 : Fin 1) ⟨l.val % 128, Nat.mod_lt _ (by decide)⟩ (0 : Fin 1) ⟨l'.val % 128, Nat.mod_lt _ (by decide)⟩)
      fun | ⟨0, _⟩ | ⟨1, _⟩ | ⟨2, _⟩ | ⟨3, _⟩ => rfl,
    broadcastInDim_apply _ _ _ _ (ix2 ⟨l.val % 128, Nat.mod_lt _ (by decide)⟩ ⟨l'.val % 128, Nat.mod_lt _ (by decide)⟩) fun | ⟨0, _⟩ | ⟨1, _⟩ => rfl,
    s10_v59, s10_v60, V10_arg8 m c, eye_apply (n := 2) (by decide), transpose_ix2_apply]
  by_cases h : l.val / 128 = l'.val / 128
  · rw [if_pos h, if_pos h, one_mul]; rfl
  · rw [if_neg h, if_neg h, zero_mul]

theorem onez_eq (k : Fin 8) (l : Fin 256) :
    V15 m c main_v67 (ix2 k l) = (if k.val = 0 then 1 else 0 : EReal) := by
  dsimp only [V15, hostOps0_14, V14, hostOps0_13, V13, hostOps0_12]; generalize V12 m c = W; after_results
  rw [broadcastInDim_apply _ _ _ (ix2 k l) (ix2 k (0 : Fin 1)) fun | ⟨0, _⟩ | ⟨1, _⟩ => rfl]
  show Scalar.select (IntOp.cmpi .eq (BitVec.ofNat 32 k.val) 0#32)
    (Ideal.ofBits .bf16 0x3F80#16) (Ideal.ofBits .bf16 0x0000#16) = _
  rw [select_iota_zero _ (by omega), Ideal.ofBits_one_bf16, Ideal.ofBits_zero_bf16]

theorem xt_eq (b : Fin 256) (i : Fin 256) (n : Fin 128) :
    V15 m c main_v69 (ix3 b i n) = Cert.Spec.xrow (argsK m c) b n i := by
  dsimp only [V15, hostOps0_14]; generalize hW : V14 m c = W; after_results
  show shapeCast S256x256x128 _ _ (ix3 b i n) = _
  rw [shapeCast_apply _ _ (ix3 b i n) (ix4 b ⟨i.val / 16, by omega⟩ ⟨i.val % 16, Nat.mod_lt _ (by decide)⟩ n)
    (by rw [Shape.rowMajor_val_four, Shape.rowMajor_val_three]
        show ((b.val * 16 + i.val / 16) * 16 + i.val % 16) * 128 + n.val = (b.val * 256 + i.val) * 128 + n.val
        omega),
    transpose_apply _ _ _ _ (ix4 b n ⟨i.val / 16, by omega⟩ ⟨i.val % 16, Nat.mod_lt _ (by decide)⟩)
      fun | ⟨0, _⟩ | ⟨1, _⟩ | ⟨2, _⟩ | ⟨3, _⟩ => rfl, ← hW, V14_arg7 m c]
  rfl

end Cert.KernelIdeal.Val

end
-- ==== Proof.KWeightsA.lean ====
import proofs.«181364_g2000406351686535_pallasbulk_564_19_alg».proof.Proof.KWeights
import Idealize.ShloMosaic.Lib.KernelVsHost
import Idealize.ShloMosaic.Lib.IdealHost
import Idealize.ShloMosaic.PureOps.Ideal.Laws

noncomputable section

namespace Cert.KernelIdeal.Val

open Idealize.ShloMosaic Idealize.ShloMosaic.TcCoe Idealize.ShloMosaic.ValueIdx
open Cert.KernelIdeal Cert.KernelIdeal.Gen

variable (m : (ℓ : Loc nD τ sig) → Buf (Elt Ideal) ℓ) (c : Dev nD)

theorem sitofp_zero_first : (sitofp (F := Ideal) .f32 (constantI S_ 32 0#32) : FVec Ideal S_ .f32) (Shape.Idx.first h_S_) = (0 : EReal) := by
  show ((BitVec.toInt 0#32 : ℝ) : EReal) = 0
  simp

theorem pad0 (x : ℕ) : x = 0 + x * (0 + 1) := by omega

-- Row r is role r / 512, time (r % 512) / 32, channel r % 32: the padded columns are zero, the others repeat the role's bias.
theorem b1_eq (r : Fin 1536) : V15 m c main_v15 (ix2 r 0) = Cert.Spec.B1 (argsK m c) r.val := by
  obtain ⟨g, hg⟩ : ∃ g, g = r.val / 512 := ⟨_, rfl⟩
  obtain ⟨p, hp⟩ : ∃ p, p = r.val % 512 := ⟨_, rfl⟩
  have g3 : g < 3 := by omega
  have o32 : p % 32 < 32 := by omega
  have e : (V15 m c main_v15 : FVec Ideal S1536x1 .f32) =
    shapeCast S1536x1
      (pad S3x512 ![0, 0] ![0, 64] ![0, 0]
        (shapeCast S3x448 (broadcastInDim S3x14x32 ![0, 1, 2] bcast_S3x1x32_S3x14x32_0_1_2
            (broadcastInDim S3x1x32 ![0, 2] bcast_S3x32_S3x1x32_0_2 (m ((c.tc : Thread nD τ).loc main_arg1) : FVec Ideal S3x32 .f32))) shapeCasts_S3x14x32_S3x448)
        (sitofp (F := Ideal) .f32 (constantI S_ 32 0#32)) pads_S3x448_S3x512_000_0640 h_S_)
      shapeCasts_S3x512_S1536x1 := by
    rw [V15_of, V14_of, V13_of, V12_of, V11_of, V10_of, V9_of, V8_of, V7_of, V6_of] <;> try decide
    dsimp only [V5, hostOps0_4]; after_results; rfl
  rw [e]
  refine (shapeCast_apply _ _ (ix2 r 0) (ix2 ⟨g, g3⟩ ⟨p, by omega⟩) ?_).trans ?_
  · rw [Shape.rowMajor_val_two, Shape.rowMajor_val_two]
    show g * 512 + p = r.val * 1 + 0
    omega
  by_cases hq : p < 448
  · refine (pad_apply_of_inside _ _ _ _ _ _ _ _ (ix2 ⟨g, g3⟩ ⟨p, hq⟩) (by exact fun | ⟨0, _⟩ | ⟨1, _⟩ => pad0 _)).trans ?_
    refine (shapeCast_apply _ _ _ (ix3 ⟨g, g3⟩ ⟨p / 32, by omega⟩ ⟨p % 32, o32⟩) ?_).trans ?_
    · rw [Shape.rowMajor_val_three, Shape.rowMajor_val_two]
      show (g * 14 + p / 32) * 32 + p % 32 = g * 448 + p
      omega
    refine (broadcastInDim_apply _ _ _ _ (ix3 ⟨g, g3⟩ (0 : Fin 1) ⟨p % 32, o32⟩) (by exact fun | ⟨0, _⟩ | ⟨1, _⟩ | ⟨2, _⟩ => rfl)).trans ?_
    refine (broadcastInDim_apply _ _ _ _ (ix2 ⟨g, g3⟩ ⟨p % 32, o32⟩) (by exact fun | ⟨0, _⟩ | ⟨1, _⟩ => rfl)).trans ?_
    unfold Cert.Spec.B1 Cert.Spec.bandBias
    subst_vars
    exact Eq.symm (dif_pos (by omega))
  · refine (pad_apply_of_not_inside _ _ _ _ _ _ _ _ (1 : Fin 2) (by show ¬ (0 ≤ p ∧ (p - 0) % (0 + 1) = 0 ∧ (p - 0) / (0 + 1) < 448); omega)).trans ?_
    unfold Cert.Spec.B1 Cert.Spec.bandBias
    rw [dif_neg (by omega)]
    exact sitofp_zero_first

-- The taps, 14 zeros behind them, repeated 14 times and cut to rows of 16: row t is the taps shifted right by t, so entry (u, t) is tap u - t inside the band and zero outside.
theorem w1t_eq (r : Fin 1536) (i : Fin 256) : V15 m c main_v33 (ix2 r i) = Cert.Spec.W1 (argsK m c) i.val r.val := by
  obtain ⟨g, hg⟩ : ∃ g, g = r.val / 512 := ⟨_, rfl⟩
  obtain ⟨p, hp⟩ : ∃ p, p = r.val % 512 := ⟨_, rfl⟩
  obtain ⟨t, ht⟩ : ∃ t, t = p / 32 := ⟨_, rfl⟩
  obtain ⟨o, ho⟩ : ∃ o, o = p % 32 := ⟨_, rfl⟩
  obtain ⟨u, hu⟩ : ∃ u, u = i.val / 16 := ⟨_, rfl⟩
  obtain ⟨ci, hc⟩ : ∃ ci, ci = i.val % 16 := ⟨_, rfl⟩
  have g3 : g < 3 := by omega
  have c16 : ci < 16 := by omega
  have o32 : o < 32 := by omega
  have uI : u < 16 := by omega
  have e : (V15 m c main_v33 : FVec Ideal S1536x256 .bf16) =
    truncf .bf16
      (transpose S1536x256 [1, 0]
        (shapeCast S256x1536
          (pad S256x3x512 ![0, 0, 0] ![0, 0, 64] ![0, 0, 0]
            (shapeCast S256x3x448
              (transpose S16x16x3x14x32 [2, 3, 0, 1, 4]
                (shapeCast S3x14x16x16x32
                  (extractStridedSlice S3x224x16x32 ![0, 0, 0, 0]
                    (shapeCast S3x238x16x32
                      (broadcastInDim S3x14x17x16x32 ![0, 1, 2, 3, 4] bcast_S3x1x17x16x32_S3x14x17x16x32_0_1_2_3_4
                        (broadcastInDim S3x1x17x16x32 ![0, 2, 3, 4] bcast_S3x17x16x32_S3x1x17x16x32_0_2_3_4
                          (concatenate S3x17x16x32 1
                            [⟨S3x3x16x32, (m ((c.tc : Thread nD τ).loc main_arg0) : FVec Ideal S3x3x16x32 .f32)⟩,
                             ⟨S3x14x16x32, broadcastInDim S3x14x16x32 ![] bcast_S_S3x14x16x32 (constant (F := Ideal) S_ .f32 0x00000000#32)⟩]
                            concatenates_S3x3x16x32_S3x14x16x32_S3x17x16x32_d1)))
                      shapeCasts_S3x14x17x16x32_S3x238x16x32)
                    slices_S3x238x16x32_S3x224x16x32_0_0_0_0)
                  shapeCasts_S3x224x16x32_S3x14x16x16x32)
                transposes_S3x14x16x16x32_S16x16x3x14x32_2_3_0_1_4)
              shapeCasts_S16x16x3x14x32_S256x3x448)
            (sitofp (F := Ideal) .f32 (constantI S_ 32 0#32)) pads_S256x3x448_S256x3x512_000_000_0640 h_S_)
          shapeCasts_S256x3x512_S256x1536)
        transposes_S256x1536_S1536x256_1_0)
      bitsLt_bf16_f32 := by
    rw [V15_of, V14_of, V13_of, V12_of, V11_of, V10_of] <;> try decide
    dsimp only [V9, hostOps0_8]; after_results; rfl
  rw [e]
  refine (truncf_apply (ψ := .bf16) _ bitsLt_bf16_f32 (ix2 r i)).trans ?_
  refine (transpose_ix2_apply _ _ r i).trans ?_
  refine (shapeCast_apply _ _ _ (ix3 i ⟨g, g3⟩ ⟨p, by omega⟩) ?_).trans ?_
  · rw [Shape.rowMajor_val_three, Shape.rowMajor_val_two]
    show (i.val * 3 + g) * 512 + p = i.val * 1536 + r.val
    omega
  by_cases hq : p < 448
  swap
  · refine (pad_apply_of_not_inside _ _ _ _ _ _ _ _ (2 : Fin 3) (by show ¬ (0 ≤ p ∧ (p - 0) % (0 + 1) = 0 ∧ (p - 0) / (0 + 1) < 448); omega)).trans ?_
    unfold Cert.Spec.W1 Cert.Spec.band
    rw [dif_neg (by omega)]
    exact sitofp_zero_first
  refine (pad_apply_of_inside _ _ _ _ _ _ _ _ (ix3 i ⟨g, g3⟩ ⟨p, hq⟩) (by exact fun | ⟨0, _⟩ | ⟨1, _⟩ | ⟨2, _⟩ => pad0 _)).trans ?_
  have tT : t < 14 := by omega
  refine (shapeCast_apply _ _ _ (ix5 ⟨u, uI⟩ ⟨ci, c16⟩ ⟨g, g3⟩ ⟨t, tT⟩ ⟨o, o32⟩) ?_).trans ?_
  · rw [Shape.rowMajor_val_five, Shape.rowMajor_val_three]
    show (((u * 16 + ci) * 3 + g) * 14 + t) * 32 + o = (i.val * 3 + g) * 448 + p
    omega
  refine (transpose_apply _ _ _ _ (ix5 ⟨g, g3⟩ ⟨t, tT⟩ ⟨u, uI⟩ ⟨ci, c16⟩ ⟨o, o32⟩) (by exact fun | ⟨0, _⟩ | ⟨1, _⟩ | ⟨2, _⟩ | ⟨3, _⟩ | ⟨4, _⟩ => rfl)).trans ?_
  generalize hn : 16 * t + u = n
  refine (shapeCast_apply _ _ _ (ix4 ⟨g, g3⟩ ⟨n, by omega⟩ ⟨ci, c16⟩ ⟨o, o32⟩) ?_).trans ?_
  · rw [Shape.rowMajor_val_four, Shape.rowMajor_val_five]
    show ((g * 224 + n) * 16 + ci) * 32 + o = (((g * 14 + t) * 16 + u) * 16 + ci) * 32 + o
    omega
  refine (slice4_axis1_apply 0 _ _ _ _ _ _ ⟨n, by omega⟩ (by exact (Nat.zero_add n).symm)).trans ?_
  refine (shapeCast_apply _ _ _ (ix5 ⟨g, g3⟩ ⟨n / 17, by omega⟩ ⟨n % 17, by omega⟩ ⟨ci, c16⟩ ⟨o, o32⟩) ?_).trans ?_
  · rw [Shape.rowMajor_val_five, Shape.rowMajor_val_four]
    show (((g * 14 + n / 17) * 17 + n % 17) * 16 + ci) * 32 + o = ((g * 238 + n) * 16 + ci) * 32 + o
    omega
  refine (broadcastInDim_apply _ _ _ _ (ix5 ⟨g, g3⟩ (0 : Fin 1) ⟨n % 17, by omega⟩ ⟨ci, c16⟩ ⟨o, o32⟩) (by exact fun | ⟨0, _⟩ | ⟨1, _⟩ | ⟨2, _⟩ | ⟨3, _⟩ | ⟨4, _⟩ => rfl)).trans ?_
  refine (broadcastInDim_apply _ _ _ _ (ix4 ⟨g, g3⟩ ⟨n % 17, by omega⟩ ⟨ci, c16⟩ ⟨o, o32⟩) (by exact fun | ⟨0, _⟩ | ⟨1, _⟩ | ⟨2, _⟩ | ⟨3, _⟩ => rfl)).trans ?_
  by_cases hl : n % 17 < 3
  · refine (concatenate_pair_apply_left _ _ _ _ _ (by rfl) (ix4 ⟨g, g3⟩ ⟨u - t, by omega⟩ ⟨ci, c16⟩ ⟨o, o32⟩) (by exact fun
      | ⟨1, _⟩ => (show u - t = n % 17 by omega)
      | ⟨0, _⟩ | ⟨2, _⟩ | ⟨3, _⟩ => rfl)).trans ?_
    unfold Cert.Spec.W1 Cert.Spec.band
    subst_vars
    exact Eq.symm (dif_pos (by omega))
  · refine (concatenate_pair_apply_right _ _ _ _ _ (by rfl) (by rfl) (ix4 ⟨g, g3⟩ ⟨n % 17 - 3, by omega⟩ ⟨ci, c16⟩ ⟨o, o32⟩) (by exact fun
      | ⟨1, _⟩ => fun hb => absurd rfl hb
      | ⟨0, _⟩ | ⟨2, _⟩ | ⟨3, _⟩ => fun _ => rfl) (by show n % 17 - 3 + 3 = n % 17; omega)).trans ?_
    refine (broadcastInDim_scalar_apply _ _ _).trans ((constant_apply _ _).trans ?_)
    unfold Cert.Spec.W1 Cert.Spec.band
    rw [Ideal.ofBits_zero_f32, dif_neg (by omega)]

-- The same construction with 12 output times over 14 input times.
theorem band2_eq (i : Fin 224) (r : Fin 1152) :
    V8 m c main_v25 (ix3 i ⟨r.val / 384, by omega⟩ ⟨r.val % 384, by omega⟩) = Cert.Spec.W2 (argsK m c) i.val r.val := by
  obtain ⟨g, hg⟩ : ∃ g, g = r.val / 384 := ⟨_, rfl⟩
  obtain ⟨p, hp⟩ : ∃ p, p = r.val % 384 := ⟨_, rfl⟩
  obtain ⟨t, ht⟩ : ∃ t, t = p / 32 := ⟨_, rfl⟩
  obtain ⟨o, ho⟩ : ∃ o, o = p % 32 := ⟨_, rfl⟩
  obtain ⟨u, hu⟩ : ∃ u, u = i.val / 16 := ⟨_, rfl⟩
  obtain ⟨ci, hc⟩ : ∃ ci, ci = i.val % 16 := ⟨_, rfl⟩
  have g3 : g < 3 := by omega
  have c16 : ci < 16 := by omega
  have o32 : o < 32 := by omega
  have uI : u < 14 := by omega
  have e : (V8 m c main_v25 : FVec Ideal S224x3x384 .f32) =
    (pad S224x3x384 ![0, 0, 0] ![0, 0, 0] ![0, 0, 0]
      (shapeCast S224x3x384
        (transpose S14x16x3x12x32 [2, 3, 0, 1, 4]
          (shapeCast S3x12x14x16x32
            (extractStridedSlice S3x168x16x32 ![0, 0, 0, 0]
              (shapeCast S3x180x16x32
                (broadcastInDim S3x12x15x16x32 ![0, 1, 2, 3, 4] bcast_S3x1x15x16x32_S3x12x15x16x32_0_1_2_3_4
                  (broadcastInDim S3x1x15x16x32 ![0, 2, 3, 4] bcast_S3x15x16x32_S3x1x15x16x32_0_2_3_4
                    (concatenate S3x15x16x32 1
                      [⟨S3x3x16x32, (m ((c.tc : Thread nD τ).loc main_arg3) : FVec Ideal S3x3x16x32 .f32)⟩,
                       ⟨S3x12x16x32, broadcastInDim S3x12x16x32 ![] bcast_S_S3x12x16x32 (constant (F := Ideal) S_ .f32 0x00000000#32)⟩]
                      concatenates_S3x3x16x32_S3x12x16x32_S3x15x16x32_d1)))
                shapeCasts_S3x12x15x16x32_S3x180x16x32)
              slices_S3x180x16x32_S3x168x16x32_0_0_0_0)
            shapeCasts_S3x168x16x32_S3x12x14x16x32)
          transposes_S3x12x14x16x32_S14x16x3x12x32_2_3_0_1_4)
        shapeCasts_S14x16x3x12x32_S224x3x384)
      (sitofp (F := Ideal) .f32 (constantI S_ 32 0#32)) pads_S224x3x384_S224x3x384_000_000_000 h_S_) := by
    rw [V8_of, V7_of] <;> try decide
    have e0 : V4 m c main_arg3 = m ((c.tc : Thread nD τ).loc main_arg3) := by
      rw [V4_of, V3_of, V2_of, V1_of] <;> first | rfl | decide
    dsimp only [V6, hostOps0_5, V5, hostOps0_4]
    generalize V4 m c = W at e0 ⊢
    after_results
    rw [e0]
    rfl
  rw [e]
  refine (pad_apply_of_inside _ _ _ _ _ _ _ _ (ix3 i ⟨r.val / 384, by omega⟩ ⟨r.val % 384, by omega⟩) (by exact fun | ⟨0, _⟩ | ⟨1, _⟩ | ⟨2, _⟩ => pad0 _)).trans ?_
  have tT : t < 12 := by omega
  refine (shapeCast_apply _ _ _ (ix5 ⟨u, uI⟩ ⟨ci, c16⟩ ⟨g, g3⟩ ⟨t, tT⟩ ⟨o, o32⟩) ?_).trans ?_
  · rw [Shape.rowMajor_val_five, Shape.rowMajor_val_three]
    show (((u * 16 + ci) * 3 + g) * 12 + t) * 32 + o = (i.val * 3 + r.val / 384) * 384 + r.val % 384
    omega
  refine (transpose_apply _ _ _ _ (ix5 ⟨g, g3⟩ ⟨t, tT⟩ ⟨u, uI⟩ ⟨ci, c16⟩ ⟨o, o32⟩) (by exact fun | ⟨0, _⟩ | ⟨1, _⟩ | ⟨2, _⟩ | ⟨3, _⟩ | ⟨4, _⟩ => rfl)).trans ?_
  generalize hn : 14 * t + u = n
  refine (shapeCast_apply _ _ _ (ix4 ⟨g, g3⟩ ⟨n, by omega⟩ ⟨ci, c16⟩ ⟨o, o32⟩) ?_).trans ?_
  · rw [Shape.rowMajor_val_four, Shape.rowMajor_val_five]
    show ((g * 168 + n) * 16 + ci) * 32 + o = (((g * 12 + t) * 14 + u) * 16 + ci) * 32 + o
    omega
  refine (slice4_axis1_apply 0 _ _ _ _ _ _ ⟨n, by omega⟩ (by exact (Nat.zero_add n).symm)).trans ?_
  refine (shapeCast_apply _ _ _ (ix5 ⟨g, g3⟩ ⟨n / 15, by omega⟩ ⟨n % 15, by omega⟩ ⟨ci, c16⟩ ⟨o, o32⟩) ?_).trans ?_
  · rw [Shape.rowMajor_val_five, Shape.rowMajor_val_four]
    show (((g * 12 + n / 15) * 15 + n % 15) * 16 + ci) * 32 + o = ((g * 180 + n) * 16 + ci) * 32 + o
    omega
  refine (broadcastInDim_apply _ _ _ _ (ix5 ⟨g, g3⟩ (0 : Fin 1) ⟨n % 15, by omega⟩ ⟨ci, c16⟩ ⟨o, o32⟩) (by exact fun | ⟨0, _⟩ | ⟨1, _⟩ | ⟨2, _⟩ | ⟨3, _⟩ | ⟨4, _⟩ => rfl)).trans ?_
  refine (broadcastInDim_apply _ _ _ _ (ix4 ⟨g, g3⟩ ⟨n % 15, by omega⟩ ⟨ci, c16⟩ ⟨o, o32⟩) (by exact fun | ⟨0, _⟩ | ⟨1, _⟩ | ⟨2, _⟩ | ⟨3, _⟩ => rfl)).trans ?_
  by_cases hl : n % 15 < 3
  · refine (concatenate_pair_apply_left _ _ _ _ _ (by rfl) (ix4 ⟨g, g3⟩ ⟨u - t, by omega⟩ ⟨ci, c16⟩ ⟨o, o32⟩) (by exact fun
      | ⟨1, _⟩ => (show u - t = n % 15 by omega)
      | ⟨0, _⟩ | ⟨2, _⟩ | ⟨3, _⟩ => rfl)).trans ?_
    unfold Cert.Spec.W2 Cert.Spec.band
    subst_vars
    exact Eq.symm (dif_pos (by omega))
  · refine (concatenate_pair_apply_right _ _ _ _ _ (by rfl) (by rfl) (ix4 ⟨g, g3⟩ ⟨n % 15 - 3, by omega⟩ ⟨ci, c16⟩ ⟨o, o32⟩) (by exact fun
      | ⟨1, _⟩ => fun hb => absurd rfl hb
      | ⟨0, _⟩ | ⟨2, _⟩ | ⟨3, _⟩ => fun _ => rfl) (by show n % 15 - 3 + 3 = n % 15; omega)).trans ?_
    refine (broadcastInDim_scalar_apply _ _ _).trans ((constant_apply _ _).trans ?_)
    unfold Cert.Spec.W2 Cert.Spec.band
    rw [Ideal.ofBits_zero_f32, dif_neg (by omega)]

theorem bias2_eq (r : Fin 1152) :
    V8 m c main_v29 (ix2 ⟨r.val / 384, by omega⟩ ⟨r.val % 384, by omega⟩) = Cert.Spec.B2 (argsK m c) r.val := by
  obtain ⟨p, hp⟩ : ∃ p, p = r.val % 384 := ⟨_, rfl⟩
  have g3 : r.val / 384 < 3 := by omega
  have o32 : p % 32 < 32 := by omega
  have e : (V8 m c main_v29 : FVec Ideal S3x384 .f32) =
      (pad S3x384 ![0, 0] ![0, 0] ![0, 0]
        (shapeCast S3x384 (broadcastInDim S3x12x32 ![0, 1, 2] bcast_S3x1x32_S3x12x32_0_1_2
            (broadcastInDim S3x1x32 ![0, 2] bcast_S3x32_S3x1x32_0_2 (m ((c.tc : Thread nD τ).loc main_arg4) : FVec Ideal S3x32 .f32))) shapeCasts_S3x12x32_S3x384)
        (sitofp (F := Ideal) .f32 (constantI S_ 32 0#32)) pads_S3x384_S3x384_000_000 h_S_) := by
    have e0 : V6 m c main_arg4 = m ((c.tc : Thread nD τ).loc main_arg4) := by
      rw [V6_of, V5_of, V4_of, V3_of, V2_of, V1_of] <;> first | rfl | decide
    dsimp only [V8, hostOps0_7, V7, hostOps0_6]
    generalize V6 m c = W at e0 ⊢
    after_results
    rw [e0]
    rfl
  rw [e]
  refine (pad_apply_of_inside _ _ _ _ _ _ _ _ (ix2 ⟨r.val / 384, g3⟩ ⟨r.val % 384, by omega⟩) (by exact fun | ⟨0, _⟩ | ⟨1, _⟩ => pad0 _)).trans ?_
  refine (shapeCast_apply _ _ _ (ix3 ⟨r.val / 384, g3⟩ ⟨p / 32, by omega⟩ ⟨p % 32, o32⟩) ?_).trans ?_
  · rw [Shape.rowMajor_val_three, Shape.rowMajor_val_two]
    show (r.val / 384 * 12 + p / 32) * 32 + p % 32 = r.val / 384 * 384 + r.val % 384
    omega
  refine (broadcastInDim_apply _ _ _ _ (ix3 ⟨r.val / 384, g3⟩ (0 : Fin 1) ⟨p % 32, o32⟩) (by exact fun | ⟨0, _⟩ | ⟨1, _⟩ | ⟨2, _⟩ => rfl)).trans ?_
  refine (broadcastInDim_apply _ _ _ _ (ix2 ⟨r.val / 384, g3⟩ ⟨p % 32, o32⟩) (by exact fun | ⟨0, _⟩ | ⟨1, _⟩ => rfl)).trans ?_
  unfold Cert.Spec.B2 Cert.Spec.bandBias
  subst_vars
  exact Eq.symm (dif_pos (by omega))

theorem nary3_result {x a b y : Ref sig .tc}
    (f : ((k : Fin 3) → ((![x, a, b] : Fin 3 → Ref sig .tc) k).ty.Contents (Elt Ideal)) → y.ty.Contents (Elt Ideal)) (hxs hy)
    (F : Valuation τ sig (Elt Ideal)) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

-- The band's 224 rows, then the bias row, then seven zero rows.
theorem w2t_eq (r : Fin 1152) (k : Fin 232) :
    V15 m c main_v38 (ix2 r k) =
      if k.val < 224 then Cert.Spec.W2 (argsK m c) k.val r.val
      else if k.val = 224 then Cert.Spec.B2 (argsK m c) r.val else 0 := by
  have e : (V15 m c main_v38 : FVec Ideal S1152x232 .bf16) =
    truncf .bf16
      (transpose S1152x232 [1, 0]
        (concatenate S232x1152 0
          [⟨S224x1152, shapeCast S224x1152 (V8 m c main_v25 : FVec Ideal S224x3x384 .f32) shapeCasts_S224x3x384_S224x1152⟩, ⟨S1x1152, shapeCast S1x1152 (shapeCast S1152x1 (V8 m c main_v29 : FVec Ideal S3x384 .f32) shapeCasts_S3x384_S1152x1) shapeCasts_S1152x1_S1x1152⟩,
           ⟨S7x1152, broadcastInDim S7x1152 ![] bcast_S_S7x1152 (constant (F := Ideal) S_ .f32 0x00000000#32)⟩]
          concatenates_S224x1152_S1x1152_S7x1152_S232x1152_d0)
        transposes_S232x1152_S1152x232_1_0)
      bitsLt_bf16_f32 := by
    rw [V15_of, V14_of, V13_of, V12_of, V11_of, V10_of] <;> try decide
    dsimp only [V9, hostOps0_8]
    generalize V8 m c = W
    simp only [StableHlo.after_cons, StableHlo.after_nil]
    repeat (first
      | rw [StableHlo.nullary_result] | rw [StableHlo.unary_result] | rw [StableHlo.binary_result] | rw [StableHlo.reshape_result]
      | rw [nary3_result]
      | (rw [StableHlo.nullary_result_ne]; rotate_left; decide)
      | (rw [StableHlo.unary_result_ne]; rotate_left; decide)
      | (rw [StableHlo.binary_result_ne]; rotate_left; decide)
      | (rw [StableHlo.reshape_result_ne]; rotate_left; decide)
      | (rw [StableHlo.nary_result_ne]; rotate_left; decide))
    rfl
  rw [e]
  refine (truncf_apply (ψ := .bf16) _ bitsLt_bf16_f32 (ix2 r k)).trans ?_
  refine (transpose_ix2_apply _ _ r k).trans ?_
  by_cases h1 : k.val < 224
  · rw [if_pos h1]
    refine (concatenate_apply_piece _ _ _ _ 0 (by simp) S224x1152 _ rfl (by rfl) 0 (by rfl) (ix2 ⟨k.val, h1⟩ r)
      (by exact fun | ⟨0, _⟩ => fun ha => absurd rfl ha | ⟨1, _⟩ => fun _ => rfl) (by show 0 + k.val = k.val; omega)).trans ?_
    refine (shapeCast_apply _ _ _ (ix3 ⟨k.val, h1⟩ ⟨r.val / 384, by omega⟩ ⟨r.val % 384, by omega⟩) ?_).trans (band2_eq m c ⟨k.val, h1⟩ r)
    rw [Shape.rowMajor_val_three, Shape.rowMajor_val_two]
    show (k.val * 3 + r.val / 384) * 384 + r.val % 384 = k.val * 1152 + r.val
    omega
  rw [if_neg h1]
  by_cases h2 : k.val = 224
  · rw [if_pos h2]
    refine (concatenate_apply_piece _ _ _ _ 1 (by simp) S1x1152 _ rfl (by rfl) 224 (by rfl) (ix2 (0 : Fin 1) r)
      (by exact fun | ⟨0, _⟩ => fun ha => absurd rfl ha | ⟨1, _⟩ => fun _ => rfl) (by show 224 + 0 = k.val; omega)).trans ?_
    refine (shapeCast_apply _ _ _ (ix2 r (0 : Fin 1)) ?_).trans ?_
    · rw [Shape.rowMajor_val_two, Shape.rowMajor_val_two]
      show r.val * 1 + 0 = 0 * 1152 + r.val
      omega
    refine (shapeCast_apply _ _ _ (ix2 ⟨r.val / 384, by omega⟩ ⟨r.val % 384, by omega⟩) ?_).trans (bias2_eq m c r)
    rw [Shape.rowMajor_val_two, Shape.rowMajor_val_two]
    show r.val / 384 * 384 + r.val % 384 = r.val * 1 + 0
    omega
  rw [if_neg h2]
  refine (concatenate_apply_piece _ _ _ _ 2 (by simp) S7x1152 _ rfl (by rfl) 225 (by rfl) (ix2 (⟨k.val - 225, by omega⟩ : Fin 7) r)
    (by exact fun | ⟨0, _⟩ => fun ha => absurd rfl ha | ⟨1, _⟩ => fun _ => rfl) (by show 225 + (k.val - 225) = k.val; omega)).trans ?_
  refine (broadcastInDim_scalar_apply _ _ _).trans ((constant_apply _ _).trans ?_)
  exact Ideal.ofBits_zero_f32

end Cert.KernelIdeal.Val

end
-- ==== Proof.KRegion0.lean ====
import proofs.«181364_g2000406351686535_pallasbulk_564_19_alg».proof.Proof.KDefs
import proofs.«181364_g2000406351686535_pallasbulk_564_19_alg».proof.Proof.KPieces
import proofs.«181364_g2000406351686535_pallasbulk_564_19_alg».proof.Proof.KWeights
import proofs.«181364_g2000406351686535_pallasbulk_564_19_alg».proof.Proof.KWeightsA
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Run

variable (m : (ℓ : Loc nD τ sig) → Buf (Elt Ideal) ℓ) (c : Dev nD)

-- Decided over the grid: the input and the three outputs move with the point along their leading axis, the six operands stay.
theorem idx_facts : ∀ t : Fin cfg0.N,
    (win0_0.index t (0 : Fin 3) = t.val ∧ win0_0.index t (1 : Fin 3) = 0 ∧ win0_0.index t (2 : Fin 3) = 0)
    ∧ (win0_7.index t (0 : Fin 3) = t.val ∧ win0_7.index t (1 : Fin 3) = 0 ∧ win0_7.index t (2 : Fin 3) = 0)
    ∧ (win0_8.index t (0 : Fin 3) = t.val ∧ win0_8.index t (1 : Fin 3) = 0 ∧ win0_8.index t (2 : Fin 3) = 0)
    ∧ (win0_9.index t (0 : Fin 3) = t.val ∧ win0_9.index t (1 : Fin 3) = 0 ∧ win0_9.index t (2 : Fin 3) = 0)
    ∧ (∀ a : Fin 2, win0_1.index t a = 0) ∧ (∀ a : Fin 2, win0_2.index t a = 0) ∧ (∀ a : Fin 2, win0_3.index t a = 0)
    ∧ (∀ a : Fin 2, win0_4.index t a = 0) ∧ (∀ a : Fin 2, win0_5.index t a = 0) ∧ (∀ a : Fin 2, win0_6.index t a = 0) :=
  (by decide +kernel : ∀ t : Fin grid0.N, _)

theorem lt8 (t : Fin cfg0.N) : t.val < 8 := t.isLt

-- An array read at two indices with the same coordinates.
theorem idx_ext {s : Shape} {α : Type} (A : s.Idx → α) {i j : s.Idx} (h : ∀ a, (i a).val = (j a).val) : A i = A j :=
  congrArg A (funext fun a => Fin.ext (h a))

-- An operand's block is its whole array: its block index is zero on every axis.
theorem pointHyp (t : Fin cfg0.N) :
    PointHyp (argsK m c) t.val (iblk0 (Vin0 m) c 0 t) (iblk0 (Vin0 m) c 1 t) (iblk0 (Vin0 m) c 2 t) (iblk0 (Vin0 m) c 3 t)
      (iblk0 (Vin0 m) c 4 t) (iblk0 (Vin0 m) c 5 t) (iblk0 (Vin0 m) c 6 t) where
  hx k i n := by
    obtain ⟨e0, e1, e2⟩ := (idx_facts t).1
    unfold iblk0; rw [View.read_apply]
    refine (idx_ext (V15 m c main_v69) (j := ix3 ⟨32 * t.val + k.val, by have := lt8 t; omega⟩ i n) fun ax => ?_).trans
      ((xt_eq m c _ i n).trans (congrArg (fun b => Cert.Spec.xrow (argsK m c) b n i) (Fin.ext (by
        show 32 * t.val + k.val = (32 * t.val + k.val) % 256; have := lt8 t; omega))))
    match ax with
    | ⟨0, _⟩ => show win0_0.index t (0 : Fin 3) * 32 + 1 * k.val = 32 * t.val + k.val; rw [e0]; omega
    | ⟨1, _⟩ => show win0_0.index t (1 : Fin 3) * 256 + 1 * i.val = i.val; rw [e1]; omega
    | ⟨2, _⟩ => show win0_0.index t (2 : Fin 3) * 128 + 1 * n.val = n.val; rw [e2]; omega
  hakt l l' := by
    unfold iblk0; rw [View.read_apply]
    exact (idx_ext (V15 m c main_v62) fun a => win0_1.rect_emb_val_of_index_zero t a ((idx_facts t).2.2.2.2.1 a) _).trans (akt_eq m c l l')
  hw1 r i := by
    unfold iblk0; rw [View.read_apply]
    exact (idx_ext (V15 m c main_v33) fun a => win0_2.rect_emb_val_of_index_zero t a ((idx_facts t).2.2.2.2.2.1 a) _).trans (w1t_eq m c r i)
  hb1 r := by
    unfold iblk0; rw [View.read_apply]
    exact (idx_ext (V15 m c main_v15) fun a => win0_3.rect_emb_val_of_index_zero t a ((idx_facts t).2.2.2.2.2.2.1 a) _).trans (b1_eq m c r)
  hth q j := by
    unfold iblk0; rw [View.read_apply]
    exact (idx_ext (V15 m c main_v53) fun a => win0_4.rect_emb_val_of_index_zero t a ((idx_facts t).2.2.2.2.2.2.2.1 a) _).trans (tht_eq m c q j)
  hw2 r k := by
    unfold iblk0; rw [View.read_apply]
    exact (idx_ext (V15 m c main_v38) fun a => win0_5.rect_emb_val_of_index_zero t a ((idx_facts t).2.2.2.2.2.2.2.2.1 a) _).trans (w2t_eq m c r k)
  honez k l := by
    unfold iblk0; rw [View.read_apply]
    exact (idx_ext (V15 m c main_v67) fun a => win0_6.rect_emb_val_of_index_zero t a ((idx_facts t).2.2.2.2.2.2.2.2.2 a) _).trans (onez_eq m c k l)

def G7 (a : Cert.Spec.Args) : S256x384x128.Idx → Elt Ideal .bf16 := fun i => t3q a (i 0).val (i 2).val (i 1).val
def G8 (a : Cert.Spec.Args) : S8x1x128.Idx → Elt Ideal .f32 := fun i => rowSum a (i 0).val (i 2).val
def G9 (a : Cert.Spec.Args) : S8x1x128.Idx → Elt Ideal .f32 := fun i => rowSq a (i 0).val (i 2).val

set_option maxHeartbeats 1600000 in
-- At every grid point an output block is that point's block of one function of the array index.
theorem flushed7_eq (t : Fin cfg0.N) :
    (dat0 (Vin0 m) c).flushed 7 t = ((cfg0.win 7).blk t).view.read (Elt Ideal) (G7 (argsK m c)) := by
  obtain ⟨e0, e1, e2⟩ := (idx_facts t).2.1
  funext j
  show out0_7 _ _ _ _ _ _ _ j = G7 (argsK m c) (((cfg0.win 7).blk t).view.emb j)
  rw [out0_7_block_q _ _ _ _ _ _ _ (argsK m c) t.val (pointHyp m c t)]
  show _ = t3q (argsK m c) (win0_7.index t (0 : Fin 3) * 32 + 1 * (j 0).val) (win0_7.index t (2 : Fin 3) * 128 + 1 * (j 2).val)
        (win0_7.index t (1 : Fin 3) * 384 + 1 * (j 1).val)
  rw [e0, e1, e2]
  congr 1 <;> omega

set_option maxHeartbeats 1600000 in
theorem flushed8_eq (t : Fin cfg0.N) :
    (dat0 (Vin0 m) c).flushed 8 t = ((cfg0.win 8).blk t).view.read (Elt Ideal) (G8 (argsK m c)) := by
  obtain ⟨e0, e1, e2⟩ := (idx_facts t).2.2.1
  funext j
  obtain ⟨j0, j1, n, rfl⟩ : ∃ (j0 j1 : Fin 1) (n : Fin 128), j = ix3 j0 j1 n := ⟨j 0, j 1, j 2, eq_ix3 j⟩
  obtain rfl : j0 = 0 := Subsingleton.elim _ _
  obtain rfl : j1 = 0 := Subsingleton.elim _ _
  show out0_8 _ _ _ _ _ _ _ (ix3 0 0 n) = G8 (argsK m c) (((cfg0.win 8).blk t).view.emb (ix3 0 0 n))
  rw [out0_8_rowSum _ _ _ _ _ _ _ (argsK m c) t.val (pointHyp m c t)]
  show _ = rowSum (argsK m c) (win0_8.index t (0 : Fin 3) * 1 + 1 * 0) (win0_8.index t (2 : Fin 3) * 128 + 1 * n.val)
  rw [e0, e2]
  congr 1 <;> omega

set_option maxHeartbeats 1600000 in
theorem flushed9_eq (t : Fin cfg0.N) :
    (dat0 (Vin0 m) c).flushed 9 t = ((cfg0.win 9).blk t).view.read (Elt Ideal) (G9 (argsK m c)) := by
  obtain ⟨e0, e1, e2⟩ := (idx_facts t).2.2.2.1
  funext j
  obtain ⟨j0, j1, n, rfl⟩ : ∃ (j0 j1 : Fin 1) (n : Fin 128), j = ix3 j0 j1 n := ⟨j 0, j 1, j 2, eq_ix3 j⟩
  obtain rfl : j0 = 0 := Subsingleton.elim _ _
  obtain rfl : j1 = 0 := Subsingleton.elim _ _
  show out0_9 _ _ _ _ _ _ _ (ix3 0 0 n) = G9 (argsK m c) (((cfg0.win 9).blk t).view.emb (ix3 0 0 n))
  rw [out0_9_rowSq _ _ _ _ _ _ _ (argsK m c) t.val (pointHyp m c t)]
  show _ = rowSq (argsK m c) (win0_9.index t (0 : Fin 3) * 1 + 1 * 0) (win0_9.index t (2 : Fin 3) * 128 + 1 * n.val)
  rw [e0, e2]
  congr 1 <;> omega

-- Block x0 / B along the leading axis, the one block along the two others: the index lies in it.
theorem blk_mem (B S1 S2 x0 x1 x2 k0 k1 k2 : ℕ) (hB : 0 < B) (e0 : k0 = x0 / B) (e1 : k1 = 0) (e2 : k2 = 0)
    (h1 : x1 < S1) (h2 : x2 < S2) :
    (k0 * B ≤ x0 ∧ x0 < k0 * B + B) ∧ (k1 * S1 ≤ x1 ∧ x1 < k1 * S1 + S1) ∧ (k2 * S2 ≤ x2 ∧ x2 < k2 * S2 + S2) := by
  subst e0 e1 e2
  exact ⟨⟨Nat.div_mul_le_self _ _, Nat.lt_div_mul_add hB⟩, ⟨by omega, by omega⟩, ⟨by omega, by omega⟩⟩

-- Every index of an output array lies in the block of the point its leading coordinate names.
theorem cover7 (i : S256x384x128.Idx) :
    ∃ t : Fin cfg0.N, (cfg0.win 7).flush t = true ∧ i ∈ ((cfg0.win 7).blk t).view.set := by
  have h0 : (i 0).val < 256 := (i 0).isLt
  have ht : (i 0).val / 32 < cfg0.N := by show (i 0).val / 32 < 8; omega
  obtain ⟨e0, e1, e2⟩ := (idx_facts ⟨(i 0).val / 32, ht⟩).2.1
  have h := blk_mem 32 384 128 (i 0).val (i 1).val (i 2).val _ _ _ (by decide) e0 e1 e2 (i 1).isLt (i 2).isLt
  refine ⟨⟨(i 0).val / 32, ht⟩, flush0_7 _, ?_⟩
  show i ∈ ((View.whole main_v70_0).slice (win0_7.rect ⟨(i 0).val / 32, ht⟩)).set
  rw [View.set_slice_whole, Rect.mem_set_unit]
  intro ax
  match ax with
  | ⟨0, _⟩ => exact h.1
  | ⟨1, _⟩ => exact h.2.1
  | ⟨2, _⟩ => exact h.2.2

theorem cover8 (i : S8x1x128.Idx) :
    ∃ t : Fin cfg0.N, (cfg0.win 8).flush t = true ∧ i ∈ ((cfg0.win 8).blk t).view.set := by
  have h0 : (i 0).val < cfg0.N := (i 0).isLt
  obtain ⟨e0, e1, e2⟩ := (idx_facts ⟨(i 0).val, h0⟩).2.2.1
  have h := blk_mem 1 1 128 (i 0).val (i 1).val (i 2).val _ _ _ (by decide) (e0.trans (Nat.div_one _).symm) e1 e2
    (i 1).isLt (i 2).isLt
  refine ⟨⟨(i 0).val, h0⟩, flush0_8 _, ?_⟩
  show i ∈ ((View.whole main_v70_1).slice (win0_8.rect ⟨(i 0).val, h0⟩)).set
  rw [View.set_slice_whole, Rect.mem_set_unit]
  intro ax
  match ax with
  | ⟨0, _⟩ => exact h.1
  | ⟨1, _⟩ => exact h.2.1
  | ⟨2, _⟩ => exact h.2.2

theorem cover9 (i : S8x1x128.Idx) :
    ∃ t : Fin cfg0.N, (cfg0.win 9).flush t = true ∧ i ∈ ((cfg0.win 9).blk t).view.set := by
  have h0 : (i 0).val < cfg0.N := (i 0).isLt
  obtain ⟨e0, e1, e2⟩ := (idx_facts ⟨(i 0).val, h0⟩).2.2.2.1
  have h := blk_mem 1 1 128 (i 0).val (i 1).val (i 2).val _ _ _ (by decide) (e0.trans (Nat.div_one _).symm) e1 e2
    (i 1).isLt (i 2).isLt
  refine ⟨⟨(i 0).val, h0⟩, flush0_9 _, ?_⟩
  show i ∈ ((View.whole main_v70_2).slice (win0_9.rect ⟨(i 0).val, h0⟩)).set
  rw [View.set_slice_whole, Rect.mem_set_unit]
  intro ax
  match ax with
  | ⟨0, _⟩ => exact h.1
  | ⟨1, _⟩ => exact h.2.1
  | ⟨2, _⟩ => exact h.2.2

-- The blocks tile an output array, so the array is that function of its index.
theorem outs16 (w : Fin cfg0.W) : outs m 16 (Pipeline.arrRef spec0 w) c = (dat0 (Vin0 m) c).arrAt w cfg0.N :=
  (if_neg (by decide)).trans (Pipeline.withArrays_arr spec0 launch0.win.arr_inj c _ _ w)

theorem t3_arr (b : Fin 256) (u : Fin 384) (n : Fin 128) :
    outs m 16 main_v70_0 c (ix3 b u n) = Cert.Spec.t3 (argsK m c) b n u.val :=
  (congrFun ((outs16 m c 7).trans ((dat0 (Vin0 m) c).arrAt_eq_of_cover 7 (G7 (argsK m c))
    (fun t _ => flushed7_eq m c t) cover7)) (ix3 b u n)).trans (t3q_eq (argsK m c) b n u.val)

theorem s1_arr (s : Fin 8) (n : Fin 128) :
    outs m 16 main_v70_1 c (ix3 s 0 n)
      = ∑ b' : Fin 32, ∑ u : Fin 384, Cert.Spec.t3 (argsK m c) ⟨32 * s.val + b'.val, by omega⟩ n u.val := by
  refine (congrFun ((outs16 m c 8).trans ((dat0 (Vin0 m) c).arrAt_eq_of_cover 8 (G8 (argsK m c))
    (fun t _ => flushed8_eq m c t) cover8)) (ix3 s 0 n)).trans ?_
  show rowSum (argsK m c) s.val n.val = _
  unfold rowSum
  rw [Finset.sum_range]
  exact Finset.sum_congr rfl fun b' _ => Finset.sum_congr rfl fun u _ =>
    t3q_eq (argsK m c) ⟨32 * s.val + b'.val, by omega⟩ n u.val

theorem s2_arr (s : Fin 8) (n : Fin 128) :
    outs m 16 main_v70_2 c (ix3 s 0 n)
      = ∑ b' : Fin 32, ∑ u : Fin 384, Cert.Spec.t3 (argsK m c) ⟨32 * s.val + b'.val, by omega⟩ n u.val
          * Cert.Spec.t3 (argsK m c) ⟨32 * s.val + b'.val, by omega⟩ n u.val := by
  refine (congrFun ((outs16 m c 9).trans ((dat0 (Vin0 m) c).arrAt_eq_of_cover 9 (G9 (argsK m c))
    (fun t _ => flushed9_eq m c t) cover9)) (ix3 s 0 n)).trans ?_
  show rowSq (argsK m c) s.val n.val = _
  unfold rowSq
  rw [Finset.sum_range]
  exact Finset.sum_congr rfl fun b' _ => Finset.sum_congr rfl fun u _ => by
    rw [t3q_eq (argsK m c) ⟨32 * s.val + b'.val, by omega⟩ n u.val]

end Cert.KernelIdeal.Val

end
-- ==== Proof.KTailHost.lean ====
import proofs.«181364_g2000406351686535_pallasbulk_564_19_alg».proof.Proof.Gen.KernelIdeal.Regions
import proofs.«181364_g2000406351686535_pallasbulk_564_19_alg».proof.Proof.Spec
import Idealize.ShloMosaic.Lib.IdealHost
import Idealize.ShloMosaic.Lib.ValueLayout
import Idealize.ShloMosaic.Lib.StableHlo.Run

set_option maxRecDepth 4000
set_option maxHeartbeats 4000000

noncomputable section

namespace Cert.KernelIdeal.Val

open Idealize.ShloMosaic Idealize.ShloMosaic.TcCoe Idealize.ShloMosaic.ValueIdx Idealize.ShloMosaic.StableHlo
open Cert.KernelIdeal.Gen

-- Row-major position of (t, 0) in [n, 1] is t.
theorem cast_n1_apply {n : Nat} (x : (⟨2, ![n, 1]⟩ : Shape).Idx → EReal) (h : (⟨2, ![n, 1]⟩ : Shape).ShapeCasts ⟨1, ![n]⟩)
    (t : Fin n) : shapeCast ⟨1, ![n]⟩ x h (ix1 t) = x (ix2 t 0) :=
  shapeCast_apply x h _ _ (by
    rw [Shape.rowMajor_val_two, Shape.rowMajor_val_one]
    show t.val * 1 + 0 = t.val
    rw [Nat.mul_one, Nat.add_zero])

-- Fin 8 × Fin 32 ≃ Fin 256 by (s, b') ↦ 32 s + b'.
theorem sum_blocks (f : Fin 256 → EReal) :
    ∑ s : Fin 8, ∑ b' : Fin 32, f ⟨32 * s.val + b'.val, by omega⟩ = ∑ b : Fin 256, f b := by
  rw [← (finProdFinEquiv (m := 8) (n := 32)).sum_comp (f : Fin (8 * 32) → EReal), Fintype.sum_prod_type]
  exact Finset.sum_congr rfl fun s _ => Finset.sum_congr rfl fun b' _ => congrArg f (Fin.ext (Nat.add_comm _ _))

-- A sum over axis 0 from zero is the sum of the rows; row k of [m, 1, n] read as [m, n] sits at the same position.
theorem reduce_cast_rows {m n : Nat} {u : Shape} (x : (⟨3, ![m, 1, n]⟩ : Shape).Idx → EReal)
    (hc : (⟨3, ![m, 1, n]⟩ : Shape).ShapeCasts ⟨2, ![m, n]⟩) (init : u.Idx → Ideal .f32)
    (h' : (⟨2, ![m, n]⟩ : Shape).ReducesTo [0] (⟨1, ![n]⟩ : Shape)) (h : (⟨2, ![m, n]⟩ : Shape).Reduces [0] (⟨1, ![n]⟩ : Shape))
    (hu : 0 < u.numel) (h0 : init (Shape.Idx.first hu) = 0) (t : Fin n) :
    Host.reduceAdd (φ := .f32) (fun i => shapeCast ⟨2, ![m, n]⟩ x hc i) init h' hu (ix1 t) = ∑ k : Fin m, x (ix3 k 0 t) := by
  rw [hostReduceAdd_apply, Ideal.hostReduceAdd_single h' h, h0, zero_add]
  exact Finset.sum_congr rfl fun k _ => shapeCast_apply x hc _ (ix3 (⟨k.val, k.isLt⟩ : Fin m) 0 t) (by
    rw [Shape.rowMajor_val_three, Shape.rowMajor_val_two]
    show (k.val * 1 + 0) * n + t.val = k.val * n + t.val
    rw [Nat.mul_one, Nat.add_zero])

theorem zero_init : (constant (F := Ideal) S_ .f32 0x00000000#32) (Shape.Idx.first h_S_) = 0 := by
  rw [constant_apply]; exact Ideal.ofBits_zero_f32

variable (W : Valuation τ sig (Elt Ideal)) (a : Spec.Args)

-- (b, 32 t + ch, n) in [256, 384, 128] and (b, t, ch, n) in [256, 12, 32, 128] have one row-major position.
theorem result_host (b : Fin 256) (n : Fin 128) (t : Fin 12) (ch : Fin 32) :
    (after hostOps2 W main_v96 : S256x128x12x32.Idx → EReal) (ix4 b n t ch)
      = (W main_v94 : S256x384x128.Idx → EReal) (ix3 b ⟨32 * t.val + ch.val, by omega⟩ n) := by
  dsimp only [hostOps2]
  after_results
  refine (transpose_apply _ _ _ _ (ix4 b t ch n) (fun a => by fin_cases a <;> rfl)).trans (shapeCast_apply _ _ _ _
    ((Shape.rowMajor_val_three _).trans (Eq.trans ?_ (Shape.rowMajor_val_four _).symm)))
  show (b.val * 384 + (32 * t.val + ch.val)) * 128 + n.val = ((b.val * 12 + t.val) * 32 + ch.val) * 128 + n.val
  omega

variable (m : (ℓ : Loc nD τ sig) → Buf (Elt Ideal) ℓ) (outs : Gen.Outs (F := Ideal)) (c : Dev nD)

theorem V16_s1 : V16 m outs c main_v70_1 = outs 16 main_v70_1 c :=
  (Function.update_of_ne (devRef_ne_of_ne (by decide)) _ _).trans (Function.update_self _ _ _)

theorem V16_s2 : V16 m outs c main_v70_2 = outs 16 main_v70_2 c := Function.update_self _ _ _

-- Nothing after the first kernel writes r, so it holds what it holds at the end.
theorem V16_V19 (r : Ref sig .tc) (h1 : r ∉ hostOps1_W) (h2 : r ∉ ([main_v94] : List (Ref sig .tc))) (h3 : r ∉ hostOps2_W) :
    V16 m outs c r = V19 m outs c r :=
  ((V19_of m outs c r h3).trans <| (V18_of m outs c r h2).trans (V17_of m outs c r h1)).symm

theorem V18_v94 : V18 m outs c main_v94 = outs 18 main_v94 c := Function.update_self _ _ _

theorem result_V19 (b : Fin 256) (n : Fin 128) (t : Fin 12) (ch : Fin 32) :
    (V19 m outs c main_v96 : S256x128x12x32.Idx → EReal) (ix4 b n t ch)
      = (outs 18 main_v94 c : S256x384x128.Idx → EReal) (ix3 b ⟨32 * t.val + ch.val, by omega⟩ n) := by
  rw [← V18_v94 m outs c]
  exact result_host (V18 m outs c) b n t ch

theorem V17_t3 : V17 m outs c main_v70_0 = outs 16 main_v70_0 c :=
  (V17_of m outs c main_v70_0 (by decide)).trans <| (Function.update_of_ne (devRef_ne_of_ne (by decide)) _ _).trans <|
    (Function.update_of_ne (devRef_ne_of_ne (by decide)) _ _).trans (Function.update_self _ _ _)

variable (hg : ∀ n : Fin 128, (m ((c : Thread nD τ).loc main_arg5) : S128x1.Idx → EReal) (ix2 n 0) = a.g (ix2 n 0))
  (hbe : ∀ n : Fin 128, (m ((c : Thread nD τ).loc main_arg6) : S128x1.Idx → EReal) (ix2 n 0) = a.be (ix2 n 0))
  (hs1 : ∀ (s : Fin 8) (n : Fin 128), (outs 16 main_v70_1 c : S8x1x128.Idx → EReal) (ix3 s 0 n)
    = ∑ b' : Fin 32, ∑ u : Fin 384, Spec.t3 a ⟨32 * s.val + b'.val, by omega⟩ n u.val)
  (hs2 : ∀ (s : Fin 8) (n : Fin 128), (outs 16 main_v70_2 c : S8x1x128.Idx → EReal) (ix3 s 0 n)
    = ∑ b' : Fin 32, ∑ u : Fin 384, Spec.t3 a ⟨32 * s.val + b'.val, by omega⟩ n u.val * Spec.t3 a ⟨32 * s.val + b'.val, by omega⟩ n u.val)

include hg hs1 hs2 in
-- The eight partial sums add up to the sums over all 256 batches; the rest is the host's arithmetic read entry by entry.
theorem stats_V17 (n : Fin 128) (be : EReal) (hb : (m ((c : Thread nD τ).loc main_arg6) : S128x1.Idx → EReal) (ix2 n 0) = be) :
    (V17 m outs c main_v88 : S1x128.Idx → EReal) (ix2 0 n) = Spec.scale a n
      ∧ (V17 m outs c main_v93 : S1x128.Idx → EReal) (ix2 0 n) = be - Spec.mean a n * a.g (ix2 n 0) * Spec.inv a n := by
  rw [← (V16_V19 m outs c main_arg5 (by decide) (by decide) (by decide)).trans (V19_main_arg5 m outs c)] at hg
  rw [← V16_s1 m outs c] at hs1
  rw [← V16_s2 m outs c] at hs2
  rw [← (V16_V19 m outs c main_arg6 (by decide) (by decide) (by decide)).trans (V19_main_arg6 m outs c)] at hb
  unfold V17
  generalize V16 m outs c = W at hg hb hs1 hs2 ⊢
  constructor <;>
  · dsimp only [hostOps1]
    after_results_simp
    refine (broadcastInDim_apply _ _ _ _ (ix1 n) (fun a => by fin_cases a; rfl)).trans ?_
    simp only [mulf_apply, addf_apply, subf_apply, maximumf_apply, hostDivf_apply, Host.rsqrt]
    erw [reduce_cast_rows (m := 8) (n := 128) _ _ _ _ (by decide) _ zero_init n,
      reduce_cast_rows (m := 8) (n := 128) _ _ _ _ (by decide) _ zero_init n, cast_n1_apply]
    try erw [cast_n1_apply]
    rw [broadcastInDim_scalar_apply, broadcastInDim_scalar_apply, broadcastInDim_scalar_apply]
    simp only [constant_apply, hg, hb, hs1, hs2]
    rw [sum_blocks (fun b => ∑ u : Fin 384, Spec.t3 a b n u.val),
      sum_blocks (fun b => ∑ u : Fin 384, Spec.t3 a b n u.val * Spec.t3 a b n u.val), Ideal.ofBits_zero_f32]
    rfl

include hg hs1 hs2 in
theorem scale_V17 (n : Fin 128) : (V17 m outs c main_v88 : S1x128.Idx → EReal) (ix2 0 n) = Spec.scale a n :=
  (stats_V17 a m outs c hg hs1 hs2 n _ rfl).1

include hg hbe hs1 hs2 in
theorem shift_V17 (n : Fin 128) : (V17 m outs c main_v93 : S1x128.Idx → EReal) (ix2 0 n) = Spec.shift a n :=
  (stats_V17 a m outs c hg hs1 hs2 n _ (hbe n)).2

end Cert.KernelIdeal.Val
end
-- ==== Proof.KTail.lean ====
import proofs.«181364_g2000406351686535_pallasbulk_564_19_alg».proof.Proof.KDefs
import proofs.«181364_g2000406351686535_pallasbulk_564_19_alg».proof.Proof.KTailHost
import proofs.«181364_g2000406351686535_pallasbulk_564_19_alg».proof.Proof.KWeights
import Idealize.ShloMosaic.Lib.Pipeline.Value
import Idealize.ShloMosaic.Lib.ValueIdx
import Idealize.ShloMosaic.Lib.ValueLayout

set_option maxRecDepth 16384
set_option maxHeartbeats 4000000

noncomputable section

namespace Cert.KernelIdeal.Val

open Idealize.ShloMosaic Idealize.ShloMosaic.TcCoe Idealize.ShloMosaic.ValueIdx Idealize.ShloMosaic.StableHlo
open Idealize.ShloMosaic.Pipeline (Dat Cfg Window)
open Cert.KernelIdeal Cert.KernelIdeal.Gen Cert.KernelIdeal.Run

-- (0, n) in [1, 128] and (0, 0, n) in [1, 1, 128] have one row-major position.
theorem bcast_row_apply {α : Type} (v : S1x128.Idx → α) (hc : S1x128.ShapeCasts S1x1x128) (hb : S1x1x128.Broadcasts S32x384x128)
    (p : Fin 32) (u : Fin 384) (n : Fin 128) :
    broadcastTo S32x384x128 (shapeCast S1x1x128 v hc) hb (ix3 p u n) = v (ix2 0 n) := by
  rw [broadcastTo_apply _ hb (ix3 p u n) (ix3 0 0 n) (fun a => by fin_cases a <;> rfl)]
  refine shapeCast_apply v hc _ _ ?_
  rw [Shape.rowMajor_val_two, Shape.rowMajor_val_three]
  show 0 * 128 + n.val = (0 * 1 + 0) * 128 + n.val
  omega

theorem pay1_apply (v0 : Vec Ideal S32x384x128 .bf16) (v3 v8 : Vec Ideal S1x128 .f32) (p : Fin 32) (u : Fin 384) (n : Fin 128) :
    k1_pay1 (F := Ideal) v0 v3 v8 (ix3 p u n) = v0 (ix3 p u n) * v3 (ix2 0 n) + v8 (ix2 0 n) := by
  unfold k1_pay1
  simp only [addf_apply, mulf_apply, extf_apply, shapeCast_self]
  rw [bcast_row_apply, bcast_row_apply]

theorem hz3 : (![0, 0, 0] : Fin 3 → Nat) = fun _ => 0 := funext fun a => by fin_cases a <;> rfl
theorem hz2 : (![0, 0] : Fin 2 → Nat) = fun _ => 0 := funext fun a => by fin_cases a <;> rfl

theorem idx_facts1 : ∀ t : Fin cfg1.N, win1_0.index t = win1_3.index t
    ∧ win1_1.index t = (fun _ => 0) ∧ win1_2.index t = (fun _ => 0) ∧ win1_3.index t = ![t.val, 0, 0] :=
  (by decide +kernel : ∀ t : Fin grid1.N, _)

abbrev G94 (y0 : S256x384x128.Idx → EReal) (sc sh : S1x128.Idx → EReal) : S256x384x128.Idx → EReal :=
  fun i => y0 i * sc (ix2 0 (i 2)) + sh (ix2 0 (i 2))

variable (V : (c : Dev nD) → (b : Ref sig .tc) → Buf (Elt Ideal) ((c : Thread nD τ).loc b))

-- The embeddings of an index of the block agree coordinate by coordinate, by the index facts.
theorem flushed3_eq (c : Dev nD) (t : Fin cfg1.N) :
    (dat1 V c).flushed 3 t = ((cfg1.win 3).blk t).view.read (Elt Ideal) (G94 (V c main_v70_0) (V c main_v88) (V c main_v93)) := by
  show (cfg1.win 3).cut (grid1.coords t) (out1_3 (iblk1 V c 0 t) (iblk1 V c 1 t) (iblk1 V c 2 t)) = _
  unfold out1_3
  rw [View.canon_unit_zero hz3]
  simp only [View.ld_unit_zero (S := S32x384x128) hz3, View.ld_unit_zero (S := S1x128) hz2]
  obtain ⟨e0, e1, e2, e3⟩ := idx_facts1 t
  funext j
  obtain ⟨p, u, n, rfl⟩ : ∃ (p : Fin 32) (u : Fin 384) (n : Fin 128), j = ix3 p u n := ⟨j 0, j 1, j 2, eq_ix3 j⟩
  have hn : (ix2 0 n : S1x128.Idx) = ix2 0 (((cfg1.win 3).blk t).view.emb (ix3 p u n) 2) :=
    congrArg (ix2 (0 : Fin 1)) (Fin.ext (win1_3.rect_emb_val_of_index_zero t 2 (congrFun e3 2) (ix3 p u n))).symm
  have h0 : iblk1 V c 0 t (ix3 p u n) = V c main_v70_0 (((cfg1.win 3).blk t).view.emb (ix3 p u n)) :=
    congrArg (V c main_v70_0) (funext fun a => Fin.ext
      (show win1_0.index t a * _ + _ = win1_3.index t a * _ + _ from congrArg (· * _ + _) (congrFun e0 a)))
  have h1 : iblk1 V c 1 t (ix2 0 n) = V c main_v88 (ix2 0 (((cfg1.win 3).blk t).view.emb (ix3 p u n) 2)) :=
    congrArg (V c main_v88) ((funext fun a => Fin.ext (win1_1.rect_emb_val_of_index_zero t a (congrFun e1 a) _)).trans hn)
  have h2 : iblk1 V c 2 t (ix2 0 n) = V c main_v93 (ix2 0 (((cfg1.win 3).blk t).view.emb (ix3 p u n) 2)) :=
    congrArg (V c main_v93) ((funext fun a => Fin.ext (win1_2.rect_emb_val_of_index_zero t a (congrFun e2 a) _)).trans hn)
  refine (pay1_apply _ _ _ p u n).trans ?_
  rw [h0, h1, h2]
  rfl

-- Batch b lies in block b / 32, and each block spans the other two axes whole.
theorem cover3 (i : S256x384x128.Idx) :
    ∃ t : Fin cfg1.N, (cfg1.win 3).flush t = true ∧ i ∈ ((cfg1.win 3).blk t).view.set := by
  have hi0 : (i 0).val < 256 := (i 0).isLt
  have hi1 : (i 1).val < 384 := (i 1).isLt
  have hi2 : (i 2).val < 128 := (i 2).isLt
  obtain ⟨t, ht⟩ : ∃ t : Fin cfg1.N, t.val = (i 0).val / 32 :=
    ⟨⟨_, by show (i 0).val / 32 < grid1.N; rw [N_1]; omega⟩, rfl⟩
  refine ⟨t, flush1_3 t, ?_⟩
  show i ∈ ((View.whole main_v94).slice (win1_3.rect t)).set
  rw [View.set_slice_whole, Rect.mem_set_unit]
  intro a
  show win1_3.index t a * S32x384x128.size a ≤ (i a).val ∧ (i a).val < win1_3.index t a * S32x384x128.size a + S32x384x128.size a
  rw [(idx_facts1 t).2.2.2]
  match a with
  | ⟨0, _⟩ => show t.val * 32 ≤ (i 0).val ∧ (i 0).val < t.val * 32 + 32; omega
  | ⟨1, _⟩ => show 0 * 384 ≤ (i 1).val ∧ (i 1).val < 0 * 384 + 384; omega
  | ⟨2, _⟩ => show 0 * 128 ≤ (i 2).val ∧ (i 2).val < 0 * 128 + 128; omega

theorem final3 (c : Dev nD) :
    (dat1 V c).arrAt 3 cfg1.N = G94 (V c main_v70_0) (V c main_v88) (V c main_v93) :=
  (dat1 V c).arrAt_eq_of_cover 3 _ (fun t _ => flushed3_eq V c t) cover3

variable (m : (ℓ : Loc nD τ sig) → Buf (Elt Ideal) ℓ)

theorem outs18_eq (c : Dev nD) :
    outs m 18 main_v94 c
      = G94 (V17 m (outs0 m) c main_v70_0) (V17 m (outs0 m) c main_v88) (V17 m (outs0 m) c main_v93) := by
  show W18 m c main_v94 = _
  unfold W18
  exact (Pipeline.withArrays_arr spec1 winFacts1.arr_inj c _ _ 3).trans (final3 (Vin1 m) c)

theorem G94_apply (y0 : S256x384x128.Idx → EReal) (sc sh : S1x128.Idx → EReal) (b : Fin 256) (u : Fin 384) (n : Fin 128) :
    G94 y0 sc sh (ix3 b u n) = y0 (ix3 b u n) * sc (ix2 0 n) + sh (ix2 0 n) := rfl

-- Entry by entry: the first kernel's output there, times its node's scale plus its node's shift.
theorem result_eq_of (c : Dev nD)
    (t3_arr : ∀ (b : Fin 256) (u : Fin 384) (n : Fin 128),
      (outs m 16 main_v70_0 c : S256x384x128.Idx → EReal) (ix3 b u n) = Spec.t3 (argsK m c) b n u.val)
    (s1_arr : ∀ (s : Fin 8) (n : Fin 128), (outs m 16 main_v70_1 c : S8x1x128.Idx → EReal) (ix3 s 0 n)
      = ∑ b' : Fin 32, ∑ u : Fin 384, Spec.t3 (argsK m c) ⟨32 * s.val + b'.val, by omega⟩ n u.val)
    (s2_arr : ∀ (s : Fin 8) (n : Fin 128), (outs m 16 main_v70_2 c : S8x1x128.Idx → EReal) (ix3 s 0 n)
      = ∑ b' : Fin 32, ∑ u : Fin 384, Spec.t3 (argsK m c) ⟨32 * s.val + b'.val, by omega⟩ n u.val
          * Spec.t3 (argsK m c) ⟨32 * s.val + b'.val, by omega⟩ n u.val) :
    Wend m c main_v96 = Spec.out (argsK m c) := by
  funext j
  obtain ⟨b, n, t, ch, rfl⟩ : ∃ (b : Fin 256) (n : Fin 128) (t : Fin 12) (ch : Fin 32), j = ix4 b n t ch :=
    ⟨j 0, j 1, j 2, j 3, eq_ix4 j⟩
  unfold Wend
  rw [result_V19 m (outs m) c b n t ch, outs18_eq m c]
  refine (G94_apply _ _ _ b ⟨32 * t.val + ch.val, by omega⟩ n).trans ?_
  rw [V17_t3, scale_V17 (argsK m c) m (outs0 m) c (fun _ => rfl) s1_arr s2_arr n,
    shift_V17 (argsK m c) m (outs0 m) c (fun _ => rfl) (fun _ => rfl) s1_arr s2_arr n]
  exact congrArg (fun x => x * Spec.scale (argsK m c) n + Spec.shift (argsK m c) n) (t3_arr b ⟨32 * t.val + ch.val, by omega⟩ n)

end Cert.KernelIdeal.Val
end
-- ==== Proof.KResult.lean ====
import proofs.«181364_g2000406351686535_pallasbulk_564_19_alg».proof.Proof.KRegion0
import proofs.«181364_g2000406351686535_pallasbulk_564_19_alg».proof.Proof.KTail

set_option maxRecDepth 4000

noncomputable section

namespace Cert.KernelIdeal.Val

open Idealize.ShloMosaic Idealize.ShloMosaic.TcCoe Idealize.ShloMosaic.ValueIdx
open Cert.KernelIdeal Cert.KernelIdeal.Gen

-- The program's result array is the block's function of the nine argument arrays it was launched with.
theorem result_eq (m : (ℓ : Loc nD τ sig) → Buf (Elt Ideal) ℓ) (c : Dev nD) :
    Cert.KernelIdeal.Run.Wend m c main_v96 = Cert.Spec.out (argsK m c) :=
  result_eq_of m c (t3_arr m c) (s1_arr m c) (s2_arr m c)

end Cert.KernelIdeal.Val

end
-- ==== Proof.RBody.lean ====
import proofs.«181364_g2000406351686535_pallasbulk_564_19_alg».proof.Proof.Gen.ReferenceIdeal.Skeleton
import proofs.«181364_g2000406351686535_pallasbulk_564_19_alg».proof.Proof.Spec
import Idealize.ShloMosaic.Lib.ValueLayout
import Idealize.ShloMosaic.PureOps.Ideal.Laws

noncomputable section

namespace Cert.ReferenceIdeal.Val

open Idealize.ShloMosaic Idealize.ShloMosaic.ValueIdx Idealize.ShloMosaic.Pipeline Cert.ReferenceIdeal.Gen

theorem matmul_plain_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (r : Fin M) (c : Fin N) :
    matmul D prec A B (constant ⟨2, ![M, N]⟩ .f32 0x00000000#32) (ix2 r c) = ∑ k : Fin K, A (ix2 r k) * B (ix2 k c) := by
  subst hD
  show FloatOps.matmul _ prec A B _ (ix2 r c) = _
  rw [Ideal.matmul_constant_zero_apply, ← Equiv.sum_comp (contrEquiv1 (DotDims.plain M K N) K rfl rfl).symm]
  refine Finset.sum_congr rfl fun k _ => ?_
  have c2 := contrEquiv1_symm_val (DotDims.plain M K N) K rfl rfl k
  rw [show (DotDims.plain M K N).lhsIdx (ix2 r c) ((contrEquiv1 _ K rfl rfl).symm k) = ix2 r k from
      funext fun ax => Fin.ext (by match ax with | ⟨0, _⟩ => rfl | ⟨1, _⟩ => exact c2),
    show (DotDims.plain M K N).rhsIdx (ix2 r c) ((contrEquiv1 _ K rfl rfl).symm k) = ix2 k c from
      funext fun ax => Fin.ext (by match ax with | ⟨0, _⟩ => exact c2 | ⟨1, _⟩ => rfl)]

theorem logistic_apply {s : Shape} {φ : FTy} (v : FVec Ideal s φ) (i : s.Idx) : logistic v i = Ideal.logistic (v i) := rfl

theorem cast_blocks_apply {α : Type} {K : Nat} (x : (⟨2, ![1024, K]⟩ : Shape).Idx → α)
    (h : (⟨2, ![1024, K]⟩ : Shape).ShapeCasts ⟨3, ![8, 128, K]⟩) (b : Fin 8) (n : Fin 128) (u : Fin K) :
    shapeCast ⟨3, ![8, 128, K]⟩ x h (ix3 b n u) = x (ix2 ⟨128 * b.val + n.val, by omega⟩ u) := by
  refine shapeCast_apply x h _ _ ?_
  rw [Shape.rowMajor_val_three, Shape.rowMajor_val_two]
  show (128 * b.val + n.val) * K + u.val = (b.val * 128 + n.val) * K + u.val
  rw [Nat.mul_comm 128]

-- A sum over 1024 = 8 x 128 rows of terms that vanish off the block of row l is the sum over that block.
theorem sum_own_block (l : Fin 1024) (g : Fin 1024 → EReal) (T : Fin 128 → EReal)
    (hz : ∀ l' : Fin 1024, l.val / 128 ≠ l'.val / 128 → g l' = 0)
    (hs : ∀ n' : Fin 128, g ⟨128 * (l.val / 128) + n'.val, by omega⟩ = T n') :
    ∑ l' : Fin 1024, g l' = ∑ n' : Fin 128, T n' := by
  rw [← Equiv.sum_comp (finProdFinEquiv (m := 8) (n := 128)), Fintype.sum_prod_type,
    Finset.sum_eq_single (⟨l.val / 128, by omega⟩ : Fin 8)]
  · exact Finset.sum_congr rfl fun n' _ => (congrArg g (Fin.ext (by
      rw [finProdFinEquiv_apply_val]
      show n'.val + 128 * (l.val / 128) = 128 * (l.val / 128) + n'.val
      omega))).trans (hs n')
  · intro b _ hb
    exact Finset.sum_eq_zero fun n' _ => hz _ fun h => hb (Fin.ext (by
      have e : (finProdFinEquiv (m := 8) (n := 128) (b, n')).val = n'.val + 128 * b.val := finProdFinEquiv_apply_val _
      rw [e] at h
      show b.val = l.val / 128
      omega))
  · intro h; exact absurd (Finset.mem_univ _) h

def pre1V (x : Vec Ideal S8x128x256 .f32) (w1 : Vec Ideal S256x1536 .f32) (b1 : Vec Ideal S1x1536 .f32) :
    FVec Ideal S1024x1536 .f32 :=
  addf (matmul dot_S1024x256_S256x1536_S1024x1536_1_0_0_1_n_n none
      (shapeCast S1024x256 (shapeCast S8x128x256 x shapeCasts_S8x128x256_S8x128x256 : FVec Ideal S8x128x256 .f32)
        shapeCasts_S8x128x256_S1024x256 : FVec Ideal S1024x256 .f32)
      (shapeCast S256x1536 w1 shapeCasts_S256x1536_S256x1536 : FVec Ideal S256x1536 .f32)
      (constant S1024x1536 .f32 0x00000000#32))
    (broadcastTo S1024x1536 (shapeCast S1x1536 b1 shapeCasts_S1x1536_S1x1536 : FVec Ideal S1x1536 .f32)
      broadcasts_S1x1536_S1024x1536)

def h1V (p : FVec Ideal S1024x1536 .f32) : FVec Ideal S1024x512 .f32 :=
  maximumf (addf (mulf (extractStridedSlice S1024x512 ![0, 0] p slices_S1024x1536_o0_0_S1024x512)
        (logistic (extractStridedSlice S1024x512 ![0, 512] p slices_S1024x1536_o0_512_S1024x512)))
      (extractStridedSlice S1024x512 ![0, 1024] p slices_S1024x1536_o0_1024_S1024x512))
    (broadcast S1024x512 (Scalar.ofBits .f32 0x00000000#32))

def projV (h : FVec Ideal S1024x512 .f32) (th : Vec Ideal S512x224 .f32) : FVec Ideal S1024x224 .f32 :=
  matmul dot_S1024x512_S512x224_S1024x224_1_0_0_1_n_n none h
    (shapeCast S512x224 th shapeCasts_S512x224_S512x224 : FVec Ideal S512x224 .f32)
    (constant S1024x224 .f32 0x00000000#32)

def mixV (ak : Vec Ideal S1024x1024 .f32) (p : FVec Ideal S1024x224 .f32) : FVec Ideal S1024x224 .f32 :=
  maximumf (matmul dot_S1024x1024_S1024x224_S1024x224_1_0_0_1_n_n none
      (shapeCast S1024x1024 ak shapeCasts_S1024x1024_S1024x1024 : FVec Ideal S1024x1024 .f32) p
      (constant S1024x224 .f32 0x00000000#32))
    (broadcast S1024x224 (Scalar.ofBits .f32 0x00000000#32))

def pre2V (mx : FVec Ideal S1024x224 .f32) (w2 : Vec Ideal S224x1152 .f32) (b2 : Vec Ideal S1x1152 .f32) :
    FVec Ideal S1024x1152 .f32 :=
  addf (matmul dot_S1024x224_S224x1152_S1024x1152_1_0_0_1_n_n none mx
      (shapeCast S224x1152 w2 shapeCasts_S224x1152_S224x1152 : FVec Ideal S224x1152 .f32)
      (constant S1024x1152 .f32 0x00000000#32))
    (broadcastTo S1024x1152 (shapeCast S1x1152 b2 shapeCasts_S1x1152_S1x1152 : FVec Ideal S1x1152 .f32)
      broadcasts_S1x1152_S1024x1152)

variable (x : Vec Ideal S8x128x256 .f32) (w1 : Vec Ideal S256x1536 .f32) (b1 : Vec Ideal S1x1536 .f32)
  (th : Vec Ideal S512x224 .f32) (ak : Vec Ideal S1024x1024 .f32) (w2 : Vec Ideal S224x1152 .f32)
  (b2 : Vec Ideal S1x1152 .f32)

theorem k0_pay5_eq : k0_pay5 (F := Ideal) x w1 b1 th ak w2 b2
    = pre2V (mixV ak (projV (h1V (pre1V x w1 b1)) th)) w2 b2 := rfl

theorem k0_pay1_eq : k0_pay1 (k0_pay6 (F := Ideal) x w1 b1 th ak w2 b2) (k0_pay7 x w1 b1 th ak w2 b2)
    = maximumf (addf (mulf (extractStridedSlice S1024x384 ![0, 0] (k0_pay5 x w1 b1 th ak w2 b2) slices_S1024x1152_o0_0_S1024x384)
        (logistic (extractStridedSlice S1024x384 ![0, 384] (k0_pay5 x w1 b1 th ak w2 b2) slices_S1024x1152_o0_384_S1024x384)))
        (extractStridedSlice S1024x384 ![0, 768] (k0_pay5 x w1 b1 th ak w2 b2) slices_S1024x1152_o0_768_S1024x384))
      (broadcast S1024x384 (Scalar.ofBits .f32 0x00000000#32)) := rfl

def rb (l : Fin 1024) : Fin 8 := ⟨l.val / 128, by omega⟩
def rn (l : Fin 1024) : Fin 128 := ⟨l.val % 128, Nat.mod_lt _ (by decide)⟩

theorem rn_mk (b : Nat) (n : Fin 128) (h : 128 * b + n.val < 1024) : rn ⟨128 * b + n.val, h⟩ = n :=
  Fin.ext (by show (128 * b + n.val) % 128 = n.val; omega)
theorem rb_mk (b : Nat) (n : Fin 128) (h : 128 * b + n.val < 1024) : rb ⟨128 * b + n.val, h⟩ = ⟨b, by omega⟩ :=
  Fin.ext (by show (128 * b + n.val) / 128 = b; omega)

-- The sum along the rows, folded into eight blocks of 128: at (b, n) the sum of row 128 b + n.
theorem colsum_block (g : FVec Ideal S1024x384 .f32) (b' : Fin 8) (n : Fin 128) :
    shapeCast S8x128x1 (shapeCast S1024x1
      (multiReduction .add [1] S1024 g 0x00000000#32 reduces_S1024x384_S1024 (.inl rfl) rfl)
      shapeCasts_S1024_S1024x1) shapeCasts_S1024x1_S8x128x1 (ix3 b' n 0)
      = ∑ u : Fin 384, g (ix2 ⟨128 * b'.val + n.val, by omega⟩ u) := by
  rw [cast_blocks_apply, shapeCast_apply _ _ _ (ix1 ⟨128 * b'.val + n.val, by omega⟩) (by
    rw [Shape.rowMajor_val_one, Shape.rowMajor_val_two]
    show 128 * b'.val + n.val = (128 * b'.val + n.val) * 1 + 0
    omega)]
  refine (Ideal.multiReduction_add_single g _ reduces_S1024x384_S1024 _ _ _).trans
    (Finset.sum_congr rfl fun k _ => congrArg g (funext fun a => Fin.ext (by
      match a with
      | ⟨0, _⟩ => rfl
      | ⟨1, _⟩ => rfl)))

variable (a : Cert.Spec.Args) (bb : Fin 8 → Fin 256)
  (hx : ∀ (b' : Fin 8) (n : Fin 128) (i : Fin 256), x (ix3 b' n i) = Spec.xrow a (bb b') n i)
  (hw1 : ∀ (i : Fin 256) (r : Fin 1536), w1 (ix2 i r) = Spec.W1 a i.val r.val)
  (hb1 : ∀ r : Fin 1536, b1 (ix2 0 r) = Spec.B1 a r.val)
  (hth : ∀ (j : Fin 512) (q : Fin 224), th (ix2 j q) = Spec.ThetaBD a j.val q.val)
  (hak : ∀ (l l' : Fin 1024), ak (ix2 l l') = if l.val / 128 = l'.val / 128 then a.A (ix2 (rn l) (rn l')) else 0)
  (hw2 : ∀ (q : Fin 224) (r : Fin 1152), w2 (ix2 q r) = Spec.W2 a q.val r.val)
  (hb2 : ∀ r : Fin 1152, b2 (ix2 0 r) = Spec.B2 a r.val)
include hx hw1 hb1 hth hak hw2 hb2

-- Row l runs through the stages one by one, each the specification's stage at the row's batch and node.
theorem pay5_row (l : Fin 1024) (r : Fin 1152) :
    k0_pay5 (F := Ideal) x w1 b1 th ak w2 b2 (ix2 l r) = Spec.pre2 a (bb (rb l)) (rn l) r.val := by
  have p1 (l : Fin 1024) (r : Fin 1536) : pre1V x w1 b1 (ix2 l r) = Spec.pre1 a (bb (rb l)) (rn l) r.val := by
    unfold pre1V Spec.pre1
    simp only [shapeCast_self]
    rw [addf_apply, matmul_plain_apply dot_S1024x256_S256x1536_S1024x1536_1_0_0_1_n_n rfl, broadcastTo_1b_ab_apply, hb1]
    refine congrArg (· + _) (Finset.sum_congr rfl fun i _ => ?_)
    rw [shapeCast_apply _ _ _ (ix3 (rb l) (rn l) i) (by
      rw [Shape.rowMajor_val_three, Shape.rowMajor_val_two]
      show ((l.val / 128) * 128 + l.val % 128) * 256 + i.val = l.val * 256 + i.val
      rw [Nat.div_add_mod']), hx, hw1]
  have ph (l : Fin 1024) (j : Fin 512) : h1V (pre1V x w1 b1) (ix2 l j) = Spec.h1 a (bb (rb l)) (rn l) j.val := by
    unfold h1V Spec.h1 Spec.gate
    rw [maximumf_apply, addf_apply, mulf_apply, broadcast_apply, logistic_apply,
      slice2_axis1_apply 0 (pre1V x w1 b1) _ l j ⟨j.val, by omega⟩ (Nat.zero_add _).symm,
      slice2_axis1_apply 512 (pre1V x w1 b1) _ l j ⟨512 + j.val, by omega⟩ rfl,
      slice2_axis1_apply 1024 (pre1V x w1 b1) _ l j ⟨1024 + j.val, by omega⟩ rfl, p1, p1, p1]
    exact congrArg (max _) Ideal.ofBits_zero_f32
  have pp (l : Fin 1024) (q : Fin 224) :
      projV (h1V (pre1V x w1 b1)) th (ix2 l q) = Spec.proj a (bb (rb l)) (rn l) q.val := by
    unfold projV Spec.proj
    simp only [shapeCast_self]
    rw [matmul_plain_apply dot_S1024x512_S512x224_S1024x224_1_0_0_1_n_n rfl]
    exact Finset.sum_congr rfl fun j _ => by rw [ph, hth]
  have pm (l : Fin 1024) (q : Fin 224) :
      mixV ak (projV (h1V (pre1V x w1 b1)) th) (ix2 l q) = Spec.mix a (bb (rb l)) (rn l) q.val := by
    unfold mixV Spec.mix
    rw [maximumf_apply, broadcast_apply, matmul_plain_apply dot_S1024x1024_S1024x224_S1024x224_1_0_0_1_n_n rfl]
    refine (congrArg (max _) Ideal.ofBits_zero_f32).trans (congrArg (max · 0) ?_)
    refine sum_own_block l _ _ (fun l' h => ?_) (fun n' => ?_)
    · rw [shapeCast_self, hak, if_neg h, zero_mul]
    · rw [shapeCast_self, hak, if_pos (by show l.val / 128 = (128 * (l.val / 128) + n'.val) / 128; omega), pp, rn_mk, rb_mk]
      rfl
  rw [k0_pay5_eq]
  unfold pre2V Spec.pre2
  simp only [shapeCast_self]
  rw [addf_apply, matmul_plain_apply dot_S1024x224_S224x1152_S1024x1152_1_0_0_1_n_n rfl, broadcastTo_1b_ab_apply, hb2]
  exact congrArg (· + _) (Finset.sum_congr rfl fun q _ => by rw [pm, hw2])

-- The gated value at batch b' of the block, node n, position u.
theorem pay1_blk (b' : Fin 8) (n : Fin 128) (u : Fin 384) :
    k0_pay1 (k0_pay6 (F := Ideal) x w1 b1 th ak w2 b2) (k0_pay7 x w1 b1 th ak w2 b2) (ix2 ⟨128 * b'.val + n.val, by omega⟩ u)
      = Spec.t3 a (bb b') n u.val := by
  have h5 := pay5_row x w1 b1 th ak w2 b2 a bb hx hw1 hb1 hth hak hw2 hb2 ⟨128 * b'.val + n.val, by omega⟩
  rw [rn_mk, rb_mk] at h5
  unfold Spec.t3 Spec.gate
  rw [k0_pay1_eq]
  generalize k0_pay5 x w1 b1 th ak w2 b2 = P at h5 ⊢
  rw [maximumf_apply, addf_apply, mulf_apply, broadcast_apply, logistic_apply,
    slice2_axis1_apply 0 P _ _ u ⟨u.val, by omega⟩ (Nat.zero_add _).symm,
    slice2_axis1_apply 384 P _ _ u ⟨384 + u.val, by omega⟩ rfl,
    slice2_axis1_apply 768 P _ _ u ⟨768 + u.val, by omega⟩ rfl, h5, h5, h5]
  exact congrArg (max _) Ideal.ofBits_zero_f32

theorem t3_block (b' : Fin 8) (n : Fin 128) (u : Fin 384) :
    k0_pay2 (k0_pay6 (F := Ideal) x w1 b1 th ak w2 b2) (k0_pay7 x w1 b1 th ak w2 b2) (ix3 b' n u)
      = Spec.t3 a (bb b') n u.val :=
  (cast_blocks_apply (k0_pay1 _ _) shapeCasts_S1024x384_S8x128x384 b' n u).trans
    (pay1_blk x w1 b1 th ak w2 b2 a bb hx hw1 hb1 hth hak hw2 hb2 b' n u)

theorem s1_block (b' : Fin 8) (n : Fin 128) :
    k0_pay3 (k0_pay6 (F := Ideal) x w1 b1 th ak w2 b2) (k0_pay7 x w1 b1 th ak w2 b2) (ix3 b' n 0)
      = ∑ u : Fin 384, Spec.t3 a (bb b') n u.val :=
  (colsum_block (k0_pay1 _ _) b' n).trans
    (Finset.sum_congr rfl fun u _ => pay1_blk x w1 b1 th ak w2 b2 a bb hx hw1 hb1 hth hak hw2 hb2 b' n u)

theorem s2_block (b' : Fin 8) (n : Fin 128) :
    k0_pay4 (k0_pay6 (F := Ideal) x w1 b1 th ak w2 b2) (k0_pay7 x w1 b1 th ak w2 b2) (ix3 b' n 0)
      = ∑ u : Fin 384, Spec.t3 a (bb b') n u.val * Spec.t3 a (bb b') n u.val :=
  (colsum_block (mulf (k0_pay1 _ _) (k0_pay1 _ _)) b' n).trans (Finset.sum_congr rfl fun u _ => by
    rw [mulf_apply, pay1_blk x w1 b1 th ak w2 b2 a bb hx hw1 hb1 hth hak hw2 hb2 b' n u])

end Cert.ReferenceIdeal.Val

end
-- ==== Proof.RRegion0.lean ====
import proofs.«181364_g2000406351686535_pallasbulk_564_19_alg».proof.Proof.RDefs
import proofs.«181364_g2000406351686535_pallasbulk_564_19_alg».proof.Proof.RBody

noncomputable section

namespace Cert.ReferenceIdeal.Val

open Idealize.ShloMosaic Idealize.ShloMosaic.TcCoe Idealize.ShloMosaic.ValueIdx Idealize.ShloMosaic.Pipeline
open Cert.ReferenceIdeal Cert.ReferenceIdeal.Gen Cert.ReferenceIdeal.Run

variable (V : (c : Dev nD) → (b : Ref sig .tc) → Buf (Elt Ideal) ((c : Thread nD τ).loc b)) (c : Dev nD)

theorem lt32 (t : Fin cfg0.N) : t.val < 32 := lt_of_lt_of_eq t.isLt N_0

theorem idx0_w : ∀ (t : Fin cfg0.N) (a : Fin 2), win0_1.index t a = 0 ∧ win0_2.index t a = 0 ∧ win0_3.index t a = 0
    ∧ win0_4.index t a = 0 ∧ win0_5.index t a = 0 ∧ win0_6.index t a = 0 :=
  (by decide +kernel : ∀ t : Fin grid0.N, _)

theorem idx0_b : ∀ t : Fin cfg0.N,
    (win0_0.index t (0 : Fin 3) = t.val ∧ win0_0.index t (1 : Fin 3) = 0 ∧ win0_0.index t (2 : Fin 3) = 0)
    ∧ (win0_7.index t (0 : Fin 3) = t.val ∧ win0_7.index t (1 : Fin 3) = 0 ∧ win0_7.index t (2 : Fin 3) = 0)
    ∧ (win0_8.index t (0 : Fin 3) = t.val ∧ win0_8.index t (1 : Fin 3) = 0 ∧ win0_8.index t (2 : Fin 3) = 0)
    ∧ (win0_9.index t (0 : Fin 3) = t.val ∧ win0_9.index t (1 : Fin 3) = 0 ∧ win0_9.index t (2 : Fin 3) = 0) :=
  (by decide +kernel : ∀ t : Fin grid0.N, _)

def bbOf (t : Fin cfg0.N) (b' : Fin 8) : Fin 256 := ⟨8 * t.val + b'.val, by have := lt32 t; omega⟩

-- b = 8 (b / 8) + b % 8
theorem ix3_surj {m : Nat} (i : (⟨3, ![256, 128, m]⟩ : Shape).Idx) :
    ∃ (t : Fin cfg0.N) (b' : Fin 8) (n : Fin 128) (u : Fin m), i = ix3 (bbOf t b') n u := by
  have h : (i 0).val < 256 := (i 0).isLt
  exact ⟨⟨(i 0).val / 8, by rw [show cfg0.N = 32 from N_0]; omega⟩, ⟨(i 0).val % 8, Nat.mod_lt _ (by decide)⟩, i 1, i 2,
    (eq_ix3 i).trans (congrArg (fun b => ix3 b (i 1) (i 2)) (Fin.ext (Nat.div_add_mod _ 8).symm))⟩

-- the embedding adds the offset index × size, here (8 t, 0, 0)
theorem emb0_0 (t : Fin cfg0.N) (b' : Fin 8) (n : Fin 128) (i : Fin 256) :
    ((cfg0.win 0).blk t).view.emb (ix3 b' n i) = ix3 (bbOf t b') n i := by
  funext a; apply Fin.ext
  obtain ⟨⟨e0, e1, e2⟩, -⟩ := idx0_b t
  match a with
  | ⟨0, _⟩ => show win0_0.index t (0 : Fin 3) * 8 + 1 * b'.val = 8 * t.val + b'.val; omega
  | ⟨1, _⟩ => show win0_0.index t (1 : Fin 3) * 128 + 1 * n.val = n.val; omega
  | ⟨2, _⟩ => show win0_0.index t (2 : Fin 3) * 256 + 1 * i.val = i.val; omega

theorem emb0_7 (t : Fin cfg0.N) (b' : Fin 8) (n : Fin 128) (u : Fin 384) :
    ((cfg0.win 7).blk t).view.emb (ix3 b' n u) = ix3 (bbOf t b') n u := by
  funext a; apply Fin.ext
  obtain ⟨-, ⟨e0, e1, e2⟩, -⟩ := idx0_b t
  match a with
  | ⟨0, _⟩ => show win0_7.index t (0 : Fin 3) * 8 + 1 * b'.val = 8 * t.val + b'.val; omega
  | ⟨1, _⟩ => show win0_7.index t (1 : Fin 3) * 128 + 1 * n.val = n.val; omega
  | ⟨2, _⟩ => show win0_7.index t (2 : Fin 3) * 384 + 1 * u.val = u.val; omega

theorem emb0_8 (t : Fin cfg0.N) (b' : Fin 8) (n : Fin 128) (z : Fin 1) :
    ((cfg0.win 8).blk t).view.emb (ix3 b' n z) = ix3 (bbOf t b') n z := by
  funext a; apply Fin.ext
  obtain ⟨-, -, ⟨e0, e1, e2⟩, -⟩ := idx0_b t
  match a with
  | ⟨0, _⟩ => show win0_8.index t (0 : Fin 3) * 8 + 1 * b'.val = 8 * t.val + b'.val; omega
  | ⟨1, _⟩ => show win0_8.index t (1 : Fin 3) * 128 + 1 * n.val = n.val; omega
  | ⟨2, _⟩ => show win0_8.index t (2 : Fin 3) * 1 + 1 * z.val = z.val; omega

theorem emb0_9 (t : Fin cfg0.N) (b' : Fin 8) (n : Fin 128) (z : Fin 1) :
    ((cfg0.win 9).blk t).view.emb (ix3 b' n z) = ix3 (bbOf t b') n z := by
  funext a; apply Fin.ext
  obtain ⟨-, -, -, e0, e1, e2⟩ := idx0_b t
  match a with
  | ⟨0, _⟩ => show win0_9.index t (0 : Fin 3) * 8 + 1 * b'.val = 8 * t.val + b'.val; omega
  | ⟨1, _⟩ => show win0_9.index t (1 : Fin 3) * 128 + 1 * n.val = n.val; omega
  | ⟨2, _⟩ => show win0_9.index t (2 : Fin 3) * 1 + 1 * z.val = z.val; omega

theorem iblk0_0_apply (t : Fin cfg0.N) (b' : Fin 8) (n : Fin 128) (i : Fin 256) :
    iblk0 V c 0 t (ix3 b' n i) = V c main_v393 (ix3 (bbOf t b') n i) :=
  congrArg (V c main_v393) (emb0_0 t b' n i)

-- the offset index × size is zero on every axis
theorem emb_whole (w : Fin cfg0.W) (t : Fin cfg0.N) (h : ∀ a, (cfg0.win w).index t a = 0)
    (y : ((cfg0.win w).xblock (cfg0.grid.coords t)).Idx) (y' : (cfg0.win w).shape.Idx) (hy : ∀ a, (y' a).val = (y a).val) :
    ((cfg0.win w).rect t).emb y = y' :=
  funext fun a => Fin.ext (((cfg0.win w).rect_emb_val_of_index_zero t a (h a) y).trans (hy a).symm)

theorem hz3 : (![0, 0, 0] : Fin 3 → Nat) = fun _ => 0 := funext fun a => by fin_cases a <;> rfl
theorem hz2 : (![0, 0] : Fin 2 → Nat) = fun _ => 0 := funext fun a => by fin_cases a <;> rfl

theorem cover7 (i : S256x128x384.Idx) :
    ∃ t : Fin cfg0.N, (cfg0.win 7).flush t = true ∧ i ∈ ((cfg0.win 7).blk t).view.set := by
  obtain ⟨t, b', n, u, rfl⟩ := ix3_surj i
  exact ⟨t, flush0_7 t, emb0_7 t b' n u ▸ View.emb_mem_set _ _⟩

theorem cover8 (i : S256x128x1.Idx) :
    ∃ t : Fin cfg0.N, (cfg0.win 8).flush t = true ∧ i ∈ ((cfg0.win 8).blk t).view.set := by
  obtain ⟨t, b', n, u, rfl⟩ := ix3_surj i
  exact ⟨t, flush0_8 t, emb0_8 t b' n u ▸ View.emb_mem_set _ _⟩

theorem cover9 (i : S256x128x1.Idx) :
    ∃ t : Fin cfg0.N, (cfg0.win 9).flush t = true ∧ i ∈ ((cfg0.win 9).blk t).view.set := by
  obtain ⟨t, b', n, u, rfl⟩ := ix3_surj i
  exact ⟨t, flush0_9 t, emb0_9 t b' n u ▸ View.emb_mem_set _ _⟩

variable (a : Cert.Spec.Args)
  (hX : ∀ (b : Fin 256) (n : Fin 128) (i : Fin 256), V c main_v393 (ix3 b n i) = Spec.xrow a b n i)
  (hA : ∀ (l l' : Fin 1024), V c main_v392 (ix2 l l') = if l.val / 128 = l'.val / 128 then a.A (ix2 (rn l) (rn l')) else 0)
  (hW1 : ∀ (i : Fin 256) (r : Fin 1536), V c main_v198 (ix2 i r) = Spec.W1 a i.val r.val)
  (hB1 : ∀ r : Fin 1536, V c main_v200 (ix2 0 r) = Spec.B1 a r.val)
  (hTh : ∀ (j : Fin 512) (q : Fin 224), V c main_v385 (ix2 j q) = Spec.ThetaBD a j.val q.val)
  (hW2 : ∀ (q : Fin 224) (r : Fin 1152), V c main_v375 (ix2 q r) = Spec.W2 a q.val r.val)
  (hB2 : ∀ r : Fin 1152, V c main_v377 (ix2 0 r) = Spec.B2 a r.val)

def G7 : S256x128x384.Idx → EReal := fun i => Spec.t3 a (i 0) (i 1) (i 2).val
def G8 : S256x128x1.Idx → EReal := fun i => ∑ u : Fin 384, Spec.t3 a (i 0) (i 1) u.val
def G9 : S256x128x1.Idx → EReal := fun i => ∑ u : Fin 384, Spec.t3 a (i 0) (i 1) u.val * Spec.t3 a (i 0) (i 1) u.val

include hX hA hW1 hB1 hTh hW2 hB2

-- the input blocks are the arguments' entries of batches 8 t + b', so the stored blocks are the specification's values there
theorem stored0 (t : Fin cfg0.N) (b' : Fin 8) (n : Fin 128) :
    (∀ u : Fin 384, (dat0 V c).after 7 t (ix3 b' n u) = Spec.t3 a (bbOf t b') n u.val)
    ∧ (dat0 V c).after 8 t (ix3 b' n 0) = ∑ u : Fin 384, Spec.t3 a (bbOf t b') n u.val
    ∧ (dat0 V c).after 9 t (ix3 b' n 0) = ∑ u : Fin 384, Spec.t3 a (bbOf t b') n u.val * Spec.t3 a (bbOf t b') n u.val := by
  have h0 := fun b' n i => (iblk0_0_apply V c t b' n i).trans (hX _ n i)
  have h1 : ∀ l l', iblk0 V c 1 t (ix2 l l') = _ := fun l l' =>
    (congrArg (V c main_v392) (emb_whole 1 t (fun a => (idx0_w t a).1) (ix2 l l') (ix2 l l') fun _ => rfl)).trans (hA l l')
  have h2 : ∀ i r, iblk0 V c 2 t (ix2 i r) = _ := fun i r =>
    (congrArg (V c main_v198) (emb_whole 2 t (fun a => (idx0_w t a).2.1) (ix2 i r) (ix2 i r) fun _ => rfl)).trans (hW1 i r)
  have h3 : ∀ r, iblk0 V c 3 t (ix2 0 r) = _ := fun r =>
    (congrArg (V c main_v200) (emb_whole 3 t (fun a => (idx0_w t a).2.2.1) (ix2 0 r) (ix2 0 r) fun _ => rfl)).trans (hB1 r)
  have h4 : ∀ j q, iblk0 V c 4 t (ix2 j q) = _ := fun j q =>
    (congrArg (V c main_v385) (emb_whole 4 t (fun a => (idx0_w t a).2.2.2.1) (ix2 j q) (ix2 j q) fun _ => rfl)).trans (hTh j q)
  have h5 : ∀ q r, iblk0 V c 5 t (ix2 q r) = _ := fun q r =>
    (congrArg (V c main_v375) (emb_whole 5 t (fun a => (idx0_w t a).2.2.2.2.1) (ix2 q r) (ix2 q r) fun _ => rfl)).trans (hW2 q r)
  have h6 : ∀ r, iblk0 V c 6 t (ix2 0 r) = _ := fun r =>
    (congrArg (V c main_v377) (emb_whole 6 t (fun a => (idx0_w t a).2.2.2.2.2) (ix2 0 r) (ix2 0 r) fun _ => rfl)).trans (hB2 r)
  dsimp only [dat0]
  unfold out0_7 out0_8 out0_9 pay35 pay37
  simp only [View.canon_unit_zero (S := S8x128x384) hz3, View.canon_unit_zero (S := S8x128x1) hz3, View.ld_unit_zero (S := S8x128x256) hz3, View.ld_unit_zero (S := S1024x1024) hz2,
    View.ld_unit_zero (S := S256x1536) hz2, View.ld_unit_zero (S := S1x1536) hz2, View.ld_unit_zero (S := S512x224) hz2,
    View.ld_unit_zero (S := S224x1152) hz2, View.ld_unit_zero (S := S1x1152) hz2]
  exact ⟨t3_block _ _ _ _ _ _ _ a (bbOf t) h0 h2 h3 h4 h1 h5 h6 b' n, s1_block _ _ _ _ _ _ _ a (bbOf t) h0 h2 h3 h4 h1 h5 h6 b' n,
    s2_block _ _ _ _ _ _ _ a (bbOf t) h0 h2 h3 h4 h1 h5 h6 b' n⟩

theorem flushed7_eq (t : Fin cfg0.N) :
    (dat0 V c).flushed 7 t = ((cfg0.win 7).blk t).view.read (Elt Ideal) (G7 a) := by
  funext j
  obtain ⟨b', n, u, rfl⟩ : ∃ (b' : Fin 8) (n : Fin 128) (u : Fin 384), j = ix3 b' n u := ⟨j 0, j 1, j 2, eq_ix3 j⟩
  show (dat0 V c).after 7 t (ix3 b' n u) = G7 a (((cfg0.win 7).blk t).view.emb (ix3 b' n u))
  rw [(stored0 V c a hX hA hW1 hB1 hTh hW2 hB2 t b' n).1, emb0_7]
  rfl

theorem flushed8_eq (t : Fin cfg0.N) :
    (dat0 V c).flushed 8 t = ((cfg0.win 8).blk t).view.read (Elt Ideal) (G8 a) := by
  funext j
  obtain ⟨b', n, z, rfl⟩ : ∃ (b' : Fin 8) (n : Fin 128) (z : Fin 1), j = ix3 b' n z := ⟨j 0, j 1, j 2, eq_ix3 j⟩
  obtain rfl : z = 0 := Subsingleton.elim _ _
  show (dat0 V c).after 8 t (ix3 b' n 0) = G8 a (((cfg0.win 8).blk t).view.emb (ix3 b' n 0))
  rw [(stored0 V c a hX hA hW1 hB1 hTh hW2 hB2 t b' n).2.1, emb0_8]
  rfl

theorem flushed9_eq (t : Fin cfg0.N) :
    (dat0 V c).flushed 9 t = ((cfg0.win 9).blk t).view.read (Elt Ideal) (G9 a) := by
  funext j
  obtain ⟨b', n, z, rfl⟩ : ∃ (b' : Fin 8) (n : Fin 128) (z : Fin 1), j = ix3 b' n z := ⟨j 0, j 1, j 2, eq_ix3 j⟩
  obtain rfl : z = 0 := Subsingleton.elim _ _
  show (dat0 V c).after 9 t (ix3 b' n 0) = G9 a (((cfg0.win 9).blk t).view.emb (ix3 b' n 0))
  rw [(stored0 V c a hX hA hW1 hB1 hTh hW2 hB2 t b' n).2.2, emb0_9]
  rfl

theorem t3_arr (b : Fin 256) (n : Fin 128) (u : Fin 384) :
    (dat0 V c).arrAt 7 cfg0.N (ix3 b n u) = Spec.t3 a b n u.val :=
  congrFun ((dat0 V c).arrAt_eq_of_cover 7 (G7 a) (fun t _ => flushed7_eq V c a hX hA hW1 hB1 hTh hW2 hB2 t) cover7) (ix3 b n u)

theorem s1_arr (b : Fin 256) (n : Fin 128) :
    (dat0 V c).arrAt 8 cfg0.N (ix3 b n 0) = ∑ u : Fin 384, Spec.t3 a b n u.val :=
  congrFun ((dat0 V c).arrAt_eq_of_cover 8 (G8 a) (fun t _ => flushed8_eq V c a hX hA hW1 hB1 hTh hW2 hB2 t) cover8) (ix3 b n 0)

theorem s2_arr (b : Fin 256) (n : Fin 128) :
    (dat0 V c).arrAt 9 cfg0.N (ix3 b n 0) = ∑ u : Fin 384, Spec.t3 a b n u.val * Spec.t3 a b n u.val :=
  congrFun ((dat0 V c).arrAt_eq_of_cover 9 (G9 a) (fun t _ => flushed9_eq V c a hX hA hW1 hB1 hTh hW2 hB2 t) cover9) (ix3 b n 0)

end Cert.ReferenceIdeal.Val

end
-- ==== Proof.RWeights.lean ====
import proofs.«181364_g2000406351686535_pallasbulk_564_19_alg».proof.Proof.Gen.ReferenceIdeal.Launch
import proofs.«181364_g2000406351686535_pallasbulk_564_19_alg».proof.Proof.Spec
import Idealize.ShloMosaic.Lib.ValueIdx
import Idealize.ShloMosaic.Lib.ValueLayout
import Idealize.ShloMosaic.Lib.StableHlo.Run
import Idealize.ShloMosaic.Lib.KernelVsHost

set_option maxRecDepth 4000

noncomputable section

namespace Cert.ReferenceIdeal.Val

open Idealize.ShloMosaic Idealize.ShloMosaic.TcCoe Idealize.ShloMosaic.ValueIdx
open Cert.ReferenceIdeal Cert.ReferenceIdeal.Gen

variable (m : (ℓ : Loc nD τ sig) → Buf (Elt Ideal) ℓ)

def argsR (c : Dev nD) : Cert.Spec.Args :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4), m ((c.tc : Thread nD τ).loc main_arg5),
   m ((c.tc : Thread nD τ).loc main_arg6), m ((c.tc : Thread nD τ).loc main_arg7), m ((c.tc : Thread nD τ).loc main_arg8)⟩

abbrev U0 (c : Dev nD) : Valuation τ sig (Elt Ideal) := fun b => m (c, b)
abbrev U1 (c : Dev nD) : Valuation τ sig (Elt Ideal) := StableHlo.after hostOps0 (U0 m c)
abbrev U2 (c : Dev nD) : Valuation τ sig (Elt Ideal) := StableHlo.after hostOps0_1 (U1 m c)
abbrev U3 (c : Dev nD) : Valuation τ sig (Elt Ideal) := StableHlo.after hostOps0_2 (U2 m c)
abbrev U4 (c : Dev nD) : Valuation τ sig (Elt Ideal) := StableHlo.after hostOps0_3 (U3 m c)
abbrev U5 (c : Dev nD) : Valuation τ sig (Elt Ideal) := StableHlo.after hostOps0_4 (U4 m c)
abbrev U6 (c : Dev nD) : Valuation τ sig (Elt Ideal) := StableHlo.after hostOps0_5 (U5 m c)
abbrev U7 (c : Dev nD) : Valuation τ sig (Elt Ideal) := StableHlo.after hostOps0_6 (U6 m c)
abbrev U8 (c : Dev nD) : Valuation τ sig (Elt Ideal) := StableHlo.after hostOps0_7 (U7 m c)
abbrev U9 (c : Dev nD) : Valuation τ sig (Elt Ideal) := StableHlo.after hostOps0_8 (U8 m c)
abbrev U10 (c : Dev nD) : Valuation τ sig (Elt Ideal) := StableHlo.after hostOps0_9 (U9 m c)
abbrev U11 (c : Dev nD) : Valuation τ sig (Elt Ideal) := StableHlo.after hostOps0_10 (U10 m c)
abbrev U12 (c : Dev nD) : Valuation τ sig (Elt Ideal) := StableHlo.after hostOps0_11 (U11 m c)
abbrev U13 (c : Dev nD) : Valuation τ sig (Elt Ideal) := StableHlo.after hostOps0_12 (U12 m c)
abbrev U14 (c : Dev nD) : Valuation τ sig (Elt Ideal) := StableHlo.after hostOps0_13 (U13 m c)
abbrev U15 (c : Dev nD) : Valuation τ sig (Elt Ideal) := StableHlo.after hostOps0_14 (U14 m c)
abbrev U16 (c : Dev nD) : Valuation τ sig (Elt Ideal) := StableHlo.after hostOps0_15 (U15 m c)
abbrev U17 (c : Dev nD) : Valuation τ sig (Elt Ideal) := StableHlo.after hostOps0_16 (U16 m c)
abbrev U18 (c : Dev nD) : Valuation τ sig (Elt Ideal) := StableHlo.after hostOps0_17 (U17 m c)
abbrev U19 (c : Dev nD) : Valuation τ sig (Elt Ideal) := StableHlo.after hostOps0_18 (U18 m c)
abbrev U20 (c : Dev nD) : Valuation τ sig (Elt Ideal) := StableHlo.after hostOps0_19 (U19 m c)
abbrev U21 (c : Dev nD) : Valuation τ sig (Elt Ideal) := StableHlo.after hostOps0_20 (U20 m c)
abbrev U22 (c : Dev nD) : Valuation τ sig (Elt Ideal) := StableHlo.after hostOps0_21 (U21 m c)
abbrev U23 (c : Dev nD) : Valuation τ sig (Elt Ideal) := StableHlo.after hostOps0_22 (U22 m c)
abbrev U24 (c : Dev nD) : Valuation τ sig (Elt Ideal) := StableHlo.after hostOps0_23 (U23 m c)
abbrev U25 (c : Dev nD) : Valuation τ sig (Elt Ideal) := StableHlo.after hostOps0_24 (U24 m c)
abbrev U26 (c : Dev nD) : Valuation τ sig (Elt Ideal) := StableHlo.after hostOps0_25 (U25 m c)
abbrev U27 (c : Dev nD) : Valuation τ sig (Elt Ideal) := StableHlo.after hostOps0_26 (U26 m c)
abbrev U28 (c : Dev nD) : Valuation τ sig (Elt Ideal) := StableHlo.after hostOps0_27 (U27 m c)
abbrev U29 (c : Dev nD) : Valuation τ sig (Elt Ideal) := StableHlo.after hostOps0_28 (U28 m c)
abbrev U30 (c : Dev nD) : Valuation τ sig (Elt Ideal) := StableHlo.after hostOps0_29 (U29 m c)
abbrev U31 (c : Dev nD) : Valuation τ sig (Elt Ideal) := StableHlo.after hostOps0_30 (U30 m c)

abbrev argL : List (Ref sig .tc) :=
  [main_arg0, main_arg1, main_arg2, main_arg3, main_arg4, main_arg5, main_arg6, main_arg7, main_arg8]

-- Every operation of the line writes one reference, outside `S`: the references in `S` read the same after the line as before.
theorem after_keep (S : List (Ref sig .tc)) {ops : List (HloOp τ sig (Elt Ideal))} (V : Valuation τ sig (Elt Ideal)) {r : Ref sig .tc}
    (hr : r ∈ S) (h : ops.Forall fun op => ∃ y ∉ S, op.writes = {Proc.devRef .tc y} := by
      simp only [List.Forall]; repeat' first | apply And.intro | exact ⟨_, by decide, rfl⟩) :
    StableHlo.after ops V r = V r :=
  StableHlo.after_of_forall_not_mem ops V fun op hop hb => by
    obtain ⟨y, hy, e⟩ := List.forall_iff_forall_mem.mp h op hop
    rw [e, Finset.mem_singleton] at hb
    exact hy (Proc.devRef_injective _ hb ▸ hr)

variable (c : Dev nD)

theorem U4_arg (r : Ref sig .tc) (hr : r ∈ argL) : U4 m c r = U0 m c r := by
  iterate 4 refine (after_keep argL _ hr).trans ?_
  rfl
theorem U8_arg (r : Ref sig .tc) (hr : r ∈ argL) : U8 m c r = U0 m c r := by
  iterate 4 refine (after_keep argL _ hr).trans ?_
  exact U4_arg m c r hr
theorem U12_arg (r : Ref sig .tc) (hr : r ∈ argL) : U12 m c r = U0 m c r := by
  iterate 4 refine (after_keep argL _ hr).trans ?_
  exact U8_arg m c r hr
theorem U16_arg (r : Ref sig .tc) (hr : r ∈ argL) : U16 m c r = U0 m c r := by
  iterate 4 refine (after_keep argL _ hr).trans ?_
  exact U12_arg m c r hr
theorem U20_arg (r : Ref sig .tc) (hr : r ∈ argL) : U20 m c r = U0 m c r := by
  iterate 4 refine (after_keep argL _ hr).trans ?_
  exact U16_arg m c r hr
theorem U24_arg (r : Ref sig .tc) (hr : r ∈ argL) : U24 m c r = U0 m c r := by
  iterate 4 refine (after_keep argL _ hr).trans ?_
  exact U20_arg m c r hr

theorem xlane_term : (U31 m c main_v393 : S256x128x256.Idx → EReal) =
    shapeCast S256x128x256 (U0 m c main_arg7 : S256x128x16x16.Idx → EReal) shapeCasts_S256x128x16x16_S256x128x256 := by
  rw [← U24_arg m c main_arg7 (by decide)]
  unfold U31 U30 U29 U28 U27 U26 U25; generalize U24 m c = V; after_results_simp <;> rfl

theorem X_lane_eq (b : Fin 256) (n : Fin 128) (i : Fin 256) :
    U31 m c main_v393 (ix3 b n i) = Cert.Spec.xrow (argsR m c) b n i := by
  rw [xlane_term]
  refine (shapeCast_apply _ _ (ix3 b n i) (ix4 b n ⟨i.val / 16, by omega⟩ ⟨i.val % 16, Nat.mod_lt _ (by decide)⟩) ?_).trans rfl
  rw [Shape.rowMajor_val_four, Shape.rowMajor_val_three]
  show ((b.val * 128 + n.val) * 16 + i.val / 16) * 16 + i.val % 16 = (b.val * 128 + n.val) * 256 + i.val
  omega

-- Below 2^32 the word comparison of p + 0 with q is the comparison of p with q.
theorem eye_val (p q : Fin 14) :
    (((IntOp.cmpi .eq (IntOp.addi (BitVec.ofNat 32 p.val) 0#32) (BitVec.ofNat 32 q.val)).toNat : ℝ) : EReal)
      = if p.val = q.val then 1 else 0 := by
  have : ∀ p q : Fin 14, IntOp.cmpi .eq (IntOp.addi (BitVec.ofNat 32 p.val) 0#32) (BitVec.ofNat 32 q.val)
      = if p.val = q.val then 1#1 else 0#1 := by decide
  rw [this]
  by_cases h : p.val = q.val
  · rw [if_pos h, if_pos h]; simp
  · rw [if_neg h, if_neg h]; simp

abbrev eye8 : FVec Ideal S8x8 .f32 :=
  uitofp .f32 (cmpi .eq (addi (iotaInDim S8x8 32 0) (broadcastInDim S8x8 ![] bcast_S_S8x8 (constantI S_ 32 0#32))) (iotaInDim S8x8 32 1))

theorem eye8_apply (p q : Fin 8) : eye8 (ix2 p q) = if p = q then (1 : EReal) else 0 :=
  (eye_val ⟨p, by omega⟩ ⟨q, by omega⟩).trans (if_congr (Fin.val_inj (a := p) (b := q)) rfl rfl)

abbrev kron8 (e : S8x8.Idx → EReal) (x : S128x128.Idx → EReal) : S1024x1024.Idx → EReal :=
  shapeCast S1024x1024
    (mulf (F := Ideal) (φ := .f32)
      (broadcastInDim S8x128x8x128 ![0, 1, 2, 3] bcast_S8x1x8x1_S8x128x8x128_0_1_2_3 (broadcastInDim S8x1x8x1 ![0, 2] bcast_S8x8_S8x1x8x1_0_2 e))
      (broadcastInDim S8x128x8x128 ![0, 1, 2, 3] bcast_S1x128x1x128_S8x128x8x128_0_1_2_3 (broadcastInDim S1x128x1x128 ![1, 3] bcast_S128x128_S1x128x1x128_1_3 x)))
    shapeCasts_S8x128x8x128_S1024x1024

theorem akron_term : (U31 m c main_v392 : S1024x1024.Idx → EReal) = kron8 eye8 (U0 m c main_arg8) := by
  rw [← U24_arg m c main_arg8 (by decide)]
  unfold U31 U30 U29 U28 U27 U26 U25; generalize U24 m c = V; after_results_simp <;> rfl

theorem kron8_apply (e : S8x8.Idx → EReal) (x : S128x128.Idx → EReal) (l l' : Fin 1024) :
    kron8 e x (ix2 l l') = e (ix2 ⟨l.val / 128, by omega⟩ ⟨l'.val / 128, by omega⟩)
      * x (ix2 ⟨l.val % 128, Nat.mod_lt _ (by decide)⟩ ⟨l'.val % 128, Nat.mod_lt _ (by decide)⟩) := by
  refine (shapeCast_apply _ _ (ix2 l l') (ix4 ⟨l.val / 128, by omega⟩ ⟨l.val % 128, Nat.mod_lt _ (by decide)⟩
    ⟨l'.val / 128, by omega⟩ ⟨l'.val % 128, Nat.mod_lt _ (by decide)⟩) ?_).trans ?_
  · rw [Shape.rowMajor_val_four, Shape.rowMajor_val_two]
    show ((l.val / 128 * 128 + l.val % 128) * 8 + l'.val / 128) * 128 + l'.val % 128 = l.val * 1024 + l'.val
    omega
  · rw [mulf_apply]
    congr 1
    · exact (broadcastInDim_apply _ _ _ _ (ix4 ⟨l.val / 128, by omega⟩ (0 : Fin 1) ⟨l'.val / 128, by omega⟩ (0 : Fin 1))
        (by intro a; fin_cases a <;> rfl)).trans (broadcastInDim_apply _ _ _ _ _ (by intro a; fin_cases a <;> rfl))
    · exact (broadcastInDim_apply _ _ _ _ (ix4 (0 : Fin 1) ⟨l.val % 128, Nat.mod_lt _ (by decide)⟩ (0 : Fin 1) ⟨l'.val % 128, Nat.mod_lt _ (by decide)⟩)
        (by intro a; fin_cases a <;> rfl)).trans (broadcastInDim_apply _ _ _ _ _ (by intro a; fin_cases a <;> rfl))

theorem A_kron_eq (l l' : Fin 1024) :
    U31 m c main_v392 (ix2 l l') = if l.val / 128 = l'.val / 128 then
      (argsR m c).A (ix2 ⟨l.val % 128, Nat.mod_lt _ (by decide)⟩ ⟨l'.val % 128, Nat.mod_lt _ (by decide)⟩) else 0 := by
  rw [akron_term, kron8_apply, eye8_apply]
  by_cases h : l.val / 128 = l'.val / 128
  · rw [if_pos (Fin.ext h), if_pos h, one_mul]; rfl
  · rw [if_neg (fun e => h (congrArg Fin.val e)), if_neg h, zero_mul]

abbrev eye14 : FVec Ideal S14x14 .f32 :=
  uitofp .f32 (cmpi .eq (addi (iotaInDim S14x14 32 0) (broadcastInDim S14x14 ![] bcast_S_S14x14 (constantI S_ 32 0#32))) (iotaInDim S14x14 32 1))

theorem eye14_apply (p q : Fin 14) : eye14 (ix2 p q) = if p = q then (1 : EReal) else 0 :=
  (eye_val p q).trans (if_congr Fin.val_inj rfl rfl)

abbrev kron14 (e : S14x14.Idx → EReal) (x : S32x16.Idx → EReal) : S448x224.Idx → EReal :=
  shapeCast S448x224
    (mulf (F := Ideal) (φ := .f32)
      (broadcastInDim S14x32x14x16 ![0, 1, 2, 3] bcast_S14x1x14x1_S14x32x14x16_0_1_2_3 (broadcastInDim S14x1x14x1 ![0, 2] bcast_S14x14_S14x1x14x1_0_2 e))
      (broadcastInDim S14x32x14x16 ![0, 1, 2, 3] bcast_S1x32x1x16_S14x32x14x16_0_1_2_3 (broadcastInDim S1x32x1x16 ![1, 3] bcast_S32x16_S1x32x1x16_1_3 x)))
    shapeCasts_S14x32x14x16_S448x224

abbrev padTheta (x : S448x224.Idx → EReal) (z : IVec S_ 32) : S512x224.Idx → EReal :=
  pad S512x224 ![0, 0] ![64, 0] ![0, 0] x (sitofp (F := Ideal) .f32 z) pads_S448x224_S512x224_0640_000 h_S_

abbrev z0 : IVec S_ 32 := constantI S_ 32 0#32

theorem theta_term : (U31 m c main_v385 : S512x224.Idx → EReal) = padTheta (kron14 eye14 (U0 m c main_arg2)) (constantI S_ 32 0#32) := by
  rw [← U24_arg m c main_arg2 (by decide)]
  unfold U31 U30 U29 U28 U27 U26 U25; generalize U24 m c = V; after_results_simp <;> rfl

theorem kron14_apply (e : S14x14.Idx → EReal) (x : S32x16.Idx → EReal) (j : Fin 448) (q : Fin 224) :
    kron14 e x (ix2 j q) = e (ix2 ⟨j.val / 32, by omega⟩ ⟨q.val / 16, by omega⟩)
      * x (ix2 ⟨j.val % 32, Nat.mod_lt _ (by decide)⟩ ⟨q.val % 16, Nat.mod_lt _ (by decide)⟩) := by
  refine (shapeCast_apply _ _ (ix2 j q) (ix4 ⟨j.val / 32, by omega⟩ ⟨j.val % 32, Nat.mod_lt _ (by decide)⟩
    ⟨q.val / 16, by omega⟩ ⟨q.val % 16, Nat.mod_lt _ (by decide)⟩) ?_).trans ?_
  · rw [Shape.rowMajor_val_four, Shape.rowMajor_val_two]
    show ((j.val / 32 * 32 + j.val % 32) * 14 + q.val / 16) * 16 + q.val % 16 = j.val * 224 + q.val
    omega
  · rw [mulf_apply]
    congr 1
    · exact (broadcastInDim_apply _ _ _ _ (ix4 ⟨j.val / 32, by omega⟩ (0 : Fin 1) ⟨q.val / 16, by omega⟩ (0 : Fin 1))
        (by intro a; fin_cases a <;> rfl)).trans (broadcastInDim_apply _ _ _ _ _ (by intro a; fin_cases a <;> rfl))
    · exact (broadcastInDim_apply _ _ _ _ (ix4 (0 : Fin 1) ⟨j.val % 32, Nat.mod_lt _ (by decide)⟩ (0 : Fin 1) ⟨q.val % 16, Nat.mod_lt _ (by decide)⟩)
        (by intro a; fin_cases a <;> rfl)).trans (broadcastInDim_apply _ _ _ _ _ (by intro a; fin_cases a <;> rfl))

theorem theta_bd_eq (j : Fin 512) (q : Fin 224) :
    U31 m c main_v385 (ix2 j q) = Cert.Spec.ThetaBD (argsR m c) j.val q.val := by
  rw [theta_term]
  unfold Cert.Spec.ThetaBD
  by_cases hj : j.val < 448
  · refine (pad_apply_of_inside _ _ _ _ _ _ _ _ (ix2 ⟨j.val, hj⟩ q) ?_).trans ?_
    · intro a; fin_cases a
      · show j.val = 0 + j.val * (0 + 1); omega
      · show q.val = 0 + q.val * (0 + 1); omega
    rw [kron14_apply, eye14_apply]
    by_cases h : j.val / 32 = q.val / 16
    · rw [if_pos (Fin.ext h), dif_pos ⟨hj, h⟩, one_mul]; rfl
    · rw [if_neg (fun e => h (congrArg Fin.val e)), dif_neg (fun e => h e.2), zero_mul]
  · rw [dif_neg (fun e => hj e.1)]
    refine (pad_apply_of_not_inside _ _ _ _ _ _ _ (ix2 j q) (0 : Fin 2) ?_).trans ?_
    · show ¬(0 ≤ j.val ∧ (j.val - 0) % (0 + 1) = 0 ∧ (j.val - 0) / (0 + 1) < 448)
      omega
    · show (((0#32 : BitVec 32).toInt : ℝ) : EReal) = 0
      simp

abbrev tile14 (ρ : Nat) (hs : S3x32.Slices ![ρ, 0] S1x32) (b : S3x32.Idx → EReal) : S448.Idx → EReal :=
  shapeCast S448 (broadcastInDim S14x32 ![0, 1] bcast_S1x32_S14x32_0_1
    (shapeCast S1x32 (shapeCast S32 (extractStridedSlice S1x32 ![ρ, 0] b hs) shapeCasts_S1x32_S32) shapeCasts_S32_S1x32)) shapeCasts_S14x32_S448

abbrev tile12 (ρ : Nat) (hs : S3x32.Slices ![ρ, 0] S1x32) (b : S3x32.Idx → EReal) : S384.Idx → EReal :=
  shapeCast S384 (broadcastInDim S12x32 ![0, 1] bcast_S1x32_S12x32_0_1
    (shapeCast S1x32 (shapeCast S32 (extractStridedSlice S1x32 ![ρ, 0] b hs) shapeCasts_S1x32_S32) shapeCasts_S32_S1x32)) shapeCasts_S12x32_S384

abbrev padB1 (x : S448.Idx → EReal) (z : IVec S_ 32) : S512.Idx → EReal :=
  pad S512 ![0] ![64] ![0] x (sitofp (F := Ideal) .f32 z) pads_S448_S512_0640 h_S_

abbrev padB2 (x : S384.Idx → EReal) (z : IVec S_ 32) : S384.Idx → EReal :=
  pad S384 ![0] ![0] ![0] x (sitofp (F := Ideal) .f32 z) pads_S384_S384_000 h_S_

abbrev cat1 (x0 x1 x2 : S512.Idx → EReal) : S1x1536.Idx → EReal :=
  broadcastInDim S1x1536 ![1] bcast_S1536_S1x1536_1
    (concatenate S1536 0 [⟨S512, x0⟩, ⟨S512, x1⟩, ⟨S512, x2⟩] concatenates_S512_S512_S512_S1536_d0)

abbrev cat2 (x0 x1 x2 : S384.Idx → EReal) : S1x1152.Idx → EReal :=
  broadcastInDim S1x1152 ![1] bcast_S1152_S1x1152_1
    (concatenate S1152 0 [⟨S384, x0⟩, ⟨S384, x1⟩, ⟨S384, x2⟩] concatenates_S384_S384_S384_S1152_d0)

set_option maxHeartbeats 4000000 in
theorem U4_v65 : (U4 m c main_v65 : S512.Idx → EReal) = padB1 (tile14 0 slices_S3x32_S1x32_0_0 (U0 m c main_arg1)) z0 := by
  unfold U4 U3 U2 U1; generalize U0 m c = V; after_results_simp <;> rfl
set_option maxHeartbeats 4000000 in
theorem U8_v131 : (U8 m c main_v131 : S512.Idx → EReal) = padB1 (tile14 1 slices_S3x32_S1x32_1_0 (U0 m c main_arg1)) z0 := by
  rw [← U4_arg m c main_arg1 (by decide)]
  unfold U8 U7 U6 U5; generalize U4 m c = V; after_results_simp <;> rfl
set_option maxHeartbeats 4000000 in
theorem U12_v197 : (U12 m c main_v197 : S512.Idx → EReal) = padB1 (tile14 2 slices_S3x32_S1x32_2_0 (U0 m c main_arg1)) z0 := by
  rw [← U8_arg m c main_arg1 (by decide)]
  unfold U12 U11 U10 U9; generalize U8 m c = V; after_results_simp <;> rfl

theorem keep_v65 : U12 m c main_v65 = U4 m c main_v65 := by
  iterate 8 refine (after_keep [main_v65] _ (by decide)).trans ?_
  rfl
theorem keep_v131 : U12 m c main_v131 = U8 m c main_v131 := by
  iterate 4 refine (after_keep [main_v131] _ (by decide)).trans ?_
  rfl
set_option maxHeartbeats 4000000 in
theorem U31_v200 : (U31 m c main_v200 : S1x1536.Idx → EReal) = cat1 (U12 m c main_v65) (U12 m c main_v131) (U12 m c main_v197) := by
  unfold U31 U30 U29 U28 U27 U26 U25 U24 U23 U22 U21 U20 U19 U18 U17 U16 U15 U14 U13; generalize U12 m c = V; after_results_simp <;> rfl

set_option maxHeartbeats 4000000 in
theorem U16_v258 : (U16 m c main_v258 : S384.Idx → EReal) = padB2 (tile12 0 slices_S3x32_S1x32_0_0 (U0 m c main_arg4)) z0 := by
  rw [← U12_arg m c main_arg4 (by decide)]
  unfold U16 U15 U14 U13; generalize U12 m c = V; after_results_simp <;> rfl
set_option maxHeartbeats 4000000 in
theorem U20_v316 : (U20 m c main_v316 : S384.Idx → EReal) = padB2 (tile12 1 slices_S3x32_S1x32_1_0 (U0 m c main_arg4)) z0 := by
  rw [← U16_arg m c main_arg4 (by decide)]
  unfold U20 U19 U18 U17; generalize U16 m c = V; after_results_simp <;> rfl
set_option maxHeartbeats 4000000 in
theorem U24_v374 : (U24 m c main_v374 : S384.Idx → EReal) = padB2 (tile12 2 slices_S3x32_S1x32_2_0 (U0 m c main_arg4)) z0 := by
  rw [← U20_arg m c main_arg4 (by decide)]
  unfold U24 U23 U22 U21; generalize U20 m c = V; after_results_simp <;> rfl

theorem keep_v258 : U24 m c main_v258 = U16 m c main_v258 := by
  iterate 8 refine (after_keep [main_v258] _ (by decide)).trans ?_
  rfl
theorem keep_v316 : U24 m c main_v316 = U20 m c main_v316 := by
  iterate 4 refine (after_keep [main_v316] _ (by decide)).trans ?_
  rfl
theorem U31_v377 : (U31 m c main_v377 : S1x1152.Idx → EReal) = cat2 (U24 m c main_v258) (U24 m c main_v316) (U24 m c main_v374) := by
  unfold U31 U30 U29 U28 U27 U26 U25; generalize U24 m c = V; after_results_simp <;> rfl

theorem tile14_apply (ρ : Nat) (hρ : ρ < 3) (hs : S3x32.Slices ![ρ, 0] S1x32) (b : S3x32.Idx → EReal) (p : Nat) (hp : p < 448) :
    tile14 ρ hs b (ix1 ⟨p, hp⟩) = b (ix2 ⟨ρ, hρ⟩ ⟨p % 32, Nat.mod_lt _ (by decide)⟩) := by
  refine (shapeCast_apply _ _ (ix1 ⟨p, hp⟩) (ix2 ⟨p / 32, by omega⟩ ⟨p % 32, Nat.mod_lt _ (by decide)⟩) ?_).trans ?_
  · rw [Shape.rowMajor_val_two, Shape.rowMajor_val_one]
    exact Nat.div_add_mod' p 32
  refine (broadcastInDim_apply _ _ _ _ (ix2 (0 : Fin 1) ⟨p % 32, Nat.mod_lt _ (by decide)⟩) ?_).trans ?_
  · intro a; fin_cases a <;> rfl
  exact (shapeCast_a_1a_apply _ _ _ _).trans ((shapeCast_1a_a_apply _ _ _).trans (slice2_axis0_apply ρ b hs (0 : Fin 1) _ ⟨ρ, hρ⟩ rfl))

theorem tile12_apply (ρ : Nat) (hρ : ρ < 3) (hs : S3x32.Slices ![ρ, 0] S1x32) (b : S3x32.Idx → EReal) (p : Nat) (hp : p < 384) :
    tile12 ρ hs b (ix1 ⟨p, hp⟩) = b (ix2 ⟨ρ, hρ⟩ ⟨p % 32, Nat.mod_lt _ (by decide)⟩) := by
  refine (shapeCast_apply _ _ (ix1 ⟨p, hp⟩) (ix2 ⟨p / 32, by omega⟩ ⟨p % 32, Nat.mod_lt _ (by decide)⟩) ?_).trans ?_
  · rw [Shape.rowMajor_val_two, Shape.rowMajor_val_one]
    exact Nat.div_add_mod' p 32
  refine (broadcastInDim_apply _ _ _ _ (ix2 (0 : Fin 1) ⟨p % 32, Nat.mod_lt _ (by decide)⟩) ?_).trans ?_
  · intro a; fin_cases a <;> rfl
  exact (shapeCast_a_1a_apply _ _ _ _).trans ((shapeCast_1a_a_apply _ _ _).trans (slice2_axis0_apply ρ b hs (0 : Fin 1) _ ⟨ρ, hρ⟩ rfl))

theorem padB2_apply (x : S384.Idx → EReal) (z : IVec S_ 32) (p : Nat) (hp : p < 384) :
    padB2 x z (ix1 ⟨p, hp⟩) = x (ix1 ⟨p, hp⟩) := by
  refine pad_apply_of_inside _ _ _ _ _ _ _ _ (ix1 ⟨p, hp⟩) ?_
  intro a; fin_cases a
  show p = 0 + p * (0 + 1); omega

-- The three pieces lie end to end: column 512 k + p of the whole is column p of piece k.
theorem cat1_apply (x : Fin 3 → S512.Idx → EReal) (k : Fin 3) (r : Fin 1536) (p : Fin 512) (h : 512 * k.val + p.val = r.val) :
    cat1 (x 0) (x 1) (x 2) (ix2 (0 : Fin 1) r) = x k (ix1 p) := by
  refine (broadcastInDim_apply _ _ _ _ (ix1 r) ?_).trans ?_
  · intro a; fin_cases a; rfl
  refine concatenate_apply_piece (0 : Fin 1) [⟨S512, x 0⟩, ⟨S512, x 1⟩, ⟨S512, x 2⟩] _ (ix1 r) k.val k.isLt S512 (x k) ?_ rfl
    (512 * k.val) ?_ (ix1 p) (fun b hb => absurd (Subsingleton.elim _ _) hb) h
  all_goals fin_cases k <;> rfl

theorem cat2_apply (x : Fin 3 → S384.Idx → EReal) (k : Fin 3) (r : Fin 1152) (p : Fin 384) (h : 384 * k.val + p.val = r.val) :
    cat2 (x 0) (x 1) (x 2) (ix2 (0 : Fin 1) r) = x k (ix1 p) := by
  refine (broadcastInDim_apply _ _ _ _ (ix1 r) ?_).trans ?_
  · intro a; fin_cases a; rfl
  refine concatenate_apply_piece (0 : Fin 1) [⟨S384, x 0⟩, ⟨S384, x 1⟩, ⟨S384, x 2⟩] _ (ix1 r) k.val k.isLt S384 (x k) ?_ rfl
    (384 * k.val) ?_ (ix1 p) (fun b hb => absurd (Subsingleton.elim _ _) hb) h
  all_goals fin_cases k <;> rfl

theorem B1_of (a : Cert.Spec.Args) (r : Nat) (hk : r / 512 < 3) :
    Cert.Spec.B1 a r = if r % 512 < 448 then a.t1b (ix2 ⟨r / 512, hk⟩ ⟨r % 512 % 32, Nat.mod_lt _ (by decide)⟩) else 0 := by
  unfold Cert.Spec.B1 Cert.Spec.bandBias
  by_cases h : r % 512 < 448
  · rw [if_pos h, dif_pos ⟨hk, by omega⟩]
  · rw [if_neg h, dif_neg (by omega)]

theorem B2_of (a : Cert.Spec.Args) (r : Nat) (hk : r / 384 < 3) :
    Cert.Spec.B2 a r = a.t2b (ix2 ⟨r / 384, hk⟩ ⟨r % 384 % 32, Nat.mod_lt _ (by decide)⟩) := by
  unfold Cert.Spec.B2 Cert.Spec.bandBias
  rw [dif_pos ⟨hk, by omega⟩]

theorem padTile1 (ρ : Nat) (hρ : ρ < 3) (hs : S3x32.Slices ![ρ, 0] S1x32) (b : S3x32.Idx → EReal) (p : Nat) (hp : p < 512) :
    padB1 (tile14 ρ hs b) z0 (ix1 ⟨p, hp⟩) = if p < 448 then b (ix2 ⟨ρ, hρ⟩ ⟨p % 32, Nat.mod_lt _ (by decide)⟩) else 0 := by
  by_cases h : p < 448
  · rw [if_pos h, ← tile14_apply ρ hρ hs b p h]
    refine pad_apply_of_inside _ _ _ _ _ _ _ _ (ix1 ⟨p, h⟩) ?_
    intro a; fin_cases a
    show p = 0 + p * (0 + 1); omega
  · rw [if_neg h]
    refine (pad_apply_of_not_inside _ _ _ _ _ _ _ (ix1 ⟨p, hp⟩) (0 : Fin 1) ?_).trans ?_
    · show ¬(0 ≤ p ∧ (p - 0) % (0 + 1) = 0 ∧ (p - 0) / (0 + 1) < 448)
      omega
    · show (((0#32 : BitVec 32).toInt : ℝ) : EReal) = 0
      simp

theorem b1_eq (r : Fin 1536) : U31 m c main_v200 (ix2 (0 : Fin 1) r) = Cert.Spec.B1 (argsR m c) r.val := by
  rw [U31_v200 m c, keep_v65 m c, U4_v65 m c, keep_v131 m c, U8_v131 m c, U12_v197 m c]
  have H : ∀ k : Fin 3, S3x32.Slices ![k.val, 0] S1x32 := by decide
  have hk : r.val / 512 < 3 := by omega
  refine (cat1_apply (fun k => padB1 (tile14 k.val (H k) (U0 m c main_arg1)) z0) ⟨_, hk⟩ r
    ⟨r.val % 512, Nat.mod_lt _ (by decide)⟩ (Nat.div_add_mod _ _)).trans ?_
  rw [padTile1 _ hk, B1_of (argsR m c) r.val hk]
  rfl

theorem b2_eq (r : Fin 1152) : U31 m c main_v377 (ix2 (0 : Fin 1) r) = Cert.Spec.B2 (argsR m c) r.val := by
  rw [U31_v377 m c, keep_v258 m c, U16_v258 m c, keep_v316 m c, U20_v316 m c, U24_v374 m c]
  have H : ∀ k : Fin 3, S3x32.Slices ![k.val, 0] S1x32 := by decide
  have hk : r.val / 384 < 3 := by omega
  refine (cat2_apply (fun k => padB2 (tile12 k.val (H k) (U0 m c main_arg4)) z0) ⟨_, hk⟩ r
    ⟨r.val % 384, Nat.mod_lt _ (by decide)⟩ (Nat.div_add_mod _ _)).trans ?_
  rw [padB2_apply, tile12_apply _ hk, B2_of (argsR m c) r.val hk]
  rfl

end Cert.ReferenceIdeal.Val

end
-- ==== Proof.RTailHost.lean ====
import proofs.«181364_g2000406351686535_pallasbulk_564_19_alg».proof.Proof.Gen.ReferenceIdeal.Launch
import proofs.«181364_g2000406351686535_pallasbulk_564_19_alg».proof.Proof.Spec
import Idealize.ShloMosaic.Lib.IdealHost
import Idealize.ShloMosaic.Lib.ValueLayout
import Idealize.ShloMosaic.Lib.StableHlo.Run

set_option maxRecDepth 4000
set_option maxHeartbeats 4000000

noncomputable section

namespace Cert.ReferenceIdeal.Val

open Idealize.ShloMosaic Idealize.ShloMosaic.TcCoe Idealize.ShloMosaic.ValueIdx Idealize.ShloMosaic.StableHlo
open Cert.ReferenceIdeal Cert.ReferenceIdeal.Gen

-- Row-major position of (t, 0) in [n, 1] is t.
theorem cast_n1_apply {n : Nat} (x : (⟨2, ![n, 1]⟩ : Shape).Idx → EReal) (h : (⟨2, ![n, 1]⟩ : Shape).ShapeCasts ⟨1, ![n]⟩)
    (t : Fin n) : shapeCast ⟨1, ![n]⟩ x h (ix1 t) = x (ix2 t 0) :=
  shapeCast_apply x h _ _ (by
    rw [Shape.rowMajor_val_two, Shape.rowMajor_val_one]
    show t.val * 1 + 0 = t.val
    rw [Nat.mul_one, Nat.add_zero])

-- A sum over axis 0 from zero is the sum of the rows; row k of [m, n, 1] read as [m, n] sits at the same position.
theorem reduce_cast_rows {m n : Nat} {u : Shape} (x : (⟨3, ![m, n, 1]⟩ : Shape).Idx → EReal)
    (hc : (⟨3, ![m, n, 1]⟩ : Shape).ShapeCasts ⟨2, ![m, n]⟩) (init : u.Idx → Ideal .f32)
    (h' : (⟨2, ![m, n]⟩ : Shape).ReducesTo [0] (⟨1, ![n]⟩ : Shape)) (h : (⟨2, ![m, n]⟩ : Shape).Reduces [0] (⟨1, ![n]⟩ : Shape))
    (hu : 0 < u.numel) (h0 : init (Shape.Idx.first hu) = 0) (t : Fin n) :
    Host.reduceAdd (φ := .f32) (fun i => shapeCast ⟨2, ![m, n]⟩ x hc i) init h' hu (ix1 t) = ∑ k : Fin m, x (ix3 k t 0) := by
  rw [hostReduceAdd_apply, Ideal.hostReduceAdd_single h' h, h0, zero_add]
  exact Finset.sum_congr rfl fun k _ => shapeCast_apply x hc _ (ix3 (⟨k.val, k.isLt⟩ : Fin m) t 0) (by
    rw [Shape.rowMajor_val_three, Shape.rowMajor_val_two]
    show (k.val * n + t.val) * 1 + 0 = k.val * n + t.val
    rw [Nat.mul_one, Nat.add_zero])

theorem zero_init : (constant (F := Ideal) S_ .f32 0x00000000#32) (Shape.Idx.first h_S_) = 0 := by
  rw [constant_apply]; exact Ideal.ofBits_zero_f32

variable (W : Valuation τ sig (Elt Ideal)) (a : Spec.Args)

-- (b, n, 32 t + ch) in [256, 128, 384] and (b, n, t, ch) in [256, 128, 12, 32] have one row-major position.
theorem result_host (b : Fin 256) (n : Fin 128) (t : Fin 12) (ch : Fin 32) :
    (after hostOps2 W main_v419 : S256x128x12x32.Idx → EReal) (ix4 b n t ch)
      = (W main_v418 : S256x128x384.Idx → EReal) (ix3 b n ⟨32 * t.val + ch.val, by omega⟩) := by
  dsimp only [hostOps2]
  after_results
  refine shapeCast_apply _ _ _ _ ((Shape.rowMajor_val_three _).trans (Eq.trans ?_ (Shape.rowMajor_val_four _).symm))
  show (b.val * 128 + n.val) * 384 + (32 * t.val + ch.val) = ((b.val * 128 + n.val) * 12 + t.val) * 32 + ch.val
  omega

variable (hg : ∀ n : Fin 128, (W main_arg5 : S128x1.Idx → EReal) (ix2 n 0) = a.g (ix2 n 0))
  (hbe : ∀ n : Fin 128, (W main_arg6 : S128x1.Idx → EReal) (ix2 n 0) = a.be (ix2 n 0))
  (hs1 : ∀ (b : Fin 256) (n : Fin 128), (W main_v394_1 : S256x128x1.Idx → EReal) (ix3 b n 0)
    = ∑ u : Fin 384, Spec.t3 a b n u.val)
  (hs2 : ∀ (b : Fin 256) (n : Fin 128), (W main_v394_2 : S256x128x1.Idx → EReal) (ix3 b n 0)
    = ∑ u : Fin 384, Spec.t3 a b n u.val * Spec.t3 a b n u.val)

include hg hs1 hs2 in
-- The host's arithmetic read entry by entry, over the batches' sums.
theorem stats_host (n : Fin 128) (be : EReal) (hb : (W main_arg6 : S128x1.Idx → EReal) (ix2 n 0) = be) :
    (after hostOps1 W main_v412 : S128x1.Idx → EReal) (ix2 n 0) = Spec.scale a n
      ∧ (after hostOps1 W main_v417 : S128x1.Idx → EReal) (ix2 n 0) = be - Spec.mean a n * a.g (ix2 n 0) * Spec.inv a n := by
  constructor <;>
  · dsimp only [hostOps1]
    after_results_simp
    refine (broadcastInDim_apply _ _ _ _ (ix1 n) (fun a => by fin_cases a; rfl)).trans ?_
    simp only [mulf_apply, addf_apply, subf_apply, maximumf_apply, hostDivf_apply, Host.rsqrt]
    erw [reduce_cast_rows (m := 256) (n := 128) _ _ _ _ (by decide) _ zero_init n,
      reduce_cast_rows (m := 256) (n := 128) _ _ _ _ (by decide) _ zero_init n, cast_n1_apply]
    try erw [cast_n1_apply]
    rw [broadcastInDim_scalar_apply, broadcastInDim_scalar_apply, broadcastInDim_scalar_apply]
    simp only [constant_apply, hg, hb, hs1, hs2]
    rw [Ideal.ofBits_zero_f32]
    rfl

include hg hs1 hs2 in
theorem scale_host (n : Fin 128) : (after hostOps1 W main_v412 : S128x1.Idx → EReal) (ix2 n 0) = Spec.scale a n :=
  (stats_host W a hg hs1 hs2 n _ rfl).1

include hg hbe hs1 hs2 in
theorem shift_host (n : Fin 128) : (after hostOps1 W main_v417 : S128x1.Idx → EReal) (ix2 n 0) = Spec.shift a n :=
  (stats_host W a hg hs1 hs2 n _ (hbe n)).2

end Cert.ReferenceIdeal.Val
end
-- ==== Proof.RTail.lean ====
import proofs.«181364_g2000406351686535_pallasbulk_564_19_alg».proof.Proof.RDefs
import proofs.«181364_g2000406351686535_pallasbulk_564_19_alg».proof.Proof.RTailHost
import proofs.«181364_g2000406351686535_pallasbulk_564_19_alg».proof.Proof.RWeights
import proofs.«181364_g2000406351686535_pallasbulk_564_19_alg».proof.Proof.RFrame
import Idealize.ShloMosaic.Lib.Pipeline.Value
import Idealize.ShloMosaic.Lib.ValueIdx
import Idealize.ShloMosaic.Lib.ValueLayout

set_option maxRecDepth 4000

noncomputable section

namespace Cert.ReferenceIdeal.Val

open Idealize.ShloMosaic Idealize.ShloMosaic.TcCoe Idealize.ShloMosaic.ValueIdx
open Cert.ReferenceIdeal Cert.ReferenceIdeal.Gen Cert.ReferenceIdeal.Run

-- A column of 128 broadcast over a [8, 128, 384] block reads the column's entry at the node.
theorem bn_pay_apply (sc sh : S128x1.Idx → EReal) (x : S8x128x384.Idx → EReal) (p : Fin 8) (n : Fin 128) (u : Fin 384) :
    k1_pay1 (F := Ideal) sc sh x (ix3 p n u) = x (ix3 p n u) * sc (ix2 n 0) + sh (ix2 n 0) := by
  unfold k1_pay1
  simp only [addf_apply, mulf_apply, shapeCast_self]
  rw [broadcastTo_apply _ _ (ix3 p n u) (ix3 (0 : Fin 1) n (0 : Fin 1)) (fun a => by fin_cases a <;> rfl),
    broadcastTo_apply _ _ (ix3 p n u) (ix3 (0 : Fin 1) n (0 : Fin 1)) (fun a => by fin_cases a <;> rfl),
    shapeCast_ab_1ab_apply, shapeCast_ab_1ab_apply]

theorem zero3 : (![0, 0, 0] : Fin 3 → Nat) = fun _ => 0 := funext fun a => by fin_cases a <;> rfl
theorem zero2 : (![0, 0] : Fin 2 → Nat) = fun _ => 0 := funext fun a => by fin_cases a <;> rfl

theorem idx_facts1 : ∀ t : Fin cfg1.N, win1_0.index t = win1_3.index t
    ∧ win1_1.index t = (fun _ => 0) ∧ win1_2.index t = (fun _ => 0) ∧ win1_3.index t = ![t.val, 0, 0] :=
  (by decide +kernel : ∀ t : Fin grid1.N, _)

abbrev bnG (X : S256x128x384.Idx → EReal) (sc sh : S128x1.Idx → EReal) : S256x128x384.Idx → EReal :=
  fun i => X i * sc (ix2 (i 1) 0) + sh (ix2 (i 1) 0)

theorem bnG_apply (X : S256x128x384.Idx → EReal) (sc sh : S128x1.Idx → EReal) (b : Fin 256) (n : Fin 128) (u : Fin 384) :
    bnG X sc sh (ix3 b n u) = X (ix3 b n u) * sc (ix2 n 0) + sh (ix2 n 0) := rfl

section Blocks
variable (V : (c : Dev nD) → (b : Ref sig .tc) → Buf (Elt Ideal) ((c : Thread nD τ).loc b)) (c : Dev nD)

-- The embeddings of an index of the block agree coordinate by coordinate, by the index facts.
theorem flushed1_3_eq (t : Fin cfg1.N) :
    (dat1 V c).flushed 3 t = ((cfg1.win 3).blk t).view.read (Elt Ideal)
      (bnG (V c main_v394_0) (V c main_v412) (V c main_v417)) := by
  show (cfg1.win 3).cut (grid1.coords t) ((dat1 V c).after 3 t) = _
  dsimp only [dat1]
  unfold out1_3
  rw [View.canon_unit_zero zero3]
  simp only [View.ld_unit_zero (S := S8x128x384) zero3, View.ld_unit_zero (S := S128x1) zero2]
  obtain ⟨e0, e1, e2, e3⟩ := idx_facts1 t
  funext j
  obtain ⟨p, n, u, rfl⟩ : ∃ (p : Fin 8) (n : Fin 128) (u : Fin 384), j = ix3 p n u := ⟨j 0, j 1, j 2, eq_ix3 j⟩
  have hn : (ix2 n 0 : S128x1.Idx) = ix2 (((cfg1.win 3).blk t).view.emb (ix3 p n u) 1) 0 :=
    congrArg (ix2 · (0 : Fin 1)) (Fin.ext (win1_3.rect_emb_val_of_index_zero t 1 (congrFun e3 1) (ix3 p n u))).symm
  have h0 : iblk1 V c 0 t (ix3 p n u) = V c main_v394_0 (((cfg1.win 3).blk t).view.emb (ix3 p n u)) :=
    congrArg (V c main_v394_0) (funext fun a => Fin.ext
      (show win1_0.index t a * _ + _ = win1_3.index t a * _ + _ from congrArg (· * _ + _) (congrFun e0 a)))
  have h1 : iblk1 V c 1 t (ix2 n 0) = V c main_v412 (ix2 (((cfg1.win 3).blk t).view.emb (ix3 p n u) 1) 0) :=
    congrArg (V c main_v412) ((funext fun a => Fin.ext (win1_1.rect_emb_val_of_index_zero t a (congrFun e1 a) _)).trans hn)
  have h2 : iblk1 V c 2 t (ix2 n 0) = V c main_v417 (ix2 (((cfg1.win 3).blk t).view.emb (ix3 p n u) 1) 0) :=
    congrArg (V c main_v417) ((funext fun a => Fin.ext (win1_2.rect_emb_val_of_index_zero t a (congrFun e2 a) _)).trans hn)
  refine (bn_pay_apply _ _ _ p n u).trans ?_
  rw [h0, h1, h2]
  rfl

-- Batch b lies in block b / 8, and each block spans the other two axes whole.
theorem covered1_3 (i : S256x128x384.Idx) :
    ∃ t : Fin cfg1.N, (cfg1.win 3).flush t = true ∧ i ∈ ((cfg1.win 3).blk t).view.set := by
  have hi0 : (i 0).val < 256 := (i 0).isLt
  have hi1 : (i 1).val < 128 := (i 1).isLt
  have hi2 : (i 2).val < 384 := (i 2).isLt
  obtain ⟨t, ht⟩ : ∃ t : Fin cfg1.N, t.val = (i 0).val / 8 :=
    ⟨⟨_, by show (i 0).val / 8 < grid1.N; rw [N_1]; omega⟩, rfl⟩
  refine ⟨t, flush1_3 t, ?_⟩
  show i ∈ ((View.whole main_v418).slice (win1_3.rect t)).set
  rw [View.set_slice_whole, Rect.mem_set_unit]
  intro a
  show win1_3.index t a * S8x128x384.size a ≤ (i a).val ∧ (i a).val < win1_3.index t a * S8x128x384.size a + S8x128x384.size a
  rw [(idx_facts1 t).2.2.2]
  match a with
  | ⟨0, _⟩ => show t.val * 8 ≤ (i 0).val ∧ (i 0).val < t.val * 8 + 8; omega
  | ⟨1, _⟩ => show 0 * 128 ≤ (i 1).val ∧ (i 1).val < 0 * 128 + 128; omega
  | ⟨2, _⟩ => show 0 * 384 ≤ (i 2).val ∧ (i 2).val < 0 * 384 + 384; omega

theorem final1_3 : (dat1 V c).arrAt 3 cfg1.N = bnG (V c main_v394_0) (V c main_v412) (V c main_v417) :=
  (dat1 V c).arrAt_eq_of_cover 3 _ (fun t _ => flushed1_3_eq V c t) covered1_3

end Blocks

section Glue
variable (m : (ℓ : Loc nD τ sig) → Buf (Elt Ideal) ℓ) (c : Dev nD)

-- Nothing later writes an argument, so what it holds here is what it holds at the end.
theorem W32_arg {r : Ref sig .tc} (hr : r ∈ argRefs) :
    W32 m c (Proc.devRef .tc r) = m ((c : Thread nD τ).loc r) :=
  (hostOps1_keeps hr _).symm.trans <| (W34_of_ne m c r
    ((by decide : ∀ r ∈ argRefs, ∀ w : Fin cfg1.W, Pipeline.arrRef spec1 w ≠ r) r hr)).symm.trans <|
    (hostOps2_keeps hr _).symm.trans (Wend_of_arg m hr c)

theorem keep_v394_0 (W : Valuation τ sig (Elt Ideal)) :
    StableHlo.after hostOps1 W main_v394_0 = W main_v394_0 := by
  dsimp only [hostOps1]; after_results_simp

variable
  (h7 : ∀ (b : Fin 256) (n : Fin 128) (u : Fin 384),
    ((dat0 (V31 m) c).arrAt 7 cfg0.N : S256x128x384.Idx → EReal) (ix3 b n u) = Cert.Spec.t3 (argsR m c) b n u.val)
  (h8 : ∀ (b : Fin 256) (n : Fin 128),
    ((dat0 (V31 m) c).arrAt 8 cfg0.N : S256x128x1.Idx → EReal) (ix3 b n 0) = ∑ u : Fin 384, Cert.Spec.t3 (argsR m c) b n u.val)
  (h9 : ∀ (b : Fin 256) (n : Fin 128),
    ((dat0 (V31 m) c).arrAt 9 cfg0.N : S256x128x1.Idx → EReal) (ix3 b n 0)
      = ∑ u : Fin 384, Cert.Spec.t3 (argsR m c) b n u.val * Cert.Spec.t3 (argsR m c) b n u.val)

include h7 h8 h9 in
-- Entry by entry: the first kernel's output there, times its node's scale plus its node's shift.
theorem result_of_arrays :
    (Wend m c main_v419 : S256x128x12x32.Idx → EReal) = Cert.Spec.out (argsR m c) := by
  funext j
  obtain ⟨b, n, t, ch, rfl⟩ : ∃ (b : Fin 256) (n : Fin 128) (t : Fin 12) (ch : Fin 32), j = ix4 b n t ch :=
    ⟨j 0, j 1, j 2, j 3, eq_ix4 j⟩
  refine (result_host (W34 m c) b n t ch).trans ?_
  rw [show (W34 m c main_v418 : S256x128x384.Idx → EReal)
      = bnG (V33 m c main_v394_0) (V33 m c main_v412) (V33 m c main_v417) from (W34_arr m c 3).trans (final1_3 (V33 m) c)]
  have hg := fun n : Fin 128 => congrFun (W32_arg m c (r := main_arg5) (by decide)) (ix2 n (0 : Fin 1))
  have hbe := fun n : Fin 128 => congrFun (W32_arg m c (r := main_arg6) (by decide)) (ix2 n (0 : Fin 1))
  have hs1 := fun (b : Fin 256) (n : Fin 128) => (congrFun (W32_arr m c 8) (ix3 b n (0 : Fin 1))).trans (h8 b n)
  have hs2 := fun (b : Fin 256) (n : Fin 128) => (congrFun (W32_arr m c 9) (ix3 b n (0 : Fin 1))).trans (h9 b n)
  have x0 : ∀ u : Fin 384, (V33 m c main_v394_0 : S256x128x384.Idx → EReal) (ix3 b n u) = Cert.Spec.t3 (argsR m c) b n u.val :=
    fun u => (congrFun ((keep_v394_0 (W32 m c)).trans (W32_arr m c 7)) (ix3 b n u)).trans (h7 b n u)
  have x1 : (V33 m c main_v412 : S128x1.Idx → EReal) (ix2 n 0) = Cert.Spec.scale (argsR m c) n :=
    scale_host (W32 m c) (argsR m c) hg hs1 hs2 n
  have x2 : (V33 m c main_v417 : S128x1.Idx → EReal) (ix2 n 0) = Cert.Spec.shift (argsR m c) n :=
    shift_host (W32 m c) (argsR m c) hg hbe hs1 hs2 n
  refine (bnG_apply _ _ _ b n _).trans ?_
  rw [x0, x1, x2]
  rfl

end Glue

end Cert.ReferenceIdeal.Val
end
-- ==== Proof.LibScatterSet.lean ====
import Idealize.ShloMosaic.PureOps.ShapeOps
import Idealize.ShloMosaic.PureOps.Dims

namespace Idealize.ShloMosaic

variable {α : Type} {s si u : Shape} {w : Nat}

private abbrev setStep (d : ScatterDims s si u) (idx : IVec si w) (upd : u.Idx → α) (r : s.Idx → α) (n : Fin u.numel) :
    s.Idx → α :=
  match d.resultIdx? (u.rowMajor.symm n) idx with
  | some i => fun i' => if i' = i then (fun _ b => b) (r i) (upd (u.rowMajor.symm n)) else r i'
  | none => r

private theorem setStep_ne (d : ScatterDims s si u) (idx : IVec si w) (upd : u.Idx → α) (r : s.Idx → α) (n : Fin u.numel)
    (i : s.Idx) (h : d.resultIdx? (u.rowMajor.symm n) idx ≠ some i) : setStep d idx upd r n i = r i := by
  unfold setStep
  generalize d.resultIdx? (u.rowMajor.symm n) idx = o at h ⊢
  cases o with
  | none => rfl
  | some i₀ =>
    have : i ≠ i₀ := fun e => h (e ▸ rfl)
    show (if i = i₀ then _ else r i) = r i
    rw [if_neg this]

private theorem setStep_eq (d : ScatterDims s si u) (idx : IVec si w) (upd : u.Idx → α) (r : s.Idx → α) (n : Fin u.numel)
    (i : s.Idx) (h : d.resultIdx? (u.rowMajor.symm n) idx = some i) : setStep d idx upd r n i = upd (u.rowMajor.symm n) := by
  unfold setStep
  generalize d.resultIdx? (u.rowMajor.symm n) idx = o at h ⊢
  cases o with
  | none => exact absurd h (by simp)
  | some i₀ =>
    have : i = i₀ := (Option.some.inj h).symm
    show (if i = i₀ then _ else r i) = _
    rw [if_pos this]

private theorem fold_miss (d : ScatterDims s si u) (idx : IVec si w) (upd : u.Idx → α) (i : s.Idx) :
    ∀ (l : List (Fin u.numel)) (r : s.Idx → α), (∀ n ∈ l, d.resultIdx? (u.rowMajor.symm n) idx ≠ some i) →
      l.foldl (setStep d idx upd) r i = r i
  | [], _, _ => rfl
  | n :: l, r, h => by
    rw [List.foldl_cons, fold_miss d idx upd i l _ fun n' hn' => h n' (List.mem_cons_of_mem _ hn'),
      setStep_ne d idx upd r n i (h n List.mem_cons_self)]

private theorem fold_hit (d : ScatterDims s si u) (idx : IVec si w) (upd : u.Idx → α) (i : s.Idx) (n₀ : Fin u.numel)
    (h₀ : d.resultIdx? (u.rowMajor.symm n₀) idx = some i) :
    ∀ (l : List (Fin u.numel)) (r : s.Idx → α), n₀ ∈ l → (∀ n ∈ l, d.resultIdx? (u.rowMajor.symm n) idx = some i → n = n₀) →
      l.foldl (setStep d idx upd) r i = upd (u.rowMajor.symm n₀)
  | [], _, hm, _ => absurd hm (by simp)
  | n :: l, r, hm, hu => by
    rw [List.foldl_cons]
    by_cases hl : n₀ ∈ l
    · exact fold_hit d idx upd i n₀ h₀ l _ hl fun n' hn' => hu n' (List.mem_cons_of_mem _ hn')
    · have hn : n = n₀ := by
        rcases List.mem_cons.1 hm with e | e
        · exact e.symm
        · exact absurd e hl
      rw [fold_miss d idx upd i l _ fun n' hn' e => hl (hu n' (List.mem_cons_of_mem _ hn') e ▸ hn'), hn,
        setStep_eq d idx upd r n₀ i h₀]

-- A scatter whose combiner keeps the update, read at an index: the one update that lands there, else the operand's entry.
theorem Host.scatter_overwrite_hit (d : ScatterDims s si u) (x : s.Idx → α) (idx : IVec si w) (upd : u.Idx → α) (i : s.Idx)
    (j : u.Idx) (hj : d.resultIdx? j idx = some i) (huniq : ∀ j', d.resultIdx? j' idx = some i → j' = j) :
    Host.scatter d (fun _ b => b) x idx upd i = upd j := by
  have h := fold_hit d idx upd i (u.rowMajor j) (by rw [Equiv.symm_apply_apply]; exact hj) (List.finRange u.numel) x
    (List.mem_finRange _) (fun n _ hn => by rw [← huniq _ hn, Equiv.apply_symm_apply])
  rw [Equiv.symm_apply_apply] at h
  exact h

theorem Host.scatter_overwrite_miss (d : ScatterDims s si u) (x : s.Idx → α) (idx : IVec si w) (upd : u.Idx → α) (i : s.Idx)
    (hmiss : ∀ j, d.resultIdx? j idx ≠ some i) : Host.scatter d (fun _ b => b) x idx upd i = x i :=
  fold_miss d idx upd i (List.finRange u.numel) x fun n _ => hmiss _

theorem ScatterDims.resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h a
    by_cases hc : ∀ a, 0 ≤ d.start j idx a + (d.window j a : Int) ∧ d.start j idx a + (d.window j a : Int) < s.size a
    · rw [dif_pos hc] at h
      have e := congrArg Fin.val (congrFun (Option.some.inj h) a)
      have h0 := (hc a).1
      simp only at e
      omega
    · rw [dif_neg hc] at h
      exact absurd h (by simp)
  · intro h
    have hc : ∀ a, 0 ≤ d.start j idx a + (d.window j a : Int) ∧ d.start j idx a + (d.window j a : Int) < s.size a :=
      fun a => by rw [h a]; exact ⟨Int.natCast_nonneg _, by exact_mod_cast (i a).isLt⟩
    rw [dif_pos hc]
    congr 1
    funext a
    apply Fin.ext
    show (d.start j idx a + (d.window j a : Int)).toNat = (i a).val
    rw [h a, Int.toNat_natCast]

section Window

variable {n : Nat} {ds du : Fin (n + 1) → Nat}

theorem Host.scatter_overwrite_window_in (d : ScatterDims ⟨n + 1, ds⟩ si ⟨n + 1, du⟩) (x : Shape.Idx ⟨n + 1, ds⟩ → α)
    (idx : IVec si w) (upd : Shape.Idx ⟨n + 1, du⟩ → α) (k : Int)
    (hstart : ∀ j a, d.start j idx a = if a = 0 then k else 0)
    (hwin : ∀ (j : Shape.Idx ⟨n + 1, du⟩) a, d.window j a = (j a).val)
    (i : Shape.Idx ⟨n + 1, ds⟩) (j : Shape.Idx ⟨n + 1, du⟩)
    (hj0 : ((i 0).val : Int) = k + ((j 0).val : Int)) (hja : ∀ a, a ≠ 0 → (i a).val = (j a).val) :
    Host.scatter d (fun _ b => b) x idx upd i = upd j := by
  refine Host.scatter_overwrite_hit d x idx upd i j ?_ ?_
  · rw [ScatterDims.resultIdx?_eq_some_iff]
    intro a
    rw [hstart, hwin]
    by_cases ha : a = 0
    · subst ha; rw [if_pos rfl]; exact hj0.symm
    · rw [if_neg ha, zero_add, hja a ha]
  · intro j' hj'
    rw [ScatterDims.resultIdx?_eq_some_iff] at hj'
    funext a
    apply Fin.ext
    have e := hj' a
    rw [hstart, hwin] at e
    by_cases ha : a = 0
    · subst ha; rw [if_pos rfl] at e; omega
    · rw [if_neg ha, zero_add] at e
      have := hja a ha
      omega

theorem Host.scatter_overwrite_window_out (d : ScatterDims ⟨n + 1, ds⟩ si ⟨n + 1, du⟩) (x : Shape.Idx ⟨n + 1, ds⟩ → α)
    (idx : IVec si w) (upd : Shape.Idx ⟨n + 1, du⟩ → α) (k : Int)
    (hstart : ∀ j a, d.start j idx a = if a = 0 then k else 0)
    (hwin : ∀ (j : Shape.Idx ⟨n + 1, du⟩) a, d.window j a = (j a).val)
    (i : Shape.Idx ⟨n + 1, ds⟩) (hout : ((i 0).val : Int) < k ∨ k + (du 0 : Int) ≤ ((i 0).val : Int)) :
    Host.scatter d (fun _ b => b) x idx upd i = x i := by
  refine Host.scatter_overwrite_miss d x idx upd i fun j hj => ?_
  rw [ScatterDims.resultIdx?_eq_some_iff] at hj
  have e := hj 0
  rw [hstart, hwin, if_pos rfl] at e
  have hlt : (j 0).val < du 0 := (j 0).isLt
  omega

end Window

end Idealize.ShloMosaic
-- ==== Proof.RBand.lean ====
import proofs.«181364_g2000406351686535_pallasbulk_564_19_alg».proof.Proof.Gen.ReferenceIdeal.Launch
import proofs.«181364_g2000406351686535_pallasbulk_564_19_alg».proof.Proof.Spec
import proofs.«181364_g2000406351686535_pallasbulk_564_19_alg».proof.Proof.LibScatterSet
import Idealize.ShloMosaic.Lib.ValueIdx
import Idealize.ShloMosaic.Lib.ValueLayout
import Idealize.ShloMosaic.Lib.StableHlo.Run
import Idealize.ShloMosaic.Lib.Pipeline.Value
import Idealize.ShloMosaic.PureOps.Ideal.Laws
import Idealize.ShloMosaic.Lib.KernelVsHost

set_option maxRecDepth 8000

noncomputable section

namespace Cert.ReferenceIdeal.Val

open Idealize.ShloMosaic Idealize.ShloMosaic.TcCoe Idealize.ShloMosaic.ValueIdx
open Cert.ReferenceIdeal Cert.ReferenceIdeal.Gen

macro "read_after" : tactic =>
  `(tactic| (simp (disch := decide) only [Idealize.ShloMosaic.StableHlo.after_cons, Idealize.ShloMosaic.StableHlo.after_nil, ↓Idealize.ShloMosaic.StableHlo.nullary_result', ↓Idealize.ShloMosaic.StableHlo.unary_result', ↓Idealize.ShloMosaic.StableHlo.binary_result', ↓Idealize.ShloMosaic.StableHlo.ternary_result', ↓Idealize.ShloMosaic.StableHlo.quaternary_result', ↓Idealize.ShloMosaic.StableHlo.reshape_result', ↓Idealize.ShloMosaic.StableHlo.nary_result', ↓Idealize.ShloMosaic.StableHlo.nullary_result_ne', ↓Idealize.ShloMosaic.StableHlo.unary_result_ne', ↓Idealize.ShloMosaic.StableHlo.binary_result_ne', ↓Idealize.ShloMosaic.StableHlo.ternary_result_ne', ↓Idealize.ShloMosaic.StableHlo.quaternary_result_ne', ↓Idealize.ShloMosaic.StableHlo.reshape_result_ne', ↓Idealize.ShloMosaic.StableHlo.nary_result_ne']))

theorem toInt_small (t : Nat) (h : t < 16) : (BitVec.ofNat 32 t).toInt = (t : Int) := by
  interval_cases t <;> rfl

def tblock16 (w : S3x16x32.Idx → EReal) (k : BitVec 32) : S256x32.Idx → EReal :=
  shapeCast S256x32 (Host.scatter scatter_S16x16x32_S1_S3x16x32_012_n_0_0 (fun _ b => b)
    (broadcastInDim S16x16x32 ![] bcast_S_S16x16x32 (constant (F := Ideal) S_ .f32 0x00000000#32))
    (broadcastInDim S1 ![] bcast_S_S1 (constantI S_ 32 k)) w) shapeCasts_S16x16x32_S256x32

def tblock14 (w : S3x16x32.Idx → EReal) (k : BitVec 32) : S224x32.Idx → EReal :=
  shapeCast S224x32 (Host.scatter scatter_S14x16x32_S1_S3x16x32_012_n_0_0 (fun _ b => b)
    (broadcastInDim S14x16x32 ![] bcast_S_S14x16x32 (constant (F := Ideal) S_ .f32 0x00000000#32))
    (broadcastInDim S1 ![] bcast_S_S1 (constantI S_ 32 k)) w) shapeCasts_S14x16x32_S224x32

-- the three taps overwrite rows t, t + 1, t + 2 of m zero rows; row i / 16 of the merged block is hit iff it is one of them
theorem tblock_apply {m R : Nat} (hR : R = 16 * m) (d : ScatterDims ⟨3, ![m, 16, 32]⟩ S1 S3x16x32)
    (hd : ∀ (k : BitVec 32) (j : S3x16x32.Idx) (a : Fin 3),
      d.start j (broadcastInDim S1 ![] bcast_S_S1 (constantI S_ 32 k)) a = (if a = 0 then k.toInt else 0) ∧ d.window j a = (j a).val)
    (z : _) (hz : ∀ i, z i = 0) (hc : _) (w : S3x16x32.Idx → EReal) (t T : Nat) (hT : t < T) (ht : t + 3 ≤ m) (hm : m ≤ 16)
    (i : Fin R) (c : Fin 32) :
    shapeCast ⟨2, ![R, 32]⟩ (Host.scatter d (fun _ b => b) z
        (broadcastInDim S1 ![] bcast_S_S1 (constantI S_ 32 (BitVec.ofNat 32 t))) w) hc (ix2 i c) =
      if h : t < T ∧ t ≤ i.val / 16 ∧ i.val / 16 < t + 3 then
        w (ix3 ⟨i.val / 16 - t, by omega⟩ ⟨i.val % 16, Nat.mod_lt _ (by decide)⟩ c)
      else 0 := by
  have hi := i.isLt
  have hs := fun j a => (hd _ j a).1.trans (congrArg (fun v => if a = 0 then v else 0) (toInt_small t (by omega)))
  refine (shapeCast_apply _ hc (ix2 i c) (ix3 ⟨i.val / 16, by omega⟩ ⟨i.val % 16, Nat.mod_lt _ (by decide)⟩ c) ?_).trans ?_
  · rw [Shape.rowMajor_val_three, Shape.rowMajor_val_two]
    show (i.val / 16 * 16 + i.val % 16) * 32 + c.val = i.val * 32 + c.val
    omega
  by_cases h : t ≤ i.val / 16 ∧ i.val / 16 < t + 3
  · rw [dif_pos ⟨hT, h⟩]
    refine Host.scatter_overwrite_window_in _ _ _ w (t : Int) hs (fun j a => (hd 0 j a).2) _ _ ?_ ?_
    · show ((i.val / 16 : Nat) : Int) = (t : Int) + ((i.val / 16 - t : Nat) : Int)
      omega
    · intro a ha
      fin_cases a
      · exact absurd rfl ha
      · rfl
      · rfl
  · rw [dif_neg fun h' => h h'.2]
    refine (Host.scatter_overwrite_window_out _ _ _ w (t : Int) hs (fun j a => (hd 0 j a).2) _ ?_).trans (hz _)
    show ((i.val / 16 : Nat) : Int) < (t : Int) ∨ (t : Int) + ((3 : Nat) : Int) ≤ ((i.val / 16 : Nat) : Int)
    omega

def cat14 (f : Fin 14 → (S256x32.Idx → EReal)) : S256x448.Idx → EReal :=
  concatenate S256x448 1 (List.ofFn fun t : Fin 14 => (⟨S256x32, f t⟩ : (s : Shape) × (s.Idx → EReal))) (concatenates_S256x32_S256x32_S256x32_S256x32_S256x32_S256x32_S256x32_S256x32_S256x32_S256x32_S256x32_S256x32_S256x32_S256x32_S256x448_d1)

def cat12 (f : Fin 12 → (S224x32.Idx → EReal)) : S224x384.Idx → EReal :=
  concatenate S224x384 1 (List.ofFn fun t : Fin 12 => (⟨S224x32, f t⟩ : (s : Shape) × (s.Idx → EReal))) (concatenates_S224x32_S224x32_S224x32_S224x32_S224x32_S224x32_S224x32_S224x32_S224x32_S224x32_S224x32_S224x32_S224x384_d1)

theorem cat14_lit (w : S3x16x32.Idx → EReal) :
    concatenate S256x448 1 [⟨S256x32, tblock16 w 0#32⟩, ⟨S256x32, tblock16 w 1#32⟩, ⟨S256x32, tblock16 w 2#32⟩, ⟨S256x32, tblock16 w 3#32⟩, ⟨S256x32, tblock16 w 4#32⟩, ⟨S256x32, tblock16 w 5#32⟩, ⟨S256x32, tblock16 w 6#32⟩, ⟨S256x32, tblock16 w 7#32⟩, ⟨S256x32, tblock16 w 8#32⟩, ⟨S256x32, tblock16 w 9#32⟩, ⟨S256x32, tblock16 w 10#32⟩, ⟨S256x32, tblock16 w 11#32⟩, ⟨S256x32, tblock16 w 12#32⟩, ⟨S256x32, tblock16 w 13#32⟩] concatenates_S256x32_S256x32_S256x32_S256x32_S256x32_S256x32_S256x32_S256x32_S256x32_S256x32_S256x32_S256x32_S256x32_S256x32_S256x448_d1
      = cat14 fun t => tblock16 w (BitVec.ofNat 32 t.val) := rfl

theorem cat12_lit (w : S3x16x32.Idx → EReal) :
    concatenate S224x384 1 [⟨S224x32, tblock14 w 0#32⟩, ⟨S224x32, tblock14 w 1#32⟩, ⟨S224x32, tblock14 w 2#32⟩, ⟨S224x32, tblock14 w 3#32⟩, ⟨S224x32, tblock14 w 4#32⟩, ⟨S224x32, tblock14 w 5#32⟩, ⟨S224x32, tblock14 w 6#32⟩, ⟨S224x32, tblock14 w 7#32⟩, ⟨S224x32, tblock14 w 8#32⟩, ⟨S224x32, tblock14 w 9#32⟩, ⟨S224x32, tblock14 w 10#32⟩, ⟨S224x32, tblock14 w 11#32⟩] concatenates_S224x32_S224x32_S224x32_S224x32_S224x32_S224x32_S224x32_S224x32_S224x32_S224x32_S224x32_S224x32_S224x384_d1
      = cat12 fun t => tblock14 w (BitVec.ofNat 32 t.val) := rfl

theorem cat14_congr (e0 e1 e2 e3 e4 e5 e6 e7 e8 e9 e10 e11 e12 e13 e0' e1' e2' e3' e4' e5' e6' e7' e8' e9' e10' e11' e12' e13' : S256x32.Idx → EReal) (h : e0 = e0' ∧ e1 = e1' ∧ e2 = e2' ∧ e3 = e3' ∧ e4 = e4' ∧ e5 = e5' ∧ e6 = e6' ∧ e7 = e7' ∧ e8 = e8' ∧ e9 = e9' ∧ e10 = e10' ∧ e11 = e11' ∧ e12 = e12' ∧ e13 = e13') :
    concatenate S256x448 1 [⟨S256x32, e0⟩, ⟨S256x32, e1⟩, ⟨S256x32, e2⟩, ⟨S256x32, e3⟩, ⟨S256x32, e4⟩, ⟨S256x32, e5⟩, ⟨S256x32, e6⟩, ⟨S256x32, e7⟩, ⟨S256x32, e8⟩, ⟨S256x32, e9⟩, ⟨S256x32, e10⟩, ⟨S256x32, e11⟩, ⟨S256x32, e12⟩, ⟨S256x32, e13⟩] concatenates_S256x32_S256x32_S256x32_S256x32_S256x32_S256x32_S256x32_S256x32_S256x32_S256x32_S256x32_S256x32_S256x32_S256x32_S256x448_d1
      = concatenate S256x448 1 [⟨S256x32, e0'⟩, ⟨S256x32, e1'⟩, ⟨S256x32, e2'⟩, ⟨S256x32, e3'⟩, ⟨S256x32, e4'⟩, ⟨S256x32, e5'⟩, ⟨S256x32, e6'⟩, ⟨S256x32, e7'⟩, ⟨S256x32, e8'⟩, ⟨S256x32, e9'⟩, ⟨S256x32, e10'⟩, ⟨S256x32, e11'⟩, ⟨S256x32, e12'⟩, ⟨S256x32, e13'⟩] concatenates_S256x32_S256x32_S256x32_S256x32_S256x32_S256x32_S256x32_S256x32_S256x32_S256x32_S256x32_S256x32_S256x32_S256x32_S256x448_d1 := by
  obtain ⟨rfl, rfl, rfl, rfl, rfl, rfl, rfl, rfl, rfl, rfl, rfl, rfl, rfl, rfl⟩ := h
  rfl

theorem cat12_congr (e0 e1 e2 e3 e4 e5 e6 e7 e8 e9 e10 e11 e0' e1' e2' e3' e4' e5' e6' e7' e8' e9' e10' e11' : S224x32.Idx → EReal) (h : e0 = e0' ∧ e1 = e1' ∧ e2 = e2' ∧ e3 = e3' ∧ e4 = e4' ∧ e5 = e5' ∧ e6 = e6' ∧ e7 = e7' ∧ e8 = e8' ∧ e9 = e9' ∧ e10 = e10' ∧ e11 = e11') :
    concatenate S224x384 1 [⟨S224x32, e0⟩, ⟨S224x32, e1⟩, ⟨S224x32, e2⟩, ⟨S224x32, e3⟩, ⟨S224x32, e4⟩, ⟨S224x32, e5⟩, ⟨S224x32, e6⟩, ⟨S224x32, e7⟩, ⟨S224x32, e8⟩, ⟨S224x32, e9⟩, ⟨S224x32, e10⟩, ⟨S224x32, e11⟩] concatenates_S224x32_S224x32_S224x32_S224x32_S224x32_S224x32_S224x32_S224x32_S224x32_S224x32_S224x32_S224x32_S224x384_d1
      = concatenate S224x384 1 [⟨S224x32, e0'⟩, ⟨S224x32, e1'⟩, ⟨S224x32, e2'⟩, ⟨S224x32, e3'⟩, ⟨S224x32, e4'⟩, ⟨S224x32, e5'⟩, ⟨S224x32, e6'⟩, ⟨S224x32, e7'⟩, ⟨S224x32, e8'⟩, ⟨S224x32, e9'⟩, ⟨S224x32, e10'⟩, ⟨S224x32, e11'⟩] concatenates_S224x32_S224x32_S224x32_S224x32_S224x32_S224x32_S224x32_S224x32_S224x32_S224x32_S224x32_S224x32_S224x384_d1 := by
  obtain ⟨rfl, rfl, rfl, rfl, rfl, rfl, rfl, rfl, rfl, rfl, rfl, rfl⟩ := h
  rfl

def tap (ρ : Nat) (h : S3x3x16x32.Slices ![ρ, 0, 0, 0] S1x3x16x32) (x : S3x3x16x32.Idx → EReal) : S3x16x32.Idx → EReal :=
  shapeCast S3x16x32 (extractStridedSlice S1x3x16x32 ![ρ, 0, 0, 0] x h) shapeCasts_S1x3x16x32_S3x16x32

theorem tap_apply (ρ : Nat) (hρ : ρ < 3) (h : S3x3x16x32.Slices ![ρ, 0, 0, 0] S1x3x16x32) (x : S3x3x16x32.Idx → EReal)
    (k : Fin 3) (ch : Fin 16) (c : Fin 32) : tap ρ h x (ix3 k ch c) = x (ix4 ⟨ρ, hρ⟩ k ch c) :=
  (shapeCast_1abc_abc_apply _ _ k ch c).trans (extractStridedSlice_apply _ x h _ _ fun a => by
    fin_cases a
    · rfl
    all_goals exact (Nat.zero_add _).symm)

-- N equal pieces of width K side by side: column r is column r % K of piece r / K
theorem catcols_apply {R K C N : Nat} (f : Fin N → ((⟨2, ![R, K]⟩ : Shape).Idx → EReal))
    (h : _) (hK : 0 < K) (i : Fin R) (r : Fin C) (hn : r.val / K < N) :
    concatenate ⟨2, ![R, C]⟩ 1 (List.ofFn fun n : Fin N => (⟨⟨2, ![R, K]⟩, f n⟩ : (s : Shape) × (s.Idx → EReal))) h (ix2 i r)
      = f ⟨r.val / K, hn⟩ (ix2 i ⟨r.val % K, Nat.mod_lt _ hK⟩) := by
  refine concatenate_ofFn_apply (t := ⟨2, ![R, C]⟩) (s₁ := ⟨2, ![R, K]⟩) (1 : Fin 2) f h rfl K rfl (ix2 i r) ⟨r.val / K, hn⟩ rfl (ix2 i ⟨r.val % K, Nat.mod_lt _ hK⟩) rfl fun b hb => ?_
  fin_cases b
  · rfl
  · exact absurd rfl hb

theorem cat3_512_apply (u0 u1 u2 : S256x512.Idx → EReal) (i : Fin 256) (r : Fin 1536) :
    concatenate S256x1536 1 [⟨S256x512, u0⟩, ⟨S256x512, u1⟩, ⟨S256x512, u2⟩] concatenates_S256x512_S256x512_S256x512_S256x1536_d1 (ix2 i r)
      = (![u0, u1, u2] : Fin 3 → (S256x512.Idx → EReal)) ⟨r.val / 512, by omega⟩ (ix2 i ⟨r.val % 512, Nat.mod_lt _ (by decide)⟩) :=
  catcols_apply ![u0, u1, u2] _ (by decide) i r _

theorem cat3_384_apply (u0 u1 u2 : S224x384.Idx → EReal) (q : Fin 224) (r : Fin 1152) :
    concatenate S224x1152 1 [⟨S224x384, u0⟩, ⟨S224x384, u1⟩, ⟨S224x384, u2⟩] concatenates_S224x384_S224x384_S224x384_S224x1152_d1 (ix2 q r)
      = (![u0, u1, u2] : Fin 3 → (S224x384.Idx → EReal)) ⟨r.val / 384, by omega⟩ (ix2 q ⟨r.val % 384, Nat.mod_lt _ (by decide)⟩) :=
  catcols_apply ![u0, u1, u2] _ (by decide) q r _

def role1 (w : S3x16x32.Idx → EReal) (z : S_.Idx → EReal) : S256x512.Idx → EReal :=
  pad S256x512 ![0, 0] ![0, 64] ![0, 0] (cat14 fun t => tblock16 w (BitVec.ofNat 32 t.val)) z pads_S256x448_S256x512_000_0640 h_S_
def role2 (w : S3x16x32.Idx → EReal) (z : S_.Idx → EReal) : S224x384.Idx → EReal :=
  pad S224x384 ![0, 0] ![0, 0] ![0, 0] (cat12 fun t => tblock14 w (BitVec.ofNat 32 t.val)) z pads_S224x384_S224x384_000_000 h_S_

theorem role1_apply (w : S3x16x32.Idx → EReal) (z : S_.Idx → EReal) (hz : z ix0 = 0) (i : Fin 256) (r : Fin 512) :
    role1 w z (ix2 i r) =
      if h : r.val / 32 < 14 ∧ r.val / 32 ≤ i.val / 16 ∧ i.val / 16 < r.val / 32 + 3 then
        w (ix3 ⟨i.val / 16 - r.val / 32, by omega⟩ ⟨i.val % 16, Nat.mod_lt _ (by decide)⟩ ⟨r.val % 32, Nat.mod_lt _ (by decide)⟩)
      else 0 := by
  unfold role1
  by_cases hr : r.val < 448
  · refine (pad_apply_of_inside _ _ _ _ z _ h_S_ (ix2 i r) (ix2 i ⟨r.val, hr⟩) fun a => ?_).trans
      ((catcols_apply _ _ (by decide) i ⟨r.val, hr⟩ (by show r.val / 32 < 14; omega)).trans
        (tblock_apply (m := 16) (R := 256) rfl _ (fun k j a => by fin_cases a <;> exact ⟨rfl, rfl⟩) _ (fun _ => Ideal.ofBits_zero_f32) _ w (r.val / 32) 14 (by omega) (by omega)
          (by decide) i ⟨r.val % 32, Nat.mod_lt _ (by decide)⟩))
    fin_cases a
    · show i.val = 0 + i.val * (0 + 1); omega
    · show r.val = 0 + r.val * (0 + 1); omega
  · rw [dif_neg fun h' => hr (by omega)]
    refine (pad_apply_of_not_inside _ _ _ _ z _ h_S_ (ix2 i r) 1 fun h' => hr ?_).trans ((congrArg z (eq_ix0 _)).trans hz)
    have := h'.2.2
    change (r.val - 0) / 1 < 448 at this
    omega

theorem role2_apply (w : S3x16x32.Idx → EReal) (z : S_.Idx → EReal) (q : Fin 224) (r : Fin 384) :
    role2 w z (ix2 q r) =
      if h : r.val / 32 < 12 ∧ r.val / 32 ≤ q.val / 16 ∧ q.val / 16 < r.val / 32 + 3 then
        w (ix3 ⟨q.val / 16 - r.val / 32, by omega⟩ ⟨q.val % 16, Nat.mod_lt _ (by decide)⟩ ⟨r.val % 32, Nat.mod_lt _ (by decide)⟩)
      else 0 := by
  unfold role2
  have hr := r.isLt
  refine (pad_apply_of_inside _ _ _ _ z _ h_S_ (ix2 q r) (ix2 q r) fun a => ?_).trans
    ((catcols_apply _ _ (by decide) q r (by show r.val / 32 < 12; omega)).trans
      (tblock_apply (m := 14) (R := 224) rfl _ (fun k j a => by fin_cases a <;> exact ⟨rfl, rfl⟩) _ (fun _ => Ideal.ofBits_zero_f32) _ w (r.val / 32) 12 (by omega) (by omega)
        (by decide) q ⟨r.val % 32, Nat.mod_lt _ (by decide)⟩))
  fin_cases a
  · show q.val = 0 + q.val * (0 + 1); omega
  · show r.val = 0 + r.val * (0 + 1); omega

theorem band1_of_roles (x : Cert.Spec.Arr ⟨4, ![3, 3, 16, 32]⟩) (u : Fin 3 → (S256x512.Idx → EReal))
    (hu : ∀ (ρ : Fin 3) (i : Fin 256) (r' : Fin 512), u ρ (ix2 i r') =
        if h : r'.val / 32 < 14 ∧ r'.val / 32 ≤ i.val / 16 ∧ i.val / 16 < r'.val / 32 + 3 then
          x (ix4 ρ ⟨i.val / 16 - r'.val / 32, by omega⟩ ⟨i.val % 16, Nat.mod_lt _ (by decide)⟩ ⟨r'.val % 32, Nat.mod_lt _ (by decide)⟩)
        else 0)
    (i : Fin 256) (r : Fin 1536) :
    u ⟨r.val / 512, by omega⟩ (ix2 i ⟨r.val % 512, Nat.mod_lt _ (by decide)⟩) = Cert.Spec.band x 14 512 i.val r.val := by
  rw [hu]
  unfold Cert.Spec.band
  split
  · next h => rw [dif_pos ⟨by omega, h⟩]
  · next h => rw [dif_neg fun h' => h h'.2]

theorem band2_of_roles (x : Cert.Spec.Arr ⟨4, ![3, 3, 16, 32]⟩) (u : Fin 3 → (S224x384.Idx → EReal))
    (hu : ∀ (ρ : Fin 3) (q : Fin 224) (r' : Fin 384), u ρ (ix2 q r') =
        if h : r'.val / 32 < 12 ∧ r'.val / 32 ≤ q.val / 16 ∧ q.val / 16 < r'.val / 32 + 3 then
          x (ix4 ρ ⟨q.val / 16 - r'.val / 32, by omega⟩ ⟨q.val % 16, Nat.mod_lt _ (by decide)⟩ ⟨r'.val % 32, Nat.mod_lt _ (by decide)⟩)
        else 0)
    (q : Fin 224) (r : Fin 1152) :
    u ⟨r.val / 384, by omega⟩ (ix2 q ⟨r.val % 384, Nat.mod_lt _ (by decide)⟩) = Cert.Spec.band x 12 384 q.val r.val := by
  rw [hu]
  unfold Cert.Spec.band
  split
  · next h => rw [dif_pos ⟨by omega, h⟩]
  · next h => rw [dif_neg fun h' => h h'.2]

end Cert.ReferenceIdeal.Val

end
-- ==== Proof.RBand1.lean ====
import proofs.«181364_g2000406351686535_pallasbulk_564_19_alg».proof.Proof.RBand

set_option maxRecDepth 8000

noncomputable section

namespace Cert.ReferenceIdeal.Val

open Idealize.ShloMosaic Idealize.ShloMosaic.TcCoe Idealize.ShloMosaic.ValueIdx
open Cert.ReferenceIdeal Cert.ReferenceIdeal.Gen

variable (V : Valuation τ sig (Elt Ideal))

set_option maxHeartbeats 4000000 in
/-- Each role's stretch lays its fourteen blocks of scattered taps side by side, whatever the buffers held before. -/
theorem roleCat :
    ((StableHlo.after hostOps0 V (Proc.devRef .tc main_v60) : S256x448.Idx → EReal)
      = cat14 fun t => tblock16 (tap 0 slices_S3x3x16x32_S1x3x16x32_0_0_0_0 (V (Proc.devRef .tc main_arg0))) (BitVec.ofNat 32 t.val)) ∧
    ((StableHlo.after hostOps0_4 V (Proc.devRef .tc main_v126) : S256x448.Idx → EReal)
      = cat14 fun t => tblock16 (tap 1 slices_S3x3x16x32_S1x3x16x32_1_0_0_0 (V (Proc.devRef .tc main_arg0))) (BitVec.ofNat 32 t.val)) ∧
    ((StableHlo.after hostOps0_8 V (Proc.devRef .tc main_v192) : S256x448.Idx → EReal)
      = cat14 fun t => tblock16 (tap 2 slices_S3x3x16x32_S1x3x16x32_2_0_0_0 (V (Proc.devRef .tc main_arg0))) (BitVec.ofNat 32 t.val)) := by
  refine ⟨?_, ?_, ?_⟩ <;>
  · refine Eq.trans ?_ (cat14_lit _)
    dsimp only [hostOps0, hostOps0_4, hostOps0_8]
    simp (disch := decide) only [Idealize.ShloMosaic.StableHlo.after_cons, Idealize.ShloMosaic.StableHlo.after_nil, ↓Idealize.ShloMosaic.StableHlo.nary_result', ↓Idealize.ShloMosaic.StableHlo.nullary_result_ne', ↓Idealize.ShloMosaic.StableHlo.unary_result_ne', ↓Idealize.ShloMosaic.StableHlo.reshape_result_ne']
    dsimp only [Matrix.cons_val]
    refine cat14_congr _ _ _ _ _ _ _ _ _ _ _ _ _ _ _ _ _ _ _ _ _ _ _ _ _ _ _ _ ?_
    read_after
    exact ⟨rfl, rfl, rfl, rfl, rfl, rfl, rfl, rfl, rfl, rfl, rfl, rfl, rfl, rfl⟩

theorem rolePadc :
    ((StableHlo.after hostOps0 V (Proc.devRef .tc main_c_26) : IVec S_ 32) = constantI S_ 32 0#32) ∧
    ((StableHlo.after hostOps0_4 V (Proc.devRef .tc main_c_56) : IVec S_ 32) = constantI S_ 32 0#32) ∧
    ((StableHlo.after hostOps0_8 V (Proc.devRef .tc main_c_86) : IVec S_ 32) = constantI S_ 32 0#32) := by
  refine ⟨?_, ?_, ?_⟩ <;>
  · dsimp only [hostOps0, hostOps0_4, hostOps0_8]
    read_after

theorem rolePad :
    ((StableHlo.after hostOps0_1 V (Proc.devRef .tc main_v64) : S256x512.Idx → EReal)
      = pad S256x512 ![0, 0] ![0, 64] ![0, 0] (V (Proc.devRef .tc main_v60) : S256x448.Idx → EReal)
          (sitofp (F := Ideal) .f32 (V (Proc.devRef .tc main_c_26) : IVec S_ 32)) pads_S256x448_S256x512_000_0640 h_S_) ∧
    ((StableHlo.after hostOps0_5 V (Proc.devRef .tc main_v130) : S256x512.Idx → EReal)
      = pad S256x512 ![0, 0] ![0, 64] ![0, 0] (V (Proc.devRef .tc main_v126) : S256x448.Idx → EReal)
          (sitofp (F := Ideal) .f32 (V (Proc.devRef .tc main_c_56) : IVec S_ 32)) pads_S256x448_S256x512_000_0640 h_S_) ∧
    ((StableHlo.after hostOps0_9 V (Proc.devRef .tc main_v196) : S256x512.Idx → EReal)
      = pad S256x512 ![0, 0] ![0, 64] ![0, 0] (V (Proc.devRef .tc main_v192) : S256x448.Idx → EReal)
          (sitofp (F := Ideal) .f32 (V (Proc.devRef .tc main_c_86) : IVec S_ 32)) pads_S256x448_S256x512_000_0640 h_S_) := by
  refine ⟨?_, ?_, ?_⟩ <;>
  · dsimp only [hostOps0_1, hostOps0_5, hostOps0_9]
    read_after <;> (try simp only [StableHlo.TRef.ofBuf, StableHlo.TRef.toBuf, cast_eq]) <;> rfl

/-- A role's matrix after its two stretches: the blocks, then 64 columns of the padding value. -/
theorem role1_all :
    ((StableHlo.after hostOps0_1 (StableHlo.after hostOps0 V) (Proc.devRef .tc main_v64) : S256x512.Idx → EReal)
      = role1 (tap 0 slices_S3x3x16x32_S1x3x16x32_0_0_0_0 (V (Proc.devRef .tc main_arg0))) (sitofp (F := Ideal) .f32 (constantI S_ 32 0#32))) ∧
    ((StableHlo.after hostOps0_5 (StableHlo.after hostOps0_4 V) (Proc.devRef .tc main_v130) : S256x512.Idx → EReal)
      = role1 (tap 1 slices_S3x3x16x32_S1x3x16x32_1_0_0_0 (V (Proc.devRef .tc main_arg0))) (sitofp (F := Ideal) .f32 (constantI S_ 32 0#32))) ∧
    ((StableHlo.after hostOps0_9 (StableHlo.after hostOps0_8 V) (Proc.devRef .tc main_v196) : S256x512.Idx → EReal)
      = role1 (tap 2 slices_S3x3x16x32_S1x3x16x32_2_0_0_0 (V (Proc.devRef .tc main_arg0))) (sitofp (F := Ideal) .f32 (constantI S_ 32 0#32))) := by
  refine ⟨?_, ?_, ?_⟩
  · rw [(rolePad _).1, (roleCat V).1, (rolePadc V).1]; rfl
  · rw [(rolePad _).2.1, (roleCat V).2.1, (rolePadc V).2.1]; rfl
  · rw [(rolePad _).2.2, (roleCat V).2.2, (rolePadc V).2.2]; rfl

theorem w1cat :
    (StableHlo.after hostOps0_12 V (Proc.devRef .tc main_v198) : S256x1536.Idx → EReal)
      = concatenate S256x1536 1 [⟨S256x512, (V (Proc.devRef .tc main_v64) : S256x512.Idx → EReal)⟩,
          ⟨S256x512, (V (Proc.devRef .tc main_v130) : S256x512.Idx → EReal)⟩, ⟨S256x512, (V (Proc.devRef .tc main_v196) : S256x512.Idx → EReal)⟩]
          concatenates_S256x512_S256x512_S256x512_S256x1536_d1 := by
  dsimp only [hostOps0_12]
  simp (disch := decide) only [Idealize.ShloMosaic.StableHlo.after_cons, Idealize.ShloMosaic.StableHlo.after_nil, ↓Idealize.ShloMosaic.StableHlo.nary_result', ↓Idealize.ShloMosaic.StableHlo.nary_result_ne', ↓Idealize.ShloMosaic.StableHlo.nullary_result_ne', ↓Idealize.ShloMosaic.StableHlo.unary_result_ne', ↓Idealize.ShloMosaic.StableHlo.reshape_result_ne', ↓Idealize.ShloMosaic.StableHlo.ternary_result_ne']
  dsimp only [Matrix.cons_val]

end Cert.ReferenceIdeal.Val

end
-- ==== Proof.RWeightsA.lean ====
import proofs.«181364_g2000406351686535_pallasbulk_564_19_alg».proof.Proof.RWeights
import proofs.«181364_g2000406351686535_pallasbulk_564_19_alg».proof.Proof.RBand1

set_option maxRecDepth 8000

noncomputable section

namespace Cert.ReferenceIdeal.Val

open Idealize.ShloMosaic Idealize.ShloMosaic.TcCoe Idealize.ShloMosaic.ValueIdx
open Cert.ReferenceIdeal Cert.ReferenceIdeal.Gen

variable (m : (ℓ : Loc nD τ sig) → Buf (Elt Ideal) ℓ) (c : Dev nD)

set_option maxHeartbeats 4000000 in
theorem keep_v198 : U31 m c main_v198 = U13 m c main_v198 := by
  unfold U31 U30 U29 U28 U27 U26 U25 U24 U23 U22 U21 U20 U19 U18 U17 U16 U15 U14; generalize U13 m c = V; read_after
set_option maxHeartbeats 4000000 in
theorem keep_v64 : U12 m c main_v64 = U2 m c main_v64 := by
  unfold U12 U11 U10 U9 U8 U7 U6 U5 U4 U3; generalize U2 m c = V; read_after
set_option maxHeartbeats 4000000 in
theorem keep_v130 : U12 m c main_v130 = U6 m c main_v130 := by
  unfold U12 U11 U10 U9 U8 U7; generalize U6 m c = V; read_after
theorem keep_v196 : U12 m c main_v196 = U10 m c main_v196 := by
  unfold U12 U11; generalize U10 m c = V; read_after

abbrev zfA : S_.Idx → EReal := sitofp (F := Ideal) .f32 (constantI S_ 32 0#32)

theorem zfA_apply : zfA ix0 = 0 := by
  show (((0#32 : BitVec 32).toInt : ℝ) : EReal) = 0
  simp

theorem U2_v64 : (U2 m c main_v64 : S256x512.Idx → EReal)
    = role1 (tap 0 slices_S3x3x16x32_S1x3x16x32_0_0_0_0 (U0 m c main_arg0)) zfA := (role1_all (U0 m c)).1

theorem U6_v130 : (U6 m c main_v130 : S256x512.Idx → EReal)
    = role1 (tap 1 slices_S3x3x16x32_S1x3x16x32_1_0_0_0 (U0 m c main_arg0)) zfA := by
  have h := (role1_all (U4 m c)).2.1
  rw [U4_arg m c main_arg0 (by decide)] at h
  exact h

theorem U10_v196 : (U10 m c main_v196 : S256x512.Idx → EReal)
    = role1 (tap 2 slices_S3x3x16x32_S1x3x16x32_2_0_0_0 (U0 m c main_arg0)) zfA := by
  have h := (role1_all (U8 m c)).2.2
  rw [U8_arg m c main_arg0 (by decide)] at h
  exact h

theorem role1_tap (ρ : Fin 3) (hs : S3x3x16x32.Slices ![ρ.val, 0, 0, 0] S1x3x16x32) (x : S3x3x16x32.Idx → EReal)
    (i : Fin 256) (r : Fin 512) :
    role1 (tap ρ.val hs x) zfA (ix2 i r) =
      if h : r.val / 32 < 14 ∧ r.val / 32 ≤ i.val / 16 ∧ i.val / 16 < r.val / 32 + 3 then
        x (ix4 ρ ⟨i.val / 16 - r.val / 32, by omega⟩ ⟨i.val % 16, Nat.mod_lt _ (by decide)⟩ ⟨r.val % 32, Nat.mod_lt _ (by decide)⟩)
      else 0 := by
  rw [role1_apply _ _ zfA_apply]
  by_cases h : r.val / 32 < 14 ∧ r.val / 32 ≤ i.val / 16 ∧ i.val / 16 < r.val / 32 + 3
  · rw [dif_pos h, dif_pos h]
    exact tap_apply ρ.val ρ.isLt hs x _ _ _
  · rw [dif_neg h, dif_neg h]

theorem w1_term : (U31 m c main_v198 : S256x1536.Idx → EReal)
    = concatenate S256x1536 1 [⟨S256x512, (U12 m c main_v64 : S256x512.Idx → EReal)⟩,
        ⟨S256x512, (U12 m c main_v130 : S256x512.Idx → EReal)⟩, ⟨S256x512, (U12 m c main_v196 : S256x512.Idx → EReal)⟩]
        concatenates_S256x512_S256x512_S256x512_S256x1536_d1 :=
  (keep_v198 m c).trans (w1cat (U12 m c))

theorem w1_eq (i : Fin 256) (r : Fin 1536) :
    U31 m c main_v198 (ix2 i r) = Cert.Spec.W1 (argsR m c) i.val r.val := by
  refine (congrFun (w1_term m c) (ix2 i r)).trans ?_
  rw [cat3_512_apply]
  refine band1_of_roles (argsR m c).t1w _ (fun ρ i' r' => ?_) i r
  fin_cases ρ
  · show (U12 m c main_v64 : S256x512.Idx → EReal) (ix2 i' r') = _
    rw [keep_v64, U2_v64]
    exact role1_tap (0 : Fin 3) slices_S3x3x16x32_S1x3x16x32_0_0_0_0 _ i' r'
  · show (U12 m c main_v130 : S256x512.Idx → EReal) (ix2 i' r') = _
    rw [keep_v130, U6_v130]
    exact role1_tap (1 : Fin 3) slices_S3x3x16x32_S1x3x16x32_1_0_0_0 _ i' r'
  · show (U12 m c main_v196 : S256x512.Idx → EReal) (ix2 i' r') = _
    rw [keep_v196, U10_v196]
    exact role1_tap (2 : Fin 3) slices_S3x3x16x32_S1x3x16x32_2_0_0_0 _ i' r'

end Cert.ReferenceIdeal.Val

end
-- ==== Proof.RWeightsB.lean ====
import proofs.«181364_g2000406351686535_pallasbulk_564_19_alg».proof.Proof.RWeights
import proofs.«181364_g2000406351686535_pallasbulk_564_19_alg».proof.Proof.RBand

set_option maxRecDepth 8000

noncomputable section

namespace Cert.ReferenceIdeal.Val

open Idealize.ShloMosaic Idealize.ShloMosaic.TcCoe Idealize.ShloMosaic.ValueIdx
open Cert.ReferenceIdeal Cert.ReferenceIdeal.Gen

abbrev padW2 (x : S224x384.Idx → EReal) (z : IVec S_ 32) : S224x384.Idx → EReal :=
  pad S224x384 ![0, 0] ![0, 0] ![0, 0] x (sitofp (F := Ideal) .f32 z) pads_S224x384_S224x384_000_000 h_S_

abbrev cat3W2 (u0 u1 u2 : S224x384.Idx → EReal) : S224x1152.Idx → EReal :=
  concatenate S224x1152 1 [⟨S224x384, u0⟩, ⟨S224x384, u1⟩, ⟨S224x384, u2⟩] concatenates_S224x384_S224x384_S224x384_S224x1152_d1

section Stretches
variable (V : Valuation τ sig (Elt Ideal))

set_option maxHeartbeats 4000000 in
theorem s_taps :
    ((StableHlo.after hostOps0_12 V main_v253 : S224x384.Idx → EReal)
      = cat12 fun t => tblock14 (tap 0 slices_S3x3x16x32_S1x3x16x32_0_0_0_0 (V main_arg3)) (BitVec.ofNat 32 t.val)) ∧
    ((StableHlo.after hostOps0_16 V main_v311 : S224x384.Idx → EReal)
      = cat12 fun t => tblock14 (tap 1 slices_S3x3x16x32_S1x3x16x32_1_0_0_0 (V main_arg3)) (BitVec.ofNat 32 t.val)) ∧
    ((StableHlo.after hostOps0_20 V main_v369 : S224x384.Idx → EReal)
      = cat12 fun t => tblock14 (tap 2 slices_S3x3x16x32_S1x3x16x32_2_0_0_0 (V main_arg3)) (BitVec.ofNat 32 t.val)) := by
  refine ⟨?_, ?_, ?_⟩
  all_goals
    refine Eq.trans ?_ (cat12_lit _)
    dsimp only [hostOps0_12, hostOps0_16, hostOps0_20]
    simp (disch := decide) only [StableHlo.after_cons, StableHlo.after_nil, ↓StableHlo.nary_result', ↓StableHlo.nullary_result_ne',
      ↓StableHlo.unary_result_ne', ↓StableHlo.reshape_result_ne']
    dsimp only [Matrix.cons_val]
    refine cat12_congr _ _ _ _ _ _ _ _ _ _ _ _ _ _ _ _ _ _ _ _ _ _ _ _ ?_
    read_after
    exact ⟨rfl, rfl, rfl, rfl, rfl, rfl, rfl, rfl, rfl, rfl, rfl, rfl⟩

set_option maxHeartbeats 4000000 in
theorem s_zero : (StableHlo.after hostOps0_12 V main_c_112 : IVec S_ 32) = constantI S_ 32 0#32 ∧
    (StableHlo.after hostOps0_16 V main_c_138 : IVec S_ 32) = constantI S_ 32 0#32 ∧
    (StableHlo.after hostOps0_20 V main_c_164 : IVec S_ 32) = constantI S_ 32 0#32 := by
  refine ⟨?_, ?_, ?_⟩ <;> after_results_simp <;> rfl

theorem s13_v257 : (StableHlo.after hostOps0_13 V main_v257 : S224x384.Idx → EReal) = padW2 (V main_v253) (V main_c_112) := by
  after_results <;> rfl
theorem s17_v315 : (StableHlo.after hostOps0_17 V main_v315 : S224x384.Idx → EReal) = padW2 (V main_v311) (V main_c_138) := by
  after_results <;> rfl
theorem s21_v373 : (StableHlo.after hostOps0_21 V main_v373 : S224x384.Idx → EReal) = padW2 (V main_v369) (V main_c_164) := by
  after_results <;> rfl

end Stretches

variable (m : (ℓ : Loc nD τ sig) → Buf (Elt Ideal) ℓ) (c : Dev nD)

set_option maxHeartbeats 4000000 in
theorem keep_v257 : U22 m c main_v257 = U14 m c main_v257 := by
  unfold U22 U21 U20 U19 U18 U17 U16 U15; generalize U14 m c = V; after_results_simp
set_option maxHeartbeats 4000000 in
theorem keep_v315 : U22 m c main_v315 = U18 m c main_v315 := by
  unfold U22 U21 U20 U19; generalize U18 m c = V; after_results_simp

theorem U31_v375 : (U31 m c main_v375 : S224x1152.Idx → EReal) = cat3W2 (U22 m c main_v257) (U22 m c main_v315) (U22 m c main_v373) := by
  unfold U31 U30 U29 U28 U27 U26 U25 U24 U23; generalize U22 m c = V; after_results_simp <;> rfl

abbrev zf : S_.Idx → EReal := sitofp (F := Ideal) .f32 z0

theorem U14_v257 : (U14 m c main_v257 : S224x384.Idx → EReal)
    = role2 (tap 0 slices_S3x3x16x32_S1x3x16x32_0_0_0_0 (U0 m c main_arg3)) zf := by
  rw [← U12_arg m c main_arg3 (by decide)]
  exact (s13_v257 (U13 m c)).trans (congrArg₂ padW2 (s_taps (U12 m c)).1 (s_zero (U12 m c)).1)

theorem U18_v315 : (U18 m c main_v315 : S224x384.Idx → EReal)
    = role2 (tap 1 slices_S3x3x16x32_S1x3x16x32_1_0_0_0 (U0 m c main_arg3)) zf := by
  rw [← U16_arg m c main_arg3 (by decide)]
  exact (s17_v315 (U17 m c)).trans (congrArg₂ padW2 (s_taps (U16 m c)).2.1 (s_zero (U16 m c)).2.1)

theorem U22_v373 : (U22 m c main_v373 : S224x384.Idx → EReal)
    = role2 (tap 2 slices_S3x3x16x32_S1x3x16x32_2_0_0_0 (U0 m c main_arg3)) zf := by
  rw [← U20_arg m c main_arg3 (by decide)]
  exact (s21_v373 (U21 m c)).trans (congrArg₂ padW2 (s_taps (U20 m c)).2.2 (s_zero (U20 m c)).2.2)

theorem role2_tap (ρ : Nat) (hρ : ρ < 3) (hs : S3x3x16x32.Slices ![ρ, 0, 0, 0] S1x3x16x32) (x : S3x3x16x32.Idx → EReal)
    (z : S_.Idx → EReal) (q : Fin 224) (r' : Fin 384) :
    role2 (tap ρ hs x) z (ix2 q r') =
      if h : r'.val / 32 < 12 ∧ r'.val / 32 ≤ q.val / 16 ∧ q.val / 16 < r'.val / 32 + 3 then
        x (ix4 ⟨ρ, hρ⟩ ⟨q.val / 16 - r'.val / 32, by omega⟩ ⟨q.val % 16, Nat.mod_lt _ (by decide)⟩ ⟨r'.val % 32, Nat.mod_lt _ (by decide)⟩)
      else 0 := by
  rw [role2_apply]
  exact dite_congr rfl (fun h => by rw [tap_apply ρ hρ]) fun _ => rfl

theorem w2_eq (q : Fin 224) (r : Fin 1152) : U31 m c main_v375 (ix2 q r) = Cert.Spec.W2 (argsR m c) q.val r.val := by
  rw [U31_v375 m c, keep_v257 m c, U14_v257 m c, keep_v315 m c, U18_v315 m c, U22_v373 m c]
  refine (cat3_384_apply _ _ _ q r).trans ?_
  refine band2_of_roles (argsR m c).t2w _ ?_ q r
  intro ρ q' r'
  fin_cases ρ <;> exact role2_tap _ (by decide) _ _ _ q' r'

end Cert.ReferenceIdeal.Val

end
-- ==== Proof.RResult.lean ====
import proofs.«181364_g2000406351686535_pallasbulk_564_19_alg».proof.Proof.RRegion0
import proofs.«181364_g2000406351686535_pallasbulk_564_19_alg».proof.Proof.RWeights
import proofs.«181364_g2000406351686535_pallasbulk_564_19_alg».proof.Proof.RTail
import proofs.«181364_g2000406351686535_pallasbulk_564_19_alg».proof.Proof.RWeightsA
import proofs.«181364_g2000406351686535_pallasbulk_564_19_alg».proof.Proof.RWeightsB

noncomputable section

namespace Cert.ReferenceIdeal.Val

open Idealize.ShloMosaic Idealize.ShloMosaic.TcCoe Idealize.ShloMosaic.ValueIdx Idealize.ShloMosaic.Pipeline
open Cert.ReferenceIdeal Cert.ReferenceIdeal.Gen Cert.ReferenceIdeal.Run

variable (m : (ℓ : Loc nD τ sig) → Buf (Elt Ideal) ℓ) (c : Dev nD)

theorem entry_X (b : Fin 256) (n : Fin 128) (i : Fin 256) :
    V31 m c main_v393 (ix3 b n i) = Spec.xrow (argsR m c) b n i := X_lane_eq m c b n i
theorem entry_A (l l' : Fin 1024) :
    V31 m c main_v392 (ix2 l l') = if l.val / 128 = l'.val / 128 then (argsR m c).A (ix2 (rn l) (rn l')) else 0 :=
  A_kron_eq m c l l'
theorem entry_W1 (i : Fin 256) (r : Fin 1536) :
    V31 m c main_v198 (ix2 i r) = Spec.W1 (argsR m c) i.val r.val := w1_eq m c i r
theorem entry_B1 (r : Fin 1536) : V31 m c main_v200 (ix2 0 r) = Spec.B1 (argsR m c) r.val := b1_eq m c r
theorem entry_Th (j : Fin 512) (q : Fin 224) :
    V31 m c main_v385 (ix2 j q) = Spec.ThetaBD (argsR m c) j.val q.val := theta_bd_eq m c j q
theorem entry_W2 (q : Fin 224) (r : Fin 1152) :
    V31 m c main_v375 (ix2 q r) = Spec.W2 (argsR m c) q.val r.val := w2_eq m c q r
theorem entry_B2 (r : Fin 1152) : V31 m c main_v377 (ix2 0 r) = Spec.B2 (argsR m c) r.val := b2_eq m c r

theorem t3_out (b : Fin 256) (n : Fin 128) (u : Fin 384) :
    (dat0 (V31 m) c).arrAt 7 cfg0.N (ix3 b n u) = Spec.t3 (argsR m c) b n u.val :=
  t3_arr (V31 m) c (argsR m c) (entry_X m c) (entry_A m c) (entry_W1 m c) (entry_B1 m c) (entry_Th m c) (entry_W2 m c)
    (entry_B2 m c) b n u

theorem s1_out (b : Fin 256) (n : Fin 128) :
    (dat0 (V31 m) c).arrAt 8 cfg0.N (ix3 b n 0) = ∑ u : Fin 384, Spec.t3 (argsR m c) b n u.val :=
  s1_arr (V31 m) c (argsR m c) (entry_X m c) (entry_A m c) (entry_W1 m c) (entry_B1 m c) (entry_Th m c) (entry_W2 m c)
    (entry_B2 m c) b n

theorem s2_out (b : Fin 256) (n : Fin 128) :
    (dat0 (V31 m) c).arrAt 9 cfg0.N (ix3 b n 0)
      = ∑ u : Fin 384, Spec.t3 (argsR m c) b n u.val * Spec.t3 (argsR m c) b n u.val :=
  s2_arr (V31 m) c (argsR m c) (entry_X m c) (entry_A m c) (entry_W1 m c) (entry_B1 m c) (entry_Th m c) (entry_W2 m c)
    (entry_B2 m c) b n

-- The program's result array is the block's function of the nine argument arrays it was launched with.
theorem result_eq : Cert.ReferenceIdeal.Run.Wend m c main_v419 = Cert.Spec.out (argsR m c) :=
  result_of_arrays m c (t3_out m c) (s1_out m c) (s2_out m c)

end Cert.ReferenceIdeal.Val

end
-- ==== Proof.lean ====
import proofs.«181364_g2000406351686535_pallasbulk_564_19_alg».proof.Defs
import proofs.«181364_g2000406351686535_pallasbulk_564_19_alg».proof.Proof.Gen.Kernel
import proofs.«181364_g2000406351686535_pallasbulk_564_19_alg».proof.Proof.Gen.KernelIdeal
import proofs.«181364_g2000406351686535_pallasbulk_564_19_alg».proof.Proof.Gen.ReferenceIdeal
import proofs.«181364_g2000406351686535_pallasbulk_564_19_alg».proof.Proof.Gen.Pre_finite_inputs
import proofs.«181364_g2000406351686535_pallasbulk_564_19_alg».proof.Proof.Spec
import proofs.«181364_g2000406351686535_pallasbulk_564_19_alg».proof.Proof.BFrame
import proofs.«181364_g2000406351686535_pallasbulk_564_19_alg».proof.Proof.KFrame
import proofs.«181364_g2000406351686535_pallasbulk_564_19_alg».proof.Proof.RFrame
import proofs.«181364_g2000406351686535_pallasbulk_564_19_alg».proof.Proof.KResult
import proofs.«181364_g2000406351686535_pallasbulk_564_19_alg».proof.Proof.RResult
import Idealize.ShloMosaic.Adequacy
import Idealize.ShloMosaic.Init

noncomputable section
open Idealize.ShloMosaic Idealize.ShloMosaic.TcCoe Idealize.SL.Sem

namespace Cert.Proof

theorem mem_uc {τ : Topo} {sig : RefSig} (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

section
open Cert.Kernel Cert.Kernel.Run
/-- A memory that agrees with the run's last contents holds, at the nine arguments, what was launched. -/
theorem keptB (m mem : (ℓ : Loc nD τ sig) → Buf (Elt Bits) ℓ) (c : Dev nD)
    (h : ∀ b ∈ Pipeline.ucRefs τ sig, mem ((c : Thread nD τ).1, b) = Wend m c b) :
    mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8) :=
  ⟨(h _ (mem_uc main_arg0 (by decide))).trans (Wend_arg0 m c),
    (h _ (mem_uc main_arg1 (by decide))).trans (Wend_arg1 m c),
    (h _ (mem_uc main_arg2 (by decide))).trans (Wend_arg2 m c),
    (h _ (mem_uc main_arg3 (by decide))).trans (Wend_arg3 m c),
    (h _ (mem_uc main_arg4 (by decide))).trans (Wend_arg4 m c),
    (h _ (mem_uc main_arg5 (by decide))).trans (Wend_arg5 m c),
    (h _ (mem_uc main_arg6 (by decide))).trans (Wend_arg6 m c),
    (h _ (mem_uc main_arg7 (by decide))).trans (Wend_arg7 m c),
    (h _ (mem_uc main_arg8 (by decide))).trans (Wend_arg8 m c)⟩
end

section
open Cert.KernelIdeal Cert.KernelIdeal.Run
/-- A memory that agrees with the run's last contents holds, at the nine arguments, what was launched. -/
theorem keptK (m mem : (ℓ : Loc nD τ sig) → Buf (Elt Ideal) ℓ) (c : Dev nD)
    (h : ∀ b ∈ Pipeline.ucRefs τ sig, mem ((c : Thread nD τ).1, b) = Wend m c b) :
    mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8) :=
  ⟨(h _ (mem_uc main_arg0 (by decide))).trans (Wend_arg0 m c),
    (h _ (mem_uc main_arg1 (by decide))).trans (Wend_arg1 m c),
    (h _ (mem_uc main_arg2 (by decide))).trans (Wend_arg2 m c),
    (h _ (mem_uc main_arg3 (by decide))).trans (Wend_arg3 m c),
    (h _ (mem_uc main_arg4 (by decide))).trans (Wend_arg4 m c),
    (h _ (mem_uc main_arg5 (by decide))).trans (Wend_arg5 m c),
    (h _ (mem_uc main_arg6 (by decide))).trans (Wend_arg6 m c),
    (h _ (mem_uc main_arg7 (by decide))).trans (Wend_arg7 m c),
    (h _ (mem_uc main_arg8 (by decide))).trans (Wend_arg8 m c)⟩
end

section
open Cert.ReferenceIdeal Cert.ReferenceIdeal.Run
/-- A memory that agrees with the run's last contents holds, at the nine arguments, what was launched. -/
theorem keptR (m mem : (ℓ : Loc nD τ sig) → Buf (Elt Ideal) ℓ) (c : Dev nD)
    (h : ∀ b ∈ Pipeline.ucRefs τ sig, mem ((c : Thread nD τ).1, b) = Wend m c b) :
    mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8) :=
  ⟨(h _ (mem_uc main_arg0 (by decide))).trans (Wend_arg0 m c),
    (h _ (mem_uc main_arg1 (by decide))).trans (Wend_arg1 m c),
    (h _ (mem_uc main_arg2 (by decide))).trans (Wend_arg2 m c),
    (h _ (mem_uc main_arg3 (by decide))).trans (Wend_arg3 m c),
    (h _ (mem_uc main_arg4 (by decide))).trans (Wend_arg4 m c),
    (h _ (mem_uc main_arg5 (by decide))).trans (Wend_arg5 m c),
    (h _ (mem_uc main_arg6 (by decide))).trans (Wend_arg6 m c),
    (h _ (mem_uc main_arg7 (by decide))).trans (Wend_arg7 m c),
    (h _ (mem_uc main_arg8 (by decide))).trans (Wend_arg8 m c)⟩
end

/-- Both idealized programs end at the block's one function of the nine argument arrays, which the two launches share. -/
theorem claim : Cert.Claim :=
  ⟨Cert.Kernel.Gen.facts, Cert.KernelIdeal.Gen.facts, Cert.ReferenceIdeal.Gen.facts, Cert.Pre_finite_inputs.Gen.facts,
  fun m ρ _ => (θ_run _ _ _).mono (fun r h c => keptB m r.2.mem c (h c)) (Cert.Kernel.Run.run_all m ρ),
  fun m ρ _ => (θ_run _ _ _).mono (fun r h c => keptK m r.2.mem c (h c)) (Cert.KernelIdeal.Run.run_all m ρ),
  fun m ρ _ => (θ_run _ _ _).mono (fun r h c => keptR m r.2.mem c (h c)) (Cert.ReferenceIdeal.Run.run_all m ρ),
  trivial,
  fun m ρ m' ρ' _ hagree => ⟨fun c => Cert.Spec.out (Cert.KernelIdeal.Val.argsK m c),
    (θ_run _ _ _).mono (fun r h c => ⟨(h c _ (mem_uc Cert.KernelIdeal.main_v96 (by decide))).trans (Cert.KernelIdeal.Val.result_eq m c),
      keptK m r.2.mem c (h c)⟩) (Cert.KernelIdeal.Run.run_all m ρ),
    (θ_run _ _ _).mono (fun r h c => ⟨(h c _ (mem_uc Cert.ReferenceIdeal.main_v419 (by decide))).trans
        ((Cert.ReferenceIdeal.Val.result_eq m' c).trans (congrArg Cert.Spec.out (by
          obtain ⟨h0, h1, h2, h3, h4, h5, h6, h7, h8⟩ := hagree c
          unfold Cert.ReferenceIdeal.Val.argsR Cert.KernelIdeal.Val.argsK
          rw [h0, h1, h2, h3, h4, h5, h6, h7, h8]))),
      keptR m' r.2.mem c (h c)⟩) (Cert.ReferenceIdeal.Run.run_all m' ρ')⟩⟩

end Cert.Proof
end
